-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v316)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v316) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v473) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S500000 : Shape := ⟨1, ![500000]⟩
abbrev S3x2x16x64 : Shape := ⟨4, ![3, 2, 16, 64]⟩
abbrev S3x2x64x64 : Shape := ⟨4, ![3, 2, 64, 64]⟩
abbrev S3x2x64x16 : Shape := ⟨4, ![3, 2, 64, 16]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S3x2x16x64 : S_.BroadcastsInDim S3x2x16x64 (![] : Fin 0 → Fin S3x2x16x64.rank)
  reducesTo_S3x2x16x64_S_d0_1_2_3 : S3x2x16x64.ReducesTo [0, 1, 2, 3] S_
  bcast_S_S3x2x64x64 : S_.BroadcastsInDim S3x2x64x64 (![] : Fin 0 → Fin S3x2x64x64.rank)
  reducesTo_S3x2x64x64_S_d0_1_2_3 : S3x2x64x64.ReducesTo [0, 1, 2, 3] S_
  bcast_S_S3x2x64x16 : S_.BroadcastsInDim S3x2x64x16 (![] : Fin 0 → Fin S3x2x64x16.rank)
  reducesTo_S3x2x64x16_S_d0_1_2_3 : S3x2x64x16.ReducesTo [0, 1, 2, 3] S_

variable [Facts]

def fn_part2 {F : FTy → Type} [FloatOps F] (main_arg13 : FVec F S3x2x64x64 .f32) (main_v33 : IVec S_ 1) : IVec S_ 1 :=
  let main_v34 : FVec F S3x2x64x64 .f32 := Host.absf main_arg13
  let main_cst_12 : FVec F S_ .f32 := constant S_ .f32 0x7F800000#32
  let main_v35 : FVec F S3x2x64x64 .f32 := broadcastInDim S3x2x64x64 ![] bcast_S_S3x2x64x64 main_cst_12
  let main_v36 : IVec S3x2x64x64 1 := cmpf .olt main_v34 main_v35
  let main_c_13 : IVec S_ 1 := constantI S_ 1 1#1
  let main_v37 : IVec S_ 1 := (fun x v => Host.reduce IntOp.andi x v reducesTo_S3x2x64x64_S_d0_1_2_3 h_S_) main_v36 main_c_13
  let main_v38 : IVec S_ 1 := andi main_v33 main_v37
  main_v38

def fn_part1 {F : FTy → Type} [FloatOps F] (main_arg10 : FVec F S3x2x64x64 .f32) (main_arg11 : FVec F S3x2x64x16 .f32) (main_arg12 : FVec F S3x2x64x64 .f32) (main_arg13 : FVec F S3x2x64x64 .f32) (main_v13 : IVec S_ 1) (main_v16 : IVec S3x2x16x64 1) : IVec S_ 1 :=
  let main_c_5 : IVec S_ 1 := constantI S_ 1 1#1
  let main_v17 : IVec S_ 1 := (fun x v => Host.reduce IntOp.andi x v reducesTo_S3x2x16x64_S_d0_1_2_3 h_S_) main_v16 main_c_5
  let main_v18 : IVec S_ 1 := andi main_v13 main_v17
  let main_v19 : FVec F S3x2x64x64 .f32 := Host.absf main_arg10
  let main_cst_6 : FVec F S_ .f32 := constant S_ .f32 0x7F800000#32
  let main_v20 : FVec F S3x2x64x64 .f32 := broadcastInDim S3x2x64x64 ![] bcast_S_S3x2x64x64 main_cst_6
  let main_v21 : IVec S3x2x64x64 1 := cmpf .olt main_v19 main_v20
  let main_c_7 : IVec S_ 1 := constantI S_ 1 1#1
  let main_v22 : IVec S_ 1 := (fun x v => Host.reduce IntOp.andi x v reducesTo_S3x2x64x64_S_d0_1_2_3 h_S_) main_v21 main_c_7
  let main_v23 : IVec S_ 1 := andi main_v18 main_v22
  let main_v24 : FVec F S3x2x64x16 .f32 := Host.absf main_arg11
  let main_cst_8 : FVec F S_ .f32 := constant S_ .f32 0x7F800000#32
  let main_v25 : FVec F S3x2x64x16 .f32 := broadcastInDim S3x2x64x16 ![] bcast_S_S3x2x64x16 main_cst_8
  let main_v26 : IVec S3x2x64x16 1 := cmpf .olt main_v24 main_v25
  let main_c_9 : IVec S_ 1 := constantI S_ 1 1#1
  let main_v27 : IVec S_ 1 := (fun x v => Host.reduce IntOp.andi x v reducesTo_S3x2x64x16_S_d0_1_2_3 h_S_) main_v26 main_c_9
  let main_v28 : IVec S_ 1 := andi main_v23 main_v27
  let main_v29 : FVec F S3x2x64x64 .f32 := Host.absf main_arg12
  let main_cst_10 : FVec F S_ .f32 := constant S_ .f32 0x7F800000#32
  let main_v30 : FVec F S3x2x64x64 .f32 := broadcastInDim S3x2x64x64 ![] bcast_S_S3x2x64x64 main_cst_10
  let main_v31 : IVec S3x2x64x64 1 := cmpf .olt main_v29 main_v30
  let main_c_11 : IVec S_ 1 := constantI S_ 1 1#1
  let main_v32 : IVec S_ 1 := (fun x v => Host.reduce IntOp.andi x v reducesTo_S3x2x64x64_S_d0_1_2_3 h_S_) main_v31 main_c_11
  let main_v33 : IVec S_ 1 := andi main_v28 main_v32
  fn_part2 (F := F) main_arg13 main_v33

def fn {F : FTy → Type} [FloatOps F] (main_arg0 : FVec F S500000x16 .f32) (main_arg1 : FVec F S500000x16 .f32) (main_arg2 : FVec F S500000x16 .f32) (main_arg3 : IVec S500000 32) (main_arg4 : IVec S500000 32) (main_arg5 : IVec S500000 32) (main_arg6 : IVec S500000 32) (main_arg7 : IVec S500000 32) (main_arg8 : IVec S500000 32) (main_arg9 : FVec F S3x2x16x64 .f32) (main_arg10 : FVec F S3x2x64x64 .f32) (main_arg11 : FVec F S3x2x64x16 .f32) (main_arg12 : FVec F S3x2x64x64 .f32) (main_arg13 : FVec F S3x2x64x64 .f32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S500000x16 .f32 := Host.absf main_arg2
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S3x2x16x64 .f32 := Host.absf main_arg9
  let main_cst_4 : FVec F S_ .f32 := constant S_ .f32 0x7F800000#32
  let main_v15 : FVec F S3x2x16x64 .f32 := broadcastInDim S3x2x16x64 ![] bcast_S_S3x2x16x64 main_cst_4
  let main_v16 : IVec S3x2x16x64 1 := cmpf .olt main_v14 main_v15
  fn_part1 (F := F) main_arg10 main_arg11 main_arg12 main_arg13 main_v13 main_v16
-- ==== Kernel.lean ====
abbrev S500000x16 : Shape := ⟨2, ![500000, 16]⟩
abbrev S500000 : Shape := ⟨1, ![500000]⟩
abbrev S3x2x16x64 : Shape := ⟨4, ![3, 2, 16, 64]⟩
abbrev S3x2x64x64 : Shape := ⟨4, ![3, 2, 64, 64]⟩
abbrev S3x2x64x16 : Shape := ⟨4, ![3, 2, 64, 16]⟩
abbrev S_ : Shape := ⟨0, ![]⟩
abbrev S500000x1 : Shape := ⟨2, ![500000, 1]⟩
abbrev S100000x1 : Shape := ⟨2, ![100000, 1]⟩
abbrev S100000x64 : Shape := ⟨2, ![100000, 64]⟩
abbrev S100000x16 : Shape := ⟨2, ![100000, 16]⟩
abbrev S1x1x16x64 : Shape := ⟨4, ![1, 1, 16, 64]⟩
abbrev S16x64 : Shape := ⟨2, ![16, 64]⟩
abbrev S10000x16 : Shape := ⟨2, ![10000, 16]⟩
abbrev S10000x64 : Shape := ⟨2, ![10000, 64]⟩
abbrev S64 : Shape := ⟨1, ![64]⟩
abbrev S1x64 : Shape := ⟨2, ![1, 64]⟩
abbrev S1x1x64x64 : Shape := ⟨4, ![1, 1, 64, 64]⟩
abbrev S64x64 : Shape := ⟨2, ![64, 64]⟩
abbrev S64x128 : Shape := ⟨2, ![64, 128]⟩
abbrev S100000x128 : Shape := ⟨2, ![100000, 128]⟩
abbrev S10000x128 : Shape := ⟨2, ![10000, 128]⟩
abbrev S500000x64 : Shape := ⟨2, ![500000, 64]⟩
abbrev S5000x64 : Shape := ⟨2, ![5000, 64]⟩
abbrev S1x1x64x16 : Shape := ⟨4, ![1, 1, 64, 16]⟩
abbrev S64x16 : Shape := ⟨2, ![64, 16]⟩
abbrev S5000x16 : Shape := ⟨2, ![5000, 16]⟩

abbrev nBuf : Space → Nat
  | .hbm => 559
  | .vmem => 134
  | .smem => 0
  | _ => 0

abbrev hbmTy0_0 (i : Nat) : BufTy := match i % 128 with
  | 0 => ⟨S500000x16, .f32⟩
  | 1 => ⟨S500000x16, .f32⟩
  | 2 => ⟨S500000x16, .f32⟩
  | 3 => ⟨S500000, .i32⟩
  | 4 => ⟨S500000, .i32⟩
  | 5 => ⟨S500000, .i32⟩
  | 6 => ⟨S500000, .i32⟩
  | 7 => ⟨S500000, .i32⟩
  | 8 => ⟨S500000, .i32⟩
  | 9 => ⟨S3x2x16x64, .f32⟩
  | 10 => ⟨S3x2x64x64, .f32⟩
  | 11 => ⟨S3x2x64x16, .f32⟩
  | 12 => ⟨S3x2x64x64, .f32⟩
  | 13 => ⟨S3x2x64x64, .f32⟩
  | 14 => ⟨S_, .f32⟩
  | 15 => ⟨S500000x1, .f32⟩
  | 16 => ⟨S_, .f32⟩
  | 17 => ⟨S100000x1, .f32⟩
  | 18 => ⟨S500000x1, .i32⟩
  | 19 => ⟨S100000x1, .f32⟩
  | 20 => ⟨S_, .f32⟩
  | 21 => ⟨S100000x1, .f32⟩
  | 22 => ⟨S100000x1, .f32⟩
  | 23 => ⟨S_, .f32⟩
  | 24 => ⟨S100000x1, .f32⟩
  | 25 => ⟨S500000x1, .i32⟩
  | 26 => ⟨S100000x1, .f32⟩
  | 27 => ⟨S_, .f32⟩
  | 28 => ⟨S100000x1, .f32⟩
  | 29 => ⟨S100000x1, .f32⟩
  | 30 => ⟨S_, .f32⟩
  | 31 => ⟨S100000x1, .f32⟩
  | 32 => ⟨S500000x1, .i32⟩
  | 33 => ⟨S100000x1, .f32⟩
  | 34 => ⟨S_, .f32⟩
  | 35 => ⟨S100000x1, .f32⟩
  | 36 => ⟨S100000x1, .f32⟩
  | 37 => ⟨S_, .f32⟩
  | 38 => ⟨S100000x1, .f32⟩
  | 39 => ⟨S500000x1, .i32⟩
  | 40 => ⟨S100000x1, .f32⟩
  | 41 => ⟨S_, .f32⟩
  | 42 => ⟨S100000x1, .f32⟩
  | 43 => ⟨S100000x1, .f32⟩
  | 44 => ⟨S_, .f32⟩
  | 45 => ⟨S100000x1, .f32⟩
  | 46 => ⟨S500000x1, .i32⟩
  | 47 => ⟨S100000x1, .f32⟩
  | 48 => ⟨S_, .f32⟩
  | 49 => ⟨S100000x1, .f32⟩
  | 50 => ⟨S100000x1, .f32⟩
  | 51 => ⟨S_, .f32⟩
  | 52 => ⟨S100000x1, .f32⟩
  | 53 => ⟨S500000x1, .i32⟩
  | 54 => ⟨S100000x1, .f32⟩
  | 55 => ⟨S_, .f32⟩
  | 56 => ⟨S100000x1, .f32⟩
  | 57 => ⟨S100000x1, .f32⟩
  | 58 => ⟨S_, .f32⟩
  | 59 => ⟨S100000x64, .f32⟩
  | 60 => ⟨S_, .f32⟩
  | 61 => ⟨S100000x64, .f32⟩
  | 62 => ⟨S_, .f32⟩
  | 63 => ⟨S100000x64, .f32⟩
  | 64 => ⟨S_, .f32⟩
  | 65 => ⟨S100000x16, .f32⟩
  | 66 => ⟨S500000x1, .i32⟩
  | 67 => ⟨S100000x16, .f32⟩
  | 68 => ⟨S_, .f32⟩
  | 69 => ⟨S100000x16, .f32⟩
  | 70 => ⟨S500000x1, .i32⟩
  | 71 => ⟨S100000x16, .f32⟩
  | 72 => ⟨S100000x16, .f32⟩
  | 73 => ⟨S100000x16, .f32⟩
  | 74 => ⟨S100000x16, .f32⟩
  | 75 => ⟨S100000x16, .f32⟩
  | 76 => ⟨S1x1x16x64, .f32⟩
  | 77 => ⟨S16x64, .f32⟩
  | 78 => ⟨S100000x64, .f32⟩
  | 79 => ⟨S1x1x16x64, .f32⟩
  | 80 => ⟨S16x64, .f32⟩
  | 81 => ⟨S100000x64, .f32⟩
  | 82 => ⟨S100000x64, .f32⟩
  | 83 => ⟨S100000x64, .f32⟩
  | 84 => ⟨S_, .f32⟩
  | 85 => ⟨S100000x16, .f32⟩
  | 86 => ⟨S500000x1, .i32⟩
  | 87 => ⟨S100000x16, .f32⟩
  | 88 => ⟨S_, .f32⟩
  | 89 => ⟨S100000x16, .f32⟩
  | 90 => ⟨S500000x1, .i32⟩
  | 91 => ⟨S100000x16, .f32⟩
  | 92 => ⟨S100000x16, .f32⟩
  | 93 => ⟨S100000x16, .f32⟩
  | 94 => ⟨S100000x16, .f32⟩
  | 95 => ⟨S100000x16, .f32⟩
  | 96 => ⟨S1x1x16x64, .f32⟩
  | 97 => ⟨S16x64, .f32⟩
  | 98 => ⟨S100000x64, .f32⟩
  | 99 => ⟨S1x1x16x64, .f32⟩
  | 100 => ⟨S16x64, .f32⟩
  | 101 => ⟨S100000x64, .f32⟩
  | 102 => ⟨S100000x64, .f32⟩
  | 103 => ⟨S100000x64, .f32⟩
  | 104 => ⟨S_, .f32⟩
  | 105 => ⟨S100000x16, .f32⟩
  | 106 => ⟨S500000x1, .i32⟩
  | 107 => ⟨S100000x16, .f32⟩
  | 108 => ⟨S_, .f32⟩
  | 109 => ⟨S100000x16, .f32⟩
  | 110 => ⟨S500000x1, .i32⟩
  | 111 => ⟨S100000x16, .f32⟩
  | 112 => ⟨S100000x16, .f32⟩
  | 113 => ⟨S100000x16, .f32⟩
  | 114 => ⟨S100000x16, .f32⟩
  | 115 => ⟨S100000x16, .f32⟩
  | 116 => ⟨S1x1x16x64, .f32⟩
  | 117 => ⟨S16x64, .f32⟩
  | 118 => ⟨S100000x64, .f32⟩
  | 119 => ⟨S1x1x16x64, .f32⟩
  | 120 => ⟨S16x64, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S500000x16, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S_, .f32⟩
  | 6 => ⟨S100000x64, .f32⟩
  | 7 => ⟨S100000x64, .f32⟩
  | 8 => ⟨S_, .f32⟩
  | 9 => ⟨S64, .f32⟩
  | 10 => ⟨S1x64, .f32⟩
  | 11 => ⟨S_, .f32⟩
  | 12 => ⟨S1x64, .f32⟩
  | 13 => ⟨S1x64, .f32⟩
  | 14 => ⟨S_, .f32⟩
  | 15 => ⟨S100000x64, .f32⟩
  | 16 => ⟨S100000x64, .f32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S_, .f32⟩
  | 24 => ⟨S100000x64, .f32⟩
  | 25 => ⟨S100000x64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S1x64, .f32⟩
  | 42 => ⟨S1x64, .f32⟩
  | 43 => ⟨S1x64, .f32⟩
  | 44 => ⟨S_, .f32⟩
  | 45 => ⟨S_, .i1⟩
  | 46 => ⟨S_, .f32⟩
  | 47 => ⟨S_, .f32⟩
  | 48 => ⟨S1x64, .f32⟩
  | 49 => ⟨S1x64, .f32⟩
  | 50 => ⟨S_, .f32⟩
  | 51 => ⟨S100000x64, .f32⟩
  | 52 => ⟨S100000x64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S100000x64, .f32⟩
  | 61 => ⟨S100000x64, .f32⟩
  | 62 => ⟨S100000x64, .f32⟩
  | 63 => ⟨S_, .f32⟩
  | 64 => ⟨S_, .f32⟩
  | 65 => ⟨S_, .f32⟩
  | 66 => ⟨S_, .f32⟩
  | 67 => ⟨S64, .f32⟩
  | 68 => ⟨S1x64, .f32⟩
  | 69 => ⟨S1x64, .f32⟩
  | 70 => ⟨S1x64, .f32⟩
  | 71 => ⟨S_, .f32⟩
  | 72 => ⟨S_, .i1⟩
  | 73 => ⟨S_, .f32⟩
  | 74 => ⟨S_, .f32⟩
  | 75 => ⟨S1x64, .f32⟩
  | 76 => ⟨S1x64, .f32⟩
  | 77 => ⟨S_, .f32⟩
  | 78 => ⟨S100000x64, .f32⟩
  | 79 => ⟨S100000x64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S100000x64, .f32⟩
  | 88 => ⟨S100000x64, .f32⟩
  | 89 => ⟨S100000x64, .f32⟩
  | 90 => ⟨S_, .f32⟩
  | 91 => ⟨S_, .f32⟩
  | 92 => ⟨S_, .f32⟩
  | 93 => ⟨S_, .f32⟩
  | 94 => ⟨S64, .f32⟩
  | 95 => ⟨S1x64, .f32⟩
  | 96 => ⟨S1x64, .f32⟩
  | 97 => ⟨S1x64, .f32⟩
  | 98 => ⟨S_, .f32⟩
  | 99 => ⟨S_, .i1⟩
  | 100 => ⟨S_, .f32⟩
  | 101 => ⟨S_, .f32⟩
  | 102 => ⟨S1x64, .f32⟩
  | 103 => ⟨S1x64, .f32⟩
  | 104 => ⟨S1x1x64x64, .f32⟩
  | 105 => ⟨S64x64, .f32⟩
  | 106 => ⟨S1x1x64x64, .f32⟩
  | 107 => ⟨S64x64, .f32⟩
  | 108 => ⟨S1x1x64x64, .f32⟩
  | 109 => ⟨S64x64, .f32⟩
  | 110 => ⟨S1x1x64x64, .f32⟩
  | 111 => ⟨S64x64, .f32⟩
  | 112 => ⟨S1x1x64x64, .f32⟩
  | 113 => ⟨S64x64, .f32⟩
  | 114 => ⟨S1x1x64x64, .f32⟩
  | 115 => ⟨S64x64, .f32⟩
  | 116 => ⟨S64x128, .f32⟩
  | 117 => ⟨S100000x128, .f32⟩
  | 118 => ⟨S100000x64, .f32⟩
  | 119 => ⟨S100000x64, .f32⟩
  | 120 => ⟨S64x128, .f32⟩
  | 121 => ⟨S100000x128, .f32⟩
  | 122 => ⟨S100000x64, .f32⟩
  | 123 => ⟨S100000x64, .f32⟩
  | 124 => ⟨S64x128, .f32⟩
  | 125 => ⟨S100000x128, .f32⟩
  | 126 => ⟨S100000x64, .f32⟩
  | 127 => ⟨S100000x64, .f32⟩
  | _ => ⟨S500000x16, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x64, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x64, .f32⟩
  | 18 => ⟨S500000x64, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x64, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x64, .f32⟩
  | 37 => ⟨S500000x64, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x64, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x64, .f32⟩
  | 56 => ⟨S500000x64, .f32⟩
  | 57 => ⟨S_, .f32⟩
  | 58 => ⟨S100000x64, .f32⟩
  | 59 => ⟨S_, .f32⟩
  | 60 => ⟨S100000x64, .f32⟩
  | 61 => ⟨S_, .f32⟩
  | 62 => ⟨S100000x64, .f32⟩
  | 63 => ⟨S_, .f32⟩
  | 64 => ⟨S100000x64, .f32⟩
  | 65 => ⟨S500000x1, .i32⟩
  | 66 => ⟨S100000x64, .f32⟩
  | 67 => ⟨S_, .f32⟩
  | 68 => ⟨S100000x64, .f32⟩
  | 69 => ⟨S500000x1, .i32⟩
  | 70 => ⟨S100000x64, .f32⟩
  | 71 => ⟨S100000x64, .f32⟩
  | 72 => ⟨S100000x64, .f32⟩
  | 73 => ⟨S100000x64, .f32⟩
  | 74 => ⟨S100000x64, .f32⟩
  | 75 => ⟨S1x1x64x64, .f32⟩
  | 76 => ⟨S64x64, .f32⟩
  | 77 => ⟨S100000x64, .f32⟩
  | 78 => ⟨S1x1x64x64, .f32⟩
  | 79 => ⟨S64x64, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S500000x1, .i32⟩
  | 86 => ⟨S100000x64, .f32⟩
  | 87 => ⟨S_, .f32⟩
  | 88 => ⟨S100000x64, .f32⟩
  | 89 => ⟨S500000x1, .i32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S1x1x64x64, .f32⟩
  | 96 => ⟨S64x64, .f32⟩
  | 97 => ⟨S100000x64, .f32⟩
  | 98 => ⟨S1x1x64x64, .f32⟩
  | 99 => ⟨S64x64, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S500000x1, .i32⟩
  | 106 => ⟨S100000x64, .f32⟩
  | 107 => ⟨S_, .f32⟩
  | 108 => ⟨S100000x64, .f32⟩
  | 109 => ⟨S500000x1, .i32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S1x1x64x64, .f32⟩
  | 116 => ⟨S64x64, .f32⟩
  | 117 => ⟨S100000x64, .f32⟩
  | 118 => ⟨S1x1x64x64, .f32⟩
  | 119 => ⟨S64x64, .f32⟩
  | 120 => ⟨S100000x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S64, .f32⟩
  | _ => ⟨S500000x16, .f32⟩

abbrev hbmTy0_3 (i : Nat) : BufTy := match i % 128 with
  | 0 => ⟨S1x64, .f32⟩
  | 1 => ⟨S_, .f32⟩
  | 2 => ⟨S1x64, .f32⟩
  | 3 => ⟨S1x64, .f32⟩
  | 4 => ⟨S_, .f32⟩
  | 5 => ⟨S100000x64, .f32⟩
  | 6 => ⟨S100000x64, .f32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S_, .f32⟩
  | 14 => ⟨S100000x64, .f32⟩
  | 15 => ⟨S100000x64, .f32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S_, .f32⟩
  | 23 => ⟨S100000x64, .f32⟩
  | 24 => ⟨S100000x64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S100000x64, .f32⟩
  | 33 => ⟨S100000x64, .f32⟩
  | 34 => ⟨S100000x64, .f32⟩
  | 35 => ⟨S_, .f32⟩
  | 36 => ⟨S_, .f32⟩
  | 37 => ⟨S_, .f32⟩
  | 38 => ⟨S_, .f32⟩
  | 39 => ⟨S64, .f32⟩
  | 40 => ⟨S1x64, .f32⟩
  | 41 => ⟨S1x64, .f32⟩
  | 42 => ⟨S1x64, .f32⟩
  | 43 => ⟨S_, .f32⟩
  | 44 => ⟨S_, .i1⟩
  | 45 => ⟨S_, .f32⟩
  | 46 => ⟨S_, .f32⟩
  | 47 => ⟨S1x64, .f32⟩
  | 48 => ⟨S1x64, .f32⟩
  | 49 => ⟨S_, .f32⟩
  | 50 => ⟨S100000x64, .f32⟩
  | 51 => ⟨S100000x64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S1x64, .f32⟩
  | 68 => ⟨S1x64, .f32⟩
  | 69 => ⟨S1x64, .f32⟩
  | 70 => ⟨S_, .f32⟩
  | 71 => ⟨S_, .i1⟩
  | 72 => ⟨S_, .f32⟩
  | 73 => ⟨S_, .f32⟩
  | 74 => ⟨S1x64, .f32⟩
  | 75 => ⟨S1x64, .f32⟩
  | 76 => ⟨S_, .f32⟩
  | 77 => ⟨S100000x64, .f32⟩
  | 78 => ⟨S100000x64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S_, .f32⟩
  | 91 => ⟨S_, .f32⟩
  | 92 => ⟨S_, .f32⟩
  | 93 => ⟨S64, .f32⟩
  | 94 => ⟨S1x64, .f32⟩
  | 95 => ⟨S1x64, .f32⟩
  | 96 => ⟨S1x64, .f32⟩
  | 97 => ⟨S_, .f32⟩
  | 98 => ⟨S_, .i1⟩
  | 99 => ⟨S_, .f32⟩
  | 100 => ⟨S_, .f32⟩
  | 101 => ⟨S1x64, .f32⟩
  | 102 => ⟨S1x64, .f32⟩
  | 103 => ⟨S1x1x64x64, .f32⟩
  | 104 => ⟨S64x64, .f32⟩
  | 105 => ⟨S1x1x64x64, .f32⟩
  | 106 => ⟨S64x64, .f32⟩
  | 107 => ⟨S1x1x64x64, .f32⟩
  | 108 => ⟨S64x64, .f32⟩
  | 109 => ⟨S1x1x64x64, .f32⟩
  | 110 => ⟨S64x64, .f32⟩
  | 111 => ⟨S64x128, .f32⟩
  | 112 => ⟨S100000x128, .f32⟩
  | 113 => ⟨S100000x64, .f32⟩
  | 114 => ⟨S100000x64, .f32⟩
  | 115 => ⟨S100000x64, .f32⟩
  | 116 => ⟨S100000x64, .f32⟩
  | 117 => ⟨S_, .f32⟩
  | 118 => ⟨S100000x16, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x64, .f32⟩
  | _ => ⟨S500000x16, .f32⟩

abbrev hbmTy0_4 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x64, .f32⟩
  | 9 => ⟨S1x1x64x16, .f32⟩
  | 10 => ⟨S64x16, .f32⟩
  | 11 => ⟨S500000x16, .f32⟩
  | 12 => ⟨S_, .f32⟩
  | 13 => ⟨S100000x16, .f32⟩
  | 14 => ⟨S500000x1, .i32⟩
  | 15 => ⟨S100000x16, .f32⟩
  | 16 => ⟨S100000x16, .f32⟩
  | 17 => ⟨S100000x16, .f32⟩
  | 18 => ⟨S100000x16, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x64, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x64, .f32⟩
  | 37 => ⟨S1x1x64x16, .f32⟩
  | 38 => ⟨S64x16, .f32⟩
  | 39 => ⟨S500000x16, .f32⟩
  | 40 => ⟨S_, .f32⟩
  | 41 => ⟨S100000x16, .f32⟩
  | 42 => ⟨S500000x1, .i32⟩
  | 43 => ⟨S100000x16, .f32⟩
  | 44 => ⟨S100000x16, .f32⟩
  | 45 => ⟨S100000x16, .f32⟩
  | 46 => ⟨S100000x16, .f32⟩
  | _ => ⟨S500000x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S500000x16, .f32⟩

abbrev vmemTy0_0 (i : Nat) : BufTy := match i % 128 with
  | 0 => ⟨S10000x16, .f32⟩
  | 1 => ⟨S10000x16, .f32⟩
  | 2 => ⟨S16x64, .f32⟩
  | 3 => ⟨S10000x64, .f32⟩
  | 4 => ⟨S10000x64, .f32⟩
  | 5 => ⟨S10000x16, .f32⟩
  | 6 => ⟨S10000x16, .f32⟩
  | 7 => ⟨S16x64, .f32⟩
  | 8 => ⟨S10000x64, .f32⟩
  | 9 => ⟨S10000x64, .f32⟩
  | 10 => ⟨S10000x16, .f32⟩
  | 11 => ⟨S10000x16, .f32⟩
  | 12 => ⟨S16x64, .f32⟩
  | 13 => ⟨S10000x64, .f32⟩
  | 14 => ⟨S10000x64, .f32⟩
  | 15 => ⟨S10000x16, .f32⟩
  | 16 => ⟨S10000x16, .f32⟩
  | 17 => ⟨S16x64, .f32⟩
  | 18 => ⟨S10000x64, .f32⟩
  | 19 => ⟨S10000x64, .f32⟩
  | 20 => ⟨S10000x16, .f32⟩
  | 21 => ⟨S10000x16, .f32⟩
  | 22 => ⟨S16x64, .f32⟩
  | 23 => ⟨S10000x64, .f32⟩
  | 24 => ⟨S10000x64, .f32⟩
  | 25 => ⟨S10000x16, .f32⟩
  | 26 => ⟨S10000x16, .f32⟩
  | 27 => ⟨S16x64, .f32⟩
  | 28 => ⟨S10000x64, .f32⟩
  | 29 => ⟨S10000x64, .f32⟩
  | 30 => ⟨S10000x64, .f32⟩
  | 31 => ⟨S10000x64, .f32⟩
  | 32 => ⟨S1x64, .f32⟩
  | 33 => ⟨S1x64, .f32⟩
  | 34 => ⟨S64x128, .f32⟩
  | 35 => ⟨S10000x128, .f32⟩
  | 36 => ⟨S10000x128, .f32⟩
  | 37 => ⟨S10000x64, .f32⟩
  | 38 => ⟨S10000x64, .f32⟩
  | 39 => ⟨S1x64, .f32⟩
  | 40 => ⟨S1x64, .f32⟩
  | 41 => ⟨S64x128, .f32⟩
  | 42 => ⟨S10000x128, .f32⟩
  | 43 => ⟨S10000x128, .f32⟩
  | 44 => ⟨S10000x64, .f32⟩
  | 45 => ⟨S10000x64, .f32⟩
  | 46 => ⟨S1x64, .f32⟩
  | 47 => ⟨S1x64, .f32⟩
  | 48 => ⟨S64x128, .f32⟩
  | 49 => ⟨S10000x128, .f32⟩
  | 50 => ⟨S10000x128, .f32⟩
  | 51 => ⟨S5000x64, .f32⟩
  | 52 => ⟨S5000x64, .f32⟩
  | 53 => ⟨S5000x64, .f32⟩
  | 54 => ⟨S5000x64, .f32⟩
  | 55 => ⟨S5000x64, .f32⟩
  | 56 => ⟨S5000x64, .f32⟩
  | 57 => ⟨S5000x64, .f32⟩
  | 58 => ⟨S5000x64, .f32⟩
  | 59 => ⟨S5000x64, .f32⟩
  | 60 => ⟨S5000x64, .f32⟩
  | 61 => ⟨S5000x64, .f32⟩
  | 62 => ⟨S5000x64, .f32⟩
  | 63 => ⟨S5000x64, .f32⟩
  | 64 => ⟨S5000x64, .f32⟩
  | 65 => ⟨S5000x64, .f32⟩
  | 66 => ⟨S5000x64, .f32⟩
  | 67 => ⟨S5000x64, .f32⟩
  | 68 => ⟨S5000x64, .f32⟩
  | 69 => ⟨S10000x64, .f32⟩
  | 70 => ⟨S10000x64, .f32⟩
  | 71 => ⟨S64x64, .f32⟩
  | 72 => ⟨S10000x64, .f32⟩
  | 73 => ⟨S10000x64, .f32⟩
  | 74 => ⟨S10000x64, .f32⟩
  | 75 => ⟨S10000x64, .f32⟩
  | 76 => ⟨S64x64, .f32⟩
  | 77 => ⟨S10000x64, .f32⟩
  | 78 => ⟨S10000x64, .f32⟩
  | 79 => ⟨S10000x64, .f32⟩
  | 80 => ⟨S10000x64, .f32⟩
  | 81 => ⟨S64x64, .f32⟩
  | 82 => ⟨S10000x64, .f32⟩
  | 83 => ⟨S10000x64, .f32⟩
  | 84 => ⟨S10000x64, .f32⟩
  | 85 => ⟨S10000x64, .f32⟩
  | 86 => ⟨S64x64, .f32⟩
  | 87 => ⟨S10000x64, .f32⟩
  | 88 => ⟨S10000x64, .f32⟩
  | 89 => ⟨S10000x64, .f32⟩
  | 90 => ⟨S10000x64, .f32⟩
  | 91 => ⟨S64x64, .f32⟩
  | 92 => ⟨S10000x64, .f32⟩
  | 93 => ⟨S10000x64, .f32⟩
  | 94 => ⟨S10000x64, .f32⟩
  | 95 => ⟨S10000x64, .f32⟩
  | 96 => ⟨S64x64, .f32⟩
  | 97 => ⟨S10000x64, .f32⟩
  | 98 => ⟨S10000x64, .f32⟩
  | 99 => ⟨S10000x64, .f32⟩
  | 100 => ⟨S10000x64, .f32⟩
  | 101 => ⟨S1x64, .f32⟩
  | 102 => ⟨S1x64, .f32⟩
  | 103 => ⟨S64x128, .f32⟩
  | 104 => ⟨S10000x128, .f32⟩
  | 105 => ⟨S10000x128, .f32⟩
  | 106 => ⟨S10000x64, .f32⟩
  | 107 => ⟨S10000x64, .f32⟩
  | 108 => ⟨S1x64, .f32⟩
  | 109 => ⟨S1x64, .f32⟩
  | 110 => ⟨S64x64, .f32⟩
  | 111 => ⟨S10000x64, .f32⟩
  | 112 => ⟨S10000x64, .f32⟩
  | 113 => ⟨S10000x64, .f32⟩
  | 114 => ⟨S10000x64, .f32⟩
  | 115 => ⟨S1x64, .f32⟩
  | 116 => ⟨S1x64, .f32⟩
  | 117 => ⟨S64x64, .f32⟩
  | 118 => ⟨S10000x64, .f32⟩
  | 119 => ⟨S10000x64, .f32⟩
  | 120 => ⟨S5000x64, .f32⟩
  | 121 => ⟨S5000x64, .f32⟩
  | 122 => ⟨S5000x64, .f32⟩
  | 123 => ⟨S5000x64, .f32⟩
  | 124 => ⟨S64x16, .f32⟩
  | 125 => ⟨S5000x16, .f32⟩
  | 126 => ⟨S5000x16, .f32⟩
  | 127 => ⟨S5000x64, .f32⟩
  | _ => ⟨S500000x16, .f32⟩

abbrev vmemTy0_1 (i : Nat) : BufTy := match i % 128 with
  | 0 => ⟨S5000x64, .f32⟩
  | 1 => ⟨S5000x64, .f32⟩
  | 2 => ⟨S5000x64, .f32⟩
  | 3 => ⟨S64x16, .f32⟩
  | 4 => ⟨S5000x16, .f32⟩
  | 5 => ⟨S5000x16, .f32⟩
  | _ => ⟨S500000x16, .f32⟩

abbrev vmemTy (i : Nat) : BufTy := match i / 128 with
  | 0 => vmemTy0_0 i
  | 1 => vmemTy0_1 i
  | _ => ⟨S500000x16, .f32⟩

abbrev bufTy : (tb : Table) → Fin (tcTables nBuf tb) → BufTy
  | .hbm, ⟨i, _⟩ => hbmTy i
  | .local _ .vmem, ⟨i, _⟩ => vmemTy i
  | _, _ => ⟨S500000x16, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_cst_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_11 : Ref sig .tc := ⟨.hbm, 55, rfl⟩
abbrev main_v29 : Ref sig .tc := ⟨.hbm, 56, rfl⟩
abbrev main_v30 : Ref sig .tc := ⟨.hbm, 57, rfl⟩
abbrev main_cst_12 : Ref sig .tc := ⟨.hbm, 58, rfl⟩
abbrev main_v31 : Ref sig .tc := ⟨.hbm, 59, rfl⟩
abbrev main_cst_13 : Ref sig .tc := ⟨.hbm, 60, rfl⟩
abbrev main_v32 : Ref sig .tc := ⟨.hbm, 61, rfl⟩
abbrev main_cst_14 : Ref sig .tc := ⟨.hbm, 62, rfl⟩
abbrev main_v33 : Ref sig .tc := ⟨.hbm, 63, rfl⟩
abbrev main_cst_15 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_16 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_17 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_18 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_20 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call0_cst : Ref sig .tc := ⟨.hbm, 124, rfl⟩
abbrev main_call0_v0 : Ref sig .tc := ⟨.hbm, 125, rfl⟩
abbrev main_v88 : Ref sig .tc := ⟨.hbm, 126, rfl⟩
abbrev main_cst_21 : Ref sig .tc := ⟨.hbm, 127, rfl⟩
abbrev main_v89 : Ref sig .tc := ⟨.hbm, 128, rfl⟩
abbrev main_v90 : Ref sig .tc := ⟨.hbm, 129, rfl⟩
abbrev main_cst_22 : Ref sig .tc := ⟨.hbm, 130, rfl⟩
abbrev main_v91 : Ref sig .tc := ⟨.hbm, 131, rfl⟩
abbrev main_v92 : Ref sig .tc := ⟨.hbm, 132, rfl⟩
abbrev main_call1_cst : Ref sig .tc := ⟨.hbm, 133, rfl⟩
abbrev main_call1_v0 : Ref sig .tc := ⟨.hbm, 134, rfl⟩
abbrev main_v93 : Ref sig .tc := ⟨.hbm, 135, rfl⟩
abbrev main_cst_23 : Ref sig .tc := ⟨.hbm, 136, rfl⟩
abbrev main_v94 : Ref sig .tc := ⟨.hbm, 137, rfl⟩
abbrev main_v95 : Ref sig .tc := ⟨.hbm, 138, rfl⟩
abbrev main_cst_24 : Ref sig .tc := ⟨.hbm, 139, rfl⟩
abbrev main_v96 : Ref sig .tc := ⟨.hbm, 140, rfl⟩
abbrev main_v97 : Ref sig .tc := ⟨.hbm, 141, rfl⟩
abbrev main_call2_cst : Ref sig .tc := ⟨.hbm, 142, rfl⟩
abbrev main_call2_v0 : Ref sig .tc := ⟨.hbm, 143, rfl⟩
abbrev main_v98 : Ref sig .tc := ⟨.hbm, 144, rfl⟩
abbrev main_cst_25 : Ref sig .tc := ⟨.hbm, 145, rfl⟩
abbrev main_v99 : Ref sig .tc := ⟨.hbm, 146, rfl⟩
abbrev main_v100 : Ref sig .tc := ⟨.hbm, 147, rfl⟩
abbrev main_cst_26 : Ref sig .tc := ⟨.hbm, 148, rfl⟩
abbrev main_v101 : Ref sig .tc := ⟨.hbm, 149, rfl⟩
abbrev main_v102 : Ref sig .tc := ⟨.hbm, 150, rfl⟩
abbrev main_call3_cst : Ref sig .tc := ⟨.hbm, 151, rfl⟩
abbrev main_call3_v0 : Ref sig .tc := ⟨.hbm, 152, rfl⟩
abbrev main_v103 : Ref sig .tc := ⟨.hbm, 153, rfl⟩
abbrev main_c : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_cst_1 : Ref sig .tc := ⟨.hbm, 165, rfl⟩
abbrev main_call4_v8 : Ref sig .tc := ⟨.hbm, 166, rfl⟩
abbrev main_call4_cst_2 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_v12 : Ref sig .tc := ⟨.hbm, 171, rfl⟩
abbrev main_call4_cst_3 : Ref sig .tc := ⟨.hbm, 172, rfl⟩
abbrev main_call4_v13 : Ref sig .tc := ⟨.hbm, 173, rfl⟩
abbrev main_call4_cst_4 : Ref sig .tc := ⟨.hbm, 174, rfl⟩
abbrev main_call4_call0_v0 : Ref sig .tc := ⟨.hbm, 175, rfl⟩
abbrev main_call4_call0_v1 : Ref sig .tc := ⟨.hbm, 176, rfl⟩
abbrev main_v104 : Ref sig .tc := ⟨.hbm, 177, rfl⟩
abbrev main_call5_cst : Ref sig .tc := ⟨.hbm, 178, rfl⟩
abbrev main_call5_v0 : Ref sig .tc := ⟨.hbm, 179, rfl⟩
abbrev main_v105 : Ref sig .tc := ⟨.hbm, 180, rfl⟩
abbrev main_c_27 : Ref sig .tc := ⟨.hbm, 181, rfl⟩
abbrev main_call6_cst : Ref sig .tc := ⟨.hbm, 182, rfl⟩
abbrev main_call6_v0 : Ref sig .tc := ⟨.hbm, 183, rfl⟩
abbrev main_call6_v1 : Ref sig .tc := ⟨.hbm, 184, rfl⟩
abbrev main_call6_cst_0 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_call6_v5 : Ref sig .tc := ⟨.hbm, 189, rfl⟩
abbrev main_call6_v6 : Ref sig .tc := ⟨.hbm, 190, rfl⟩
abbrev main_call6_v7 : Ref sig .tc := ⟨.hbm, 191, rfl⟩
abbrev main_call6_cst_1 : Ref sig .tc := ⟨.hbm, 192, rfl⟩
abbrev main_call6_v8 : Ref sig .tc := ⟨.hbm, 193, rfl⟩
abbrev main_call6_cst_2 : Ref sig .tc := ⟨.hbm, 194, rfl⟩
abbrev main_call6_v9 : Ref sig .tc := ⟨.hbm, 195, rfl⟩
abbrev main_call6_v10 : Ref sig .tc := ⟨.hbm, 196, rfl⟩
abbrev main_call6_v11 : Ref sig .tc := ⟨.hbm, 197, rfl⟩
abbrev main_call6_v12 : Ref sig .tc := ⟨.hbm, 198, rfl⟩
abbrev main_call6_cst_3 : Ref sig .tc := ⟨.hbm, 199, rfl⟩
abbrev main_call6_v13 : Ref sig .tc := ⟨.hbm, 200, rfl⟩
abbrev main_call6_cst_4 : Ref sig .tc := ⟨.hbm, 201, rfl⟩
abbrev main_call6_call0_v0 : Ref sig .tc := ⟨.hbm, 202, rfl⟩
abbrev main_call6_call0_v1 : Ref sig .tc := ⟨.hbm, 203, rfl⟩
abbrev main_v106 : Ref sig .tc := ⟨.hbm, 204, rfl⟩
abbrev main_call7_cst : Ref sig .tc := ⟨.hbm, 205, rfl⟩
abbrev main_call7_v0 : Ref sig .tc := ⟨.hbm, 206, rfl⟩
abbrev main_v107 : Ref sig .tc := ⟨.hbm, 207, rfl⟩
abbrev main_c_28 : Ref sig .tc := ⟨.hbm, 208, rfl⟩
abbrev main_call8_cst : Ref sig .tc := ⟨.hbm, 209, rfl⟩
abbrev main_call8_v0 : Ref sig .tc := ⟨.hbm, 210, rfl⟩
abbrev main_call8_v1 : Ref sig .tc := ⟨.hbm, 211, rfl⟩
abbrev main_call8_cst_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_v6 : Ref sig .tc := ⟨.hbm, 217, rfl⟩
abbrev main_call8_v7 : Ref sig .tc := ⟨.hbm, 218, rfl⟩
abbrev main_call8_cst_1 : Ref sig .tc := ⟨.hbm, 219, rfl⟩
abbrev main_call8_v8 : Ref sig .tc := ⟨.hbm, 220, rfl⟩
abbrev main_call8_cst_2 : Ref sig .tc := ⟨.hbm, 221, rfl⟩
abbrev main_call8_v9 : Ref sig .tc := ⟨.hbm, 222, rfl⟩
abbrev main_call8_v10 : Ref sig .tc := ⟨.hbm, 223, rfl⟩
abbrev main_call8_v11 : Ref sig .tc := ⟨.hbm, 224, rfl⟩
abbrev main_call8_v12 : Ref sig .tc := ⟨.hbm, 225, rfl⟩
abbrev main_call8_cst_3 : Ref sig .tc := ⟨.hbm, 226, rfl⟩
abbrev main_call8_v13 : Ref sig .tc := ⟨.hbm, 227, rfl⟩
abbrev main_call8_cst_4 : Ref sig .tc := ⟨.hbm, 228, rfl⟩
abbrev main_call8_call0_v0 : Ref sig .tc := ⟨.hbm, 229, rfl⟩
abbrev main_call8_call0_v1 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_c_29 : Ref sig .tc := ⟨.hbm, 256, rfl⟩
abbrev main_v133 : Ref sig .tc := ⟨.hbm, 257, rfl⟩
abbrev main_v134 : Ref sig .tc := ⟨.hbm, 258, rfl⟩
abbrev main_c_30 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_c_31 : Ref sig .tc := ⟨.hbm, 265, rfl⟩
abbrev main_v140 : Ref sig .tc := ⟨.hbm, 266, rfl⟩
abbrev main_v141 : Ref sig .tc := ⟨.hbm, 267, rfl⟩
abbrev main_c_32 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_c_33 : Ref sig .tc := ⟨.hbm, 275, rfl⟩
abbrev main_v148 : Ref sig .tc := ⟨.hbm, 276, rfl⟩
abbrev main_v149 : Ref sig .tc := ⟨.hbm, 277, rfl⟩
abbrev main_c_34 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_c_35 : Ref sig .tc := ⟨.hbm, 284, rfl⟩
abbrev main_v155 : Ref sig .tc := ⟨.hbm, 285, rfl⟩
abbrev main_v156 : Ref sig .tc := ⟨.hbm, 286, rfl⟩
abbrev main_c_36 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_c_37 : Ref sig .tc := ⟨.hbm, 294, rfl⟩
abbrev main_v163 : Ref sig .tc := ⟨.hbm, 295, rfl⟩
abbrev main_v164 : Ref sig .tc := ⟨.hbm, 296, rfl⟩
abbrev main_c_38 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_c_39 : Ref sig .tc := ⟨.hbm, 303, rfl⟩
abbrev main_v170 : Ref sig .tc := ⟨.hbm, 304, rfl⟩
abbrev main_v171 : Ref sig .tc := ⟨.hbm, 305, rfl⟩
abbrev main_c_40 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_cst_41 : Ref sig .tc := ⟨.hbm, 313, rfl⟩
abbrev main_v178 : Ref sig .tc := ⟨.hbm, 314, rfl⟩
abbrev main_cst_42 : Ref sig .tc := ⟨.hbm, 315, rfl⟩
abbrev main_v179 : Ref sig .tc := ⟨.hbm, 316, rfl⟩
abbrev main_cst_43 : Ref sig .tc := ⟨.hbm, 317, rfl⟩
abbrev main_v180 : Ref sig .tc := ⟨.hbm, 318, rfl⟩
abbrev main_cst_44 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_cst_45 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_cst_46 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_cst_47 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_cst_48 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_cst_49 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_call9_cst : Ref sig .tc := ⟨.hbm, 379, rfl⟩
abbrev main_call9_v0 : Ref sig .tc := ⟨.hbm, 380, rfl⟩
abbrev main_v235 : Ref sig .tc := ⟨.hbm, 381, rfl⟩
abbrev main_cst_50 : Ref sig .tc := ⟨.hbm, 382, rfl⟩
abbrev main_v236 : Ref sig .tc := ⟨.hbm, 383, rfl⟩
abbrev main_v237 : Ref sig .tc := ⟨.hbm, 384, rfl⟩
abbrev main_cst_51 : Ref sig .tc := ⟨.hbm, 385, rfl⟩
abbrev main_v238 : Ref sig .tc := ⟨.hbm, 386, rfl⟩
abbrev main_v239 : Ref sig .tc := ⟨.hbm, 387, rfl⟩
abbrev main_call10_cst : Ref sig .tc := ⟨.hbm, 388, rfl⟩
abbrev main_call10_v0 : Ref sig .tc := ⟨.hbm, 389, rfl⟩
abbrev main_v240 : Ref sig .tc := ⟨.hbm, 390, rfl⟩
abbrev main_cst_52 : Ref sig .tc := ⟨.hbm, 391, rfl⟩
abbrev main_v241 : Ref sig .tc := ⟨.hbm, 392, rfl⟩
abbrev main_v242 : Ref sig .tc := ⟨.hbm, 393, rfl⟩
abbrev main_cst_53 : Ref sig .tc := ⟨.hbm, 394, rfl⟩
abbrev main_v243 : Ref sig .tc := ⟨.hbm, 395, rfl⟩
abbrev main_v244 : Ref sig .tc := ⟨.hbm, 396, rfl⟩
abbrev main_call11_cst : Ref sig .tc := ⟨.hbm, 397, rfl⟩
abbrev main_call11_v0 : Ref sig .tc := ⟨.hbm, 398, rfl⟩
abbrev main_v245 : Ref sig .tc := ⟨.hbm, 399, rfl⟩
abbrev main_cst_54 : Ref sig .tc := ⟨.hbm, 400, rfl⟩
abbrev main_v246 : Ref sig .tc := ⟨.hbm, 401, rfl⟩
abbrev main_v247 : Ref sig .tc := ⟨.hbm, 402, rfl⟩
abbrev main_cst_55 : Ref sig .tc := ⟨.hbm, 403, rfl⟩
abbrev main_v248 : Ref sig .tc := ⟨.hbm, 404, rfl⟩
abbrev main_v249 : Ref sig .tc := ⟨.hbm, 405, rfl⟩
abbrev main_call12_cst : Ref sig .tc := ⟨.hbm, 406, rfl⟩
abbrev main_call12_v0 : Ref sig .tc := ⟨.hbm, 407, rfl⟩
abbrev main_v250 : Ref sig .tc := ⟨.hbm, 408, rfl⟩
abbrev main_c_56 : Ref sig .tc := ⟨.hbm, 409, rfl⟩
abbrev main_call13_cst : Ref sig .tc := ⟨.hbm, 410, rfl⟩
abbrev main_call13_v0 : Ref sig .tc := ⟨.hbm, 411, rfl⟩
abbrev main_call13_v1 : Ref sig .tc := ⟨.hbm, 412, rfl⟩
abbrev main_call13_cst_0 : Ref sig .tc := ⟨.hbm, 413, rfl⟩
abbrev main_call13_v2 : Ref sig .tc := ⟨.hbm, 414, rfl⟩
abbrev main_call13_v3 : Ref sig .tc := ⟨.hbm, 415, rfl⟩
abbrev main_call13_v4 : Ref sig .tc := ⟨.hbm, 416, rfl⟩
abbrev main_call13_v5 : Ref sig .tc := ⟨.hbm, 417, rfl⟩
abbrev main_call13_v6 : Ref sig .tc := ⟨.hbm, 418, rfl⟩
abbrev main_call13_v7 : Ref sig .tc := ⟨.hbm, 419, rfl⟩
abbrev main_call13_cst_1 : Ref sig .tc := ⟨.hbm, 420, rfl⟩
abbrev main_call13_v8 : Ref sig .tc := ⟨.hbm, 421, rfl⟩
abbrev main_call13_cst_2 : Ref sig .tc := ⟨.hbm, 422, rfl⟩
abbrev main_call13_v9 : Ref sig .tc := ⟨.hbm, 423, rfl⟩
abbrev main_call13_v10 : Ref sig .tc := ⟨.hbm, 424, rfl⟩
abbrev main_call13_v11 : Ref sig .tc := ⟨.hbm, 425, rfl⟩
abbrev main_call13_v12 : Ref sig .tc := ⟨.hbm, 426, rfl⟩
abbrev main_call13_cst_3 : Ref sig .tc := ⟨.hbm, 427, rfl⟩
abbrev main_call13_v13 : Ref sig .tc := ⟨.hbm, 428, rfl⟩
abbrev main_call13_cst_4 : Ref sig .tc := ⟨.hbm, 429, rfl⟩
abbrev main_call13_call0_v0 : Ref sig .tc := ⟨.hbm, 430, rfl⟩
abbrev main_call13_call0_v1 : Ref sig .tc := ⟨.hbm, 431, rfl⟩
abbrev main_v251 : Ref sig .tc := ⟨.hbm, 432, rfl⟩
abbrev main_call14_cst : Ref sig .tc := ⟨.hbm, 433, rfl⟩
abbrev main_call14_v0 : Ref sig .tc := ⟨.hbm, 434, rfl⟩
abbrev main_v252 : Ref sig .tc := ⟨.hbm, 435, rfl⟩
abbrev main_c_57 : Ref sig .tc := ⟨.hbm, 436, rfl⟩
abbrev main_call15_cst : Ref sig .tc := ⟨.hbm, 437, rfl⟩
abbrev main_call15_v0 : Ref sig .tc := ⟨.hbm, 438, rfl⟩
abbrev main_call15_v1 : Ref sig .tc := ⟨.hbm, 439, rfl⟩
abbrev main_call15_cst_0 : Ref sig .tc := ⟨.hbm, 440, rfl⟩
abbrev main_call15_v2 : Ref sig .tc := ⟨.hbm, 441, rfl⟩
abbrev main_call15_v3 : Ref sig .tc := ⟨.hbm, 442, rfl⟩
abbrev main_call15_v4 : Ref sig .tc := ⟨.hbm, 443, rfl⟩
abbrev main_call15_v5 : Ref sig .tc := ⟨.hbm, 444, rfl⟩
abbrev main_call15_v6 : Ref sig .tc := ⟨.hbm, 445, rfl⟩
abbrev main_call15_v7 : Ref sig .tc := ⟨.hbm, 446, rfl⟩
abbrev main_call15_cst_1 : Ref sig .tc := ⟨.hbm, 447, rfl⟩
abbrev main_call15_v8 : Ref sig .tc := ⟨.hbm, 448, rfl⟩
abbrev main_call15_cst_2 : Ref sig .tc := ⟨.hbm, 449, rfl⟩
abbrev main_call15_v9 : Ref sig .tc := ⟨.hbm, 450, rfl⟩
abbrev main_call15_v10 : Ref sig .tc := ⟨.hbm, 451, rfl⟩
abbrev main_call15_v11 : Ref sig .tc := ⟨.hbm, 452, rfl⟩
abbrev main_call15_v12 : Ref sig .tc := ⟨.hbm, 453, rfl⟩
abbrev main_call15_cst_3 : Ref sig .tc := ⟨.hbm, 454, rfl⟩
abbrev main_call15_v13 : Ref sig .tc := ⟨.hbm, 455, rfl⟩
abbrev main_call15_cst_4 : Ref sig .tc := ⟨.hbm, 456, rfl⟩
abbrev main_call15_call0_v0 : Ref sig .tc := ⟨.hbm, 457, rfl⟩
abbrev main_call15_call0_v1 : Ref sig .tc := ⟨.hbm, 458, rfl⟩
abbrev main_v253 : Ref sig .tc := ⟨.hbm, 459, rfl⟩
abbrev main_call16_cst : Ref sig .tc := ⟨.hbm, 460, rfl⟩
abbrev main_call16_v0 : Ref sig .tc := ⟨.hbm, 461, rfl⟩
abbrev main_v254 : Ref sig .tc := ⟨.hbm, 462, rfl⟩
abbrev main_c_58 : Ref sig .tc := ⟨.hbm, 463, rfl⟩
abbrev main_call17_cst : Ref sig .tc := ⟨.hbm, 464, rfl⟩
abbrev main_call17_v0 : Ref sig .tc := ⟨.hbm, 465, rfl⟩
abbrev main_call17_v1 : Ref sig .tc := ⟨.hbm, 466, rfl⟩
abbrev main_call17_cst_0 : Ref sig .tc := ⟨.hbm, 467, rfl⟩
abbrev main_call17_v2 : Ref sig .tc := ⟨.hbm, 468, rfl⟩
abbrev main_call17_v3 : Ref sig .tc := ⟨.hbm, 469, rfl⟩
abbrev main_call17_v4 : Ref sig .tc := ⟨.hbm, 470, rfl⟩
abbrev main_call17_v5 : Ref sig .tc := ⟨.hbm, 471, rfl⟩
abbrev main_call17_v6 : Ref sig .tc := ⟨.hbm, 472, rfl⟩
abbrev main_call17_v7 : Ref sig .tc := ⟨.hbm, 473, rfl⟩
abbrev main_call17_cst_1 : Ref sig .tc := ⟨.hbm, 474, rfl⟩
abbrev main_call17_v8 : Ref sig .tc := ⟨.hbm, 475, rfl⟩
abbrev main_call17_cst_2 : Ref sig .tc := ⟨.hbm, 476, rfl⟩
abbrev main_call17_v9 : Ref sig .tc := ⟨.hbm, 477, rfl⟩
abbrev main_call17_v10 : Ref sig .tc := ⟨.hbm, 478, rfl⟩
abbrev main_call17_v11 : Ref sig .tc := ⟨.hbm, 479, rfl⟩
abbrev main_call17_v12 : Ref sig .tc := ⟨.hbm, 480, rfl⟩
abbrev main_call17_cst_3 : Ref sig .tc := ⟨.hbm, 481, rfl⟩
abbrev main_call17_v13 : Ref sig .tc := ⟨.hbm, 482, rfl⟩
abbrev main_call17_cst_4 : Ref sig .tc := ⟨.hbm, 483, rfl⟩
abbrev main_call17_call0_v0 : Ref sig .tc := ⟨.hbm, 484, rfl⟩
abbrev main_call17_call0_v1 : Ref sig .tc := ⟨.hbm, 485, rfl⟩
abbrev main_v255 : Ref sig .tc := ⟨.hbm, 486, rfl⟩
abbrev main_v256 : Ref sig .tc := ⟨.hbm, 487, rfl⟩
abbrev main_v257 : Ref sig .tc := ⟨.hbm, 488, rfl⟩
abbrev main_v258 : Ref sig .tc := ⟨.hbm, 489, rfl⟩
abbrev main_v259 : Ref sig .tc := ⟨.hbm, 490, rfl⟩
abbrev main_v260 : Ref sig .tc := ⟨.hbm, 491, rfl⟩
abbrev main_v261 : Ref sig .tc := ⟨.hbm, 492, rfl⟩
abbrev main_v262 : Ref sig .tc := ⟨.hbm, 493, rfl⟩
abbrev main_v263 : Ref sig .tc := ⟨.hbm, 494, rfl⟩
abbrev main_v264 : Ref sig .tc := ⟨.hbm, 495, rfl⟩
abbrev main_v265 : Ref sig .tc := ⟨.hbm, 496, rfl⟩
abbrev main_v266 : Ref sig .tc := ⟨.hbm, 497, rfl⟩
abbrev main_v267 : Ref sig .tc := ⟨.hbm, 498, rfl⟩
abbrev main_v268 : Ref sig .tc := ⟨.hbm, 499, rfl⟩
abbrev main_v269 : Ref sig .tc := ⟨.hbm, 500, rfl⟩
abbrev main_cst_59 : Ref sig .tc := ⟨.hbm, 501, rfl⟩
abbrev main_v270 : Ref sig .tc := ⟨.hbm, 502, rfl⟩
abbrev main_c_60 : Ref sig .tc := ⟨.hbm, 503, rfl⟩
abbrev main_v271 : Ref sig .tc := ⟨.hbm, 504, rfl⟩
abbrev main_v272 : Ref sig .tc := ⟨.hbm, 505, rfl⟩
abbrev main_c_61 : Ref sig .tc := ⟨.hbm, 506, rfl⟩
abbrev main_v273 : Ref sig .tc := ⟨.hbm, 507, rfl⟩
abbrev main_v274 : Ref sig .tc := ⟨.hbm, 508, rfl⟩
abbrev main_v275 : Ref sig .tc := ⟨.hbm, 509, rfl⟩
abbrev main_v276 : Ref sig .tc := ⟨.hbm, 510, rfl⟩
abbrev main_v277 : Ref sig .tc := ⟨.hbm, 511, rfl⟩
abbrev main_c_62 : Ref sig .tc := ⟨.hbm, 512, rfl⟩
abbrev main_v278 : Ref sig .tc := ⟨.hbm, 513, rfl⟩
abbrev main_v279 : Ref sig .tc := ⟨.hbm, 514, rfl⟩
abbrev main_c_63 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_v283 : Ref sig .tc := ⟨.hbm, 519, rfl⟩
abbrev main_v284 : Ref sig .tc := ⟨.hbm, 520, rfl⟩
abbrev main_v285 : Ref sig .tc := ⟨.hbm, 521, rfl⟩
abbrev main_v286 : Ref sig .tc := ⟨.hbm, 522, rfl⟩
abbrev main_v287 : Ref sig .tc := ⟨.hbm, 523, rfl⟩
abbrev main_cst_64 : Ref sig .tc := ⟨.hbm, 524, rfl⟩
abbrev main_v288 : Ref sig .tc := ⟨.hbm, 525, rfl⟩
abbrev main_v289 : Ref sig .tc := ⟨.hbm, 526, rfl⟩
abbrev main_v290 : Ref sig .tc := ⟨.hbm, 527, rfl⟩
abbrev main_v291 : Ref sig .tc := ⟨.hbm, 528, rfl⟩
abbrev main_v292 : Ref sig .tc := ⟨.hbm, 529, rfl⟩
abbrev main_v293 : Ref sig .tc := ⟨.hbm, 530, rfl⟩
abbrev main_c_65 : Ref sig .tc := ⟨.hbm, 531, rfl⟩
abbrev main_v294 : Ref sig .tc := ⟨.hbm, 532, rfl⟩
abbrev main_v295 : Ref sig .tc := ⟨.hbm, 533, rfl⟩
abbrev main_c_66 : Ref sig .tc := ⟨.hbm, 534, rfl⟩
abbrev main_v296 : Ref sig .tc := ⟨.hbm, 535, rfl⟩
abbrev main_v297 : Ref sig .tc := ⟨.hbm, 536, rfl⟩
abbrev main_v298 : Ref sig .tc := ⟨.hbm, 537, rfl⟩
abbrev main_v299 : Ref sig .tc := ⟨.hbm, 538, rfl⟩
abbrev main_v300 : Ref sig .tc := ⟨.hbm, 539, rfl⟩
abbrev main_c_67 : Ref sig .tc := ⟨.hbm, 540, rfl⟩
abbrev main_v301 : Ref sig .tc := ⟨.hbm, 541, rfl⟩
abbrev main_v302 : Ref sig .tc := ⟨.hbm, 542, rfl⟩
abbrev main_c_68 : Ref sig .tc := ⟨.hbm, 543, rfl⟩
abbrev main_v303 : Ref sig .tc := ⟨.hbm, 544, rfl⟩
abbrev main_v304 : Ref sig .tc := ⟨.hbm, 545, rfl⟩
abbrev main_v305 : Ref sig .tc := ⟨.hbm, 546, rfl⟩
abbrev main_v306 : Ref sig .tc := ⟨.hbm, 547, rfl⟩
abbrev main_v307 : Ref sig .tc := ⟨.hbm, 548, rfl⟩
abbrev main_v308 : Ref sig .tc := ⟨.hbm, 549, rfl⟩
abbrev main_v309 : Ref sig .tc := ⟨.hbm, 550, rfl⟩
abbrev main_v310 : Ref sig .tc := ⟨.hbm, 551, rfl⟩
abbrev main_cst_69 : Ref sig .tc := ⟨.hbm, 552, rfl⟩
abbrev main_v311 : Ref sig .tc := ⟨.hbm, 553, rfl⟩
abbrev main_v312 : Ref sig .tc := ⟨.hbm, 554, rfl⟩
abbrev main_v313 : Ref sig .tc := ⟨.hbm, 555, rfl⟩
abbrev main_v314 : Ref sig .tc := ⟨.hbm, 556, rfl⟩
abbrev main_v315 : Ref sig .tc := ⟨.hbm, 557, rfl⟩
abbrev main_v316 : Ref sig .tc := ⟨.hbm, 558, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg4_0 : Ref sig .tc := ⟨.vmem, 35, rfl⟩
abbrev cc6_stg4_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg4_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg4_0 : Ref sig .tc := ⟨.vmem, 49, rfl⟩
abbrev cc8_stg4_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg1_1 : Ref sig .tc := ⟨.vmem, 54, rfl⟩
abbrev cc9_stg2_0 : Ref sig .tc := ⟨.vmem, 55, rfl⟩
abbrev cc9_stg2_1 : Ref sig .tc := ⟨.vmem, 56, rfl⟩
abbrev cc10_stg0_0 : Ref sig .tc := ⟨.vmem, 57, rfl⟩
abbrev cc10_stg0_1 : Ref sig .tc := ⟨.vmem, 58, rfl⟩
abbrev cc10_stg1_0 : Ref sig .tc := ⟨.vmem, 59, rfl⟩
abbrev cc10_stg1_1 : Ref sig .tc := ⟨.vmem, 60, rfl⟩
abbrev cc10_stg2_0 : Ref sig .tc := ⟨.vmem, 61, rfl⟩
abbrev cc10_stg2_1 : Ref sig .tc := ⟨.vmem, 62, rfl⟩
abbrev cc11_stg0_0 : Ref sig .tc := ⟨.vmem, 63, rfl⟩
abbrev cc11_stg0_1 : Ref sig .tc := ⟨.vmem, 64, rfl⟩
abbrev cc11_stg1_0 : Ref sig .tc := ⟨.vmem, 65, rfl⟩
abbrev cc11_stg1_1 : Ref sig .tc := ⟨.vmem, 66, rfl⟩
abbrev cc11_stg2_0 : Ref sig .tc := ⟨.vmem, 67, rfl⟩
abbrev cc11_stg2_1 : Ref sig .tc := ⟨.vmem, 68, rfl⟩
abbrev cc12_stg0_0 : Ref sig .tc := ⟨.vmem, 69, rfl⟩
abbrev cc12_stg0_1 : Ref sig .tc := ⟨.vmem, 70, rfl⟩
abbrev cc12_stg1_0 : Ref sig .tc := ⟨.vmem, 71, rfl⟩
abbrev cc12_stg2_0 : Ref sig .tc := ⟨.vmem, 72, rfl⟩
abbrev cc12_stg2_1 : Ref sig .tc := ⟨.vmem, 73, rfl⟩
abbrev cc13_stg0_0 : Ref sig .tc := ⟨.vmem, 74, rfl⟩
abbrev cc13_stg0_1 : Ref sig .tc := ⟨.vmem, 75, rfl⟩
abbrev cc13_stg1_0 : Ref sig .tc := ⟨.vmem, 76, rfl⟩
abbrev cc13_stg2_0 : Ref sig .tc := ⟨.vmem, 77, rfl⟩
abbrev cc13_stg2_1 : Ref sig .tc := ⟨.vmem, 78, rfl⟩
abbrev cc14_stg0_0 : Ref sig .tc := ⟨.vmem, 79, rfl⟩
abbrev cc14_stg0_1 : Ref sig .tc := ⟨.vmem, 80, rfl⟩
abbrev cc14_stg1_0 : Ref sig .tc := ⟨.vmem, 81, rfl⟩
abbrev cc14_stg2_0 : Ref sig .tc := ⟨.vmem, 82, rfl⟩
abbrev cc14_stg2_1 : Ref sig .tc := ⟨.vmem, 83, rfl⟩
abbrev cc15_stg0_0 : Ref sig .tc := ⟨.vmem, 84, rfl⟩
abbrev cc15_stg0_1 : Ref sig .tc := ⟨.vmem, 85, rfl⟩
abbrev cc15_stg1_0 : Ref sig .tc := ⟨.vmem, 86, rfl⟩
abbrev cc15_stg2_0 : Ref sig .tc := ⟨.vmem, 87, rfl⟩
abbrev cc15_stg2_1 : Ref sig .tc := ⟨.vmem, 88, rfl⟩
abbrev cc16_stg0_0 : Ref sig .tc := ⟨.vmem, 89, rfl⟩
abbrev cc16_stg0_1 : Ref sig .tc := ⟨.vmem, 90, rfl⟩
abbrev cc16_stg1_0 : Ref sig .tc := ⟨.vmem, 91, rfl⟩
abbrev cc16_stg2_0 : Ref sig .tc := ⟨.vmem, 92, rfl⟩
abbrev cc16_stg2_1 : Ref sig .tc := ⟨.vmem, 93, rfl⟩
abbrev cc17_stg0_0 : Ref sig .tc := ⟨.vmem, 94, rfl⟩
abbrev cc17_stg0_1 : Ref sig .tc := ⟨.vmem, 95, rfl⟩
abbrev cc17_stg1_0 : Ref sig .tc := ⟨.vmem, 96, rfl⟩
abbrev cc17_stg2_0 : Ref sig .tc := ⟨.vmem, 97, rfl⟩
abbrev cc17_stg2_1 : Ref sig .tc := ⟨.vmem, 98, rfl⟩
abbrev cc18_stg0_0 : Ref sig .tc := ⟨.vmem, 99, rfl⟩
abbrev cc18_stg0_1 : Ref sig .tc := ⟨.vmem, 100, rfl⟩
abbrev cc18_stg1_0 : Ref sig .tc := ⟨.vmem, 101, rfl⟩
abbrev cc18_stg2_0 : Ref sig .tc := ⟨.vmem, 102, rfl⟩
abbrev cc18_stg3_0 : Ref sig .tc := ⟨.vmem, 103, rfl⟩
abbrev cc18_stg4_0 : Ref sig .tc := ⟨.vmem, 104, rfl⟩
abbrev cc18_stg4_1 : Ref sig .tc := ⟨.vmem, 105, rfl⟩
abbrev cc19_stg0_0 : Ref sig .tc := ⟨.vmem, 106, rfl⟩
abbrev cc19_stg0_1 : Ref sig .tc := ⟨.vmem, 107, rfl⟩
abbrev cc19_stg1_0 : Ref sig .tc := ⟨.vmem, 108, rfl⟩
abbrev cc19_stg2_0 : Ref sig .tc := ⟨.vmem, 109, rfl⟩
abbrev cc19_stg3_0 : Ref sig .tc := ⟨.vmem, 110, rfl⟩
abbrev cc19_stg4_0 : Ref sig .tc := ⟨.vmem, 111, rfl⟩
abbrev cc19_stg4_1 : Ref sig .tc := ⟨.vmem, 112, rfl⟩
abbrev cc20_stg0_0 : Ref sig .tc := ⟨.vmem, 113, rfl⟩
abbrev cc20_stg0_1 : Ref sig .tc := ⟨.vmem, 114, rfl⟩
abbrev cc20_stg1_0 : Ref sig .tc := ⟨.vmem, 115, rfl⟩
abbrev cc20_stg2_0 : Ref sig .tc := ⟨.vmem, 116, rfl⟩
abbrev cc20_stg3_0 : Ref sig .tc := ⟨.vmem, 117, rfl⟩
abbrev cc20_stg4_0 : Ref sig .tc := ⟨.vmem, 118, rfl⟩
abbrev cc20_stg4_1 : Ref sig .tc := ⟨.vmem, 119, rfl⟩
abbrev cc21_stg0_0 : Ref sig .tc := ⟨.vmem, 120, rfl⟩
abbrev cc21_stg0_1 : Ref sig .tc := ⟨.vmem, 121, rfl⟩
abbrev cc21_stg1_0 : Ref sig .tc := ⟨.vmem, 122, rfl⟩
abbrev cc21_stg1_1 : Ref sig .tc := ⟨.vmem, 123, rfl⟩
abbrev cc21_stg2_0 : Ref sig .tc := ⟨.vmem, 124, rfl⟩
abbrev cc21_stg3_0 : Ref sig .tc := ⟨.vmem, 125, rfl⟩
abbrev cc21_stg3_1 : Ref sig .tc := ⟨.vmem, 126, rfl⟩
abbrev cc22_stg0_0 : Ref sig .tc := ⟨.vmem, 127, rfl⟩
abbrev cc22_stg0_1 : Ref sig .tc := ⟨.vmem, 128, rfl⟩
abbrev cc22_stg1_0 : Ref sig .tc := ⟨.vmem, 129, rfl⟩
abbrev cc22_stg1_1 : Ref sig .tc := ⟨.vmem, 130, rfl⟩
abbrev cc22_stg2_0 : Ref sig .tc := ⟨.vmem, 131, rfl⟩
abbrev cc22_stg3_0 : Ref sig .tc := ⟨.vmem, 132, rfl⟩
abbrev cc22_stg3_1 : Ref sig .tc := ⟨.vmem, 133, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem4_0 : DmaSem sig := 35
abbrev cc6_sem4_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem3_0 : DmaSem sig := 41
abbrev cc7_sem4_0 : DmaSem sig := 42
abbrev cc7_sem4_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem4_0 : DmaSem sig := 49
abbrev cc8_sem4_1 : DmaSem sig := 50
abbrev cc9_sem0_0 : DmaSem sig := 51
abbrev cc9_sem0_1 : DmaSem sig := 52
abbrev cc9_sem1_0 : DmaSem sig := 53
abbrev cc9_sem1_1 : DmaSem sig := 54
abbrev cc9_sem2_0 : DmaSem sig := 55
abbrev cc9_sem2_1 : DmaSem sig := 56
abbrev cc10_sem0_0 : DmaSem sig := 57
abbrev cc10_sem0_1 : DmaSem sig := 58
abbrev cc10_sem1_0 : DmaSem sig := 59
abbrev cc10_sem1_1 : DmaSem sig := 60
abbrev cc10_sem2_0 : DmaSem sig := 61
abbrev cc10_sem2_1 : DmaSem sig := 62
abbrev cc11_sem0_0 : DmaSem sig := 63
abbrev cc11_sem0_1 : DmaSem sig := 64
abbrev cc11_sem1_0 : DmaSem sig := 65
abbrev cc11_sem1_1 : DmaSem sig := 66
abbrev cc11_sem2_0 : DmaSem sig := 67
abbrev cc11_sem2_1 : DmaSem sig := 68
abbrev cc12_sem0_0 : DmaSem sig := 69
abbrev cc12_sem0_1 : DmaSem sig := 70
abbrev cc12_sem1_0 : DmaSem sig := 71
abbrev cc12_sem2_0 : DmaSem sig := 72
abbrev cc12_sem2_1 : DmaSem sig := 73
abbrev cc13_sem0_0 : DmaSem sig := 74
abbrev cc13_sem0_1 : DmaSem sig := 75
abbrev cc13_sem1_0 : DmaSem sig := 76
abbrev cc13_sem2_0 : DmaSem sig := 77
abbrev cc13_sem2_1 : DmaSem sig := 78
abbrev cc14_sem0_0 : DmaSem sig := 79
abbrev cc14_sem0_1 : DmaSem sig := 80
abbrev cc14_sem1_0 : DmaSem sig := 81
abbrev cc14_sem2_0 : DmaSem sig := 82
abbrev cc14_sem2_1 : DmaSem sig := 83
abbrev cc15_sem0_0 : DmaSem sig := 84
abbrev cc15_sem0_1 : DmaSem sig := 85
abbrev cc15_sem1_0 : DmaSem sig := 86
abbrev cc15_sem2_0 : DmaSem sig := 87
abbrev cc15_sem2_1 : DmaSem sig := 88
abbrev cc16_sem0_0 : DmaSem sig := 89
abbrev cc16_sem0_1 : DmaSem sig := 90
abbrev cc16_sem1_0 : DmaSem sig := 91
abbrev cc16_sem2_0 : DmaSem sig := 92
abbrev cc16_sem2_1 : DmaSem sig := 93
abbrev cc17_sem0_0 : DmaSem sig := 94
abbrev cc17_sem0_1 : DmaSem sig := 95
abbrev cc17_sem1_0 : DmaSem sig := 96
abbrev cc17_sem2_0 : DmaSem sig := 97
abbrev cc17_sem2_1 : DmaSem sig := 98
abbrev cc18_sem0_0 : DmaSem sig := 99
abbrev cc18_sem0_1 : DmaSem sig := 100
abbrev cc18_sem1_0 : DmaSem sig := 101
abbrev cc18_sem2_0 : DmaSem sig := 102
abbrev cc18_sem3_0 : DmaSem sig := 103
abbrev cc18_sem4_0 : DmaSem sig := 104
abbrev cc18_sem4_1 : DmaSem sig := 105
abbrev cc19_sem0_0 : DmaSem sig := 106
abbrev cc19_sem0_1 : DmaSem sig := 107
abbrev cc19_sem1_0 : DmaSem sig := 108
abbrev cc19_sem2_0 : DmaSem sig := 109
abbrev cc19_sem3_0 : DmaSem sig := 110
abbrev cc19_sem4_0 : DmaSem sig := 111
abbrev cc19_sem4_1 : DmaSem sig := 112
abbrev cc20_sem0_0 : DmaSem sig := 113
abbrev cc20_sem0_1 : DmaSem sig := 114
abbrev cc20_sem1_0 : DmaSem sig := 115
abbrev cc20_sem2_0 : DmaSem sig := 116
abbrev cc20_sem3_0 : DmaSem sig := 117
abbrev cc20_sem4_0 : DmaSem sig := 118
abbrev cc20_sem4_1 : DmaSem sig := 119
abbrev cc21_sem0_0 : DmaSem sig := 120
abbrev cc21_sem0_1 : DmaSem sig := 121
abbrev cc21_sem1_0 : DmaSem sig := 122
abbrev cc21_sem1_1 : DmaSem sig := 123
abbrev cc21_sem2_0 : DmaSem sig := 124
abbrev cc21_sem3_0 : DmaSem sig := 125
abbrev cc21_sem3_1 : DmaSem sig := 126
abbrev cc22_sem0_0 : DmaSem sig := 127
abbrev cc22_sem0_1 : DmaSem sig := 128
abbrev cc22_sem1_0 : DmaSem sig := 129
abbrev cc22_sem1_1 : DmaSem sig := 130
abbrev cc22_sem2_0 : DmaSem sig := 131
abbrev cc22_sem3_0 : DmaSem sig := 132
abbrev cc22_sem3_1 : DmaSem sig := 133

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S10000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S10000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S10000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S64x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S10000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S10000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x64 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S64x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 2 → Memref sig .tc .vmem S10000x128 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S64x64 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 2 → Memref sig .tc .vmem S10000x64 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S64x64 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S10000x64 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev grid21 : Pipeline.Grid := ⟨1, ![100], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S5000x64 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S64x16 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S5000x16 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev grid22 : Pipeline.Grid := ⟨1, ![100], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x64 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S64x16 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S5000x16 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

class Facts₀ : Prop where
  bcast_S_S500000x1 : S_.BroadcastsInDim S500000x1 (![] : Fin 0 → Fin S500000x1.rank)
  bcast_S_S100000x1 : S_.BroadcastsInDim S100000x1 (![] : Fin 0 → Fin S100000x1.rank)
  bcast_S500000_S500000x1_0 : S500000.BroadcastsInDim S500000x1 (![0] : Fin 1 → Fin S500000x1.rank)
  bcast_S_S100000x64 : S_.BroadcastsInDim S100000x64 (![] : Fin 0 → Fin S100000x64.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  slices_S3x2x16x64_S1x1x16x64_0_0_0_0 : S3x2x16x64.Slices ![0, 0, 0, 0] S1x1x16x64
  shapeCasts_S1x1x16x64_S16x64 : S1x1x16x64.ShapeCasts S16x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S10000x64_S10000x64_0_0 : ∀ a, (![0, 0] : Fin 2 → Nat) a + S10000x64.size a ≤ S10000x64.size a
  h_S10000x64 : 0 < S10000x64.numel
  slices_S3x2x16x64_S1x1x16x64_0_1_0_0 : S3x2x16x64.Slices ![0, 1, 0, 0] S1x1x16x64
  slices_S3x2x16x64_S1x1x16x64_1_0_0_0 : S3x2x16x64.Slices ![1, 0, 0, 0] S1x1x16x64
  slices_S3x2x16x64_S1x1x16x64_1_1_0_0 : S3x2x16x64.Slices ![1, 1, 0, 0] S1x1x16x64
  slices_S3x2x16x64_S1x1x16x64_2_0_0_0 : S3x2x16x64.Slices ![2, 0, 0, 0] S1x1x16x64
  slices_S3x2x16x64_S1x1x16x64_2_1_0_0 : S3x2x16x64.Slices ![2, 1, 0, 0] S1x1x16x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S3x2x64x64_S1x1x64x64_0_0_0_0 : S3x2x64x64.Slices ![0, 0, 0, 0] S1x1x64x64
  shapeCasts_S1x1x64x64_S64x64 : S1x1x64x64.ShapeCasts S64x64
  slices_S3x2x64x64_S1x1x64x64_0_1_0_0 : S3x2x64x64.Slices ![0, 1, 0, 0] S1x1x64x64
  slices_S3x2x64x64_S1x1x64x64_1_0_0_0 : S3x2x64x64.Slices ![1, 0, 0, 0] S1x1x64x64
  slices_S3x2x64x64_S1x1x64x64_1_1_0_0 : S3x2x64x64.Slices ![1, 1, 0, 0] S1x1x64x64
  slices_S3x2x64x64_S1x1x64x64_2_0_0_0 : S3x2x64x64.Slices ![2, 0, 0, 0] S1x1x64x64
  slices_S3x2x64x64_S1x1x64x64_2_1_0_0 : S3x2x64x64.Slices ![2, 1, 0, 0] S1x1x64x64
  concatenates_S64x64_S64x64_S64x128_d1 : Shape.Concatenates [S64x64, S64x64] S64x128 1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x128_S10000x128_0_0 : ∀ a, (![0, 0] : Fin 2 → Nat) a + S10000x128.size a ≤ S10000x128.size a
  h_S10000x128 : 0 < S10000x128.numel
  slices_S100000x128_S100000x64_0_0 : S100000x128.Slices ![0, 0] S100000x64
  slices_S100000x128_S100000x64_0_64 : S100000x128.Slices ![0, 64] S100000x64
  bcast_S_S500000 : S_.BroadcastsInDim S500000 (![] : Fin 0 → Fin S500000.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x2x64x16_S1x1x64x16_0_0_0_0 : S3x2x64x16.Slices ![0, 0, 0, 0] S1x1x64x16
  shapeCasts_S1x1x64x16_S64x16 : S1x1x64x16.ShapeCasts S64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S5000x16_S5000x16_0_0 : ∀ a, (![0, 0] : Fin 2 → Nat) a + S5000x16.size a ≤ S5000x16.size a
  h_S5000x16 : 0 < S5000x16.numel
  slices_S3x2x64x16_S1x1x64x16_2_0_0_0 : S3x2x64x16.Slices ![2, 0, 0, 0] S1x1x64x16
  scatter_S100000x1_S500000x1_S500000x1_1_0_0_1_wf : ScatterDims.WF S100000x1 S500000x1 S500000x1 [1] [0] [0] 1
  scatter_S100000x16_S500000x1_S500000x16_1_0_0_1_wf : ScatterDims.WF S100000x16 S500000x1 S500000x16 [1] [0] [0] 1
  dot_S10000x16_S16x64_S10000x64_1_0_0_1_n_n_wf : DotDims.WF S10000x16 S16x64 S10000x64 [1] [0] [0] [1] [] []
  dot_S10000x64_S64x128_S10000x128_1_0_0_1_n_n_wf : DotDims.WF S10000x64 S64x128 S10000x128 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  dot_S10000x64_S64x64_S10000x64_1_0_0_1_n_n_wf : DotDims.WF S10000x64 S64x64 S10000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x64.size a ≤ S16x64.size a
  hwx3_1 : ∀ i : grid3.Coords, EltTy.bits .f32 = 32 ∨ (Rect.block (s := S16x64) S16x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x64.size a ≤ S16x64.size a
  hwx4_1 : ∀ i : grid4.Coords, EltTy.bits .f32 = 32 ∨ (Rect.block (s := S16x64) S16x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x64.size a ≤ S16x64.size a
  hwx5_1 : ∀ i : grid5.Coords, EltTy.bits .f32 = 32 ∨ (Rect.block (s := S16x64) S16x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S100000x128.size a
  hwx6_4 : ∀ i : grid6.Coords, EltTy.bits .f32 = 32 ∨ (Rect.block (s := S100000x128) S10000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x128.size a ≤ S64x128.size a
  hwx7_3 : ∀ i : grid7.Coords, EltTy.bits .f32 = 32 ∨ (Rect.block (s := S64x128) S64x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x128.size a ≤ S100000x128.size a
  hwx7_4 : ∀ i : grid7.Coords, EltTy.bits .f32 = 32 ∨ (Rect.block (s := S100000x128) S10000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x128.size a ≤ S64x128.size a
  hwx8_3 : ∀ i : grid8.Coords, EltTy.bits .f32 = 32 ∨ (Rect.block (s := S64x128) S64x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x128.size a ≤ S100000x128.size a
  hwx8_4 : ∀ i : grid8.Coords, EltTy.bits .f32 = 32 ∨ (Rect.block (s := S100000x128) S10000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S500000x64.size a
  hwx9_0 : ∀ i : grid9.Coords, EltTy.bits .f32 = 32 ∨ (Rect.block (s := S500000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S500000x64.size a
  hwx9_1 : ∀ i : grid9.Coords, EltTy.bits .f32 = 32 ∨ (Rect.block (s := S500000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S500000x64.size a
  hwx9_2 : ∀ i : grid9.Coords, EltTy.bits .f32 = 32 ∨ (Rect.block (s := S500000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S500000x64.size a
  hwx10_0 : ∀ i : grid10.Coords, EltTy.bits .f32 = 32 ∨ (Rect.block (s := S500000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S500000x64.size a
  hwx10_1 : ∀ i : grid10.Coords, EltTy.bits .f32 = 32 ∨ (Rect.block (s := S500000x64) S5000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S500000x64.size a
  hwx10_2 : ∀ i : grid10.Coords, EltTy.bits .f32 = 32 ∨ (Rect.block (s := S500000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S500000x64.size a
  hwx11_0 : ∀ i : grid11.Coords, EltTy.bits .f32 = 32 ∨ (Rect.block (s := S500000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S500000x64.size a
  hwx11_1 : ∀ i : grid11.Coords, EltTy.bits .f32 = 32 ∨ (Rect.block (s := S500000x64) S5000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S500000x64.size a
  hwx11_2 : ∀ i : grid11.Coords, EltTy.bits .f32 = 32 ∨ (Rect.block (s := S500000x64) S5000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x64.size a ≤ S100000x64.size a
  hwx12_2 : ∀ i : grid12.Coords, EltTy.bits .f32 = 32 ∨ (Rect.block (s := S100000x64) S10000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S10000x64.size a ≤ S100000x64.size a
  hwx13_2 : ∀ i : grid13.Coords, EltTy.bits .f32 = 32 ∨ (Rect.block (s := S100000x64) S10000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x64.size a ≤ S64x64.size a
  hwx14_1 : ∀ i : grid14.Coords, EltTy.bits .f32 = 32 ∨ (Rect.block (s := S64x64) S64x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x64.size a ≤ S100000x64.size a
  hwx14_2 : ∀ i : grid14.Coords, EltTy.bits .f32 = 32 ∨ (Rect.block (s := S100000x64) S10000x64.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x64.size a ≤ S100000x64.size a
  hwx15_0 : ∀ i : grid15.Coords, EltTy.bits .f32 = 32 ∨ (Rect.block (s := S100000x64) S10000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S10000x64.size a ≤ S100000x64.size a
  hwx15_2 : ∀ i : grid15.Coords, EltTy.bits .f32 = 32 ∨ (Rect.block (s := S100000x64) S10000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x64.size a ≤ S100000x64.size a
  hwx16_0 : ∀ i : grid16.Coords, EltTy.bits .f32 = 32 ∨ (Rect.block (s := S100000x64) S10000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x64.size a ≤ S64x64.size a
  hwx16_1 : ∀ i : grid16.Coords, EltTy.bits .f32 = 32 ∨ (Rect.block (s := S64x64) S64x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x64.size a ≤ S100000x64.size a
  hwx16_2 : ∀ i : grid16.Coords, EltTy.bits .f32 = 32 ∨ (Rect.block (s := S100000x64) S10000x64.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x64.size a ≤ S100000x64.size a
  hwx17_0 : ∀ i : grid17.Coords, EltTy.bits .f32 = 32 ∨ (Rect.block (s := S100000x64) S10000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S10000x64.size a ≤ S100000x64.size a
  hwx17_2 : ∀ i : grid17.Coords, EltTy.bits .f32 = 32 ∨ (Rect.block (s := S100000x64) S10000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x64.size a ≤ S100000x64.size a
  hwx18_0 : ∀ i : grid18.Coords, EltTy.bits .f32 = 32 ∨ (Rect.block (s := S100000x64) S10000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x64.size a ≤ S1x64.size a
  hwx18_1 : ∀ i : grid18.Coords, EltTy.bits .f32 = 32 ∨ (Rect.block (s := S1x64) S1x64.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x64.size a ≤ S1x64.size a
  hwx18_2 : ∀ i : grid18.Coords, EltTy.bits .f32 = 32 ∨ (Rect.block (s := S1x64) S1x64.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S64x128.size a ≤ S64x128.size a
  hwx18_3 : ∀ i : grid18.Coords, EltTy.bits .f32 = 32 ∨ (Rect.block (s := S64x128) S64x128.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S10000x128.size a ≤ S100000x128.size a
  hwx18_4 : ∀ i : grid18.Coords, EltTy.bits .f32 = 32 ∨ (Rect.block (s := S100000x128) S10000x128.size (cc18_transform_4 i) (hinb18_4 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x64.size a ≤ S100000x64.size a
  hwx19_0 : ∀ i : grid19.Coords, EltTy.bits .f32 = 32 ∨ (Rect.block (s := S100000x64) S10000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x64.size a ≤ S1x64.size a
  hwx19_1 : ∀ i : grid19.Coords, EltTy.bits .f32 = 32 ∨ (Rect.block (s := S1x64) S1x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S64x64.size a ≤ S64x64.size a
  hwx19_3 : ∀ i : grid19.Coords, EltTy.bits .f32 = 32 ∨ (Rect.block (s := S64x64) S64x64.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S10000x64.size a ≤ S100000x64.size a
  hwx19_4 : ∀ i : grid19.Coords, EltTy.bits .f32 = 32 ∨ (Rect.block (s := S100000x64) S10000x64.size (cc19_transform_4 i) (hinb19_4 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x64.size a ≤ S100000x64.size a
  hwx20_0 : ∀ i : grid20.Coords, EltTy.bits .f32 = 32 ∨ (Rect.block (s := S100000x64) S10000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x64.size a ≤ S1x64.size a
  hwx20_1 : ∀ i : grid20.Coords, EltTy.bits .f32 = 32 ∨ (Rect.block (s := S1x64) S1x64.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x64.size a ≤ S1x64.size a
  hwx20_2 : ∀ i : grid20.Coords, EltTy.bits .f32 = 32 ∨ (Rect.block (s := S1x64) S1x64.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S64x64.size a ≤ S64x64.size a
  hwx20_3 : ∀ i : grid20.Coords, EltTy.bits .f32 = 32 ∨ (Rect.block (s := S64x64) S64x64.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S10000x64.size a ≤ S100000x64.size a
  hwx20_4 : ∀ i : grid20.Coords, EltTy.bits .f32 = 32 ∨ (Rect.block (s := S100000x64) S10000x64.size (cc20_transform_4 i) (hinb20_4 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x64.size a ≤ S500000x64.size a
  hwx21_0 : ∀ i : grid21.Coords, EltTy.bits .f32 = 32 ∨ (Rect.block (s := S500000x64) S5000x64.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S5000x64.size a ≤ S500000x64.size a
  hwx21_1 : ∀ i : grid21.Coords, EltTy.bits .f32 = 32 ∨ (Rect.block (s := S500000x64) S5000x64.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S64x16.size a ≤ S64x16.size a
  hwx21_2 : ∀ i : grid21.Coords, EltTy.bits .f32 = 32 ∨ (Rect.block (s := S64x16) S64x16.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S5000x16.size a ≤ S500000x16.size a
  hwx21_3 : ∀ i : grid21.Coords, EltTy.bits .f32 = 32 ∨ (Rect.block (s := S500000x16) S5000x16.size (cc21_transform_3 i) (hinb21_3 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x64.size a ≤ S500000x64.size a
  hwx22_0 : ∀ i : grid22.Coords, EltTy.bits .f32 = 32 ∨ (Rect.block (s := S500000x64) S5000x64.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x64.size a ≤ S500000x64.size a
  hwx22_1 : ∀ i : grid22.Coords, EltTy.bits .f32 = 32 ∨ (Rect.block (s := S500000x64) S5000x64.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S64x16.size a ≤ S64x16.size a
  hwx22_2 : ∀ i : grid22.Coords, EltTy.bits .f32 = 32 ∨ (Rect.block (s := S64x16) S64x16.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S5000x16.size a ≤ S500000x16.size a
  hwx22_3 : ∀ i : grid22.Coords, EltTy.bits .f32 = 32 ∨ (Rect.block (s := S500000x16) S5000x16.size (cc22_transform_3 i) (hinb22_3 i)).WholeWords (EltTy.packing .f32)

variable [Facts₀]

def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000x16_S500000x1_S500000x16_1_0_0_1 : ScatterDims S100000x16 S500000x1 S500000x16 where
  updateWindowDims := [1]
  insertedWindowDims := [0]
  scatterDimsToOperandDims := [0]
  indexVectorDim := 1
  wf := scatter_S100000x16_S500000x1_S500000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v41) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S16x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S16x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S16x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v104) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v121) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v122) S10000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v68) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v125) S64x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S10000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v87) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v102) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v108) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v129) S64x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v130) S10000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v139) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v146) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v147) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v154) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v161) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v162) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v169) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v176) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v177) S5000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v188) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v192) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v193) S10000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v190) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v195) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v196) S10000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v206) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v210) S64x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v211) S10000x64.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v208) S10000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v213) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v214) S10000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v224) S10000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v228) S64x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v229) S10000x64.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v226) S10000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v231) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v232) S10000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v233) S10000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v239) S1x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v251) S1x64.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v264) S64x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v265) S10000x128.size cc18_transform_4 reads18_4 true false 2 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

abbrev win19_0 : Pipeline.Window sig grid19 :=
  Pipeline.Window.ofSpec (Memref.whole main_v215) S10000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v244) S1x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v253) S1x64.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v259) S64x64.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v268) S10000x64.size cc19_transform_4 reads19_4 true false 2 stage19_4 sem19_4
    hrank19 hreads19_4 hinb19_4 nbuf19_4 (Memref.isWhole_whole _) hwx19_4 hstage19_4

abbrev win19 : Fin 5 → Pipeline.Window sig grid19 := fun | 0 => win19_0 | 1 => win19_1 | 2 => win19_2 | 3 => win19_3 | 4 => win19_4 | ⟨_ + 5, h⟩ => absurd h (Nat.not_lt.2 (Nat.le_add_left _ _))
abbrev spec19 : Fin 5 → Pipeline.WinSpec sig grid19.rank := fun w => (win19 w).toWinSpec

abbrev win20_0 : Pipeline.Window sig grid20 :=
  Pipeline.Window.ofSpec (Memref.whole main_v234) S10000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v249) S1x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v255) S1x64.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v263) S64x64.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v269) S10000x64.size cc20_transform_4 reads20_4 true false 2 stage20_4 sem20_4
    hrank20 hreads20_4 hinb20_4 nbuf20_4 (Memref.isWhole_whole _) hwx20_4 hstage20_4

abbrev win20 : Fin 5 → Pipeline.Window sig grid20 := fun | 0 => win20_0 | 1 => win20_1 | 2 => win20_2 | 3 => win20_3 | 4 => win20_4 | ⟨_ + 5, h⟩ => absurd h (Nat.not_lt.2 (Nat.le_add_left _ _))
abbrev spec20 : Fin 5 → Pipeline.WinSpec sig grid20.rank := fun w => (win20 w).toWinSpec

abbrev win21_0 : Pipeline.Window sig grid21 :=
  Pipeline.Window.ofSpec (Memref.whole main_v277) S5000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v284) S5000x64.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v286) S64x16.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v287) S5000x16.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v300) S5000x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v307) S5000x64.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v309) S64x16.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v310) S5000x16.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

class Facts : Prop extends Facts₀ where

variable [Facts]
-- ==== ReferenceIdeal.lean ====
abbrev S500000x16 : Shape := ⟨2, ![500000, 16]⟩
abbrev S500000 : Shape := ⟨1, ![500000]⟩
abbrev S3x2x16x64 : Shape := ⟨4, ![3, 2, 16, 64]⟩
abbrev S3x2x64x64 : Shape := ⟨4, ![3, 2, 64, 64]⟩
abbrev S3x2x64x16 : Shape := ⟨4, ![3, 2, 64, 16]⟩
abbrev S_ : Shape := ⟨0, ![]⟩
abbrev S100000x64 : Shape := ⟨2, ![100000, 64]⟩
abbrev S100000x16 : Shape := ⟨2, ![100000, 16]⟩
abbrev S500000x1 : Shape := ⟨2, ![500000, 1]⟩
abbrev S100000x1 : Shape := ⟨2, ![100000, 1]⟩
abbrev S1x1x16x64 : Shape := ⟨4, ![1, 1, 16, 64]⟩
abbrev S16x64 : Shape := ⟨2, ![16, 64]⟩
abbrev S64 : Shape := ⟨1, ![64]⟩
abbrev S1x64 : Shape := ⟨2, ![1, 64]⟩
abbrev S500000x64 : Shape := ⟨2, ![500000, 64]⟩
abbrev S1x1x64x64 : Shape := ⟨4, ![1, 1, 64, 64]⟩
abbrev S64x64 : Shape := ⟨2, ![64, 64]⟩
abbrev S1x1x64x16 : Shape := ⟨4, ![1, 1, 64, 16]⟩
abbrev S64x16 : Shape := ⟨2, ![64, 16]⟩

abbrev nBuf : Space → Nat
  | .hbm => 788
  | .vmem => 0
  | .smem => 0
  | _ => 0

abbrev hbmTy0_0 (i : Nat) : BufTy := match i % 128 with
  | 0 => ⟨S500000x16, .f32⟩
  | 1 => ⟨S500000x16, .f32⟩
  | 2 => ⟨S500000x16, .f32⟩
  | 3 => ⟨S500000, .i32⟩
  | 4 => ⟨S500000, .i32⟩
  | 5 => ⟨S500000, .i32⟩
  | 6 => ⟨S500000, .i32⟩
  | 7 => ⟨S500000, .i32⟩
  | 8 => ⟨S500000, .i32⟩
  | 9 => ⟨S3x2x16x64, .f32⟩
  | 10 => ⟨S3x2x64x64, .f32⟩
  | 11 => ⟨S3x2x64x16, .f32⟩
  | 12 => ⟨S3x2x64x64, .f32⟩
  | 13 => ⟨S3x2x64x64, .f32⟩
  | 14 => ⟨S_, .f32⟩
  | 15 => ⟨S100000x64, .f32⟩
  | 16 => ⟨S_, .f32⟩
  | 17 => ⟨S100000x64, .f32⟩
  | 18 => ⟨S_, .f32⟩
  | 19 => ⟨S100000x64, .f32⟩
  | 20 => ⟨S_, .f32⟩
  | 21 => ⟨S100000x16, .f32⟩
  | 22 => ⟨S500000x1, .i32⟩
  | 23 => ⟨S100000x16, .f32⟩
  | 24 => ⟨S_, .f32⟩
  | 25 => ⟨S500000x1, .f32⟩
  | 26 => ⟨S_, .f32⟩
  | 27 => ⟨S100000x1, .f32⟩
  | 28 => ⟨S500000x1, .i32⟩
  | 29 => ⟨S100000x1, .f32⟩
  | 30 => ⟨S_, .f32⟩
  | 31 => ⟨S100000x1, .f32⟩
  | 32 => ⟨S100000x1, .f32⟩
  | 33 => ⟨S100000x16, .f32⟩
  | 34 => ⟨S100000x16, .f32⟩
  | 35 => ⟨S1x1x16x64, .f32⟩
  | 36 => ⟨S16x64, .f32⟩
  | 37 => ⟨S100000x64, .f32⟩
  | 38 => ⟨S100000x64, .f32⟩
  | 39 => ⟨S_, .f32⟩
  | 40 => ⟨S100000x16, .f32⟩
  | 41 => ⟨S500000x1, .i32⟩
  | 42 => ⟨S100000x16, .f32⟩
  | 43 => ⟨S_, .f32⟩
  | 44 => ⟨S500000x1, .f32⟩
  | 45 => ⟨S_, .f32⟩
  | 46 => ⟨S100000x1, .f32⟩
  | 47 => ⟨S500000x1, .i32⟩
  | 48 => ⟨S100000x1, .f32⟩
  | 49 => ⟨S_, .f32⟩
  | 50 => ⟨S100000x1, .f32⟩
  | 51 => ⟨S100000x1, .f32⟩
  | 52 => ⟨S100000x16, .f32⟩
  | 53 => ⟨S100000x16, .f32⟩
  | 54 => ⟨S1x1x16x64, .f32⟩
  | 55 => ⟨S16x64, .f32⟩
  | 56 => ⟨S100000x64, .f32⟩
  | 57 => ⟨S100000x64, .f32⟩
  | 58 => ⟨S_, .f32⟩
  | 59 => ⟨S100000x16, .f32⟩
  | 60 => ⟨S500000x1, .i32⟩
  | 61 => ⟨S100000x16, .f32⟩
  | 62 => ⟨S_, .f32⟩
  | 63 => ⟨S500000x1, .f32⟩
  | 64 => ⟨S_, .f32⟩
  | 65 => ⟨S100000x1, .f32⟩
  | 66 => ⟨S500000x1, .i32⟩
  | 67 => ⟨S100000x1, .f32⟩
  | 68 => ⟨S_, .f32⟩
  | 69 => ⟨S100000x1, .f32⟩
  | 70 => ⟨S100000x1, .f32⟩
  | 71 => ⟨S100000x16, .f32⟩
  | 72 => ⟨S100000x16, .f32⟩
  | 73 => ⟨S1x1x16x64, .f32⟩
  | 74 => ⟨S16x64, .f32⟩
  | 75 => ⟨S100000x64, .f32⟩
  | 76 => ⟨S100000x64, .f32⟩
  | 77 => ⟨S_, .f32⟩
  | 78 => ⟨S100000x16, .f32⟩
  | 79 => ⟨S500000x1, .i32⟩
  | 80 => ⟨S100000x16, .f32⟩
  | 81 => ⟨S_, .f32⟩
  | 82 => ⟨S500000x1, .f32⟩
  | 83 => ⟨S_, .f32⟩
  | 84 => ⟨S100000x1, .f32⟩
  | 85 => ⟨S500000x1, .i32⟩
  | 86 => ⟨S100000x1, .f32⟩
  | 87 => ⟨S_, .f32⟩
  | 88 => ⟨S100000x1, .f32⟩
  | 89 => ⟨S100000x1, .f32⟩
  | 90 => ⟨S100000x16, .f32⟩
  | 91 => ⟨S100000x16, .f32⟩
  | 92 => ⟨S1x1x16x64, .f32⟩
  | 93 => ⟨S16x64, .f32⟩
  | 94 => ⟨S100000x64, .f32⟩
  | 95 => ⟨S100000x64, .f32⟩
  | 96 => ⟨S_, .f32⟩
  | 97 => ⟨S100000x16, .f32⟩
  | 98 => ⟨S500000x1, .i32⟩
  | 99 => ⟨S100000x16, .f32⟩
  | 100 => ⟨S_, .f32⟩
  | 101 => ⟨S500000x1, .f32⟩
  | 102 => ⟨S_, .f32⟩
  | 103 => ⟨S100000x1, .f32⟩
  | 104 => ⟨S500000x1, .i32⟩
  | 105 => ⟨S100000x1, .f32⟩
  | 106 => ⟨S_, .f32⟩
  | 107 => ⟨S100000x1, .f32⟩
  | 108 => ⟨S100000x1, .f32⟩
  | 109 => ⟨S100000x16, .f32⟩
  | 110 => ⟨S100000x16, .f32⟩
  | 111 => ⟨S1x1x16x64, .f32⟩
  | 112 => ⟨S16x64, .f32⟩
  | 113 => ⟨S100000x64, .f32⟩
  | 114 => ⟨S100000x64, .f32⟩
  | 115 => ⟨S_, .f32⟩
  | 116 => ⟨S100000x16, .f32⟩
  | 117 => ⟨S500000x1, .i32⟩
  | 118 => ⟨S100000x16, .f32⟩
  | 119 => ⟨S_, .f32⟩
  | 120 => ⟨S500000x1, .f32⟩
  | 121 => ⟨S_, .f32⟩
  | 122 => ⟨S100000x1, .f32⟩
  | 123 => ⟨S500000x1, .i32⟩
  | 124 => ⟨S100000x1, .f32⟩
  | 125 => ⟨S_, .f32⟩
  | 126 => ⟨S100000x1, .f32⟩
  | 127 => ⟨S100000x1, .f32⟩
  | _ => ⟨S500000x16, .f32⟩

abbrev hbmTy0_1 (i : Nat) : BufTy := match i % 128 with
  | 0 => ⟨S100000x16, .f32⟩
  | 1 => ⟨S100000x16, .f32⟩
  | 2 => ⟨S1x1x16x64, .f32⟩
  | 3 => ⟨S16x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S64, .f32⟩
  | 11 => ⟨S1x64, .f32⟩
  | 12 => ⟨S_, .f32⟩
  | 13 => ⟨S1x64, .f32⟩
  | 14 => ⟨S1x64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S64, .f32⟩
  | 30 => ⟨S1x64, .f32⟩
  | 31 => ⟨S1x64, .f32⟩
  | 32 => ⟨S1x64, .f32⟩
  | 33 => ⟨S_, .f32⟩
  | 34 => ⟨S_, .i1⟩
  | 35 => ⟨S_, .f32⟩
  | 36 => ⟨S_, .f32⟩
  | 37 => ⟨S1x64, .f32⟩
  | 38 => ⟨S1x64, .f32⟩
  | 39 => ⟨S100000x64, .f32⟩
  | 40 => ⟨S100000x64, .f32⟩
  | 41 => ⟨S_, .f32⟩
  | 42 => ⟨S1x64, .f32⟩
  | 43 => ⟨S1x64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S_, .f32⟩
  | 51 => ⟨S64, .f32⟩
  | 52 => ⟨S1x64, .f32⟩
  | 53 => ⟨S_, .f32⟩
  | 54 => ⟨S1x64, .f32⟩
  | 55 => ⟨S1x64, .f32⟩
  | 56 => ⟨S_, .i32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S100000x64, .f32⟩
  | 64 => ⟨S100000x64, .f32⟩
  | 65 => ⟨S100000x64, .f32⟩
  | 66 => ⟨S_, .f32⟩
  | 67 => ⟨S_, .f32⟩
  | 68 => ⟨S_, .f32⟩
  | 69 => ⟨S_, .f32⟩
  | 70 => ⟨S64, .f32⟩
  | 71 => ⟨S1x64, .f32⟩
  | 72 => ⟨S1x64, .f32⟩
  | 73 => ⟨S1x64, .f32⟩
  | 74 => ⟨S_, .f32⟩
  | 75 => ⟨S_, .i1⟩
  | 76 => ⟨S_, .f32⟩
  | 77 => ⟨S_, .f32⟩
  | 78 => ⟨S1x64, .f32⟩
  | 79 => ⟨S1x64, .f32⟩
  | 80 => ⟨S100000x64, .f32⟩
  | 81 => ⟨S100000x64, .f32⟩
  | 82 => ⟨S_, .f32⟩
  | 83 => ⟨S1x64, .f32⟩
  | 84 => ⟨S1x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S_, .i32⟩
  | 98 => ⟨S_, .f32⟩
  | 99 => ⟨S64, .f32⟩
  | 100 => ⟨S1x64, .f32⟩
  | 101 => ⟨S_, .f32⟩
  | 102 => ⟨S1x64, .f32⟩
  | 103 => ⟨S1x64, .f32⟩
  | 104 => ⟨S100000x64, .f32⟩
  | 105 => ⟨S100000x64, .f32⟩
  | 106 => ⟨S100000x64, .f32⟩
  | 107 => ⟨S_, .f32⟩
  | 108 => ⟨S_, .f32⟩
  | 109 => ⟨S_, .f32⟩
  | 110 => ⟨S_, .f32⟩
  | 111 => ⟨S64, .f32⟩
  | 112 => ⟨S1x64, .f32⟩
  | 113 => ⟨S1x64, .f32⟩
  | 114 => ⟨S1x64, .f32⟩
  | 115 => ⟨S_, .f32⟩
  | 116 => ⟨S_, .i1⟩
  | 117 => ⟨S_, .f32⟩
  | 118 => ⟨S_, .f32⟩
  | 119 => ⟨S1x64, .f32⟩
  | 120 => ⟨S1x64, .f32⟩
  | 121 => ⟨S100000x64, .f32⟩
  | 122 => ⟨S100000x64, .f32⟩
  | 123 => ⟨S_, .f32⟩
  | 124 => ⟨S1x64, .f32⟩
  | 125 => ⟨S1x64, .f32⟩
  | 126 => ⟨S1x64, .f32⟩
  | 127 => ⟨S100000x64, .f32⟩
  | _ => ⟨S500000x16, .f32⟩

abbrev hbmTy0_2 (i : Nat) : BufTy := match i % 128 with
  | 0 => ⟨S100000x64, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x64, .f32⟩
  | 10 => ⟨S1x1x64x64, .f32⟩
  | 11 => ⟨S64x64, .f32⟩
  | 12 => ⟨S500000x64, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x64, .f32⟩
  | 22 => ⟨S1x1x64x64, .f32⟩
  | 23 => ⟨S64x64, .f32⟩
  | 24 => ⟨S500000x64, .f32⟩
  | 25 => ⟨S500000x64, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x64, .f32⟩
  | 35 => ⟨S1x1x64x64, .f32⟩
  | 36 => ⟨S64x64, .f32⟩
  | 37 => ⟨S500000x64, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x64, .f32⟩
  | 47 => ⟨S1x1x64x64, .f32⟩
  | 48 => ⟨S64x64, .f32⟩
  | 49 => ⟨S500000x64, .f32⟩
  | 50 => ⟨S500000x64, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x64, .f32⟩
  | 60 => ⟨S1x1x64x64, .f32⟩
  | 61 => ⟨S64x64, .f32⟩
  | 62 => ⟨S500000x64, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x64, .f32⟩
  | 72 => ⟨S1x1x64x64, .f32⟩
  | 73 => ⟨S64x64, .f32⟩
  | 74 => ⟨S500000x64, .f32⟩
  | 75 => ⟨S500000x64, .f32⟩
  | 76 => ⟨S_, .f32⟩
  | 77 => ⟨S500000x64, .f32⟩
  | 78 => ⟨S500000x64, .f32⟩
  | 79 => ⟨S_, .f32⟩
  | 80 => ⟨S500000x64, .f32⟩
  | 81 => ⟨S500000x64, .f32⟩
  | 82 => ⟨S_, .f32⟩
  | 83 => ⟨S500000x64, .f32⟩
  | 84 => ⟨S500000x64, .f32⟩
  | 85 => ⟨S_, .f32⟩
  | 86 => ⟨S100000x64, .f32⟩
  | 87 => ⟨S_, .f32⟩
  | 88 => ⟨S100000x64, .f32⟩
  | 89 => ⟨S_, .f32⟩
  | 90 => ⟨S100000x64, .f32⟩
  | 91 => ⟨S_, .f32⟩
  | 92 => ⟨S100000x64, .f32⟩
  | 93 => ⟨S500000x1, .i32⟩
  | 94 => ⟨S100000x64, .f32⟩
  | 95 => ⟨S_, .f32⟩
  | 96 => ⟨S500000x1, .f32⟩
  | 97 => ⟨S_, .f32⟩
  | 98 => ⟨S100000x1, .f32⟩
  | 99 => ⟨S500000x1, .i32⟩
  | 100 => ⟨S100000x1, .f32⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S1x1x64x64, .f32⟩
  | 107 => ⟨S64x64, .f32⟩
  | 108 => ⟨S100000x64, .f32⟩
  | 109 => ⟨S100000x64, .f32⟩
  | 110 => ⟨S_, .f32⟩
  | 111 => ⟨S100000x64, .f32⟩
  | 112 => ⟨S500000x1, .i32⟩
  | 113 => ⟨S100000x64, .f32⟩
  | 114 => ⟨S_, .f32⟩
  | 115 => ⟨S500000x1, .f32⟩
  | 116 => ⟨S_, .f32⟩
  | 117 => ⟨S100000x1, .f32⟩
  | 118 => ⟨S500000x1, .i32⟩
  | 119 => ⟨S100000x1, .f32⟩
  | 120 => ⟨S_, .f32⟩
  | 121 => ⟨S100000x1, .f32⟩
  | 122 => ⟨S100000x1, .f32⟩
  | 123 => ⟨S100000x64, .f32⟩
  | 124 => ⟨S100000x64, .f32⟩
  | 125 => ⟨S1x1x64x64, .f32⟩
  | 126 => ⟨S64x64, .f32⟩
  | 127 => ⟨S100000x64, .f32⟩
  | _ => ⟨S500000x16, .f32⟩

abbrev hbmTy0_3 (i : Nat) : BufTy := match i % 128 with
  | 0 => ⟨S100000x64, .f32⟩
  | 1 => ⟨S_, .f32⟩
  | 2 => ⟨S100000x64, .f32⟩
  | 3 => ⟨S500000x1, .i32⟩
  | 4 => ⟨S100000x64, .f32⟩
  | 5 => ⟨S_, .f32⟩
  | 6 => ⟨S500000x1, .f32⟩
  | 7 => ⟨S_, .f32⟩
  | 8 => ⟨S100000x1, .f32⟩
  | 9 => ⟨S500000x1, .i32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | 16 => ⟨S1x1x64x64, .f32⟩
  | 17 => ⟨S64x64, .f32⟩
  | 18 => ⟨S100000x64, .f32⟩
  | 19 => ⟨S100000x64, .f32⟩
  | 20 => ⟨S_, .f32⟩
  | 21 => ⟨S100000x64, .f32⟩
  | 22 => ⟨S500000x1, .i32⟩
  | 23 => ⟨S100000x64, .f32⟩
  | 24 => ⟨S_, .f32⟩
  | 25 => ⟨S500000x1, .f32⟩
  | 26 => ⟨S_, .f32⟩
  | 27 => ⟨S100000x1, .f32⟩
  | 28 => ⟨S500000x1, .i32⟩
  | 29 => ⟨S100000x1, .f32⟩
  | 30 => ⟨S_, .f32⟩
  | 31 => ⟨S100000x1, .f32⟩
  | 32 => ⟨S100000x1, .f32⟩
  | 33 => ⟨S100000x64, .f32⟩
  | 34 => ⟨S100000x64, .f32⟩
  | 35 => ⟨S1x1x64x64, .f32⟩
  | 36 => ⟨S64x64, .f32⟩
  | 37 => ⟨S100000x64, .f32⟩
  | 38 => ⟨S100000x64, .f32⟩
  | 39 => ⟨S_, .f32⟩
  | 40 => ⟨S100000x64, .f32⟩
  | 41 => ⟨S500000x1, .i32⟩
  | 42 => ⟨S100000x64, .f32⟩
  | 43 => ⟨S_, .f32⟩
  | 44 => ⟨S500000x1, .f32⟩
  | 45 => ⟨S_, .f32⟩
  | 46 => ⟨S100000x1, .f32⟩
  | 47 => ⟨S500000x1, .i32⟩
  | 48 => ⟨S100000x1, .f32⟩
  | 49 => ⟨S_, .f32⟩
  | 50 => ⟨S100000x1, .f32⟩
  | 51 => ⟨S100000x1, .f32⟩
  | 52 => ⟨S100000x64, .f32⟩
  | 53 => ⟨S100000x64, .f32⟩
  | 54 => ⟨S1x1x64x64, .f32⟩
  | 55 => ⟨S64x64, .f32⟩
  | 56 => ⟨S100000x64, .f32⟩
  | 57 => ⟨S100000x64, .f32⟩
  | 58 => ⟨S_, .f32⟩
  | 59 => ⟨S100000x64, .f32⟩
  | 60 => ⟨S500000x1, .i32⟩
  | 61 => ⟨S100000x64, .f32⟩
  | 62 => ⟨S_, .f32⟩
  | 63 => ⟨S500000x1, .f32⟩
  | 64 => ⟨S_, .f32⟩
  | 65 => ⟨S100000x1, .f32⟩
  | 66 => ⟨S500000x1, .i32⟩
  | 67 => ⟨S100000x1, .f32⟩
  | 68 => ⟨S_, .f32⟩
  | 69 => ⟨S100000x1, .f32⟩
  | 70 => ⟨S100000x1, .f32⟩
  | 71 => ⟨S100000x64, .f32⟩
  | 72 => ⟨S100000x64, .f32⟩
  | 73 => ⟨S1x1x64x64, .f32⟩
  | 74 => ⟨S64x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S_, .f32⟩
  | 98 => ⟨S_, .f32⟩
  | 99 => ⟨S_, .f32⟩
  | 100 => ⟨S64, .f32⟩
  | 101 => ⟨S1x64, .f32⟩
  | 102 => ⟨S1x64, .f32⟩
  | 103 => ⟨S1x64, .f32⟩
  | 104 => ⟨S_, .f32⟩
  | 105 => ⟨S_, .i1⟩
  | 106 => ⟨S_, .f32⟩
  | 107 => ⟨S_, .f32⟩
  | 108 => ⟨S1x64, .f32⟩
  | 109 => ⟨S1x64, .f32⟩
  | 110 => ⟨S100000x64, .f32⟩
  | 111 => ⟨S100000x64, .f32⟩
  | 112 => ⟨S_, .f32⟩
  | 113 => ⟨S1x64, .f32⟩
  | 114 => ⟨S1x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S_, .i32⟩
  | _ => ⟨S500000x16, .f32⟩

abbrev hbmTy0_4 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S100000x64, .f32⟩
  | 7 => ⟨S100000x64, .f32⟩
  | 8 => ⟨S100000x64, .f32⟩
  | 9 => ⟨S_, .f32⟩
  | 10 => ⟨S_, .f32⟩
  | 11 => ⟨S_, .f32⟩
  | 12 => ⟨S_, .f32⟩
  | 13 => ⟨S64, .f32⟩
  | 14 => ⟨S1x64, .f32⟩
  | 15 => ⟨S1x64, .f32⟩
  | 16 => ⟨S1x64, .f32⟩
  | 17 => ⟨S_, .f32⟩
  | 18 => ⟨S_, .i1⟩
  | 19 => ⟨S_, .f32⟩
  | 20 => ⟨S_, .f32⟩
  | 21 => ⟨S1x64, .f32⟩
  | 22 => ⟨S1x64, .f32⟩
  | 23 => ⟨S100000x64, .f32⟩
  | 24 => ⟨S100000x64, .f32⟩
  | 25 => ⟨S_, .f32⟩
  | 26 => ⟨S1x64, .f32⟩
  | 27 => ⟨S1x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S1x64, .f32⟩
  | 56 => ⟨S1x64, .f32⟩
  | 57 => ⟨S1x64, .f32⟩
  | 58 => ⟨S_, .f32⟩
  | 59 => ⟨S_, .i1⟩
  | 60 => ⟨S_, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S_, .f32⟩
  | 67 => ⟨S1x64, .f32⟩
  | 68 => ⟨S1x64, .f32⟩
  | 69 => ⟨S1x64, .f32⟩
  | 70 => ⟨S100000x64, .f32⟩
  | 71 => ⟨S100000x64, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x64, .f32⟩
  | 81 => ⟨S1x1x64x64, .f32⟩
  | 82 => ⟨S64x64, .f32⟩
  | 83 => ⟨S500000x64, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x64, .f32⟩
  | 93 => ⟨S1x1x64x64, .f32⟩
  | 94 => ⟨S64x64, .f32⟩
  | 95 => ⟨S500000x64, .f32⟩
  | 96 => ⟨S500000x64, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x64, .f32⟩
  | 106 => ⟨S1x1x64x64, .f32⟩
  | 107 => ⟨S64x64, .f32⟩
  | 108 => ⟨S500000x64, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x64, .f32⟩
  | 118 => ⟨S1x1x64x64, .f32⟩
  | 119 => ⟨S64x64, .f32⟩
  | 120 => ⟨S500000x64, .f32⟩
  | 121 => ⟨S500000x64, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S500000x16, .f32⟩

abbrev hbmTy0_5 (i : Nat) : BufTy := match i % 128 with
  | 0 => ⟨S500000, .i32⟩
  | 1 => ⟨S500000x1, .i32⟩
  | 2 => ⟨S500000x64, .f32⟩
  | 3 => ⟨S1x1x64x64, .f32⟩
  | 4 => ⟨S64x64, .f32⟩
  | 5 => ⟨S500000x64, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x64, .f32⟩
  | 15 => ⟨S1x1x64x64, .f32⟩
  | 16 => ⟨S64x64, .f32⟩
  | 17 => ⟨S500000x64, .f32⟩
  | 18 => ⟨S500000x64, .f32⟩
  | 19 => ⟨S_, .f32⟩
  | 20 => ⟨S500000x64, .f32⟩
  | 21 => ⟨S500000x64, .f32⟩
  | 22 => ⟨S_, .f32⟩
  | 23 => ⟨S500000x64, .f32⟩
  | 24 => ⟨S500000x64, .f32⟩
  | 25 => ⟨S_, .f32⟩
  | 26 => ⟨S500000x64, .f32⟩
  | 27 => ⟨S500000x64, .f32⟩
  | 28 => ⟨S_, .f32⟩
  | 29 => ⟨S100000x16, .f32⟩
  | 30 => ⟨S_, .f32⟩
  | 31 => ⟨S100000x16, .f32⟩
  | 32 => ⟨S_, .f32⟩
  | 33 => ⟨S100000x16, .f32⟩
  | 34 => ⟨S_, .f32⟩
  | 35 => ⟨S100000x64, .f32⟩
  | 36 => ⟨S500000x1, .i32⟩
  | 37 => ⟨S100000x64, .f32⟩
  | 38 => ⟨S_, .f32⟩
  | 39 => ⟨S500000x1, .f32⟩
  | 40 => ⟨S_, .f32⟩
  | 41 => ⟨S100000x1, .f32⟩
  | 42 => ⟨S500000x1, .i32⟩
  | 43 => ⟨S100000x1, .f32⟩
  | 44 => ⟨S_, .f32⟩
  | 45 => ⟨S100000x1, .f32⟩
  | 46 => ⟨S100000x1, .f32⟩
  | 47 => ⟨S100000x64, .f32⟩
  | 48 => ⟨S100000x64, .f32⟩
  | 49 => ⟨S1x1x64x16, .f32⟩
  | 50 => ⟨S64x16, .f32⟩
  | 51 => ⟨S100000x16, .f32⟩
  | 52 => ⟨S100000x16, .f32⟩
  | 53 => ⟨S_, .f32⟩
  | 54 => ⟨S100000x64, .f32⟩
  | 55 => ⟨S500000x1, .i32⟩
  | 56 => ⟨S100000x64, .f32⟩
  | 57 => ⟨S_, .f32⟩
  | 58 => ⟨S500000x1, .f32⟩
  | 59 => ⟨S_, .f32⟩
  | 60 => ⟨S100000x1, .f32⟩
  | 61 => ⟨S500000x1, .i32⟩
  | 62 => ⟨S100000x1, .f32⟩
  | 63 => ⟨S_, .f32⟩
  | 64 => ⟨S100000x1, .f32⟩
  | 65 => ⟨S100000x1, .f32⟩
  | 66 => ⟨S100000x64, .f32⟩
  | 67 => ⟨S100000x64, .f32⟩
  | 68 => ⟨S1x1x64x16, .f32⟩
  | 69 => ⟨S64x16, .f32⟩
  | 70 => ⟨S100000x16, .f32⟩
  | 71 => ⟨S100000x16, .f32⟩
  | 72 => ⟨S_, .f32⟩
  | 73 => ⟨S100000x64, .f32⟩
  | 74 => ⟨S500000x1, .i32⟩
  | 75 => ⟨S100000x64, .f32⟩
  | 76 => ⟨S_, .f32⟩
  | 77 => ⟨S500000x1, .f32⟩
  | 78 => ⟨S_, .f32⟩
  | 79 => ⟨S100000x1, .f32⟩
  | 80 => ⟨S500000x1, .i32⟩
  | 81 => ⟨S100000x1, .f32⟩
  | 82 => ⟨S_, .f32⟩
  | 83 => ⟨S100000x1, .f32⟩
  | 84 => ⟨S100000x1, .f32⟩
  | 85 => ⟨S100000x64, .f32⟩
  | 86 => ⟨S100000x64, .f32⟩
  | 87 => ⟨S1x1x64x16, .f32⟩
  | 88 => ⟨S64x16, .f32⟩
  | 89 => ⟨S100000x16, .f32⟩
  | 90 => ⟨S100000x16, .f32⟩
  | 91 => ⟨S_, .f32⟩
  | 92 => ⟨S100000x64, .f32⟩
  | 93 => ⟨S500000x1, .i32⟩
  | 94 => ⟨S100000x64, .f32⟩
  | 95 => ⟨S_, .f32⟩
  | 96 => ⟨S500000x1, .f32⟩
  | 97 => ⟨S_, .f32⟩
  | 98 => ⟨S100000x1, .f32⟩
  | 99 => ⟨S500000x1, .i32⟩
  | 100 => ⟨S100000x1, .f32⟩
  | 101 => ⟨S_, .f32⟩
  | 102 => ⟨S100000x1, .f32⟩
  | 103 => ⟨S100000x1, .f32⟩
  | 104 => ⟨S100000x64, .f32⟩
  | 105 => ⟨S100000x64, .f32⟩
  | 106 => ⟨S1x1x64x16, .f32⟩
  | 107 => ⟨S64x16, .f32⟩
  | 108 => ⟨S100000x16, .f32⟩
  | 109 => ⟨S100000x16, .f32⟩
  | 110 => ⟨S_, .f32⟩
  | 111 => ⟨S100000x64, .f32⟩
  | 112 => ⟨S500000x1, .i32⟩
  | 113 => ⟨S100000x64, .f32⟩
  | 114 => ⟨S_, .f32⟩
  | 115 => ⟨S500000x1, .f32⟩
  | 116 => ⟨S_, .f32⟩
  | 117 => ⟨S100000x1, .f32⟩
  | 118 => ⟨S500000x1, .i32⟩
  | 119 => ⟨S100000x1, .f32⟩
  | 120 => ⟨S_, .f32⟩
  | 121 => ⟨S100000x1, .f32⟩
  | 122 => ⟨S100000x1, .f32⟩
  | 123 => ⟨S100000x64, .f32⟩
  | 124 => ⟨S100000x64, .f32⟩
  | 125 => ⟨S1x1x64x16, .f32⟩
  | 126 => ⟨S64x16, .f32⟩
  | 127 => ⟨S100000x16, .f32⟩
  | _ => ⟨S500000x16, .f32⟩

abbrev hbmTy0_6 (i : Nat) : BufTy := match i % 128 with
  | 0 => ⟨S100000x16, .f32⟩
  | 1 => ⟨S_, .f32⟩
  | 2 => ⟨S100000x64, .f32⟩
  | 3 => ⟨S500000x1, .i32⟩
  | 4 => ⟨S100000x64, .f32⟩
  | 5 => ⟨S_, .f32⟩
  | 6 => ⟨S500000x1, .f32⟩
  | 7 => ⟨S_, .f32⟩
  | 8 => ⟨S100000x1, .f32⟩
  | 9 => ⟨S500000x1, .i32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | 16 => ⟨S1x1x64x16, .f32⟩
  | 17 => ⟨S64x16, .f32⟩
  | 18 => ⟨S100000x16, .f32⟩
  | 19 => ⟨S100000x16, .f32⟩
  | _ => ⟨S500000x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S500000x16, .f32⟩

abbrev bufTy : (tb : Table) → Fin (tcTables nBuf tb) → BufTy
  | .hbm, ⟨i, _⟩ => hbmTy i
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_3 : Ref sig .tc := ⟨.hbm, 24, rfl⟩
abbrev main_v6 : Ref sig .tc := ⟨.hbm, 25, rfl⟩
abbrev main_cst_4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_7 : Ref sig .tc := ⟨.hbm, 43, rfl⟩
abbrev main_v21 : Ref sig .tc := ⟨.hbm, 44, rfl⟩
abbrev main_cst_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_14 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_15 : Ref sig .tc := ⟨.hbm, 81, rfl⟩
abbrev main_v51 : Ref sig .tc := ⟨.hbm, 82, rfl⟩
abbrev main_cst_16 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_17 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_18 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_19 : Ref sig .tc := ⟨.hbm, 100, rfl⟩
abbrev main_v66 : Ref sig .tc := ⟨.hbm, 101, rfl⟩
abbrev main_cst_20 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_21 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_22 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_23 : Ref sig .tc := ⟨.hbm, 119, rfl⟩
abbrev main_v81 : Ref sig .tc := ⟨.hbm, 120, rfl⟩
abbrev main_cst_24 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_25 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call0_cst : Ref sig .tc := ⟨.hbm, 134, rfl⟩
abbrev main_call0_v0 : Ref sig .tc := ⟨.hbm, 135, rfl⟩
abbrev main_v93 : Ref sig .tc := ⟨.hbm, 136, rfl⟩
abbrev main_cst_26 : Ref sig .tc := ⟨.hbm, 137, rfl⟩
abbrev main_v94 : Ref sig .tc := ⟨.hbm, 138, rfl⟩
abbrev main_v95 : Ref sig .tc := ⟨.hbm, 139, rfl⟩
abbrev main_cst_27 : Ref sig .tc := ⟨.hbm, 140, rfl⟩
abbrev main_v96 : Ref sig .tc := ⟨.hbm, 141, rfl⟩
abbrev main_v97 : Ref sig .tc := ⟨.hbm, 142, rfl⟩
abbrev main_c : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_cst_0 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_call1_v5 : Ref sig .tc := ⟨.hbm, 151, rfl⟩
abbrev main_call1_v6 : Ref sig .tc := ⟨.hbm, 152, rfl⟩
abbrev main_call1_v7 : Ref sig .tc := ⟨.hbm, 153, rfl⟩
abbrev main_call1_cst_1 : Ref sig .tc := ⟨.hbm, 154, rfl⟩
abbrev main_call1_v8 : Ref sig .tc := ⟨.hbm, 155, rfl⟩
abbrev main_call1_cst_2 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_call1_v12 : Ref sig .tc := ⟨.hbm, 160, rfl⟩
abbrev main_call1_cst_3 : Ref sig .tc := ⟨.hbm, 161, rfl⟩
abbrev main_call1_v13 : Ref sig .tc := ⟨.hbm, 162, rfl⟩
abbrev main_call1_cst_4 : Ref sig .tc := ⟨.hbm, 163, rfl⟩
abbrev main_call1_call0_v0 : Ref sig .tc := ⟨.hbm, 164, rfl⟩
abbrev main_call1_call0_v1 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_28 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_call2_cst : Ref sig .tc := ⟨.hbm, 175, rfl⟩
abbrev main_call2_v0 : Ref sig .tc := ⟨.hbm, 176, rfl⟩
abbrev main_v106 : Ref sig .tc := ⟨.hbm, 177, rfl⟩
abbrev main_cst_29 : Ref sig .tc := ⟨.hbm, 178, rfl⟩
abbrev main_v107 : Ref sig .tc := ⟨.hbm, 179, rfl⟩
abbrev main_v108 : Ref sig .tc := ⟨.hbm, 180, rfl⟩
abbrev main_cst_30 : Ref sig .tc := ⟨.hbm, 181, rfl⟩
abbrev main_v109 : Ref sig .tc := ⟨.hbm, 182, rfl⟩
abbrev main_v110 : Ref sig .tc := ⟨.hbm, 183, rfl⟩
abbrev main_c_31 : Ref sig .tc := ⟨.hbm, 184, rfl⟩
abbrev main_call3_cst : Ref sig .tc := ⟨.hbm, 185, rfl⟩
abbrev main_call3_v0 : Ref sig .tc := ⟨.hbm, 186, rfl⟩
abbrev main_call3_v1 : Ref sig .tc := ⟨.hbm, 187, rfl⟩
abbrev main_call3_cst_0 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_v5 : Ref sig .tc := ⟨.hbm, 192, rfl⟩
abbrev main_call3_v6 : Ref sig .tc := ⟨.hbm, 193, rfl⟩
abbrev main_call3_v7 : Ref sig .tc := ⟨.hbm, 194, rfl⟩
abbrev main_call3_cst_1 : Ref sig .tc := ⟨.hbm, 195, rfl⟩
abbrev main_call3_v8 : Ref sig .tc := ⟨.hbm, 196, rfl⟩
abbrev main_call3_cst_2 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_v12 : Ref sig .tc := ⟨.hbm, 201, rfl⟩
abbrev main_call3_cst_3 : Ref sig .tc := ⟨.hbm, 202, rfl⟩
abbrev main_call3_v13 : Ref sig .tc := ⟨.hbm, 203, rfl⟩
abbrev main_call3_cst_4 : Ref sig .tc := ⟨.hbm, 204, rfl⟩
abbrev main_call3_call0_v0 : Ref sig .tc := ⟨.hbm, 205, rfl⟩
abbrev main_call3_call0_v1 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_cst_32 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_call4_cst : Ref sig .tc := ⟨.hbm, 216, rfl⟩
abbrev main_call4_v0 : Ref sig .tc := ⟨.hbm, 217, rfl⟩
abbrev main_v119 : Ref sig .tc := ⟨.hbm, 218, rfl⟩
abbrev main_cst_33 : Ref sig .tc := ⟨.hbm, 219, rfl⟩
abbrev main_v120 : Ref sig .tc := ⟨.hbm, 220, rfl⟩
abbrev main_v121 : Ref sig .tc := ⟨.hbm, 221, rfl⟩
abbrev main_cst_34 : Ref sig .tc := ⟨.hbm, 222, rfl⟩
abbrev main_v122 : Ref sig .tc := ⟨.hbm, 223, rfl⟩
abbrev main_v123 : Ref sig .tc := ⟨.hbm, 224, rfl⟩
abbrev main_c_35 : Ref sig .tc := ⟨.hbm, 225, rfl⟩
abbrev main_call5_cst : Ref sig .tc := ⟨.hbm, 226, rfl⟩
abbrev main_call5_v0 : Ref sig .tc := ⟨.hbm, 227, rfl⟩
abbrev main_call5_v1 : Ref sig .tc := ⟨.hbm, 228, rfl⟩
abbrev main_call5_cst_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_v6 : Ref sig .tc := ⟨.hbm, 234, rfl⟩
abbrev main_call5_v7 : Ref sig .tc := ⟨.hbm, 235, rfl⟩
abbrev main_call5_cst_1 : Ref sig .tc := ⟨.hbm, 236, rfl⟩
abbrev main_call5_v8 : Ref sig .tc := ⟨.hbm, 237, rfl⟩
abbrev main_call5_cst_2 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_v12 : Ref sig .tc := ⟨.hbm, 242, rfl⟩
abbrev main_call5_cst_3 : Ref sig .tc := ⟨.hbm, 243, rfl⟩
abbrev main_call5_v13 : Ref sig .tc := ⟨.hbm, 244, rfl⟩
abbrev main_call5_cst_4 : Ref sig .tc := ⟨.hbm, 245, rfl⟩
abbrev main_call5_call0_v0 : Ref sig .tc := ⟨.hbm, 246, rfl⟩
abbrev main_call5_call0_v1 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_cst_36 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_c_37 : Ref sig .tc := ⟨.hbm, 257, rfl⟩
abbrev main_v132 : Ref sig .tc := ⟨.hbm, 258, rfl⟩
abbrev main_v133 : Ref sig .tc := ⟨.hbm, 259, rfl⟩
abbrev main_c_38 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_c_39 : Ref sig .tc := ⟨.hbm, 269, rfl⟩
abbrev main_v142 : Ref sig .tc := ⟨.hbm, 270, rfl⟩
abbrev main_v143 : Ref sig .tc := ⟨.hbm, 271, rfl⟩
abbrev main_c_40 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_c_41 : Ref sig .tc := ⟨.hbm, 282, rfl⟩
abbrev main_v153 : Ref sig .tc := ⟨.hbm, 283, rfl⟩
abbrev main_v154 : Ref sig .tc := ⟨.hbm, 284, rfl⟩
abbrev main_c_42 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_c_43 : Ref sig .tc := ⟨.hbm, 294, rfl⟩
abbrev main_v163 : Ref sig .tc := ⟨.hbm, 295, rfl⟩
abbrev main_v164 : Ref sig .tc := ⟨.hbm, 296, rfl⟩
abbrev main_c_44 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_v173 : Ref sig .tc := ⟨.hbm, 306, rfl⟩
abbrev main_c_45 : Ref sig .tc := ⟨.hbm, 307, rfl⟩
abbrev main_v174 : Ref sig .tc := ⟨.hbm, 308, rfl⟩
abbrev main_v175 : Ref sig .tc := ⟨.hbm, 309, rfl⟩
abbrev main_c_46 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_c_47 : Ref sig .tc := ⟨.hbm, 319, rfl⟩
abbrev main_v184 : Ref sig .tc := ⟨.hbm, 320, rfl⟩
abbrev main_v185 : Ref sig .tc := ⟨.hbm, 321, rfl⟩
abbrev main_c_48 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_call6_cst : Ref sig .tc := ⟨.hbm, 332, rfl⟩
abbrev main_call6_v0 : Ref sig .tc := ⟨.hbm, 333, rfl⟩
abbrev main_v195 : Ref sig .tc := ⟨.hbm, 334, rfl⟩
abbrev main_call7_cst : Ref sig .tc := ⟨.hbm, 335, rfl⟩
abbrev main_call7_v0 : Ref sig .tc := ⟨.hbm, 336, rfl⟩
abbrev main_v196 : Ref sig .tc := ⟨.hbm, 337, rfl⟩
abbrev main_call8_cst : Ref sig .tc := ⟨.hbm, 338, rfl⟩
abbrev main_call8_v0 : Ref sig .tc := ⟨.hbm, 339, rfl⟩
abbrev main_v197 : Ref sig .tc := ⟨.hbm, 340, rfl⟩
abbrev main_cst_49 : Ref sig .tc := ⟨.hbm, 341, rfl⟩
abbrev main_v198 : Ref sig .tc := ⟨.hbm, 342, rfl⟩
abbrev main_cst_50 : Ref sig .tc := ⟨.hbm, 343, rfl⟩
abbrev main_v199 : Ref sig .tc := ⟨.hbm, 344, rfl⟩
abbrev main_cst_51 : Ref sig .tc := ⟨.hbm, 345, rfl⟩
abbrev main_v200 : Ref sig .tc := ⟨.hbm, 346, rfl⟩
abbrev main_cst_52 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_cst_53 : Ref sig .tc := ⟨.hbm, 351, rfl⟩
abbrev main_v204 : Ref sig .tc := ⟨.hbm, 352, rfl⟩
abbrev main_cst_54 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_cst_55 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_v211 : Ref sig .tc := ⟨.hbm, 361, rfl⟩
abbrev main_v212 : Ref sig .tc := ⟨.hbm, 362, rfl⟩
abbrev main_v213 : Ref sig .tc := ⟨.hbm, 363, rfl⟩
abbrev main_v214 : Ref sig .tc := ⟨.hbm, 364, rfl⟩
abbrev main_v215 : Ref sig .tc := ⟨.hbm, 365, rfl⟩
abbrev main_cst_56 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_cst_57 : Ref sig .tc := ⟨.hbm, 370, rfl⟩
abbrev main_v219 : Ref sig .tc := ⟨.hbm, 371, rfl⟩
abbrev main_cst_58 : Ref sig .tc := ⟨.hbm, 372, rfl⟩
abbrev main_v220 : Ref sig .tc := ⟨.hbm, 373, rfl⟩
abbrev main_v221 : Ref sig .tc := ⟨.hbm, 374, rfl⟩
abbrev main_v222 : Ref sig .tc := ⟨.hbm, 375, rfl⟩
abbrev main_cst_59 : Ref sig .tc := ⟨.hbm, 376, rfl⟩
abbrev main_v223 : Ref sig .tc := ⟨.hbm, 377, rfl⟩
abbrev main_v224 : Ref sig .tc := ⟨.hbm, 378, rfl⟩
abbrev main_v225 : Ref sig .tc := ⟨.hbm, 379, rfl⟩
abbrev main_v226 : Ref sig .tc := ⟨.hbm, 380, rfl⟩
abbrev main_v227 : Ref sig .tc := ⟨.hbm, 381, rfl⟩
abbrev main_v228 : Ref sig .tc := ⟨.hbm, 382, rfl⟩
abbrev main_v229 : Ref sig .tc := ⟨.hbm, 383, rfl⟩
abbrev main_v230 : Ref sig .tc := ⟨.hbm, 384, rfl⟩
abbrev main_cst_60 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_cst_61 : Ref sig .tc := ⟨.hbm, 389, rfl⟩
abbrev main_v234 : Ref sig .tc := ⟨.hbm, 390, rfl⟩
abbrev main_cst_62 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_cst_63 : Ref sig .tc := ⟨.hbm, 395, rfl⟩
abbrev main_v238 : Ref sig .tc := ⟨.hbm, 396, rfl⟩
abbrev main_v239 : Ref sig .tc := ⟨.hbm, 397, rfl⟩
abbrev main_v240 : Ref sig .tc := ⟨.hbm, 398, rfl⟩
abbrev main_v241 : Ref sig .tc := ⟨.hbm, 399, rfl⟩
abbrev main_v242 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_cst_64 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_cst_65 : Ref sig .tc := ⟨.hbm, 408, rfl⟩
abbrev main_v249 : Ref sig .tc := ⟨.hbm, 409, rfl⟩
abbrev main_cst_66 : Ref sig .tc := ⟨.hbm, 410, rfl⟩
abbrev main_v250 : Ref sig .tc := ⟨.hbm, 411, rfl⟩
abbrev main_v251 : Ref sig .tc := ⟨.hbm, 412, rfl⟩
abbrev main_v252 : Ref sig .tc := ⟨.hbm, 413, rfl⟩
abbrev main_cst_67 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_cst_68 : Ref sig .tc := ⟨.hbm, 423, rfl⟩
abbrev main_v261 : Ref sig .tc := ⟨.hbm, 424, rfl⟩
abbrev main_v262 : Ref sig .tc := ⟨.hbm, 425, rfl⟩
abbrev main_v263 : Ref sig .tc := ⟨.hbm, 426, rfl⟩
abbrev main_cst_69 : Ref sig .tc := ⟨.hbm, 427, rfl⟩
abbrev main_v264 : Ref sig .tc := ⟨.hbm, 428, rfl⟩
abbrev main_cst_70 : Ref sig .tc := ⟨.hbm, 429, rfl⟩
abbrev main_v265 : Ref sig .tc := ⟨.hbm, 430, rfl⟩
abbrev main_v266 : Ref sig .tc := ⟨.hbm, 431, rfl⟩
abbrev main_v267 : Ref sig .tc := ⟨.hbm, 432, rfl⟩
abbrev main_cst_71 : Ref sig .tc := ⟨.hbm, 433, rfl⟩
abbrev main_v268 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_v272 : Ref sig .tc := ⟨.hbm, 438, rfl⟩
abbrev main_v273 : Ref sig .tc := ⟨.hbm, 439, rfl⟩
abbrev main_v274 : Ref sig .tc := ⟨.hbm, 440, rfl⟩
abbrev main_v275 : Ref sig .tc := ⟨.hbm, 441, rfl⟩
abbrev main_cst_72 : Ref sig .tc := ⟨.hbm, 442, rfl⟩
abbrev main_v276 : Ref sig .tc := ⟨.hbm, 443, rfl⟩
abbrev main_v277 : Ref sig .tc := ⟨.hbm, 444, rfl⟩
abbrev main_v278 : Ref sig .tc := ⟨.hbm, 445, rfl⟩
abbrev main_cst_73 : Ref sig .tc := ⟨.hbm, 446, rfl⟩
abbrev main_v279 : Ref sig .tc := ⟨.hbm, 447, rfl⟩
abbrev main_cst_74 : Ref sig .tc := ⟨.hbm, 448, rfl⟩
abbrev main_v280 : Ref sig .tc := ⟨.hbm, 449, rfl⟩
abbrev main_v281 : Ref sig .tc := ⟨.hbm, 450, rfl⟩
abbrev main_v282 : Ref sig .tc := ⟨.hbm, 451, rfl⟩
abbrev main_cst_75 : Ref sig .tc := ⟨.hbm, 452, rfl⟩
abbrev main_v283 : Ref sig .tc := ⟨.hbm, 453, rfl⟩
abbrev main_v284 : Ref sig .tc := ⟨.hbm, 454, rfl⟩
abbrev main_v285 : Ref sig .tc := ⟨.hbm, 455, rfl⟩
abbrev main_v286 : Ref sig .tc := ⟨.hbm, 456, rfl⟩
abbrev main_v287 : Ref sig .tc := ⟨.hbm, 457, rfl⟩
abbrev main_v288 : Ref sig .tc := ⟨.hbm, 458, rfl⟩
abbrev main_v289 : Ref sig .tc := ⟨.hbm, 459, rfl⟩
abbrev main_v290 : Ref sig .tc := ⟨.hbm, 460, rfl⟩
abbrev main_call9_cst : Ref sig .tc := ⟨.hbm, 461, rfl⟩
abbrev main_call9_v0 : Ref sig .tc := ⟨.hbm, 462, rfl⟩
abbrev main_v291 : Ref sig .tc := ⟨.hbm, 463, rfl⟩
abbrev main_cst_76 : Ref sig .tc := ⟨.hbm, 464, rfl⟩
abbrev main_v292 : Ref sig .tc := ⟨.hbm, 465, rfl⟩
abbrev main_v293 : Ref sig .tc := ⟨.hbm, 466, rfl⟩
abbrev main_cst_77 : Ref sig .tc := ⟨.hbm, 467, rfl⟩
abbrev main_v294 : Ref sig .tc := ⟨.hbm, 468, rfl⟩
abbrev main_v295 : Ref sig .tc := ⟨.hbm, 469, rfl⟩
abbrev main_c_78 : Ref sig .tc := ⟨.hbm, 470, rfl⟩
abbrev main_call10_cst : Ref sig .tc := ⟨.hbm, 471, rfl⟩
abbrev main_call10_v0 : Ref sig .tc := ⟨.hbm, 472, rfl⟩
abbrev main_call10_v1 : Ref sig .tc := ⟨.hbm, 473, rfl⟩
abbrev main_call10_cst_0 : Ref sig .tc := ⟨.hbm, 474, rfl⟩
abbrev main_call10_v2 : Ref sig .tc := ⟨.hbm, 475, rfl⟩
abbrev main_call10_v3 : Ref sig .tc := ⟨.hbm, 476, rfl⟩
abbrev main_call10_v4 : Ref sig .tc := ⟨.hbm, 477, rfl⟩
abbrev main_call10_v5 : Ref sig .tc := ⟨.hbm, 478, rfl⟩
abbrev main_call10_v6 : Ref sig .tc := ⟨.hbm, 479, rfl⟩
abbrev main_call10_v7 : Ref sig .tc := ⟨.hbm, 480, rfl⟩
abbrev main_call10_cst_1 : Ref sig .tc := ⟨.hbm, 481, rfl⟩
abbrev main_call10_v8 : Ref sig .tc := ⟨.hbm, 482, rfl⟩
abbrev main_call10_cst_2 : Ref sig .tc := ⟨.hbm, 483, rfl⟩
abbrev main_call10_v9 : Ref sig .tc := ⟨.hbm, 484, rfl⟩
abbrev main_call10_v10 : Ref sig .tc := ⟨.hbm, 485, rfl⟩
abbrev main_call10_v11 : Ref sig .tc := ⟨.hbm, 486, rfl⟩
abbrev main_call10_v12 : Ref sig .tc := ⟨.hbm, 487, rfl⟩
abbrev main_call10_cst_3 : Ref sig .tc := ⟨.hbm, 488, rfl⟩
abbrev main_call10_v13 : Ref sig .tc := ⟨.hbm, 489, rfl⟩
abbrev main_call10_cst_4 : Ref sig .tc := ⟨.hbm, 490, rfl⟩
abbrev main_call10_call0_v0 : Ref sig .tc := ⟨.hbm, 491, rfl⟩
abbrev main_call10_call0_v1 : Ref sig .tc := ⟨.hbm, 492, rfl⟩
abbrev main_v296 : Ref sig .tc := ⟨.hbm, 493, rfl⟩
abbrev main_v297 : Ref sig .tc := ⟨.hbm, 494, rfl⟩
abbrev main_v298 : Ref sig .tc := ⟨.hbm, 495, rfl⟩
abbrev main_cst_79 : Ref sig .tc := ⟨.hbm, 496, rfl⟩
abbrev main_v299 : Ref sig .tc := ⟨.hbm, 497, rfl⟩
abbrev main_v300 : Ref sig .tc := ⟨.hbm, 498, rfl⟩
abbrev main_v301 : Ref sig .tc := ⟨.hbm, 499, rfl⟩
abbrev main_v302 : Ref sig .tc := ⟨.hbm, 500, rfl⟩
abbrev main_v303 : Ref sig .tc := ⟨.hbm, 501, rfl⟩
abbrev main_call11_cst : Ref sig .tc := ⟨.hbm, 502, rfl⟩
abbrev main_call11_v0 : Ref sig .tc := ⟨.hbm, 503, rfl⟩
abbrev main_v304 : Ref sig .tc := ⟨.hbm, 504, rfl⟩
abbrev main_cst_80 : Ref sig .tc := ⟨.hbm, 505, rfl⟩
abbrev main_v305 : Ref sig .tc := ⟨.hbm, 506, rfl⟩
abbrev main_v306 : Ref sig .tc := ⟨.hbm, 507, rfl⟩
abbrev main_cst_81 : Ref sig .tc := ⟨.hbm, 508, rfl⟩
abbrev main_v307 : Ref sig .tc := ⟨.hbm, 509, rfl⟩
abbrev main_v308 : Ref sig .tc := ⟨.hbm, 510, rfl⟩
abbrev main_c_82 : Ref sig .tc := ⟨.hbm, 511, rfl⟩
abbrev main_call12_cst : Ref sig .tc := ⟨.hbm, 512, rfl⟩
abbrev main_call12_v0 : Ref sig .tc := ⟨.hbm, 513, rfl⟩
abbrev main_call12_v1 : Ref sig .tc := ⟨.hbm, 514, rfl⟩
abbrev main_call12_cst_0 : Ref sig .tc := ⟨.hbm, 515, rfl⟩
abbrev main_call12_v2 : Ref sig .tc := ⟨.hbm, 516, rfl⟩
abbrev main_call12_v3 : Ref sig .tc := ⟨.hbm, 517, rfl⟩
abbrev main_call12_v4 : Ref sig .tc := ⟨.hbm, 518, rfl⟩
abbrev main_call12_v5 : Ref sig .tc := ⟨.hbm, 519, rfl⟩
abbrev main_call12_v6 : Ref sig .tc := ⟨.hbm, 520, rfl⟩
abbrev main_call12_v7 : Ref sig .tc := ⟨.hbm, 521, rfl⟩
abbrev main_call12_cst_1 : Ref sig .tc := ⟨.hbm, 522, rfl⟩
abbrev main_call12_v8 : Ref sig .tc := ⟨.hbm, 523, rfl⟩
abbrev main_call12_cst_2 : Ref sig .tc := ⟨.hbm, 524, rfl⟩
abbrev main_call12_v9 : Ref sig .tc := ⟨.hbm, 525, rfl⟩
abbrev main_call12_v10 : Ref sig .tc := ⟨.hbm, 526, rfl⟩
abbrev main_call12_v11 : Ref sig .tc := ⟨.hbm, 527, rfl⟩
abbrev main_call12_v12 : Ref sig .tc := ⟨.hbm, 528, rfl⟩
abbrev main_call12_cst_3 : Ref sig .tc := ⟨.hbm, 529, rfl⟩
abbrev main_call12_v13 : Ref sig .tc := ⟨.hbm, 530, rfl⟩
abbrev main_call12_cst_4 : Ref sig .tc := ⟨.hbm, 531, rfl⟩
abbrev main_call12_call0_v0 : Ref sig .tc := ⟨.hbm, 532, rfl⟩
abbrev main_call12_call0_v1 : Ref sig .tc := ⟨.hbm, 533, rfl⟩
abbrev main_v309 : Ref sig .tc := ⟨.hbm, 534, rfl⟩
abbrev main_v310 : Ref sig .tc := ⟨.hbm, 535, rfl⟩
abbrev main_v311 : Ref sig .tc := ⟨.hbm, 536, rfl⟩
abbrev main_cst_83 : Ref sig .tc := ⟨.hbm, 537, rfl⟩
abbrev main_v312 : Ref sig .tc := ⟨.hbm, 538, rfl⟩
abbrev main_v313 : Ref sig .tc := ⟨.hbm, 539, rfl⟩
abbrev main_v314 : Ref sig .tc := ⟨.hbm, 540, rfl⟩
abbrev main_v315 : Ref sig .tc := ⟨.hbm, 541, rfl⟩
abbrev main_v316 : Ref sig .tc := ⟨.hbm, 542, rfl⟩
abbrev main_call13_cst : Ref sig .tc := ⟨.hbm, 543, rfl⟩
abbrev main_call13_v0 : Ref sig .tc := ⟨.hbm, 544, rfl⟩
abbrev main_v317 : Ref sig .tc := ⟨.hbm, 545, rfl⟩
abbrev main_cst_84 : Ref sig .tc := ⟨.hbm, 546, rfl⟩
abbrev main_v318 : Ref sig .tc := ⟨.hbm, 547, rfl⟩
abbrev main_v319 : Ref sig .tc := ⟨.hbm, 548, rfl⟩
abbrev main_cst_85 : Ref sig .tc := ⟨.hbm, 549, rfl⟩
abbrev main_v320 : Ref sig .tc := ⟨.hbm, 550, rfl⟩
abbrev main_v321 : Ref sig .tc := ⟨.hbm, 551, rfl⟩
abbrev main_c_86 : Ref sig .tc := ⟨.hbm, 552, rfl⟩
abbrev main_call14_cst : Ref sig .tc := ⟨.hbm, 553, rfl⟩
abbrev main_call14_v0 : Ref sig .tc := ⟨.hbm, 554, rfl⟩
abbrev main_call14_v1 : Ref sig .tc := ⟨.hbm, 555, rfl⟩
abbrev main_call14_cst_0 : Ref sig .tc := ⟨.hbm, 556, rfl⟩
abbrev main_call14_v2 : Ref sig .tc := ⟨.hbm, 557, rfl⟩
abbrev main_call14_v3 : Ref sig .tc := ⟨.hbm, 558, rfl⟩
abbrev main_call14_v4 : Ref sig .tc := ⟨.hbm, 559, rfl⟩
abbrev main_call14_v5 : Ref sig .tc := ⟨.hbm, 560, rfl⟩
abbrev main_call14_v6 : Ref sig .tc := ⟨.hbm, 561, rfl⟩
abbrev main_call14_v7 : Ref sig .tc := ⟨.hbm, 562, rfl⟩
abbrev main_call14_cst_1 : Ref sig .tc := ⟨.hbm, 563, rfl⟩
abbrev main_call14_v8 : Ref sig .tc := ⟨.hbm, 564, rfl⟩
abbrev main_call14_cst_2 : Ref sig .tc := ⟨.hbm, 565, rfl⟩
abbrev main_call14_v9 : Ref sig .tc := ⟨.hbm, 566, rfl⟩
abbrev main_call14_v10 : Ref sig .tc := ⟨.hbm, 567, rfl⟩
abbrev main_call14_v11 : Ref sig .tc := ⟨.hbm, 568, rfl⟩
abbrev main_call14_v12 : Ref sig .tc := ⟨.hbm, 569, rfl⟩
abbrev main_call14_cst_3 : Ref sig .tc := ⟨.hbm, 570, rfl⟩
abbrev main_call14_v13 : Ref sig .tc := ⟨.hbm, 571, rfl⟩
abbrev main_call14_cst_4 : Ref sig .tc := ⟨.hbm, 572, rfl⟩
abbrev main_call14_call0_v0 : Ref sig .tc := ⟨.hbm, 573, rfl⟩
abbrev main_call14_call0_v1 : Ref sig .tc := ⟨.hbm, 574, rfl⟩
abbrev main_v322 : Ref sig .tc := ⟨.hbm, 575, rfl⟩
abbrev main_v323 : Ref sig .tc := ⟨.hbm, 576, rfl⟩
abbrev main_v324 : Ref sig .tc := ⟨.hbm, 577, rfl⟩
abbrev main_cst_87 : Ref sig .tc := ⟨.hbm, 578, rfl⟩
abbrev main_v325 : Ref sig .tc := ⟨.hbm, 579, rfl⟩
abbrev main_v326 : Ref sig .tc := ⟨.hbm, 580, rfl⟩
abbrev main_v327 : Ref sig .tc := ⟨.hbm, 581, rfl⟩
abbrev main_v328 : Ref sig .tc := ⟨.hbm, 582, rfl⟩
abbrev main_v329 : Ref sig .tc := ⟨.hbm, 583, rfl⟩
abbrev main_c_88 : Ref sig .tc := ⟨.hbm, 584, rfl⟩
abbrev main_v330 : Ref sig .tc := ⟨.hbm, 585, rfl⟩
abbrev main_v331 : Ref sig .tc := ⟨.hbm, 586, rfl⟩
abbrev main_c_89 : Ref sig .tc := ⟨.hbm, 587, rfl⟩
abbrev main_v332 : Ref sig .tc := ⟨.hbm, 588, rfl⟩
abbrev main_v333 : Ref sig .tc := ⟨.hbm, 589, rfl⟩
abbrev main_v334 : Ref sig .tc := ⟨.hbm, 590, rfl⟩
abbrev main_v335 : Ref sig .tc := ⟨.hbm, 591, rfl⟩
abbrev main_v336 : Ref sig .tc := ⟨.hbm, 592, rfl⟩
abbrev main_v337 : Ref sig .tc := ⟨.hbm, 593, rfl⟩
abbrev main_v338 : Ref sig .tc := ⟨.hbm, 594, rfl⟩
abbrev main_v339 : Ref sig .tc := ⟨.hbm, 595, rfl⟩
abbrev main_c_90 : Ref sig .tc := ⟨.hbm, 596, rfl⟩
abbrev main_v340 : Ref sig .tc := ⟨.hbm, 597, rfl⟩
abbrev main_v341 : Ref sig .tc := ⟨.hbm, 598, rfl⟩
abbrev main_c_91 : Ref sig .tc := ⟨.hbm, 599, rfl⟩
abbrev main_v342 : Ref sig .tc := ⟨.hbm, 600, rfl⟩
abbrev main_v343 : Ref sig .tc := ⟨.hbm, 601, rfl⟩
abbrev main_v344 : Ref sig .tc := ⟨.hbm, 602, rfl⟩
abbrev main_v345 : Ref sig .tc := ⟨.hbm, 603, rfl⟩
abbrev main_v346 : Ref sig .tc := ⟨.hbm, 604, rfl⟩
abbrev main_v347 : Ref sig .tc := ⟨.hbm, 605, rfl⟩
abbrev main_v348 : Ref sig .tc := ⟨.hbm, 606, rfl⟩
abbrev main_v349 : Ref sig .tc := ⟨.hbm, 607, rfl⟩
abbrev main_v350 : Ref sig .tc := ⟨.hbm, 608, rfl⟩
abbrev main_c_92 : Ref sig .tc := ⟨.hbm, 609, rfl⟩
abbrev main_v351 : Ref sig .tc := ⟨.hbm, 610, rfl⟩
abbrev main_v352 : Ref sig .tc := ⟨.hbm, 611, rfl⟩
abbrev main_c_93 : Ref sig .tc := ⟨.hbm, 612, rfl⟩
abbrev main_v353 : Ref sig .tc := ⟨.hbm, 613, rfl⟩
abbrev main_v354 : Ref sig .tc := ⟨.hbm, 614, rfl⟩
abbrev main_v355 : Ref sig .tc := ⟨.hbm, 615, rfl⟩
abbrev main_v356 : Ref sig .tc := ⟨.hbm, 616, rfl⟩
abbrev main_v357 : Ref sig .tc := ⟨.hbm, 617, rfl⟩
abbrev main_v358 : Ref sig .tc := ⟨.hbm, 618, rfl⟩
abbrev main_v359 : Ref sig .tc := ⟨.hbm, 619, rfl⟩
abbrev main_v360 : Ref sig .tc := ⟨.hbm, 620, rfl⟩
abbrev main_c_94 : Ref sig .tc := ⟨.hbm, 621, rfl⟩
abbrev main_v361 : Ref sig .tc := ⟨.hbm, 622, rfl⟩
abbrev main_v362 : Ref sig .tc := ⟨.hbm, 623, rfl⟩
abbrev main_c_95 : Ref sig .tc := ⟨.hbm, 624, rfl⟩
abbrev main_v363 : Ref sig .tc := ⟨.hbm, 625, rfl⟩
abbrev main_v364 : Ref sig .tc := ⟨.hbm, 626, rfl⟩
abbrev main_v365 : Ref sig .tc := ⟨.hbm, 627, rfl⟩
abbrev main_v366 : Ref sig .tc := ⟨.hbm, 628, rfl⟩
abbrev main_v367 : Ref sig .tc := ⟨.hbm, 629, rfl⟩
abbrev main_v368 : Ref sig .tc := ⟨.hbm, 630, rfl⟩
abbrev main_v369 : Ref sig .tc := ⟨.hbm, 631, rfl⟩
abbrev main_v370 : Ref sig .tc := ⟨.hbm, 632, rfl⟩
abbrev main_v371 : Ref sig .tc := ⟨.hbm, 633, rfl⟩
abbrev main_c_96 : Ref sig .tc := ⟨.hbm, 634, rfl⟩
abbrev main_v372 : Ref sig .tc := ⟨.hbm, 635, rfl⟩
abbrev main_v373 : Ref sig .tc := ⟨.hbm, 636, rfl⟩
abbrev main_c_97 : Ref sig .tc := ⟨.hbm, 637, rfl⟩
abbrev main_v374 : Ref sig .tc := ⟨.hbm, 638, rfl⟩
abbrev main_v375 : Ref sig .tc := ⟨.hbm, 639, rfl⟩
abbrev main_v376 : Ref sig .tc := ⟨.hbm, 640, rfl⟩
abbrev main_v377 : Ref sig .tc := ⟨.hbm, 641, rfl⟩
abbrev main_v378 : Ref sig .tc := ⟨.hbm, 642, rfl⟩
abbrev main_v379 : Ref sig .tc := ⟨.hbm, 643, rfl⟩
abbrev main_v380 : Ref sig .tc := ⟨.hbm, 644, rfl⟩
abbrev main_v381 : Ref sig .tc := ⟨.hbm, 645, rfl⟩
abbrev main_c_98 : Ref sig .tc := ⟨.hbm, 646, rfl⟩
abbrev main_v382 : Ref sig .tc := ⟨.hbm, 647, rfl⟩
abbrev main_v383 : Ref sig .tc := ⟨.hbm, 648, rfl⟩
abbrev main_c_99 : Ref sig .tc := ⟨.hbm, 649, rfl⟩
abbrev main_v384 : Ref sig .tc := ⟨.hbm, 650, rfl⟩
abbrev main_v385 : Ref sig .tc := ⟨.hbm, 651, rfl⟩
abbrev main_v386 : Ref sig .tc := ⟨.hbm, 652, rfl⟩
abbrev main_v387 : Ref sig .tc := ⟨.hbm, 653, rfl⟩
abbrev main_v388 : Ref sig .tc := ⟨.hbm, 654, rfl⟩
abbrev main_v389 : Ref sig .tc := ⟨.hbm, 655, rfl⟩
abbrev main_v390 : Ref sig .tc := ⟨.hbm, 656, rfl⟩
abbrev main_v391 : Ref sig .tc := ⟨.hbm, 657, rfl⟩
abbrev main_v392 : Ref sig .tc := ⟨.hbm, 658, rfl⟩
abbrev main_call15_cst : Ref sig .tc := ⟨.hbm, 659, rfl⟩
abbrev main_call15_v0 : Ref sig .tc := ⟨.hbm, 660, rfl⟩
abbrev main_v393 : Ref sig .tc := ⟨.hbm, 661, rfl⟩
abbrev main_call16_cst : Ref sig .tc := ⟨.hbm, 662, rfl⟩
abbrev main_call16_v0 : Ref sig .tc := ⟨.hbm, 663, rfl⟩
abbrev main_v394 : Ref sig .tc := ⟨.hbm, 664, rfl⟩
abbrev main_call17_cst : Ref sig .tc := ⟨.hbm, 665, rfl⟩
abbrev main_call17_v0 : Ref sig .tc := ⟨.hbm, 666, rfl⟩
abbrev main_v395 : Ref sig .tc := ⟨.hbm, 667, rfl⟩
abbrev main_cst_100 : Ref sig .tc := ⟨.hbm, 668, rfl⟩
abbrev main_v396 : Ref sig .tc := ⟨.hbm, 669, rfl⟩
abbrev main_cst_101 : Ref sig .tc := ⟨.hbm, 670, rfl⟩
abbrev main_v397 : Ref sig .tc := ⟨.hbm, 671, rfl⟩
abbrev main_cst_102 : Ref sig .tc := ⟨.hbm, 672, rfl⟩
abbrev main_v398 : Ref sig .tc := ⟨.hbm, 673, rfl⟩
abbrev main_cst_103 : Ref sig .tc := ⟨.hbm, 674, rfl⟩
abbrev main_v399 : Ref sig .tc := ⟨.hbm, 675, rfl⟩
abbrev main_v400 : Ref sig .tc := ⟨.hbm, 676, rfl⟩
abbrev main_v401 : Ref sig .tc := ⟨.hbm, 677, rfl⟩
abbrev main_cst_104 : Ref sig .tc := ⟨.hbm, 678, rfl⟩
abbrev main_v402 : Ref sig .tc := ⟨.hbm, 679, rfl⟩
abbrev main_cst_105 : Ref sig .tc := ⟨.hbm, 680, rfl⟩
abbrev main_v403 : Ref sig .tc := ⟨.hbm, 681, rfl⟩
abbrev main_v404 : Ref sig .tc := ⟨.hbm, 682, rfl⟩
abbrev main_v405 : Ref sig .tc := ⟨.hbm, 683, rfl⟩
abbrev main_cst_106 : Ref sig .tc := ⟨.hbm, 684, rfl⟩
abbrev main_v406 : Ref sig .tc := ⟨.hbm, 685, rfl⟩
abbrev main_v407 : Ref sig .tc := ⟨.hbm, 686, rfl⟩
abbrev main_v408 : Ref sig .tc := ⟨.hbm, 687, rfl⟩
abbrev main_v409 : Ref sig .tc := ⟨.hbm, 688, rfl⟩
abbrev main_v410 : Ref sig .tc := ⟨.hbm, 689, rfl⟩
abbrev main_v411 : Ref sig .tc := ⟨.hbm, 690, rfl⟩
abbrev main_v412 : Ref sig .tc := ⟨.hbm, 691, rfl⟩
abbrev main_v413 : Ref sig .tc := ⟨.hbm, 692, rfl⟩
abbrev main_cst_107 : Ref sig .tc := ⟨.hbm, 693, rfl⟩
abbrev main_v414 : Ref sig .tc := ⟨.hbm, 694, rfl⟩
abbrev main_v415 : Ref sig .tc := ⟨.hbm, 695, rfl⟩
abbrev main_v416 : Ref sig .tc := ⟨.hbm, 696, rfl⟩
abbrev main_cst_108 : Ref sig .tc := ⟨.hbm, 697, rfl⟩
abbrev main_v417 : Ref sig .tc := ⟨.hbm, 698, rfl⟩
abbrev main_cst_109 : Ref sig .tc := ⟨.hbm, 699, rfl⟩
abbrev main_v418 : Ref sig .tc := ⟨.hbm, 700, rfl⟩
abbrev main_v419 : Ref sig .tc := ⟨.hbm, 701, rfl⟩
abbrev main_v420 : Ref sig .tc := ⟨.hbm, 702, rfl⟩
abbrev main_cst_110 : Ref sig .tc := ⟨.hbm, 703, rfl⟩
abbrev main_v421 : Ref sig .tc := ⟨.hbm, 704, rfl⟩
abbrev main_v422 : Ref sig .tc := ⟨.hbm, 705, rfl⟩
abbrev main_v423 : Ref sig .tc := ⟨.hbm, 706, rfl⟩
abbrev main_v424 : Ref sig .tc := ⟨.hbm, 707, rfl⟩
abbrev main_v425 : Ref sig .tc := ⟨.hbm, 708, rfl⟩
abbrev main_v426 : Ref sig .tc := ⟨.hbm, 709, rfl⟩
abbrev main_v427 : Ref sig .tc := ⟨.hbm, 710, rfl⟩
abbrev main_v428 : Ref sig .tc := ⟨.hbm, 711, rfl⟩
abbrev main_cst_111 : Ref sig .tc := ⟨.hbm, 712, rfl⟩
abbrev main_v429 : Ref sig .tc := ⟨.hbm, 713, rfl⟩
abbrev main_v430 : Ref sig .tc := ⟨.hbm, 714, rfl⟩
abbrev main_v431 : Ref sig .tc := ⟨.hbm, 715, rfl⟩
abbrev main_cst_112 : Ref sig .tc := ⟨.hbm, 716, rfl⟩
abbrev main_v432 : Ref sig .tc := ⟨.hbm, 717, rfl⟩
abbrev main_cst_113 : Ref sig .tc := ⟨.hbm, 718, rfl⟩
abbrev main_v433 : Ref sig .tc := ⟨.hbm, 719, rfl⟩
abbrev main_v434 : Ref sig .tc := ⟨.hbm, 720, rfl⟩
abbrev main_v435 : Ref sig .tc := ⟨.hbm, 721, rfl⟩
abbrev main_cst_114 : Ref sig .tc := ⟨.hbm, 722, rfl⟩
abbrev main_v436 : Ref sig .tc := ⟨.hbm, 723, rfl⟩
abbrev main_v437 : Ref sig .tc := ⟨.hbm, 724, rfl⟩
abbrev main_v438 : Ref sig .tc := ⟨.hbm, 725, rfl⟩
abbrev main_v439 : Ref sig .tc := ⟨.hbm, 726, rfl⟩
abbrev main_v440 : Ref sig .tc := ⟨.hbm, 727, rfl⟩
abbrev main_v441 : Ref sig .tc := ⟨.hbm, 728, rfl⟩
abbrev main_v442 : Ref sig .tc := ⟨.hbm, 729, rfl⟩
abbrev main_v443 : Ref sig .tc := ⟨.hbm, 730, rfl⟩
abbrev main_cst_115 : Ref sig .tc := ⟨.hbm, 731, rfl⟩
abbrev main_v444 : Ref sig .tc := ⟨.hbm, 732, rfl⟩
abbrev main_v445 : Ref sig .tc := ⟨.hbm, 733, rfl⟩
abbrev main_v446 : Ref sig .tc := ⟨.hbm, 734, rfl⟩
abbrev main_cst_116 : Ref sig .tc := ⟨.hbm, 735, rfl⟩
abbrev main_v447 : Ref sig .tc := ⟨.hbm, 736, rfl⟩
abbrev main_cst_117 : Ref sig .tc := ⟨.hbm, 737, rfl⟩
abbrev main_v448 : Ref sig .tc := ⟨.hbm, 738, rfl⟩
abbrev main_v449 : Ref sig .tc := ⟨.hbm, 739, rfl⟩
abbrev main_v450 : Ref sig .tc := ⟨.hbm, 740, rfl⟩
abbrev main_cst_118 : Ref sig .tc := ⟨.hbm, 741, rfl⟩
abbrev main_v451 : Ref sig .tc := ⟨.hbm, 742, rfl⟩
abbrev main_v452 : Ref sig .tc := ⟨.hbm, 743, rfl⟩
abbrev main_v453 : Ref sig .tc := ⟨.hbm, 744, rfl⟩
abbrev main_v454 : Ref sig .tc := ⟨.hbm, 745, rfl⟩
abbrev main_v455 : Ref sig .tc := ⟨.hbm, 746, rfl⟩
abbrev main_v456 : Ref sig .tc := ⟨.hbm, 747, rfl⟩
abbrev main_v457 : Ref sig .tc := ⟨.hbm, 748, rfl⟩
abbrev main_v458 : Ref sig .tc := ⟨.hbm, 749, rfl⟩
abbrev main_cst_119 : Ref sig .tc := ⟨.hbm, 750, rfl⟩
abbrev main_v459 : Ref sig .tc := ⟨.hbm, 751, rfl⟩
abbrev main_v460 : Ref sig .tc := ⟨.hbm, 752, rfl⟩
abbrev main_v461 : Ref sig .tc := ⟨.hbm, 753, rfl⟩
abbrev main_cst_120 : Ref sig .tc := ⟨.hbm, 754, rfl⟩
abbrev main_v462 : Ref sig .tc := ⟨.hbm, 755, rfl⟩
abbrev main_cst_121 : Ref sig .tc := ⟨.hbm, 756, rfl⟩
abbrev main_v463 : Ref sig .tc := ⟨.hbm, 757, rfl⟩
abbrev main_v464 : Ref sig .tc := ⟨.hbm, 758, rfl⟩
abbrev main_v465 : Ref sig .tc := ⟨.hbm, 759, rfl⟩
abbrev main_cst_122 : Ref sig .tc := ⟨.hbm, 760, rfl⟩
abbrev main_v466 : Ref sig .tc := ⟨.hbm, 761, rfl⟩
abbrev main_v467 : Ref sig .tc := ⟨.hbm, 762, rfl⟩
abbrev main_v468 : Ref sig .tc := ⟨.hbm, 763, rfl⟩
abbrev main_v469 : Ref sig .tc := ⟨.hbm, 764, rfl⟩
abbrev main_v470 : Ref sig .tc := ⟨.hbm, 765, rfl⟩
abbrev main_v471 : Ref sig .tc := ⟨.hbm, 766, rfl⟩
abbrev main_v472 : Ref sig .tc := ⟨.hbm, 767, rfl⟩
abbrev main_v473 : Ref sig .tc := ⟨.hbm, 768, rfl⟩
abbrev main_cst_123 : Ref sig .tc := ⟨.hbm, 769, rfl⟩
abbrev main_v474 : Ref sig .tc := ⟨.hbm, 770, rfl⟩
abbrev main_v475 : Ref sig .tc := ⟨.hbm, 771, rfl⟩
abbrev main_v476 : Ref sig .tc := ⟨.hbm, 772, rfl⟩
abbrev main_cst_124 : Ref sig .tc := ⟨.hbm, 773, rfl⟩
abbrev main_v477 : Ref sig .tc := ⟨.hbm, 774, rfl⟩
abbrev main_cst_125 : Ref sig .tc := ⟨.hbm, 775, rfl⟩
abbrev main_v478 : Ref sig .tc := ⟨.hbm, 776, rfl⟩
abbrev main_v479 : Ref sig .tc := ⟨.hbm, 777, rfl⟩
abbrev main_v480 : Ref sig .tc := ⟨.hbm, 778, rfl⟩
abbrev main_cst_126 : Ref sig .tc := ⟨.hbm, 779, rfl⟩
abbrev main_v481 : Ref sig .tc := ⟨.hbm, 780, rfl⟩
abbrev main_v482 : Ref sig .tc := ⟨.hbm, 781, rfl⟩
abbrev main_v483 : Ref sig .tc := ⟨.hbm, 782, rfl⟩
abbrev main_v484 : Ref sig .tc := ⟨.hbm, 783, rfl⟩
abbrev main_v485 : Ref sig .tc := ⟨.hbm, 784, rfl⟩
abbrev main_v486 : Ref sig .tc := ⟨.hbm, 785, rfl⟩
abbrev main_v487 : Ref sig .tc := ⟨.hbm, 786, rfl⟩
abbrev main_v488 : Ref sig .tc := ⟨.hbm, 787, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S_S100000x16 : S_.BroadcastsInDim S100000x16 (![] : Fin 0 → Fin S100000x16.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  slices_S3x2x16x64_S1x1x16x64_0_0_0_0 : S3x2x16x64.Slices ![0, 0, 0, 0] S1x1x16x64
  shapeCasts_S1x1x16x64_S16x64 : S1x1x16x64.ShapeCasts S16x64
  slices_S3x2x16x64_S1x1x16x64_0_1_0_0 : S3x2x16x64.Slices ![0, 1, 0, 0] S1x1x16x64
  slices_S3x2x16x64_S1x1x16x64_1_0_0_0 : S3x2x16x64.Slices ![1, 0, 0, 0] S1x1x16x64
  slices_S3x2x16x64_S1x1x16x64_1_1_0_0 : S3x2x16x64.Slices ![1, 1, 0, 0] S1x1x16x64
  slices_S3x2x16x64_S1x1x16x64_2_0_0_0 : S3x2x16x64.Slices ![2, 0, 0, 0] S1x1x16x64
  slices_S3x2x16x64_S1x1x16x64_2_1_0_0 : S3x2x16x64.Slices ![2, 1, 0, 0] S1x1x16x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  slices_S3x2x64x64_S1x1x64x64_0_0_0_0 : S3x2x64x64.Slices ![0, 0, 0, 0] S1x1x64x64
  shapeCasts_S1x1x64x64_S64x64 : S1x1x64x64.ShapeCasts S64x64
  slices_S3x2x64x64_S1x1x64x64_0_1_0_0 : S3x2x64x64.Slices ![0, 1, 0, 0] S1x1x64x64
  slices_S3x2x64x64_S1x1x64x64_1_0_0_0 : S3x2x64x64.Slices ![1, 0, 0, 0] S1x1x64x64
  slices_S3x2x64x64_S1x1x64x64_1_1_0_0 : S3x2x64x64.Slices ![1, 1, 0, 0] S1x1x64x64
  slices_S3x2x64x64_S1x1x64x64_2_0_0_0 : S3x2x64x64.Slices ![2, 0, 0, 0] S1x1x64x64
  slices_S3x2x64x64_S1x1x64x64_2_1_0_0 : S3x2x64x64.Slices ![2, 1, 0, 0] S1x1x64x64
  bcast_S_S500000x64 : S_.BroadcastsInDim S500000x64 (![] : Fin 0 → Fin S500000x64.rank)
  bcast_S100000x1_S100000x64_0_1 : S100000x1.BroadcastsInDim S100000x64 (![0, 1] : Fin 2 → Fin S100000x64.rank)
  slices_S3x2x64x16_S1x1x64x16_0_0_0_0 : S3x2x64x16.Slices ![0, 0, 0, 0] S1x1x64x16
  shapeCasts_S1x1x64x16_S64x16 : S1x1x64x16.ShapeCasts S64x16
  slices_S3x2x64x16_S1x1x64x16_0_1_0_0 : S3x2x64x16.Slices ![0, 1, 0, 0] S1x1x64x16
  slices_S3x2x64x16_S1x1x64x16_1_0_0_0 : S3x2x64x16.Slices ![1, 0, 0, 0] S1x1x64x16
  slices_S3x2x64x16_S1x1x64x16_1_1_0_0 : S3x2x64x16.Slices ![1, 1, 0, 0] S1x1x64x16
  slices_S3x2x64x16_S1x1x64x16_2_0_0_0 : S3x2x64x16.Slices ![2, 0, 0, 0] S1x1x64x16
  slices_S3x2x64x16_S1x1x64x16_2_1_0_0 : S3x2x64x16.Slices ![2, 1, 0, 0] S1x1x64x16
  scatter_S100000x16_S500000x1_S500000x16_1_0_0_1_wf : ScatterDims.WF S100000x16 S500000x1 S500000x16 [1] [0] [0] 1
  scatter_S100000x1_S500000x1_S500000x1_1_0_0_1_wf : ScatterDims.WF S100000x1 S500000x1 S500000x1 [1] [0] [0] 1
  dot_S100000x16_S16x64_S100000x64_1_0_0_1_n_n_wf : DotDims.WF S100000x16 S16x64 S100000x64 [1] [0] [0] [1] [] []
  gather_S100000x64_S500000x1_S500000x64_1_0_n_n_0_1_164_wf : GatherDims.WF S100000x64 S500000x1 S500000x64 [1] [0] [] [0] [] 1 ![1, 64]
  dot_S500000x64_S64x64_S500000x64_1_0_0_1_n_n_wf : DotDims.WF S500000x64 S64x64 S500000x64 [1] [0] [0] [1] [] []
  scatter_S100000x64_S500000x1_S500000x64_1_0_0_1_wf : ScatterDims.WF S100000x64 S500000x1 S500000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000x16_S500000x1_S500000x16_1_0_0_1 : ScatterDims S100000x16 S500000x1 S500000x16 where
  updateWindowDims := [1]
  insertedWindowDims := [0]
  scatterDimsToOperandDims := [0]
  indexVectorDim := 1
  wf := scatter_S100000x16_S500000x1_S500000x16_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KSpec.lean ====
import proofs.«100184_j50010599195033_2_alg».proof.Proof.Gen.KernelIdeal
import Idealize.ShloMosaic.Lib.ValueIdx

noncomputable section

namespace Cert.KSpec

open Idealize.ShloMosaic Idealize.ShloMosaic.TcCoe Cert.KernelIdeal Cert.KernelIdeal.Facts₀

variable {F : FTy → Type} [FloatOps F]

def cnt (idx : IVec S500000 32) : FVec F S100000x1 .f32 :=
  maximumf (Host.scatterAdd scatter_S100000x1_S500000x1_S500000x1_1_0_0_1
      (broadcastInDim S100000x1 ![] bcast_S_S100000x1 (constant S_ .f32 0x00000000#32))
      (broadcastInDim S500000x1 ![0] bcast_S500000_S500000x1_0 idx)
      (broadcastInDim S500000x1 ![] bcast_S_S500000x1 (constant S_ .f32 0x3F800000#32)))
    (broadcastInDim S100000x1 ![] bcast_S_S100000x1 (constant S_ .f32 0x3F800000#32))

def segsum16 (X : FVec F S500000x16 .f32) (idx : IVec S500000 32) : FVec F S100000x16 .f32 :=
  Host.scatterAdd scatter_S100000x16_S500000x1_S500000x16_1_0_0_1
    (broadcastInDim S100000x16 ![] bcast_S_S100000x16 (constant S_ .f32 0x00000000#32))
    (broadcastInDim S500000x1 ![0] bcast_S500000_S500000x1_0 idx) X

def segmean16 (X : FVec F S500000x16 .f32) (idx : IVec S500000 32) : FVec F S100000x16 .f32 :=
  Host.divf (segsum16 X idx) (broadcastInDim S100000x16 ![0, 1] bcast_S100000x1_S100000x16_0_1 (cnt idx))

def segsum64 (X : FVec F S500000x64 .f32) (idx : IVec S500000 32) : FVec F S100000x64 .f32 :=
  Host.scatterAdd scatter_S100000x64_S500000x1_S500000x64_1_0_0_1
    (broadcastInDim S100000x64 ![] bcast_S_S100000x64 (constant S_ .f32 0x00000000#32))
    (broadcastInDim S500000x1 ![0] bcast_S500000_S500000x1_0 idx) X

def segmean64 (X : FVec F S500000x64 .f32) (idx : IVec S500000 32) : FVec F S100000x64 .f32 :=
  Host.divf (segsum64 X idx) (broadcastInDim S100000x64 ![0, 1] bcast_S100000x1_S100000x64_0_1 (cnt idx))

def w16x64 (W : FVec F S3x2x16x64 .f32) (o : Fin 4 → Nat) (h : S3x2x16x64.Slices o S1x1x16x64) : FVec F S16x64 .f32 :=
  fun i => shapeCast S16x64 (extractStridedSlice S1x1x16x64 o W h) shapeCasts_S1x1x16x64_S16x64 i

def w64x64 (W : FVec F S3x2x64x64 .f32) (o : Fin 4 → Nat) (h : S3x2x64x64.Slices o S1x1x64x64) : FVec F S64x64 .f32 :=
  fun i => shapeCast S64x64 (extractStridedSlice S1x1x64x64 o W h) shapeCasts_S1x1x64x64_S64x64 i

def w64x16 (W : FVec F S3x2x64x16 .f32) (o : Fin 4 → Nat) (h : S3x2x64x16.Slices o S1x1x64x16) : FVec F S64x16 .f32 :=
  fun i => shapeCast S64x16 (extractStridedSlice S1x1x64x16 o W h) shapeCasts_S1x1x64x16_S64x16 i

def z64 : FVec F S100000x64 .f32 := broadcastInDim S100000x64 ![] bcast_S_S100000x64 (constant S_ .f32 0x00000000#32)
def z16 : FVec F S100000x16 .f32 := broadcastInDim S100000x16 ![] bcast_S_S100000x16 (constant S_ .f32 0x00000000#32)

def relu1 (x : FVec F S100000x64 .f32) : FVec F S100000x64 .f32 :=
  maximumf x (broadcastInDim S100000x64 ![] bcast_S_S100000x64 (constant S_ .f32 0x00000000#32))

def colsum (x : FVec F S100000x64 .f32) : FVec F S1x64 .f32 :=
  broadcastInDim S1x64 ![1] bcast_S64_S1x64_1 (Host.reduceAdd x (constant S_ .f32 0x00000000#32) reducesTo_S100000x64_S64_d0 h_S_)

def mean1 (x : FVec F S100000x64 .f32) : FVec F S1x64 .f32 :=
  Host.divf (colsum x) (broadcastInDim S1x64 ![] bcast_S_S1x64 (constant S_ .f32 0x47C35000#32))

def censq (x : FVec F S100000x64 .f32) : FVec F S100000x64 .f32 :=
  mulf (subf x (broadcastInDim S100000x64 ![0, 1] bcast_S1x64_S100000x64_0_1 (mean1 x)))
       (subf x (broadcastInDim S100000x64 ![0, 1] bcast_S1x64_S100000x64_0_1 (mean1 x)))

def varden : FVec F S_ .f32 :=
  subf (constant S_ .f32 0x47C35000#32) (sitofp .f32 (constantI S_ 32 0#32))

def var1 (x : FVec F S100000x64 .f32) : FVec F S1x64 .f32 :=
  select (broadcastInDim S1x64 ![] bcast_S_S1x64 (cmpf .ogt (varden (F := F)) (constant (F := F) S_ .f32 0x00000000#32)))
    (Host.divf (colsum (censq x)) (broadcastInDim S1x64 ![] bcast_S_S1x64 (varden (F := F))))
    (broadcastInDim S1x64 ![] bcast_S_S1x64 (id (constant (F := F) S_ .f32 0x7FC00000#32)))

def bn (x : FVec F S100000x64 .f32) (mu var : FVec F S1x64 .f32) : FVec F S100000x64 .f32 :=
  Host.divf (subf x (broadcastInDim S100000x64 ![0, 1] bcast_S1x64_S100000x64_0_1 mu))
    (broadcastInDim S100000x64 ![0, 1] bcast_S1x64_S100000x64_0_1
      (Host.sqrt (addf var (broadcastInDim S1x64 ![] bcast_S_S1x64 (constant S_ .f32 0x3727C5AC#32)))))

def emb (x : FVec F S100000x64 .f32) : FVec F S100000x64 .f32 :=
  bn (relu1 x) (mean1 (relu1 x)) (var1 (relu1 x))

def gidx (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

def gath (T : FVec F S100000x64 .f32) (idx : IVec S500000 32) : FVec F S500000x64 .f32 :=
  Host.gather gather_S100000x64_S500000x1_S500000x64_1_0_n_n_0_1_164 T (gidx idx)

def cat (a b : FVec F S64x64 .f32) : FVec F S64x128 .f32 :=
  concatenate S64x128 1 [⟨S64x64, a⟩, ⟨S64x64, b⟩] concatenates_S64x64_S64x64_S64x128_d1

def lo (Y : FVec F S100000x128 .f32) : FVec F S100000x64 .f32 :=
  extractStridedSlice S100000x64 ![0, 0] Y slices_S100000x128_S100000x64_0_0

def hi (Y : FVec F S100000x128 .f32) : FVec F S100000x64 .f32 :=
  extractStridedSlice S100000x64 ![0, 64] Y slices_S100000x128_S100000x64_0_64

theorem bc500 : S_.BroadcastsInDim S500000x64 (![] : Fin 0 → Fin S500000x64.rank) := by decide

def relu5 (x : FVec F S500000x64 .f32) : FVec F S500000x64 .f32 :=
  maximumf x (broadcastInDim S500000x64 ![] bc500 (constant S_ .f32 0x00000000#32))

open Idealize.ShloMosaic.ValueIdx

def mm16 (X : FVec Ideal S100000x16 .f32) (W : FVec Ideal S16x64 .f32) : FVec Ideal S100000x64 .f32 :=
  fun i => ∑ k : Fin 16, X (ix2 (n0 := 100000) (n1 := 16) (i 0) k) * W (ix2 (n0 := 16) (n1 := 64) k (i 1))

def mm64 (X : FVec Ideal S100000x64 .f32) (W : FVec Ideal S64x64 .f32) : FVec Ideal S100000x64 .f32 :=
  fun i => ∑ k : Fin 64, X (ix2 (n0 := 100000) (n1 := 64) (i 0) k) * W (ix2 (n0 := 64) (n1 := 64) k (i 1))

def bnmm128 (x : FVec Ideal S100000x64 .f32) (mu var : FVec Ideal S1x64 .f32) (W : FVec Ideal S64x128 .f32) :
    FVec Ideal S100000x128 .f32 :=
  fun i => ∑ k : Fin 64, bn (relu1 x) mu var (ix2 (n0 := 100000) (n1 := 64) (i 0) k) * W (ix2 (n0 := 64) (n1 := 128) k (i 1))

def bnmm64 (x : FVec Ideal S100000x64 .f32) (mu var : FVec Ideal S1x64 .f32) (W : FVec Ideal S64x64 .f32) :
    FVec Ideal S100000x64 .f32 :=
  fun i => ∑ k : Fin 64, bn (relu1 x) mu var (ix2 (n0 := 100000) (n1 := 64) (i 0) k) * W (ix2 (n0 := 64) (n1 := 64) k (i 1))

def addrelu (a b : FVec Ideal S500000x64 .f32) : FVec Ideal S500000x64 .f32 := relu5 (addf a b)

def fused (a b : FVec Ideal S500000x64 .f32) (W : FVec Ideal S64x16 .f32) : FVec Ideal S500000x16 .f32 :=
  fun i => ∑ k : Fin 64, addrelu a b (ix2 (n0 := 500000) (n1 := 64) (i 0) k) * W (ix2 (n0 := 64) (n1 := 16) k (i 1))

section Composites
variable {F : FTy → Type} [FloatOps F]

structure Args (F : FTy → Type) where
  vals0 : FVec F S500000x16 .f32
  vals1 : FVec F S500000x16 .f32
  vals2 : FVec F S500000x16 .f32
  row0 : IVec S500000 32
  col0 : IVec S500000 32
  row1 : IVec S500000 32
  col1 : IVec S500000 32
  row2 : IVec S500000 32
  col2 : IVec S500000 32
  pw0 : FVec F S3x2x16x64 .f32
  pw1 : FVec F S3x2x64x64 .f32
  pw2 : FVec F S3x2x64x16 .f32
  bw0 : FVec F S3x2x64x64 .f32
  bw1 : FVec F S3x2x64x64 .f32

def pw0_00 (a : Args F) : FVec F S16x64 .f32 := w16x64 a.pw0 ![0, 0, 0, 0] slices_S3x2x16x64_S1x1x16x64_0_0_0_0
def pw0_01 (a : Args F) : FVec F S16x64 .f32 := w16x64 a.pw0 ![0, 1, 0, 0] slices_S3x2x16x64_S1x1x16x64_0_1_0_0
def pw0_10 (a : Args F) : FVec F S16x64 .f32 := w16x64 a.pw0 ![1, 0, 0, 0] slices_S3x2x16x64_S1x1x16x64_1_0_0_0
def pw0_11 (a : Args F) : FVec F S16x64 .f32 := w16x64 a.pw0 ![1, 1, 0, 0] slices_S3x2x16x64_S1x1x16x64_1_1_0_0
def pw0_20 (a : Args F) : FVec F S16x64 .f32 := w16x64 a.pw0 ![2, 0, 0, 0] slices_S3x2x16x64_S1x1x16x64_2_0_0_0
def pw0_21 (a : Args F) : FVec F S16x64 .f32 := w16x64 a.pw0 ![2, 1, 0, 0] slices_S3x2x16x64_S1x1x16x64_2_1_0_0
def pw1_00 (a : Args F) : FVec F S64x64 .f32 := w64x64 a.pw1 ![0, 0, 0, 0] slices_S3x2x64x64_S1x1x64x64_0_0_0_0
def pw1_01 (a : Args F) : FVec F S64x64 .f32 := w64x64 a.pw1 ![0, 1, 0, 0] slices_S3x2x64x64_S1x1x64x64_0_1_0_0
def pw1_10 (a : Args F) : FVec F S64x64 .f32 := w64x64 a.pw1 ![1, 0, 0, 0] slices_S3x2x64x64_S1x1x64x64_1_0_0_0
def pw1_11 (a : Args F) : FVec F S64x64 .f32 := w64x64 a.pw1 ![1, 1, 0, 0] slices_S3x2x64x64_S1x1x64x64_1_1_0_0
def pw1_20 (a : Args F) : FVec F S64x64 .f32 := w64x64 a.pw1 ![2, 0, 0, 0] slices_S3x2x64x64_S1x1x64x64_2_0_0_0
def pw1_21 (a : Args F) : FVec F S64x64 .f32 := w64x64 a.pw1 ![2, 1, 0, 0] slices_S3x2x64x64_S1x1x64x64_2_1_0_0
def bw0_00 (a : Args F) : FVec F S64x64 .f32 := w64x64 a.bw0 ![0, 0, 0, 0] slices_S3x2x64x64_S1x1x64x64_0_0_0_0
def bw0_01 (a : Args F) : FVec F S64x64 .f32 := w64x64 a.bw0 ![0, 1, 0, 0] slices_S3x2x64x64_S1x1x64x64_0_1_0_0
def bw0_10 (a : Args F) : FVec F S64x64 .f32 := w64x64 a.bw0 ![1, 0, 0, 0] slices_S3x2x64x64_S1x1x64x64_1_0_0_0
def bw0_11 (a : Args F) : FVec F S64x64 .f32 := w64x64 a.bw0 ![1, 1, 0, 0] slices_S3x2x64x64_S1x1x64x64_1_1_0_0
def bw0_20 (a : Args F) : FVec F S64x64 .f32 := w64x64 a.bw0 ![2, 0, 0, 0] slices_S3x2x64x64_S1x1x64x64_2_0_0_0
def bw0_21 (a : Args F) : FVec F S64x64 .f32 := w64x64 a.bw0 ![2, 1, 0, 0] slices_S3x2x64x64_S1x1x64x64_2_1_0_0
def bw1_00 (a : Args F) : FVec F S64x64 .f32 := w64x64 a.bw1 ![0, 0, 0, 0] slices_S3x2x64x64_S1x1x64x64_0_0_0_0
def bw1_01 (a : Args F) : FVec F S64x64 .f32 := w64x64 a.bw1 ![0, 1, 0, 0] slices_S3x2x64x64_S1x1x64x64_0_1_0_0
def bw1_10 (a : Args F) : FVec F S64x64 .f32 := w64x64 a.bw1 ![1, 0, 0, 0] slices_S3x2x64x64_S1x1x64x64_1_0_0_0
def bw1_11 (a : Args F) : FVec F S64x64 .f32 := w64x64 a.bw1 ![1, 1, 0, 0] slices_S3x2x64x64_S1x1x64x64_1_1_0_0
def bw1_20 (a : Args F) : FVec F S64x64 .f32 := w64x64 a.bw1 ![2, 0, 0, 0] slices_S3x2x64x64_S1x1x64x64_2_0_0_0
def bw1_21 (a : Args F) : FVec F S64x64 .f32 := w64x64 a.bw1 ![2, 1, 0, 0] slices_S3x2x64x64_S1x1x64x64_2_1_0_0
def pw2_00 (a : Args F) : FVec F S64x16 .f32 := w64x16 a.pw2 ![0, 0, 0, 0] slices_S3x2x64x16_S1x1x64x16_0_0_0_0
def pw2_20 (a : Args F) : FVec F S64x16 .f32 := w64x16 a.pw2 ![2, 0, 0, 0] slices_S3x2x64x16_S1x1x64x16_2_0_0_0
end Composites

section Stages
local notation "F" => Ideal

def kacc0_0 (a : Args F) : FVec F S100000x64 .f32 := addf (addf z64 (mm16 (segmean16 (a.vals0) a.row0) (pw0_00 a))) (mm16 (segmean16 (a.vals2) a.row2) (pw0_20 a))
def kacc0_1 (a : Args F) : FVec F S100000x64 .f32 := addf (addf z64 (mm16 (segmean16 (a.vals0) a.col0) (pw0_01 a))) (mm16 (segmean16 (a.vals1) a.row1) (pw0_10 a))
def kacc0_2 (a : Args F) : FVec F S100000x64 .f32 := addf (addf z64 (mm16 (segmean16 (a.vals1) a.col1) (pw0_11 a))) (mm16 (segmean16 (a.vals2) a.col2) (pw0_21 a))

def Y0_0 (a : Args F) : FVec F S100000x128 .f32 := bnmm128 (kacc0_0 a) (mean1 (relu1 (kacc0_0 a))) (var1 (relu1 (kacc0_0 a))) (cat (bw0_00 a) (bw0_20 a))
def Y0_1 (a : Args F) : FVec F S100000x128 .f32 := bnmm128 (kacc0_1 a) (mean1 (relu1 (kacc0_1 a))) (var1 (relu1 (kacc0_1 a))) (cat (bw0_01 a) (bw0_10 a))
def Y0_2 (a : Args F) : FVec F S100000x128 .f32 := bnmm128 (kacc0_2 a) (mean1 (relu1 (kacc0_2 a))) (var1 (relu1 (kacc0_2 a))) (cat (bw0_11 a) (bw0_21 a))

def kd1_0 (a : Args F) : FVec F S500000x64 .f32 := addrelu (gath (lo (Y0_0 a)) a.row0) (gath (lo (Y0_1 a)) a.col0)
def kd1_1 (a : Args F) : FVec F S500000x64 .f32 := addrelu (gath (hi (Y0_1 a)) a.row1) (gath (lo (Y0_2 a)) a.col1)
def kd1_2 (a : Args F) : FVec F S500000x64 .f32 := addrelu (gath (hi (Y0_0 a)) a.row2) (gath (hi (Y0_2 a)) a.col2)

def kacc1_0 (a : Args F) : FVec F S100000x64 .f32 := addf (addf z64 (mm64 (segmean64 (kd1_0 a) a.row0) (pw1_00 a))) (mm64 (segmean64 (kd1_2 a) a.row2) (pw1_20 a))
def kacc1_1 (a : Args F) : FVec F S100000x64 .f32 := addf (addf z64 (mm64 (segmean64 (kd1_0 a) a.col0) (pw1_01 a))) (mm64 (segmean64 (kd1_1 a) a.row1) (pw1_10 a))
def kacc1_2 (a : Args F) : FVec F S100000x64 .f32 := addf (addf z64 (mm64 (segmean64 (kd1_1 a) a.col1) (pw1_11 a))) (mm64 (segmean64 (kd1_2 a) a.col2) (pw1_21 a))

def Y1_0 (a : Args F) : FVec F S100000x128 .f32 := bnmm128 (kacc1_0 a) (mean1 (relu1 (kacc1_0 a))) (var1 (relu1 (kacc1_0 a))) (cat (bw1_00 a) (bw1_20 a))
def Y1_1 (a : Args F) : FVec F S100000x64 .f32 := bnmm64 (kacc1_1 a) (mean1 (relu1 (kacc1_1 a))) (var1 (relu1 (kacc1_1 a))) (bw1_01 a)
def Y1_2 (a : Args F) : FVec F S100000x64 .f32 := bnmm64 (kacc1_2 a) (mean1 (relu1 (kacc1_2 a))) (var1 (relu1 (kacc1_2 a))) (bw1_21 a)

def E0 (a : Args F) : FVec F S500000x16 .f32 := fused (gath (lo (Y1_0 a)) a.row0) (gath (Y1_1 a) a.col0) (pw2_00 a)
def E2 (a : Args F) : FVec F S500000x16 .f32 := fused (gath (hi (Y1_0 a)) a.row2) (gath (Y1_2 a) a.col2) (pw2_20 a)

def kout (a : Args F) : FVec F S100000x16 .f32 := addf (addf z16 (segmean16 (E0 a) a.row0)) (segmean16 (E2 a) a.row2)

end Stages

end Cert.KSpec

end
-- ==== Proof.KArgs.lean ====
import proofs.«100184_j50010599195033_2_alg».proof.Proof.KSpec

noncomputable section

namespace Cert.KArgs

open Idealize.ShloMosaic Idealize.SL.Sem Cert.KernelIdeal

def args {F : FTy → Type} [FloatOps F] (m : (ℓ : Loc nD τ sig) → Buf (Elt F) ℓ) (c : Dev nD) : Cert.KSpec.Args F where
  vals0 := m ((c.tc : Thread nD τ).loc main_arg0)
  vals1 := m ((c.tc : Thread nD τ).loc main_arg1)
  vals2 := m ((c.tc : Thread nD τ).loc main_arg2)
  row0 := m ((c.tc : Thread nD τ).loc main_arg3)
  col0 := m ((c.tc : Thread nD τ).loc main_arg4)
  row1 := m ((c.tc : Thread nD τ).loc main_arg5)
  col1 := m ((c.tc : Thread nD τ).loc main_arg6)
  row2 := m ((c.tc : Thread nD τ).loc main_arg7)
  col2 := m ((c.tc : Thread nD τ).loc main_arg8)
  pw0 := m ((c.tc : Thread nD τ).loc main_arg9)
  pw1 := m ((c.tc : Thread nD τ).loc main_arg10)
  pw2 := m ((c.tc : Thread nD τ).loc main_arg11)
  bw0 := m ((c.tc : Thread nD τ).loc main_arg12)
  bw1 := m ((c.tc : Thread nD τ).loc main_arg13)

def argsV {F : FTy → Type} [FloatOps F] (V : Valuation τ sig (Elt F)) : Cert.KSpec.Args F where
  vals0 := V (Proc.devRef .tc main_arg0)
  vals1 := V (Proc.devRef .tc main_arg1)
  vals2 := V (Proc.devRef .tc main_arg2)
  row0 := V (Proc.devRef .tc main_arg3)
  col0 := V (Proc.devRef .tc main_arg4)
  row1 := V (Proc.devRef .tc main_arg5)
  col1 := V (Proc.devRef .tc main_arg6)
  row2 := V (Proc.devRef .tc main_arg7)
  col2 := V (Proc.devRef .tc main_arg8)
  pw0 := V (Proc.devRef .tc main_arg9)
  pw1 := V (Proc.devRef .tc main_arg10)
  pw2 := V (Proc.devRef .tc main_arg11)
  bw0 := V (Proc.devRef .tc main_arg12)
  bw1 := V (Proc.devRef .tc main_arg13)

end Cert.KArgs

end
-- ==== Proof.RegTy.lean ====
import proofs.«100184_j50010599195033_2_alg».proof.Proof.Gen.KernelIdeal.Frame
import Idealize.ShloMosaic.PureOps.Ideal

noncomputable section

namespace Cert.Reg

open Idealize.ShloMosaic Idealize.ShloMosaic.TcCoe Idealize.SL.Sem Idealize.ShloMosaic.Pipeline Cert.KernelIdeal Cert.KernelIdeal.Gen

abbrev VT := (c : Dev nD) → (b : Ref sig .tc) → Buf (Elt Ideal) ((c : Thread nD τ).loc b)

end Cert.Reg

end
-- ==== Proof.Blocks.lean ====
import Idealize.ShloMosaic.Lib.ValueIdx
import Idealize.ShloMosaic.Lib.Pipeline.Value
import Idealize.ShloMosaic.PureOps.Ideal.Laws

noncomputable section

namespace Cert.Reg

open Idealize.ShloMosaic Idealize.ShloMosaic.ValueIdx
open scoped BigOperators

abbrev Sh (a b : Nat) : Shape := ⟨2, ![a, b]⟩

/-- A block index on row block `n`, column block 0. -/
abbrev At (ix : Fin 2 → Nat) (n : Nat) : Prop := ix 0 = n ∧ ix 1 = 0

theorem hz : (![0, 0] : Fin 2 → Nat) = fun _ => 0 := funext fun a => by fin_cases a <;> rfl

theorem idx2_ext {a b : Nat} {i i' : (Sh a b).Idx} (h0 : (i 0).val = (i' 0).val) (h1 : (i 1).val = (i' 1).val) : i = i' :=
  funext fun x => Fin.ext (by match x with | ⟨0, _⟩ => exact h0 | ⟨1, _⟩ => exact h1)

/-- A block at block index (n, 0) sits n blocks of rows down, at column 0. -/
theorem emb_at {M Mb N : Nat} {e : (Sh Mb N).Idx → (Sh M N).Idx} {ix : Fin 2 → Nat} {n : Nat}
    (he : ∀ y a, ((e y) a).val = ix a * (![Mb, N] : Fin 2 → Nat) a + (y a).val) (h : At ix n) (y : (Sh Mb N).Idx) :
    ((e y) 0).val = n * Mb + (y 0).val ∧ ((e y) 1).val = (y 1).val := by
  have h0 : ((e y) 0).val = ix 0 * Mb + (y 0).val := he y 0
  have h1 : ((e y) 1).val = ix 1 * N + (y 1).val := he y 1
  rw [h.1] at h0; rw [h.2, Nat.zero_mul, Nat.zero_add] at h1
  exact ⟨h0, h1⟩

/-- A block that is its whole array reads the array. -/
theorem emb_whole {M N : Nat} {e : (Sh M N).Idx → (Sh M N).Idx} {ix : Fin 2 → Nat}
    (he : ∀ y a, ((e y) a).val = ix a * (![M, N] : Fin 2 → Nat) a + (y a).val) (h : At ix 0) (y : (Sh M N).Idx) : e y = y :=
  idx2_ext ((emb_at he h y).1.trans (by rw [Nat.zero_mul, Nat.zero_add])) (emb_at he h y).2

/-- Row r lies in row block r / Mb. -/
theorem row_cover {M Mb N : Nat} (hMb : 0 < Mb) (i : (Sh M N).Idx) {ix : Fin 2 → Nat} (h : At ix ((i 0).val / Mb)) (a : Fin 2) :
    ix a * (![Mb, N] : Fin 2 → Nat) a ≤ (i a).val ∧ (i a).val < ix a * (![Mb, N] : Fin 2 → Nat) a + (![Mb, N] : Fin 2 → Nat) a := by
  match a with
  | ⟨0, _⟩ =>
    show ix 0 * Mb ≤ (i 0).val ∧ (i 0).val < ix 0 * Mb + Mb
    rw [h.1]; exact ⟨Nat.div_mul_le_self _ _, Nat.lt_div_mul_add hMb⟩
  | ⟨1, _⟩ =>
    show ix 1 * N ≤ (i 1).val ∧ (i 1).val < ix 1 * N + N
    rw [h.2, Nat.zero_mul, Nat.zero_add]; exact ⟨Nat.zero_le _, idx2_lt1 i⟩

/-- A plain M×K by K×N product into a zero accumulator, at entry (p, q): the sum over the K positions. -/
theorem plain_mm {M K N : Nat} {φ₁ φ₂ : FTy} (d : DotDims (Sh M K) (Sh K N) (Sh M N)) (hr : d.contr.rank = 1)
    (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x0 : FVec Ideal (Sh M K) φ₁) (x1 : FVec Ideal (Sh K N) φ₂) (p : Fin M) (q : Fin N) :
    FloatOps.matmul d none x0 x1 (constant (Sh M N) .f32 0x00000000#32) (ix2 p q) = ∑ k : Fin K, x0 (ix2 p k) * x1 (ix2 k q) := by
  rw [Ideal.matmul_constant_zero_apply, ← Equiv.sum_comp (contrEquiv1 d K hr hs).symm]
  refine Finset.sum_congr rfl fun k _ => ?_
  have hk := contrEquiv1_symm_val d K hr hs k
  exact congrArg₂ (· * ·) (congrArg x0 (idx2_ext (hl0 _ _) ((hl1 _ _).trans hk)))
    (congrArg x1 (idx2_ext ((hr0 _ _).trans hk) (hr1 _ _)))

/-- A block of rows times a whole matrix is the same rows of the whole product. -/
theorem mm_blk {M Mb K N : Nat} {P : FVec Ideal (Sh Mb K) .f32 → FVec Ideal (Sh K N) .f32 → FVec Ideal (Sh Mb N) .f32}
    (hP : ∀ x0 x1 p q, P x0 x1 (ix2 p q) = ∑ k : Fin K, x0 (ix2 p k) * x1 (ix2 k q))
    (A : FVec Ideal (Sh M K) .f32) (W : FVec Ideal (Sh K N) .f32)
    {x0 : FVec Ideal (Sh Mb K) .f32} {x1 : FVec Ideal (Sh K N) .f32}
    {e0 : (Sh Mb K).Idx → (Sh M K).Idx} {e1 : (Sh K N).Idx → (Sh K N).Idx} {e2 : (Sh Mb N).Idx → (Sh M N).Idx}
    {i0 i1 i2 : Fin 2 → Nat} {n : Nat}
    (he0 : ∀ y a, ((e0 y) a).val = i0 a * (![Mb, K] : Fin 2 → Nat) a + (y a).val)
    (he1 : ∀ y a, ((e1 y) a).val = i1 a * (![K, N] : Fin 2 → Nat) a + (y a).val)
    (he2 : ∀ y a, ((e2 y) a).val = i2 a * (![Mb, N] : Fin 2 → Nat) a + (y a).val)
    (hx0 : ∀ y, x0 y = A (e0 y)) (hx1 : ∀ y, x1 y = W (e1 y))
    (f : At i0 n ∧ At i1 0 ∧ At i2 n) (j : (Sh Mb N).Idx) :
    P x0 x1 j = ∑ k : Fin K, A (ix2 ((e2 j) 0) k) * W (ix2 k ((e2 j) 1)) := by
  refine ((congrArg (P x0 x1) (eq_ix2 j)).trans (hP x0 x1 (j 0) (j 1))).trans (Finset.sum_congr rfl fun k _ => ?_)
  have a0 := emb_at he0 f.1 (ix2 (j 0) k)
  have a2 := emb_at he2 f.2.2 j
  rw [hx0, hx1, emb_whole he1 f.2.1]
  refine congrArg₂ (· * ·) (congrArg A (idx2_ext (a0.1.trans a2.1.symm) a0.2)) (congrArg W (idx2_ext rfl a2.2.symm))

end Cert.Reg

end
-- ==== Proof.RegMMPay.lean ====
import proofs.«100184_j50010599195033_2_alg».proof.Proof.Gen.KernelIdeal.Frame
import proofs.«100184_j50010599195033_2_alg».proof.Proof.KSpec
import proofs.«100184_j50010599195033_2_alg».proof.Proof.RegTy
import proofs.«100184_j50010599195033_2_alg».proof.Proof.Blocks
import Idealize.ShloMosaic.Lib.ValueIdx
import Idealize.ShloMosaic.PureOps.Ideal.Laws
import Idealize.ShloMosaic.Lib.Pipeline.Value

noncomputable section

namespace Cert.Reg

open Idealize.ShloMosaic Idealize.ShloMosaic.ValueIdx Cert.KernelIdeal Cert.KernelIdeal.Gen
open scoped BigOperators

theorem lhs16_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide),
    dif_pos (show (0 : Fin S10000x16.rank) ∈ dot_S10000x16_S16x64_S10000x64_1_0_0_1_n_n.lhsNonContracting by decide)]
  rfl
theorem lhs16_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem rhs16_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem rhs16_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide),
    dif_pos (show (1 : Fin S16x64.rank) ∈ dot_S10000x16_S16x64_S10000x64_1_0_0_1_n_n.rhsNonContracting by decide)]
  rfl

theorem prod16 (x0 : FVec Ideal S10000x16 .f32) (x1 : FVec Ideal S16x64 .f32) (p : Fin 10000) (q : Fin 64) :
    k0_pay1 (F := Ideal) x0 x1 (ix2 p q) = ∑ k : Fin 16, x0 (ix2 p k) * x1 (ix2 k q) := by
  unfold k0_pay1
  simp only [shapeCast_self, matmul]
  exact plain_mm _ rfl rfl lhs16_0 lhs16_1 rhs16_0 rhs16_1 _ _ p q

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

theorem prod64 (x0 : FVec Ideal S10000x64 .f32) (x1 : FVec Ideal S64x64 .f32) (p : Fin 10000) (q : Fin 64) :
    k12_pay1 (F := Ideal) x0 x1 (ix2 p q) = ∑ k : Fin 64, x0 (ix2 p k) * x1 (ix2 k q) := by
  unfold k12_pay1
  simp only [shapeCast_self, matmul]
  exact plain_mm _ rfl rfl lhs64_0 lhs64_1 rhs64_0 rhs64_1 _ _ p q

theorem out16 (x0 : Vec Ideal S10000x16 .f32) (x1 : Vec Ideal S16x64 .f32) : out0_2 (F := Ideal) x0 x1 = k0_pay1 x0 x1 := by
  unfold out0_2
  rw [View.canon_unit_zero hz]
  simp only [View.ld_unit_zero (S := S10000x16) hz, View.ld_unit_zero (S := S16x64) hz]

theorem out64 (x0 : Vec Ideal S10000x64 .f32) (x1 : Vec Ideal S64x64 .f32) : out12_2 (F := Ideal) x0 x1 = k12_pay1 x0 x1 := by
  unfold out12_2
  rw [View.canon_unit_zero hz]
  simp only [View.ld_unit_zero (S := S10000x64) hz, View.ld_unit_zero (S := S64x64) hz]

end Cert.Reg

end
-- ==== Proof.RegMM16.lean ====
import proofs.«100184_j50010599195033_2_alg».proof.Proof.RegMMPay

noncomputable section

namespace Cert.Reg

open Idealize.ShloMosaic Idealize.ShloMosaic.TcCoe Idealize.SL.Sem Idealize.ShloMosaic.Pipeline Idealize.ShloMosaic.ValueIdx
open Cert.KernelIdeal Cert.KernelIdeal.Gen

theorem idx0 : ∀ t : Fin cfg0.N, At (win0_0.index t) t.val ∧ At (win0_1.index t) 0 ∧ At (win0_2.index t) t.val :=
  (by decide +kernel : ∀ t : Fin grid0.N, _)

theorem reg0 (V : VT) (c : Dev nD) :
    (dat0 (F := Ideal) V c).arrAt 2 cfg0.N = KSpec.mm16 (V c (arrRef spec0 0)) (V c (arrRef spec0 1)) :=
  (dat0 (F := Ideal) V c).arrAt_eq_of_cover 2 _
    (fun t _ => by
      show (cfg0.win 2).cut (grid0.coords t) ((dat0 (F := Ideal) V c).after 2 t) = _
      rw [after0_2]
      show (cfg0.win 2).cut (grid0.coords t) (out0_2 (F := Ideal) (iblk0 V c 0 t) (iblk0 V c 1 t)) = _
      rw [out16]
      exact funext fun j => mm_blk prod16 _ _ (win0_0.rect_emb_val t) (win0_1.rect_emb_val t) (win0_2.rect_emb_val t)
        (fun _ => rfl) (fun _ => rfl) (idx0 t) j)
    fun (i : S100000x64.Idx) => by
      have ht : (i 0).val / 10000 < cfg0.N := by have := idx2_lt0 i; rw [show cfg0.N = 10 from N_0]; omega
      refine ⟨⟨_, ht⟩, flush0_2 _, ?_⟩
      show i ∈ ((View.whole main_v46).slice (win0_2.rect ⟨(i 0).val / 10000, ht⟩)).set
      rw [View.set_slice_whole, Rect.mem_set_unit]
      exact row_cover (by decide) i (idx0 ⟨_, ht⟩).2.2

theorem idx1 : ∀ t : Fin cfg1.N, At (win1_0.index t) t.val ∧ At (win1_1.index t) 0 ∧ At (win1_2.index t) t.val :=
  (by decide +kernel : ∀ t : Fin grid1.N, _)

theorem reg1 (V : VT) (c : Dev nD) :
    (dat1 (F := Ideal) V c).arrAt 2 cfg1.N = KSpec.mm16 (V c (arrRef spec1 0)) (V c (arrRef spec1 1)) :=
  (dat1 (F := Ideal) V c).arrAt_eq_of_cover 2 _
    (fun t _ => by
      show (cfg1.win 2).cut (grid1.coords t) ((dat1 (F := Ideal) V c).after 2 t) = _
      rw [after1_2]
      show (cfg1.win 2).cut (grid1.coords t) (out0_2 (F := Ideal) (iblk1 V c 0 t) (iblk1 V c 1 t)) = _
      rw [out16]
      exact funext fun j => mm_blk prod16 _ _ (win1_0.rect_emb_val t) (win1_1.rect_emb_val t) (win1_2.rect_emb_val t)
        (fun _ => rfl) (fun _ => rfl) (idx1 t) j)
    fun (i : S100000x64.Idx) => by
      have ht : (i 0).val / 10000 < cfg1.N := by have := idx2_lt0 i; rw [show cfg1.N = 10 from N_1]; omega
      refine ⟨⟨_, ht⟩, flush1_2 _, ?_⟩
      show i ∈ ((View.whole main_v49).slice (win1_2.rect ⟨(i 0).val / 10000, ht⟩)).set
      rw [View.set_slice_whole, Rect.mem_set_unit]
      exact row_cover (by decide) i (idx1 ⟨_, ht⟩).2.2

theorem idx2 : ∀ t : Fin cfg2.N, At (win2_0.index t) t.val ∧ At (win2_1.index t) 0 ∧ At (win2_2.index t) t.val :=
  (by decide +kernel : ∀ t : Fin grid2.N, _)

theorem reg2 (V : VT) (c : Dev nD) :
    (dat2 (F := Ideal) V c).arrAt 2 cfg2.N = KSpec.mm16 (V c (arrRef spec2 0)) (V c (arrRef spec2 1)) :=
  (dat2 (F := Ideal) V c).arrAt_eq_of_cover 2 _
    (fun t _ => by
      show (cfg2.win 2).cut (grid2.coords t) ((dat2 (F := Ideal) V c).after 2 t) = _
      rw [after2_2]
      show (cfg2.win 2).cut (grid2.coords t) (out0_2 (F := Ideal) (iblk2 V c 0 t) (iblk2 V c 1 t)) = _
      rw [out16]
      exact funext fun j => mm_blk prod16 _ _ (win2_0.rect_emb_val t) (win2_1.rect_emb_val t) (win2_2.rect_emb_val t)
        (fun _ => rfl) (fun _ => rfl) (idx2 t) j)
    fun (i : S100000x64.Idx) => by
      have ht : (i 0).val / 10000 < cfg2.N := by have := idx2_lt0 i; rw [show cfg2.N = 10 from N_2]; omega
      refine ⟨⟨_, ht⟩, flush2_2 _, ?_⟩
      show i ∈ ((View.whole main_v64).slice (win2_2.rect ⟨(i 0).val / 10000, ht⟩)).set
      rw [View.set_slice_whole, Rect.mem_set_unit]
      exact row_cover (by decide) i (idx2 ⟨_, ht⟩).2.2

theorem idx3 : ∀ t : Fin cfg3.N, At (win3_0.index t) t.val ∧ At (win3_1.index t) 0 ∧ At (win3_2.index t) t.val :=
  (by decide +kernel : ∀ t : Fin grid3.N, _)

theorem reg3 (V : VT) (c : Dev nD) :
    (dat3 (F := Ideal) V c).arrAt 2 cfg3.N = KSpec.mm16 (V c (arrRef spec3 0)) (V c (arrRef spec3 1)) :=
  (dat3 (F := Ideal) V c).arrAt_eq_of_cover 2 _
    (fun t _ => by
      show (cfg3.win 2).cut (grid3.coords t) ((dat3 (F := Ideal) V c).after 2 t) = _
      rw [after3_2]
      show (cfg3.win 2).cut (grid3.coords t) (out0_2 (F := Ideal) (iblk3 V c 0 t) (iblk3 V c 1 t)) = _
      rw [out16]
      exact funext fun j => mm_blk prod16 _ _ (win3_0.rect_emb_val t) (win3_1.rect_emb_val t) (win3_2.rect_emb_val t)
        (fun _ => rfl) (fun _ => rfl) (idx3 t) j)
    fun (i : S100000x64.Idx) => by
      have ht : (i 0).val / 10000 < cfg3.N := by have := idx2_lt0 i; rw [show cfg3.N = 10 from N_3]; omega
      refine ⟨⟨_, ht⟩, flush3_2 _, ?_⟩
      show i ∈ ((View.whole main_v67).slice (win3_2.rect ⟨(i 0).val / 10000, ht⟩)).set
      rw [View.set_slice_whole, Rect.mem_set_unit]
      exact row_cover (by decide) i (idx3 ⟨_, ht⟩).2.2

theorem idx4 : ∀ t : Fin cfg4.N, At (win4_0.index t) t.val ∧ At (win4_1.index t) 0 ∧ At (win4_2.index t) t.val :=
  (by decide +kernel : ∀ t : Fin grid4.N, _)

theorem reg4 (V : VT) (c : Dev nD) :
    (dat4 (F := Ideal) V c).arrAt 2 cfg4.N = KSpec.mm16 (V c (arrRef spec4 0)) (V c (arrRef spec4 1)) :=
  (dat4 (F := Ideal) V c).arrAt_eq_of_cover 2 _
    (fun t _ => by
      show (cfg4.win 2).cut (grid4.coords t) ((dat4 (F := Ideal) V c).after 2 t) = _
      rw [after4_2]
      show (cfg4.win 2).cut (grid4.coords t) (out0_2 (F := Ideal) (iblk4 V c 0 t) (iblk4 V c 1 t)) = _
      rw [out16]
      exact funext fun j => mm_blk prod16 _ _ (win4_0.rect_emb_val t) (win4_1.rect_emb_val t) (win4_2.rect_emb_val t)
        (fun _ => rfl) (fun _ => rfl) (idx4 t) j)
    fun (i : S100000x64.Idx) => by
      have ht : (i 0).val / 10000 < cfg4.N := by have := idx2_lt0 i; rw [show cfg4.N = 10 from N_4]; omega
      refine ⟨⟨_, ht⟩, flush4_2 _, ?_⟩
      show i ∈ ((View.whole main_v82).slice (win4_2.rect ⟨(i 0).val / 10000, ht⟩)).set
      rw [View.set_slice_whole, Rect.mem_set_unit]
      exact row_cover (by decide) i (idx4 ⟨_, ht⟩).2.2

theorem idx5 : ∀ t : Fin cfg5.N, At (win5_0.index t) t.val ∧ At (win5_1.index t) 0 ∧ At (win5_2.index t) t.val :=
  (by decide +kernel : ∀ t : Fin grid5.N, _)

theorem reg5 (V : VT) (c : Dev nD) :
    (dat5 (F := Ideal) V c).arrAt 2 cfg5.N = KSpec.mm16 (V c (arrRef spec5 0)) (V c (arrRef spec5 1)) :=
  (dat5 (F := Ideal) V c).arrAt_eq_of_cover 2 _
    (fun t _ => by
      show (cfg5.win 2).cut (grid5.coords t) ((dat5 (F := Ideal) V c).after 2 t) = _
      rw [after5_2]
      show (cfg5.win 2).cut (grid5.coords t) (out0_2 (F := Ideal) (iblk5 V c 0 t) (iblk5 V c 1 t)) = _
      rw [out16]
      exact funext fun j => mm_blk prod16 _ _ (win5_0.rect_emb_val t) (win5_1.rect_emb_val t) (win5_2.rect_emb_val t)
        (fun _ => rfl) (fun _ => rfl) (idx5 t) j)
    fun (i : S100000x64.Idx) => by
      have ht : (i 0).val / 10000 < cfg5.N := by have := idx2_lt0 i; rw [show cfg5.N = 10 from N_5]; omega
      refine ⟨⟨_, ht⟩, flush5_2 _, ?_⟩
      show i ∈ ((View.whole main_v85).slice (win5_2.rect ⟨(i 0).val / 10000, ht⟩)).set
      rw [View.set_slice_whole, Rect.mem_set_unit]
      exact row_cover (by decide) i (idx5 ⟨_, ht⟩).2.2

end Cert.Reg

end
-- ==== Proof.KRead1.lean ====
import proofs.«100184_j50010599195033_2_alg».proof.Proof.Gen.KernelIdeal.Frame
import proofs.«100184_j50010599195033_2_alg».proof.Proof.KSpec
import proofs.«100184_j50010599195033_2_alg».proof.Proof.KArgs
import proofs.«100184_j50010599195033_2_alg».proof.Proof.RegMM16

set_option maxRecDepth 16384

noncomputable section

namespace Cert.KRead

open Idealize.ShloMosaic Idealize.ShloMosaic.TcCoe Idealize.SL.Sem Cert.KernelIdeal Cert.KernelIdeal.Gen

theorem single_in_list (W : List (Ref sig .tc)) (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

macro "writes_in_list" : tactic =>
  `(tactic| (repeat' apply And.intro
             all_goals exact single_in_list _ _ (by decide)))

section Host

variable {F : FTy → Type} [FloatOps F]

def wr0 : List (Ref sig .tc) :=
  [main_cst, main_v0, main_cst_0, main_v1, main_v2, main_v3, main_cst_1, main_v4, main_v5, main_cst_2, main_v6,
   main_v7, main_v8, main_cst_3, main_v9, main_v10, main_cst_4, main_v11, main_v12, main_v13, main_cst_5, main_v14,
   main_v15, main_cst_6, main_v16, main_v17, main_v18, main_cst_7, main_v19, main_v20, main_cst_8, main_v21, main_v22,
   main_v23, main_cst_9, main_v24, main_v25, main_cst_10, main_v26, main_v27, main_v28, main_cst_11, main_v29,
   main_v30, main_cst_12, main_v31, main_cst_13, main_v32, main_cst_14, main_v33, main_cst_15, main_v34, main_v35,
   main_v36, main_cst_16, main_v37, main_v38, main_v39, main_v40, main_v41, main_v42, main_v43, main_v44, main_v45]
def wr1 : List (Ref sig .tc) := [main_v47, main_v48]
def wr2 : List (Ref sig .tc) :=
  [main_v50, main_v51, main_cst_17, main_v52, main_v53, main_v54, main_cst_18, main_v55, main_v56, main_v57, main_v58,
   main_v59, main_v60, main_v61, main_v62, main_v63]
def wr3 : List (Ref sig .tc) := [main_v65, main_v66]
def wr4 : List (Ref sig .tc) :=
  [main_v68, main_v69, main_cst_19, main_v70, main_v71, main_v72, main_cst_20, main_v73, main_v74, main_v75, main_v76,
   main_v77, main_v78, main_v79, main_v80, main_v81]
def wr5 : List (Ref sig .tc) := [main_v83, main_v84]
def wr6 : List (Ref sig .tc) := [main_v86, main_v87]

theorem keep0 (U : Valuation τ sig (Elt F)) (r : Ref sig .tc) (hr : r ∉ wr0) :
    StableHlo.after hostOps0 U (Proc.devRef .tc r) = U (Proc.devRef .tc r) :=
  StableHlo.after_of_writes_sub hostOps0 U (by
    simp only [hostOps0, List.Forall, StableHlo.nullary_writes, StableHlo.unary_writes, StableHlo.binary_writes, StableHlo.ternary_writes, StableHlo.reshape_writes]
    writes_in_list) hr
theorem keep1 (U : Valuation τ sig (Elt F)) (r : Ref sig .tc) (hr : r ∉ wr1) :
    StableHlo.after hostOps1 U (Proc.devRef .tc r) = U (Proc.devRef .tc r) :=
  StableHlo.after_of_writes_sub hostOps1 U (by
    simp only [hostOps1, List.Forall, StableHlo.nullary_writes, StableHlo.unary_writes, StableHlo.binary_writes, StableHlo.ternary_writes, StableHlo.reshape_writes]
    writes_in_list) hr
theorem keep2 (U : Valuation τ sig (Elt F)) (r : Ref sig .tc) (hr : r ∉ wr2) :
    StableHlo.after hostOps2 U (Proc.devRef .tc r) = U (Proc.devRef .tc r) :=
  StableHlo.after_of_writes_sub hostOps2 U (by
    simp only [hostOps2, List.Forall, StableHlo.nullary_writes, StableHlo.unary_writes, StableHlo.binary_writes, StableHlo.ternary_writes, StableHlo.reshape_writes]
    writes_in_list) hr
theorem keep3 (U : Valuation τ sig (Elt F)) (r : Ref sig .tc) (hr : r ∉ wr3) :
    StableHlo.after hostOps3 U (Proc.devRef .tc r) = U (Proc.devRef .tc r) :=
  StableHlo.after_of_writes_sub hostOps3 U (by
    simp only [hostOps3, List.Forall, StableHlo.nullary_writes, StableHlo.unary_writes, StableHlo.binary_writes, StableHlo.ternary_writes, StableHlo.reshape_writes]
    writes_in_list) hr
theorem keep4 (U : Valuation τ sig (Elt F)) (r : Ref sig .tc) (hr : r ∉ wr4) :
    StableHlo.after hostOps4 U (Proc.devRef .tc r) = U (Proc.devRef .tc r) :=
  StableHlo.after_of_writes_sub hostOps4 U (by
    simp only [hostOps4, List.Forall, StableHlo.nullary_writes, StableHlo.unary_writes, StableHlo.binary_writes, StableHlo.ternary_writes, StableHlo.reshape_writes]
    writes_in_list) hr
theorem keep5 (U : Valuation τ sig (Elt F)) (r : Ref sig .tc) (hr : r ∉ wr5) :
    StableHlo.after hostOps5 U (Proc.devRef .tc r) = U (Proc.devRef .tc r) :=
  StableHlo.after_of_writes_sub hostOps5 U (by
    simp only [hostOps5, List.Forall, StableHlo.nullary_writes, StableHlo.unary_writes, StableHlo.binary_writes, StableHlo.ternary_writes, StableHlo.reshape_writes]
    writes_in_list) hr
theorem keep6 (U : Valuation τ sig (Elt F)) (r : Ref sig .tc) (hr : r ∉ wr6) :
    StableHlo.after hostOps6 U (Proc.devRef .tc r) = U (Proc.devRef .tc r) :=
  StableHlo.after_of_writes_sub hostOps6 U (by
    simp only [hostOps6, List.Forall, StableHlo.nullary_writes, StableHlo.unary_writes, StableHlo.binary_writes, StableHlo.ternary_writes, StableHlo.reshape_writes]
    writes_in_list) hr

theorem h0_v5 (U : Valuation τ sig (Elt F)) :
    StableHlo.after hostOps0 U (Proc.devRef .tc main_v5) = KSpec.cnt (F := F) (U (Proc.devRef .tc main_arg3)) := by
  after_results; rfl
theorem h0_v10 (U : Valuation τ sig (Elt F)) :
    StableHlo.after hostOps0 U (Proc.devRef .tc main_v10) = KSpec.cnt (F := F) (U (Proc.devRef .tc main_arg5)) := by
  after_results; rfl
theorem h0_v15 (U : Valuation τ sig (Elt F)) :
    StableHlo.after hostOps0 U (Proc.devRef .tc main_v15) = KSpec.cnt (F := F) (U (Proc.devRef .tc main_arg7)) := by
  after_results; rfl
theorem h0_v20 (U : Valuation τ sig (Elt F)) :
    StableHlo.after hostOps0 U (Proc.devRef .tc main_v20) = KSpec.cnt (F := F) (U (Proc.devRef .tc main_arg4)) := by
  after_results; rfl
theorem h0_v25 (U : Valuation τ sig (Elt F)) :
    StableHlo.after hostOps0 U (Proc.devRef .tc main_v25) = KSpec.cnt (F := F) (U (Proc.devRef .tc main_arg6)) := by
  after_results_simp; rfl
theorem h0_v30 (U : Valuation τ sig (Elt F)) :
    StableHlo.after hostOps0 U (Proc.devRef .tc main_v30) = KSpec.cnt (F := F) (U (Proc.devRef .tc main_arg8)) := by
  after_results_simp; rfl

theorem h0_v31 (U : Valuation τ sig (Elt F)) :
    StableHlo.after hostOps0 U (Proc.devRef .tc main_v31) = KSpec.z64 (F := F) := by
  after_results; rfl
theorem h0_v32 (U : Valuation τ sig (Elt F)) :
    StableHlo.after hostOps0 U (Proc.devRef .tc main_v32) = KSpec.z64 (F := F) := by
  after_results; rfl
theorem h0_v33 (U : Valuation τ sig (Elt F)) :
    StableHlo.after hostOps0 U (Proc.devRef .tc main_v33) = KSpec.z64 (F := F) := by
  after_results; rfl

theorem h0_v41 (U : Valuation τ sig (Elt F)) :
    StableHlo.after hostOps0 U (Proc.devRef .tc main_v41)
      = KSpec.segmean16 (F := F) (U (Proc.devRef .tc main_arg0)) (U (Proc.devRef .tc main_arg3)) := by
  after_results_simp; rfl
theorem h0_v43 (U : Valuation τ sig (Elt F)) :
    StableHlo.after hostOps0 U (Proc.devRef .tc main_v43)
      = KSpec.segmean16 (F := F) (U (Proc.devRef .tc main_arg0)) (U (Proc.devRef .tc main_arg4)) := by
  after_results_simp; rfl

theorem h0_v45 (U : Valuation τ sig (Elt F)) :
    StableHlo.after hostOps0 U (Proc.devRef .tc main_v45)
      = KSpec.w16x64 (F := F) (U (Proc.devRef .tc main_arg9)) ![0, 0, 0, 0] slices_S3x2x16x64_S1x1x16x64_0_0_0_0 := by
  after_results; rfl
theorem h1_v48 (U : Valuation τ sig (Elt F)) (P : FVec F S3x2x16x64 .f32)
    (hP : U (Proc.devRef .tc main_arg9) = P) :
    StableHlo.after hostOps1 U (Proc.devRef .tc main_v48) = KSpec.w16x64 (F := F) P ![0, 1, 0, 0] slices_S3x2x16x64_S1x1x16x64_0_1_0_0 := by
  subst hP; after_results; rfl
theorem h2_v63 (U : Valuation τ sig (Elt F)) (P : FVec F S3x2x16x64 .f32)
    (hP : U (Proc.devRef .tc main_arg9) = P) :
    StableHlo.after hostOps2 U (Proc.devRef .tc main_v63) = KSpec.w16x64 (F := F) P ![1, 0, 0, 0] slices_S3x2x16x64_S1x1x16x64_1_0_0_0 := by
  subst hP; after_results; rfl
theorem h3_v66 (U : Valuation τ sig (Elt F)) (P : FVec F S3x2x16x64 .f32)
    (hP : U (Proc.devRef .tc main_arg9) = P) :
    StableHlo.after hostOps3 U (Proc.devRef .tc main_v66) = KSpec.w16x64 (F := F) P ![1, 1, 0, 0] slices_S3x2x16x64_S1x1x16x64_1_1_0_0 := by
  subst hP; after_results; rfl
theorem h4_v81 (U : Valuation τ sig (Elt F)) (P : FVec F S3x2x16x64 .f32)
    (hP : U (Proc.devRef .tc main_arg9) = P) :
    StableHlo.after hostOps4 U (Proc.devRef .tc main_v81) = KSpec.w16x64 (F := F) P ![2, 0, 0, 0] slices_S3x2x16x64_S1x1x16x64_2_0_0_0 := by
  subst hP; after_results; rfl
theorem h5_v84 (U : Valuation τ sig (Elt F)) (P : FVec F S3x2x16x64 .f32)
    (hP : U (Proc.devRef .tc main_arg9) = P) :
    StableHlo.after hostOps5 U (Proc.devRef .tc main_v84) = KSpec.w16x64 (F := F) P ![2, 1, 0, 0] slices_S3x2x16x64_S1x1x16x64_2_1_0_0 := by
  subst hP; after_results; rfl

theorem h2_v59 (U : Valuation τ sig (Elt F)) (X : FVec F S500000x16 .f32) (idx : IVec S500000 32)
    (hX : U (Proc.devRef .tc main_arg1) = X) (hi : U (Proc.devRef .tc main_arg5) = idx)
    (hc : U (Proc.devRef .tc main_v10) = KSpec.cnt (F := F) idx) :
    StableHlo.after hostOps2 U (Proc.devRef .tc main_v59) = KSpec.segmean16 (F := F) X idx := by
  subst hX hi; after_results; rw [hc]; rfl
theorem h2_v61 (U : Valuation τ sig (Elt F)) (X : FVec F S500000x16 .f32) (idx : IVec S500000 32)
    (hX : U (Proc.devRef .tc main_arg1) = X) (hi : U (Proc.devRef .tc main_arg6) = idx)
    (hc : U (Proc.devRef .tc main_v25) = KSpec.cnt (F := F) idx) :
    StableHlo.after hostOps2 U (Proc.devRef .tc main_v61) = KSpec.segmean16 (F := F) X idx := by
  subst hX hi; after_results; rw [hc]; rfl
theorem h4_v77 (U : Valuation τ sig (Elt F)) (X : FVec F S500000x16 .f32) (idx : IVec S500000 32)
    (hX : U (Proc.devRef .tc main_arg2) = X) (hi : U (Proc.devRef .tc main_arg7) = idx)
    (hc : U (Proc.devRef .tc main_v15) = KSpec.cnt (F := F) idx) :
    StableHlo.after hostOps4 U (Proc.devRef .tc main_v77) = KSpec.segmean16 (F := F) X idx := by
  subst hX hi; after_results; rw [hc]; rfl
theorem h4_v79 (U : Valuation τ sig (Elt F)) (X : FVec F S500000x16 .f32) (idx : IVec S500000 32)
    (hX : U (Proc.devRef .tc main_arg2) = X) (hi : U (Proc.devRef .tc main_arg8) = idx)
    (hc : U (Proc.devRef .tc main_v30) = KSpec.cnt (F := F) idx) :
    StableHlo.after hostOps4 U (Proc.devRef .tc main_v79) = KSpec.segmean16 (F := F) X idx := by
  subst hX hi; after_results; rw [hc]; rfl

theorem h2_v50 (U : Valuation τ sig (Elt F)) (x y : FVec F S100000x64 .f32)
    (hx : U (Proc.devRef .tc main_v31) = x) (hy : U (Proc.devRef .tc main_v46) = y) :
    StableHlo.after hostOps2 U (Proc.devRef .tc main_v50) = addf x y := by
  subst hx hy; after_results
theorem h2_v51 (U : Valuation τ sig (Elt F)) (x y : FVec F S100000x64 .f32)
    (hx : U (Proc.devRef .tc main_v32) = x) (hy : U (Proc.devRef .tc main_v49) = y) :
    StableHlo.after hostOps2 U (Proc.devRef .tc main_v51) = addf x y := by
  subst hx hy; after_results
theorem h4_v68 (U : Valuation τ sig (Elt F)) (x y : FVec F S100000x64 .f32)
    (hx : U (Proc.devRef .tc main_v51) = x) (hy : U (Proc.devRef .tc main_v64) = y) :
    StableHlo.after hostOps4 U (Proc.devRef .tc main_v68) = addf x y := by
  subst hx hy; after_results
theorem h4_v69 (U : Valuation τ sig (Elt F)) (x y : FVec F S100000x64 .f32)
    (hx : U (Proc.devRef .tc main_v33) = x) (hy : U (Proc.devRef .tc main_v67) = y) :
    StableHlo.after hostOps4 U (Proc.devRef .tc main_v69) = addf x y := by
  subst hx hy; after_results
theorem h6_v86 (U : Valuation τ sig (Elt F)) (x y : FVec F S100000x64 .f32)
    (hx : U (Proc.devRef .tc main_v50) = x) (hy : U (Proc.devRef .tc main_v82) = y) :
    StableHlo.after hostOps6 U (Proc.devRef .tc main_v86) = addf x y := by
  subst hx hy; after_results
theorem h6_v87 (U : Valuation τ sig (Elt F)) (x y : FVec F S100000x64 .f32)
    (hx : U (Proc.devRef .tc main_v69) = x) (hy : U (Proc.devRef .tc main_v85) = y) :
    StableHlo.after hostOps6 U (Proc.devRef .tc main_v87) = addf x y := by
  subst hx hy; after_results

end Host

section Run

variable (m : (ℓ : Loc nD τ sig) → Buf (Elt Ideal) ℓ) (ρ : Dev nD → PrngReg)

theorem arr0_mem : ∀ w : Fin 3, Pipeline.arrRef spec0 w ∈ [main_v41, main_v45, main_v46] := by decide
theorem arr1_mem : ∀ w : Fin 3, Pipeline.arrRef spec1 w ∈ [main_v43, main_v48, main_v49] := by decide
theorem arr2_mem : ∀ w : Fin 3, Pipeline.arrRef spec2 w ∈ [main_v59, main_v63, main_v64] := by decide
theorem arr3_mem : ∀ w : Fin 3, Pipeline.arrRef spec3 w ∈ [main_v61, main_v66, main_v67] := by decide
theorem arr4_mem : ∀ w : Fin 3, Pipeline.arrRef spec4 w ∈ [main_v77, main_v81, main_v82] := by decide
theorem arr5_mem : ∀ w : Fin 3, Pipeline.arrRef spec5 w ∈ [main_v79, main_v84, main_v85] := by decide

theorem s1 (c : Dev nD) (r : Ref sig .tc) (hr : r ∉ wr0) :
    W1 m ρ c (Proc.devRef .tc r) = W0 m ρ c (Proc.devRef .tc r) := keep0 (W0 m ρ c) r hr
theorem s2 (c : Dev nD) (r : Ref sig .tc) (hr : r ∉ [main_v41, main_v45, main_v46]) :
    W2 m ρ c (Proc.devRef .tc r) = W1 m ρ c (Proc.devRef .tc r) :=
  W2_of_ne m ρ c r fun w e => hr (e ▸ arr0_mem w)
theorem s3 (c : Dev nD) (r : Ref sig .tc) (hr : r ∉ wr1) :
    W3 m ρ c (Proc.devRef .tc r) = W2 m ρ c (Proc.devRef .tc r) := keep1 (W2 m ρ c) r hr
theorem s4 (c : Dev nD) (r : Ref sig .tc) (hr : r ∉ [main_v43, main_v48, main_v49]) :
    W4 m ρ c (Proc.devRef .tc r) = W3 m ρ c (Proc.devRef .tc r) :=
  W4_of_ne m ρ c r fun w e => hr (e ▸ arr1_mem w)
theorem s5 (c : Dev nD) (r : Ref sig .tc) (hr : r ∉ wr2) :
    W5 m ρ c (Proc.devRef .tc r) = W4 m ρ c (Proc.devRef .tc r) := keep2 (W4 m ρ c) r hr
theorem s6 (c : Dev nD) (r : Ref sig .tc) (hr : r ∉ [main_v59, main_v63, main_v64]) :
    W6 m ρ c (Proc.devRef .tc r) = W5 m ρ c (Proc.devRef .tc r) :=
  W6_of_ne m ρ c r fun w e => hr (e ▸ arr2_mem w)
theorem s7 (c : Dev nD) (r : Ref sig .tc) (hr : r ∉ wr3) :
    W7 m ρ c (Proc.devRef .tc r) = W6 m ρ c (Proc.devRef .tc r) := keep3 (W6 m ρ c) r hr
theorem s8 (c : Dev nD) (r : Ref sig .tc) (hr : r ∉ [main_v61, main_v66, main_v67]) :
    W8 m ρ c (Proc.devRef .tc r) = W7 m ρ c (Proc.devRef .tc r) :=
  W8_of_ne m ρ c r fun w e => hr (e ▸ arr3_mem w)
theorem s9 (c : Dev nD) (r : Ref sig .tc) (hr : r ∉ wr4) :
    W9 m ρ c (Proc.devRef .tc r) = W8 m ρ c (Proc.devRef .tc r) := keep4 (W8 m ρ c) r hr
theorem s10 (c : Dev nD) (r : Ref sig .tc) (hr : r ∉ [main_v77, main_v81, main_v82]) :
    W10 m ρ c (Proc.devRef .tc r) = W9 m ρ c (Proc.devRef .tc r) :=
  W10_of_ne m ρ c r fun w e => hr (e ▸ arr4_mem w)
theorem s11 (c : Dev nD) (r : Ref sig .tc) (hr : r ∉ wr5) :
    W11 m ρ c (Proc.devRef .tc r) = W10 m ρ c (Proc.devRef .tc r) := keep5 (W10 m ρ c) r hr
theorem s12 (c : Dev nD) (r : Ref sig .tc) (hr : r ∉ [main_v79, main_v84, main_v85]) :
    W12 m ρ c (Proc.devRef .tc r) = W11 m ρ c (Proc.devRef .tc r) :=
  W12_of_ne m ρ c r fun w e => hr (e ▸ arr5_mem w)
theorem s13 (c : Dev nD) (r : Ref sig .tc) (hr : r ∉ wr6) :
    W13 m ρ c (Proc.devRef .tc r) = W12 m ρ c (Proc.devRef .tc r) := keep6 (W12 m ρ c) r hr

macro "carry" : tactic =>
  `(tactic| repeat (first
      | (rw [s13]; rotate_left; decide) | (rw [s12]; rotate_left; decide) | (rw [s11]; rotate_left; decide)
      | (rw [s10]; rotate_left; decide) | (rw [s9]; rotate_left; decide) | (rw [s8]; rotate_left; decide)
      | (rw [s7]; rotate_left; decide) | (rw [s6]; rotate_left; decide) | (rw [s5]; rotate_left; decide)
      | (rw [s4]; rotate_left; decide) | (rw [s3]; rotate_left; decide) | (rw [s2]; rotate_left; decide)
      | (rw [s1]; rotate_left; decide)))

theorem reg0_read (c : Dev nD) (X : FVec Ideal S100000x16 .f32) (M : FVec Ideal S16x64 .f32)
    (hX : W1 m ρ c (Proc.devRef .tc main_v41) = X) (hM : W1 m ρ c (Proc.devRef .tc main_v45) = M) :
    W2 m ρ c (Proc.devRef .tc main_v46) = KSpec.mm16 X M := by
  subst hX hM; exact (W2_arr m ρ c 2).trans (Cert.Reg.reg0 (V1 m ρ) c)
theorem reg1_read (c : Dev nD) (X : FVec Ideal S100000x16 .f32) (M : FVec Ideal S16x64 .f32)
    (hX : W3 m ρ c (Proc.devRef .tc main_v43) = X) (hM : W3 m ρ c (Proc.devRef .tc main_v48) = M) :
    W4 m ρ c (Proc.devRef .tc main_v49) = KSpec.mm16 X M := by
  subst hX hM; exact (W4_arr m ρ c 2).trans (Cert.Reg.reg1 (V3 m ρ) c)
theorem reg2_read (c : Dev nD) (X : FVec Ideal S100000x16 .f32) (M : FVec Ideal S16x64 .f32)
    (hX : W5 m ρ c (Proc.devRef .tc main_v59) = X) (hM : W5 m ρ c (Proc.devRef .tc main_v63) = M) :
    W6 m ρ c (Proc.devRef .tc main_v64) = KSpec.mm16 X M := by
  subst hX hM; exact (W6_arr m ρ c 2).trans (Cert.Reg.reg2 (V5 m ρ) c)
theorem reg3_read (c : Dev nD) (X : FVec Ideal S100000x16 .f32) (M : FVec Ideal S16x64 .f32)
    (hX : W7 m ρ c (Proc.devRef .tc main_v61) = X) (hM : W7 m ρ c (Proc.devRef .tc main_v66) = M) :
    W8 m ρ c (Proc.devRef .tc main_v67) = KSpec.mm16 X M := by
  subst hX hM; exact (W8_arr m ρ c 2).trans (Cert.Reg.reg3 (V7 m ρ) c)
theorem reg4_read (c : Dev nD) (X : FVec Ideal S100000x16 .f32) (M : FVec Ideal S16x64 .f32)
    (hX : W9 m ρ c (Proc.devRef .tc main_v77) = X) (hM : W9 m ρ c (Proc.devRef .tc main_v81) = M) :
    W10 m ρ c (Proc.devRef .tc main_v82) = KSpec.mm16 X M := by
  subst hX hM; exact (W10_arr m ρ c 2).trans (Cert.Reg.reg4 (V9 m ρ) c)
theorem reg5_read (c : Dev nD) (X : FVec Ideal S100000x16 .f32) (M : FVec Ideal S16x64 .f32)
    (hX : W11 m ρ c (Proc.devRef .tc main_v79) = X) (hM : W11 m ρ c (Proc.devRef .tc main_v84) = M) :
    W12 m ρ c (Proc.devRef .tc main_v85) = KSpec.mm16 X M := by
  subst hX hM; exact (W12_arr m ρ c 2).trans (Cert.Reg.reg5 (V11 m ρ) c)

theorem v5_W1 (c : Dev nD) : W1 m ρ c (Proc.devRef .tc main_v5) = KSpec.cnt (F := Ideal) (Cert.KArgs.args m c).row0 := h0_v5 (W0 m ρ c)
theorem v10_W1 (c : Dev nD) : W1 m ρ c (Proc.devRef .tc main_v10) = KSpec.cnt (F := Ideal) (Cert.KArgs.args m c).row1 := h0_v10 (W0 m ρ c)
theorem v15_W1 (c : Dev nD) : W1 m ρ c (Proc.devRef .tc main_v15) = KSpec.cnt (F := Ideal) (Cert.KArgs.args m c).row2 := h0_v15 (W0 m ρ c)
theorem v20_W1 (c : Dev nD) : W1 m ρ c (Proc.devRef .tc main_v20) = KSpec.cnt (F := Ideal) (Cert.KArgs.args m c).col0 := h0_v20 (W0 m ρ c)
theorem v25_W1 (c : Dev nD) : W1 m ρ c (Proc.devRef .tc main_v25) = KSpec.cnt (F := Ideal) (Cert.KArgs.args m c).col1 := h0_v25 (W0 m ρ c)
theorem v30_W1 (c : Dev nD) : W1 m ρ c (Proc.devRef .tc main_v30) = KSpec.cnt (F := Ideal) (Cert.KArgs.args m c).col2 := h0_v30 (W0 m ρ c)
theorem v31_W1 (c : Dev nD) : W1 m ρ c (Proc.devRef .tc main_v31) = KSpec.z64 (F := Ideal) := h0_v31 (W0 m ρ c)
theorem v32_W1 (c : Dev nD) : W1 m ρ c (Proc.devRef .tc main_v32) = KSpec.z64 (F := Ideal) := h0_v32 (W0 m ρ c)
theorem v33_W1 (c : Dev nD) : W1 m ρ c (Proc.devRef .tc main_v33) = KSpec.z64 (F := Ideal) := h0_v33 (W0 m ρ c)
theorem v41_W1 (c : Dev nD) :
    W1 m ρ c (Proc.devRef .tc main_v41) = KSpec.segmean16 (F := Ideal) (Cert.KArgs.args m c).vals0 (Cert.KArgs.args m c).row0 := h0_v41 (W0 m ρ c)
theorem v43_W1 (c : Dev nD) :
    W1 m ρ c (Proc.devRef .tc main_v43) = KSpec.segmean16 (F := Ideal) (Cert.KArgs.args m c).vals0 (Cert.KArgs.args m c).col0 := h0_v43 (W0 m ρ c)
theorem v45_W1 (c : Dev nD) : W1 m ρ c (Proc.devRef .tc main_v45) = KSpec.pw0_00 (Cert.KArgs.args m c) := h0_v45 (W0 m ρ c)

theorem v46_W2 (c : Dev nD) :
    W2 m ρ c (Proc.devRef .tc main_v46) = KSpec.mm16 (KSpec.segmean16 (Cert.KArgs.args m c).vals0 (Cert.KArgs.args m c).row0) (KSpec.pw0_00 (Cert.KArgs.args m c)) :=
  reg0_read m ρ c _ _ (v41_W1 m ρ c) (v45_W1 m ρ c)

theorem v48_W3 (c : Dev nD) : W3 m ρ c (Proc.devRef .tc main_v48) = KSpec.pw0_01 (Cert.KArgs.args m c) :=
  h1_v48 (W2 m ρ c) _ (by carry <;> rfl)
theorem v49_W4 (c : Dev nD) :
    W4 m ρ c (Proc.devRef .tc main_v49) = KSpec.mm16 (KSpec.segmean16 (Cert.KArgs.args m c).vals0 (Cert.KArgs.args m c).col0) (KSpec.pw0_01 (Cert.KArgs.args m c)) :=
  reg1_read m ρ c _ _ (by carry; exact v43_W1 m ρ c) (v48_W3 m ρ c)

theorem v50_W5 (c : Dev nD) :
    W5 m ρ c (Proc.devRef .tc main_v50)
      = addf (KSpec.z64 (F := Ideal)) (KSpec.mm16 (KSpec.segmean16 (Cert.KArgs.args m c).vals0 (Cert.KArgs.args m c).row0) (KSpec.pw0_00 (Cert.KArgs.args m c))) :=
  h2_v50 (W4 m ρ c) _ _ (by carry; exact v31_W1 m ρ c) (by carry; exact v46_W2 m ρ c)
theorem v51_W5 (c : Dev nD) :
    W5 m ρ c (Proc.devRef .tc main_v51)
      = addf (KSpec.z64 (F := Ideal)) (KSpec.mm16 (KSpec.segmean16 (Cert.KArgs.args m c).vals0 (Cert.KArgs.args m c).col0) (KSpec.pw0_01 (Cert.KArgs.args m c))) :=
  h2_v51 (W4 m ρ c) _ _ (by carry; exact v32_W1 m ρ c) (v49_W4 m ρ c)
theorem v59_W5 (c : Dev nD) :
    W5 m ρ c (Proc.devRef .tc main_v59) = KSpec.segmean16 (F := Ideal) (Cert.KArgs.args m c).vals1 (Cert.KArgs.args m c).row1 :=
  h2_v59 (W4 m ρ c) _ _ (by carry <;> rfl) (by carry <;> rfl) (by carry; exact v10_W1 m ρ c)
theorem v61_W5 (c : Dev nD) :
    W5 m ρ c (Proc.devRef .tc main_v61) = KSpec.segmean16 (F := Ideal) (Cert.KArgs.args m c).vals1 (Cert.KArgs.args m c).col1 :=
  h2_v61 (W4 m ρ c) _ _ (by carry <;> rfl) (by carry <;> rfl) (by carry; exact v25_W1 m ρ c)
theorem v63_W5 (c : Dev nD) : W5 m ρ c (Proc.devRef .tc main_v63) = KSpec.pw0_10 (Cert.KArgs.args m c) :=
  h2_v63 (W4 m ρ c) _ (by carry <;> rfl)

theorem v64_W6 (c : Dev nD) :
    W6 m ρ c (Proc.devRef .tc main_v64) = KSpec.mm16 (KSpec.segmean16 (Cert.KArgs.args m c).vals1 (Cert.KArgs.args m c).row1) (KSpec.pw0_10 (Cert.KArgs.args m c)) :=
  reg2_read m ρ c _ _ (v59_W5 m ρ c) (v63_W5 m ρ c)

theorem v66_W7 (c : Dev nD) : W7 m ρ c (Proc.devRef .tc main_v66) = KSpec.pw0_11 (Cert.KArgs.args m c) :=
  h3_v66 (W6 m ρ c) _ (by carry <;> rfl)
theorem v67_W8 (c : Dev nD) :
    W8 m ρ c (Proc.devRef .tc main_v67) = KSpec.mm16 (KSpec.segmean16 (Cert.KArgs.args m c).vals1 (Cert.KArgs.args m c).col1) (KSpec.pw0_11 (Cert.KArgs.args m c)) :=
  reg3_read m ρ c _ _ (by carry; exact v61_W5 m ρ c) (v66_W7 m ρ c)

theorem v68_W9 (c : Dev nD) : W9 m ρ c (Proc.devRef .tc main_v68) = KSpec.kacc0_1 (Cert.KArgs.args m c) :=
  h4_v68 (W8 m ρ c) _ _ (by carry; exact v51_W5 m ρ c) (by carry; exact v64_W6 m ρ c)
theorem v69_W9 (c : Dev nD) :
    W9 m ρ c (Proc.devRef .tc main_v69)
      = addf (KSpec.z64 (F := Ideal)) (KSpec.mm16 (KSpec.segmean16 (Cert.KArgs.args m c).vals1 (Cert.KArgs.args m c).col1) (KSpec.pw0_11 (Cert.KArgs.args m c))) :=
  h4_v69 (W8 m ρ c) _ _ (by carry; exact v33_W1 m ρ c) (v67_W8 m ρ c)
theorem v77_W9 (c : Dev nD) :
    W9 m ρ c (Proc.devRef .tc main_v77) = KSpec.segmean16 (F := Ideal) (Cert.KArgs.args m c).vals2 (Cert.KArgs.args m c).row2 :=
  h4_v77 (W8 m ρ c) _ _ (by carry <;> rfl) (by carry <;> rfl) (by carry; exact v15_W1 m ρ c)
theorem v79_W9 (c : Dev nD) :
    W9 m ρ c (Proc.devRef .tc main_v79) = KSpec.segmean16 (F := Ideal) (Cert.KArgs.args m c).vals2 (Cert.KArgs.args m c).col2 :=
  h4_v79 (W8 m ρ c) _ _ (by carry <;> rfl) (by carry <;> rfl) (by carry; exact v30_W1 m ρ c)
theorem v81_W9 (c : Dev nD) : W9 m ρ c (Proc.devRef .tc main_v81) = KSpec.pw0_20 (Cert.KArgs.args m c) :=
  h4_v81 (W8 m ρ c) _ (by carry <;> rfl)

theorem v82_W10 (c : Dev nD) :
    W10 m ρ c (Proc.devRef .tc main_v82) = KSpec.mm16 (KSpec.segmean16 (Cert.KArgs.args m c).vals2 (Cert.KArgs.args m c).row2) (KSpec.pw0_20 (Cert.KArgs.args m c)) :=
  reg4_read m ρ c _ _ (v77_W9 m ρ c) (v81_W9 m ρ c)

theorem v84_W11 (c : Dev nD) : W11 m ρ c (Proc.devRef .tc main_v84) = KSpec.pw0_21 (Cert.KArgs.args m c) :=
  h5_v84 (W10 m ρ c) _ (by carry <;> rfl)
theorem v85_W12 (c : Dev nD) :
    W12 m ρ c (Proc.devRef .tc main_v85) = KSpec.mm16 (KSpec.segmean16 (Cert.KArgs.args m c).vals2 (Cert.KArgs.args m c).col2) (KSpec.pw0_21 (Cert.KArgs.args m c)) :=
  reg5_read m ρ c _ _ (by carry; exact v79_W9 m ρ c) (v84_W11 m ρ c)

theorem v86_W13 (c : Dev nD) : W13 m ρ c (Proc.devRef .tc main_v86) = KSpec.kacc0_0 (Cert.KArgs.args m c) :=
  h6_v86 (W12 m ρ c) _ _ (by carry; exact v50_W5 m ρ c) (by carry; exact v82_W10 m ρ c)
theorem v87_W13 (c : Dev nD) : W13 m ρ c (Proc.devRef .tc main_v87) = KSpec.kacc0_2 (Cert.KArgs.args m c) :=
  h6_v87 (W12 m ρ c) _ _ (by carry; exact v69_W9 m ρ c) (v85_W12 m ρ c)

theorem K1_acc0 (c : Dev nD) :
    W13 m ρ c (Proc.devRef .tc main_v86) = KSpec.kacc0_0 (Cert.KArgs.args m c)
    ∧ W13 m ρ c (Proc.devRef .tc main_v68) = KSpec.kacc0_1 (Cert.KArgs.args m c)
    ∧ W13 m ρ c (Proc.devRef .tc main_v87) = KSpec.kacc0_2 (Cert.KArgs.args m c) :=
  ⟨v86_W13 m ρ c, by carry; exact v68_W9 m ρ c, v87_W13 m ρ c⟩

theorem K1_cnt (c : Dev nD) :
    W13 m ρ c (Proc.devRef .tc main_v5) = KSpec.cnt (F := Ideal) (Cert.KArgs.args m c).row0
    ∧ W13 m ρ c (Proc.devRef .tc main_v10) = KSpec.cnt (F := Ideal) (Cert.KArgs.args m c).row1
    ∧ W13 m ρ c (Proc.devRef .tc main_v15) = KSpec.cnt (F := Ideal) (Cert.KArgs.args m c).row2
    ∧ W13 m ρ c (Proc.devRef .tc main_v20) = KSpec.cnt (F := Ideal) (Cert.KArgs.args m c).col0
    ∧ W13 m ρ c (Proc.devRef .tc main_v25) = KSpec.cnt (F := Ideal) (Cert.KArgs.args m c).col1
    ∧ W13 m ρ c (Proc.devRef .tc main_v30) = KSpec.cnt (F := Ideal) (Cert.KArgs.args m c).col2 :=
  ⟨by carry; exact v5_W1 m ρ c, by carry; exact v10_W1 m ρ c, by carry; exact v15_W1 m ρ c,
   by carry; exact v20_W1 m ρ c, by carry; exact v25_W1 m ρ c, by carry; exact v30_W1 m ρ c⟩

theorem K1_args (c : Dev nD) : Cert.KArgs.argsV (W13 m ρ c) = Cert.KArgs.args m c := by
  unfold Cert.KArgs.argsV Cert.KArgs.args
  congr 1 <;> (carry <;> rfl)

end Run

end Cert.KRead

end
-- ==== Proof.RegBNCore.lean ====
import proofs.«100184_j50010599195033_2_alg».proof.Proof.Gen.KernelIdeal.Skeleton
import proofs.«100184_j50010599195033_2_alg».proof.Proof.KSpec
import proofs.«100184_j50010599195033_2_alg».proof.Proof.RegTy
import proofs.«100184_j50010599195033_2_alg».proof.Proof.RegMMPay
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Reg

open Idealize.ShloMosaic Idealize.ShloMosaic.ValueIdx Cert.KernelIdeal Cert.KernelIdeal.Gen

def nrm (x mu var : EReal) : EReal :=
  Ideal.div (max x (Ideal.ofBits .f32 0x00000000#32) - mu) (Ideal.sqrt (var + Ideal.ofBits .f32 0x3727C5AC#32))

theorem lhs128_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl

theorem lhs128_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q

theorem rhs128_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q

theorem rhs128_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

theorem pay128_apply (x : Vec Ideal S10000x64 .f32) (var mu : Vec Ideal S1x64 .f32) (W : Vec Ideal S64x128 .f32)
    (p : Fin 10000) (q : Fin 128) :
    k6_pay1 (F := Ideal) x var mu W (ix2 p q)
      = ∑ k : Fin 64, nrm (x (ix2 p k)) (mu (ix2 (0 : Fin 1) k)) (var (ix2 (0 : Fin 1) k)) * W (ix2 k q) := by
  unfold k6_pay1
  simp only [shapeCast_self, matmul]
  rw [plain_mm _ rfl rfl lhs128_0 lhs128_1 rhs128_0 rhs128_1]
  refine Finset.sum_congr rfl fun k _ => ?_
  rw [truncf_apply, truncf_apply, divf_apply, subf_apply, maximumf_apply, broadcast_apply,
    broadcastTo_1b_ab_apply, broadcastTo_1b_ab_apply]
  rfl

theorem pay64_apply (x : Vec Ideal S10000x64 .f32) (var mu : Vec Ideal S1x64 .f32) (W : Vec Ideal S64x64 .f32)
    (p : Fin 10000) (q : Fin 64) :
    k19_pay1 (F := Ideal) x var mu W (ix2 p q)
      = ∑ k : Fin 64, nrm (x (ix2 p k)) (mu (ix2 (0 : Fin 1) k)) (var (ix2 (0 : Fin 1) k)) * W (ix2 k q) := by
  unfold k19_pay1
  simp only [shapeCast_self, matmul]
  rw [plain_mm _ rfl rfl lhs64_0 lhs64_1 rhs64_0 rhs64_1]
  refine Finset.sum_congr rfl fun k _ => ?_
  rw [truncf_apply, truncf_apply, divf_apply, subf_apply, maximumf_apply, broadcast_apply,
    broadcastTo_1b_ab_apply, broadcastTo_1b_ab_apply]
  rfl

theorem relu1_apply (X : FVec Ideal S100000x64 .f32) (r : Fin 100000) (k : Fin 64) :
    KSpec.relu1 X (ix2 r k) = max (X (ix2 r k)) (Ideal.ofBits .f32 0x00000000#32) := by
  unfold KSpec.relu1
  rw [maximumf_apply, broadcastInDim_scalar_apply]
  rfl

theorem bn_apply (Y : FVec Ideal S100000x64 .f32) (mu var : FVec Ideal S1x64 .f32) (r : Fin 100000) (k : Fin 64) :
    KSpec.bn Y mu var (ix2 r k)
      = Ideal.div (Y (ix2 r k) - mu (ix2 (0 : Fin 1) k)) (Ideal.sqrt (var (ix2 (0 : Fin 1) k) + Ideal.ofBits .f32 0x3727C5AC#32)) := by
  unfold KSpec.bn
  rw [hostDivf_apply, subf_apply, broadcastInDim_oneRow_apply, broadcastInDim_oneRow_apply]
  show Ideal.div _ (Ideal.sqrt (var (ix2 (0 : Fin 1) k) + broadcastInDim S1x64 ![] _ (constant (F := Ideal) S_ .f32 0x3727C5AC#32) (ix2 (0 : Fin 1) k))) = _
  rw [broadcastInDim_scalar_apply]
  rfl

theorem bnmm128_apply (X : FVec Ideal S100000x64 .f32) (mu var : FVec Ideal S1x64 .f32) (W : FVec Ideal S64x128 .f32)
    (r : Fin 100000) (q : Fin 128) :
    KSpec.bnmm128 X mu var W (ix2 r q)
      = ∑ k : Fin 64, nrm (X (ix2 r k)) (mu (ix2 (0 : Fin 1) k)) (var (ix2 (0 : Fin 1) k)) * W (ix2 k q) := by
  unfold KSpec.bnmm128
  refine Finset.sum_congr rfl fun k _ => ?_
  show KSpec.bn (KSpec.relu1 X) mu var (ix2 r k) * W (ix2 k q) = _
  rw [bn_apply, relu1_apply]
  rfl

theorem bnmm64_apply (X : FVec Ideal S100000x64 .f32) (mu var : FVec Ideal S1x64 .f32) (W : FVec Ideal S64x64 .f32)
    (r : Fin 100000) (q : Fin 64) :
    KSpec.bnmm64 X mu var W (ix2 r q)
      = ∑ k : Fin 64, nrm (X (ix2 r k)) (mu (ix2 (0 : Fin 1) k)) (var (ix2 (0 : Fin 1) k)) * W (ix2 k q) := by
  unfold KSpec.bnmm64
  refine Finset.sum_congr rfl fun k _ => ?_
  show KSpec.bn (KSpec.relu1 X) mu var (ix2 r k) * W (ix2 k q) = _
  rw [bn_apply, relu1_apply]
  rfl

/-- A block of rows of the normalized table times the whole matrix is the same rows of the whole product: the table's block
    sits n blocks down, the mean row, the variance row and the matrix are whole. -/
theorem bn_blk {N : Nat}
    {P : Vec Ideal S10000x64 .f32 → Vec Ideal S1x64 .f32 → Vec Ideal S1x64 .f32 → Vec Ideal (Sh 64 N) .f32 → FVec Ideal (Sh 10000 N) .f32}
    {G : FVec Ideal S100000x64 .f32 → FVec Ideal S1x64 .f32 → FVec Ideal S1x64 .f32 → FVec Ideal (Sh 64 N) .f32 → FVec Ideal (Sh 100000 N) .f32}
    (hP : ∀ x var mu W (p : Fin 10000) (q : Fin N), P x var mu W (ix2 p q)
      = ∑ k : Fin 64, nrm (x (ix2 p k)) (mu (ix2 (0 : Fin 1) k)) (var (ix2 (0 : Fin 1) k)) * W (ix2 k q))
    (hG : ∀ X mu var W (r : Fin 100000) (q : Fin N), G X mu var W (ix2 r q)
      = ∑ k : Fin 64, nrm (X (ix2 r k)) (mu (ix2 (0 : Fin 1) k)) (var (ix2 (0 : Fin 1) k)) * W (ix2 k q))
    (X : FVec Ideal S100000x64 .f32) (mu var : FVec Ideal S1x64 .f32) (W : FVec Ideal (Sh 64 N) .f32)
    {x : Vec Ideal S10000x64 .f32} {bm bv : Vec Ideal S1x64 .f32} {bw : Vec Ideal (Sh 64 N) .f32}
    {e0 : S10000x64.Idx → S100000x64.Idx} {e1 e2 : S1x64.Idx → S1x64.Idx} {e3 : (Sh 64 N).Idx → (Sh 64 N).Idx}
    {e4 : (Sh 10000 N).Idx → (Sh 100000 N).Idx} {i0 i1 i2 i3 i4 : Fin 2 → Nat} {n : Nat}
    (he0 : ∀ y a, ((e0 y) a).val = i0 a * (![10000, 64] : Fin 2 → Nat) a + (y a).val)
    (he1 : ∀ y a, ((e1 y) a).val = i1 a * (![1, 64] : Fin 2 → Nat) a + (y a).val)
    (he2 : ∀ y a, ((e2 y) a).val = i2 a * (![1, 64] : Fin 2 → Nat) a + (y a).val)
    (he3 : ∀ y a, ((e3 y) a).val = i3 a * (![64, N] : Fin 2 → Nat) a + (y a).val)
    (he4 : ∀ y a, ((e4 y) a).val = i4 a * (![10000, N] : Fin 2 → Nat) a + (y a).val)
    (hx : ∀ y, x y = X (e0 y)) (hm : ∀ y, bm y = mu (e1 y)) (hv : ∀ y, bv y = var (e2 y)) (hw : ∀ y, bw y = W (e3 y))
    (f : At i0 n ∧ At i1 0 ∧ At i2 0 ∧ At i3 0 ∧ At i4 n) (j : (Sh 10000 N).Idx) :
    P x bv bm bw j = G X mu var W (e4 j) := by
  have a4 := emb_at he4 f.2.2.2.2 j
  refine ((congrArg (P x bv bm bw) (eq_ix2 j)).trans (hP x bv bm bw (j 0) (j 1))).trans ?_
  refine Eq.trans ?_ ((congrArg (G X mu var W) (eq_ix2 (e4 j))).trans (hG X mu var W _ _)).symm
  refine Finset.sum_congr rfl fun k _ => ?_
  have a0 := emb_at he0 f.1 (ix2 (j 0) k)
  rw [hx, hm, hv, hw, emb_whole he1 f.2.1, emb_whole he2 f.2.2.1, emb_whole he3 f.2.2.2.1]
  exact congrArg₂ (· * ·)
    (congrArg (fun i => nrm (X i) _ _) (idx2_ext (a0.1.trans a4.1.symm) a0.2))
    (congrArg W (idx2_ext rfl a4.2.symm))

theorem outbn128 (x0 : Vec Ideal S10000x64 .f32) (x1 x2 : Vec Ideal S1x64 .f32) (x3 : Vec Ideal S64x128 .f32) :
    out6_4 (F := Ideal) x0 x1 x2 x3 = k6_pay1 x0 x2 x1 x3 := by
  unfold out6_4
  rw [View.canon_unit_zero hz]
  simp only [View.ld_unit_zero (S := S10000x64) hz, View.ld_unit_zero (S := S1x64) hz, View.ld_unit_zero (S := S64x128) hz]

theorem outbn64 (x0 : Vec Ideal S10000x64 .f32) (x1 x2 : Vec Ideal S1x64 .f32) (x3 : Vec Ideal S64x64 .f32) :
    out19_4 (F := Ideal) x0 x1 x2 x3 = k19_pay1 x0 x2 x1 x3 := by
  unfold out19_4
  rw [View.canon_unit_zero hz]
  simp only [View.ld_unit_zero (S := S10000x64) hz, View.ld_unit_zero (S := S1x64) hz, View.ld_unit_zero (S := S64x64) hz]

end Cert.Reg

end
-- ==== Proof.RegBN128.lean ====
import proofs.«100184_j50010599195033_2_alg».proof.Proof.RegBNCore

noncomputable section

namespace Cert.Reg

open Idealize.ShloMosaic Idealize.ShloMosaic.TcCoe Idealize.SL.Sem Idealize.ShloMosaic.Pipeline Idealize.ShloMosaic.ValueIdx
open Cert.KernelIdeal Cert.KernelIdeal.Gen

theorem idx6 : ∀ t : Fin cfg6.N, At (win6_0.index t) t.val ∧ At (win6_1.index t) 0 ∧ At (win6_2.index t) 0
    ∧ At (win6_3.index t) 0 ∧ At (win6_4.index t) t.val :=
  (by decide +kernel : ∀ t : Fin grid6.N, _)

theorem reg6 (V : VT) (c : Dev nD) :
    (dat6 (F := Ideal) V c).arrAt 4 cfg6.N
      = KSpec.bnmm128 (V c (arrRef spec6 0)) (V c (arrRef spec6 1)) (V c (arrRef spec6 2)) (V c (arrRef spec6 3)) :=
  (dat6 (F := Ideal) V c).arrAt_eq_of_cover 4 _
    (fun t _ => by
      show (cfg6.win 4).cut (grid6.coords t) ((dat6 (F := Ideal) V c).after 4 t) = _
      rw [after6_4]
      show (cfg6.win 4).cut (grid6.coords t) (out6_4 (F := Ideal) (iblk6 V c 0 t) (iblk6 V c 1 t) (iblk6 V c 2 t) (iblk6 V c 3 t)) = _
      rw [outbn128]
      exact funext fun j => bn_blk pay128_apply bnmm128_apply _ _ _ _ (win6_0.rect_emb_val t) (win6_1.rect_emb_val t) (win6_2.rect_emb_val t) (win6_3.rect_emb_val t) (win6_4.rect_emb_val t)
        (fun _ => rfl) (fun _ => rfl) (fun _ => rfl) (fun _ => rfl) (idx6 t) j)
    fun (i : S100000x128.Idx) => by
      have ht : (i 0).val / 10000 < cfg6.N := by have := idx2_lt0 i; rw [show cfg6.N = 10 from N_6]; omega
      refine ⟨⟨_, ht⟩, flush6_4 _, ?_⟩
      show i ∈ ((View.whole main_v122).slice (win6_4.rect ⟨(i 0).val / 10000, ht⟩)).set
      rw [View.set_slice_whole, Rect.mem_set_unit]
      exact row_cover (by decide) i (idx6 ⟨_, ht⟩).2.2.2.2

theorem idx7 : ∀ t : Fin cfg7.N, At (win7_0.index t) t.val ∧ At (win7_1.index t) 0 ∧ At (win7_2.index t) 0
    ∧ At (win7_3.index t) 0 ∧ At (win7_4.index t) t.val :=
  (by decide +kernel : ∀ t : Fin grid7.N, _)

theorem reg7 (V : VT) (c : Dev nD) :
    (dat7 (F := Ideal) V c).arrAt 4 cfg7.N
      = KSpec.bnmm128 (V c (arrRef spec7 0)) (V c (arrRef spec7 1)) (V c (arrRef spec7 2)) (V c (arrRef spec7 3)) :=
  (dat7 (F := Ideal) V c).arrAt_eq_of_cover 4 _
    (fun t _ => by
      show (cfg7.win 4).cut (grid7.coords t) ((dat7 (F := Ideal) V c).after 4 t) = _
      rw [after7_4]
      show (cfg7.win 4).cut (grid7.coords t) (out6_4 (F := Ideal) (iblk7 V c 0 t) (iblk7 V c 1 t) (iblk7 V c 2 t) (iblk7 V c 3 t)) = _
      rw [outbn128]
      exact funext fun j => bn_blk pay128_apply bnmm128_apply _ _ _ _ (win7_0.rect_emb_val t) (win7_1.rect_emb_val t) (win7_2.rect_emb_val t) (win7_3.rect_emb_val t) (win7_4.rect_emb_val t)
        (fun _ => rfl) (fun _ => rfl) (fun _ => rfl) (fun _ => rfl) (idx7 t) j)
    fun (i : S100000x128.Idx) => by
      have ht : (i 0).val / 10000 < cfg7.N := by have := idx2_lt0 i; rw [show cfg7.N = 10 from N_7]; omega
      refine ⟨⟨_, ht⟩, flush7_4 _, ?_⟩
      show i ∈ ((View.whole main_v126).slice (win7_4.rect ⟨(i 0).val / 10000, ht⟩)).set
      rw [View.set_slice_whole, Rect.mem_set_unit]
      exact row_cover (by decide) i (idx7 ⟨_, ht⟩).2.2.2.2

theorem idx8 : ∀ t : Fin cfg8.N, At (win8_0.index t) t.val ∧ At (win8_1.index t) 0 ∧ At (win8_2.index t) 0
    ∧ At (win8_3.index t) 0 ∧ At (win8_4.index t) t.val :=
  (by decide +kernel : ∀ t : Fin grid8.N, _)

theorem reg8 (V : VT) (c : Dev nD) :
    (dat8 (F := Ideal) V c).arrAt 4 cfg8.N
      = KSpec.bnmm128 (V c (arrRef spec8 0)) (V c (arrRef spec8 1)) (V c (arrRef spec8 2)) (V c (arrRef spec8 3)) :=
  (dat8 (F := Ideal) V c).arrAt_eq_of_cover 4 _
    (fun t _ => by
      show (cfg8.win 4).cut (grid8.coords t) ((dat8 (F := Ideal) V c).after 4 t) = _
      rw [after8_4]
      show (cfg8.win 4).cut (grid8.coords t) (out6_4 (F := Ideal) (iblk8 V c 0 t) (iblk8 V c 1 t) (iblk8 V c 2 t) (iblk8 V c 3 t)) = _
      rw [outbn128]
      exact funext fun j => bn_blk pay128_apply bnmm128_apply _ _ _ _ (win8_0.rect_emb_val t) (win8_1.rect_emb_val t) (win8_2.rect_emb_val t) (win8_3.rect_emb_val t) (win8_4.rect_emb_val t)
        (fun _ => rfl) (fun _ => rfl) (fun _ => rfl) (fun _ => rfl) (idx8 t) j)
    fun (i : S100000x128.Idx) => by
      have ht : (i 0).val / 10000 < cfg8.N := by have := idx2_lt0 i; rw [show cfg8.N = 10 from N_8]; omega
      refine ⟨⟨_, ht⟩, flush8_4 _, ?_⟩
      show i ∈ ((View.whole main_v130).slice (win8_4.rect ⟨(i 0).val / 10000, ht⟩)).set
      rw [View.set_slice_whole, Rect.mem_set_unit]
      exact row_cover (by decide) i (idx8 ⟨_, ht⟩).2.2.2.2

theorem idx18 : ∀ t : Fin cfg18.N, At (win18_0.index t) t.val ∧ At (win18_1.index t) 0 ∧ At (win18_2.index t) 0
    ∧ At (win18_3.index t) 0 ∧ At (win18_4.index t) t.val :=
  (by decide +kernel : ∀ t : Fin grid18.N, _)

theorem reg18 (V : VT) (c : Dev nD) :
    (dat18 (F := Ideal) V c).arrAt 4 cfg18.N
      = KSpec.bnmm128 (V c (arrRef spec18 0)) (V c (arrRef spec18 1)) (V c (arrRef spec18 2)) (V c (arrRef spec18 3)) :=
  (dat18 (F := Ideal) V c).arrAt_eq_of_cover 4 _
    (fun t _ => by
      show (cfg18.win 4).cut (grid18.coords t) ((dat18 (F := Ideal) V c).after 4 t) = _
      rw [after18_4]
      show (cfg18.win 4).cut (grid18.coords t) (out6_4 (F := Ideal) (iblk18 V c 0 t) (iblk18 V c 1 t) (iblk18 V c 2 t) (iblk18 V c 3 t)) = _
      rw [outbn128]
      exact funext fun j => bn_blk pay128_apply bnmm128_apply _ _ _ _ (win18_0.rect_emb_val t) (win18_1.rect_emb_val t) (win18_2.rect_emb_val t) (win18_3.rect_emb_val t) (win18_4.rect_emb_val t)
        (fun _ => rfl) (fun _ => rfl) (fun _ => rfl) (fun _ => rfl) (idx18 t) j)
    fun (i : S100000x128.Idx) => by
      have ht : (i 0).val / 10000 < cfg18.N := by have := idx2_lt0 i; rw [show cfg18.N = 10 from N_18]; omega
      refine ⟨⟨_, ht⟩, flush18_4 _, ?_⟩
      show i ∈ ((View.whole main_v265).slice (win18_4.rect ⟨(i 0).val / 10000, ht⟩)).set
      rw [View.set_slice_whole, Rect.mem_set_unit]
      exact row_cover (by decide) i (idx18 ⟨_, ht⟩).2.2.2.2

end Cert.Reg

end
-- ==== Proof.RegEdge.lean ====
import proofs.«100184_j50010599195033_2_alg».proof.Proof.RegTy
import proofs.«100184_j50010599195033_2_alg».proof.Proof.KSpec
import proofs.«100184_j50010599195033_2_alg».proof.Proof.Blocks
import Idealize.ShloMosaic.Lib.Pipeline.Value
import Idealize.ShloMosaic.Lib.ValueIdx
import Idealize.ShloMosaic.PureOps.Ideal.Laws

noncomputable section

namespace Cert.Reg

open Idealize.ShloMosaic Idealize.SL.Sem Idealize.ShloMosaic.Pipeline Cert.KernelIdeal Cert.KernelIdeal.Gen
open Idealize.ShloMosaic.ValueIdx

theorem pay9_apply (x0 x1 : Vec Ideal S5000x64 .f32) (j : S5000x64.Idx) :
    k9_pay1 (F := Ideal) x0 x1 j = max (x0 j + x1 j) (Ideal.ofBits .f32 0x00000000#32) := by
  unfold k9_pay1
  simp only [shapeCast_self]
  rfl

theorem out_ar (x0 x1 : Vec Ideal S5000x64 .f32) : out9_2 (F := Ideal) x0 x1 = k9_pay1 x0 x1 := by
  unfold out9_2
  rw [View.canon_unit_zero hz]
  simp only [View.ld_unit_zero (S := S5000x64) hz]

/-- The rectified sum of two blocks of rows is the same rows of the rectified sum of the arrays. -/
theorem ar_blk (A B : FVec Ideal S500000x64 .f32) {x0 x1 : Vec Ideal S5000x64 .f32}
    {e0 e1 e2 : S5000x64.Idx → S500000x64.Idx} {i0 i1 i2 : Fin 2 → Nat} {n : Nat}
    (he0 : ∀ y a, ((e0 y) a).val = i0 a * (![5000, 64] : Fin 2 → Nat) a + (y a).val)
    (he1 : ∀ y a, ((e1 y) a).val = i1 a * (![5000, 64] : Fin 2 → Nat) a + (y a).val)
    (he2 : ∀ y a, ((e2 y) a).val = i2 a * (![5000, 64] : Fin 2 → Nat) a + (y a).val)
    (hx0 : ∀ y, x0 y = A (e0 y)) (hx1 : ∀ y, x1 y = B (e1 y))
    (f : At i0 n ∧ At i1 n ∧ At i2 n) (j : S5000x64.Idx) :
    k9_pay1 x0 x1 j = KSpec.addrelu A B (e2 j) := by
  have a0 := emb_at he0 f.1 j
  have a1 := emb_at he1 f.2.1 j
  have a2 := emb_at he2 f.2.2 j
  rw [pay9_apply, hx0, hx1, show e0 j = e2 j from idx2_ext (a0.1.trans a2.1.symm) (a0.2.trans a2.2.symm),
    show e1 j = e2 j from idx2_ext (a1.1.trans a2.1.symm) (a1.2.trans a2.2.symm)]
  rfl

theorem lhs21_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs21_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs21_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs21_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

theorem pay21_ix (x0 x1 : Vec Ideal S5000x64 .f32) (w : Vec Ideal S64x16 .f32) (p : Fin 5000) (q : Fin 16) :
    k21_pay1 (F := Ideal) x0 x1 w (ix2 p q) =
      ∑ k : Fin 64, max (x0 (ix2 p k) + x1 (ix2 p k)) (Ideal.ofBits .f32 0x00000000#32) * w (ix2 k q) := by
  unfold k21_pay1
  simp only [shapeCast_self, matmul]
  rw [plain_mm _ rfl rfl lhs21_0 lhs21_1 rhs21_0 rhs21_1]
  rfl

theorem out_fu (x0 x1 : Vec Ideal S5000x64 .f32) (x2 : Vec Ideal S64x16 .f32) : out21_3 (F := Ideal) x0 x1 x2 = k21_pay1 x0 x1 x2 := by
  unfold out21_3
  rw [View.canon_unit_zero hz]
  simp only [View.ld_unit_zero (S := S5000x64) hz, View.ld_unit_zero (S := S64x16) hz]

/-- The rectified sum of two blocks of rows times the whole matrix is the same rows of the whole product. -/
theorem fu_blk (A B : FVec Ideal S500000x64 .f32) (W : FVec Ideal S64x16 .f32)
    {x0 x1 : Vec Ideal S5000x64 .f32} {w : Vec Ideal S64x16 .f32}
    {e0 e1 : S5000x64.Idx → S500000x64.Idx} {e2 : S64x16.Idx → S64x16.Idx} {e3 : S5000x16.Idx → S500000x16.Idx}
    {i0 i1 i2 i3 : Fin 2 → Nat} {n : Nat}
    (he0 : ∀ y a, ((e0 y) a).val = i0 a * (![5000, 64] : Fin 2 → Nat) a + (y a).val)
    (he1 : ∀ y a, ((e1 y) a).val = i1 a * (![5000, 64] : Fin 2 → Nat) a + (y a).val)
    (he2 : ∀ y a, ((e2 y) a).val = i2 a * (![64, 16] : Fin 2 → Nat) a + (y a).val)
    (he3 : ∀ y a, ((e3 y) a).val = i3 a * (![5000, 16] : Fin 2 → Nat) a + (y a).val)
    (hx0 : ∀ y, x0 y = A (e0 y)) (hx1 : ∀ y, x1 y = B (e1 y)) (hw : ∀ y, w y = W (e2 y))
    (f : At i0 n ∧ At i1 n ∧ At i2 0 ∧ At i3 n) (j : S5000x16.Idx) :
    k21_pay1 x0 x1 w j = KSpec.fused A B W (e3 j) := by
  have a3 := emb_at he3 f.2.2.2 j
  refine ((congrArg (k21_pay1 x0 x1 w) (eq_ix2 j)).trans (pay21_ix x0 x1 w (j 0) (j 1))).trans
    (Finset.sum_congr rfl fun k _ => ?_)
  have a0 := emb_at he0 f.1 (ix2 (j 0) k)
  have a1 := emb_at he1 f.2.1 (ix2 (j 0) k)
  rw [hx0, hx1, hw, emb_whole he2 f.2.2.1,
    show e0 (ix2 (j 0) k) = ix2 ((e3 j) 0) k from idx2_ext (a0.1.trans a3.1.symm) a0.2,
    show e1 (ix2 (j 0) k) = ix2 ((e3 j) 0) k from idx2_ext (a1.1.trans a3.1.symm) a1.2,
    show (ix2 k (j 1) : S64x16.Idx) = ix2 k ((e3 j) 1) from idx2_ext rfl a3.2.symm]
  rfl

end Cert.Reg

end
-- ==== Proof.RegAR.lean ====
import proofs.«100184_j50010599195033_2_alg».proof.Proof.RegEdge

noncomputable section

namespace Cert.Reg

open Idealize.ShloMosaic Idealize.ShloMosaic.TcCoe Idealize.SL.Sem Idealize.ShloMosaic.Pipeline Idealize.ShloMosaic.ValueIdx
open Cert.KernelIdeal Cert.KernelIdeal.Gen

theorem idx9 : ∀ t : Fin cfg9.N, At (win9_0.index t) t.val ∧ At (win9_1.index t) t.val ∧ At (win9_2.index t) t.val :=
  (by decide +kernel : ∀ t : Fin grid9.N, _)

theorem reg9 (V : VT) (c : Dev nD) :
    (dat9 (F := Ideal) V c).arrAt 2 cfg9.N = KSpec.addrelu (V c (arrRef spec9 0)) (V c (arrRef spec9 1)) :=
  (dat9 (F := Ideal) V c).arrAt_eq_of_cover 2 _
    (fun t _ => by
      show (cfg9.win 2).cut (grid9.coords t) ((dat9 (F := Ideal) V c).after 2 t) = _
      rw [after9_2]
      show (cfg9.win 2).cut (grid9.coords t) (out9_2 (F := Ideal) (iblk9 V c 0 t) (iblk9 V c 1 t)) = _
      rw [out_ar]
      exact funext fun j => ar_blk _ _ (win9_0.rect_emb_val t) (win9_1.rect_emb_val t) (win9_2.rect_emb_val t)
        (fun _ => rfl) (fun _ => rfl) (idx9 t) j)
    fun (i : S500000x64.Idx) => by
      have ht : (i 0).val / 5000 < cfg9.N := by have := idx2_lt0 i; rw [show cfg9.N = 100 from N_9]; omega
      refine ⟨⟨_, ht⟩, flush9_2 _, ?_⟩
      show i ∈ ((View.whole main_v147).slice (win9_2.rect ⟨(i 0).val / 5000, ht⟩)).set
      rw [View.set_slice_whole, Rect.mem_set_unit]
      exact row_cover (by decide) i (idx9 ⟨_, ht⟩).2.2

theorem idx10 : ∀ t : Fin cfg10.N, At (win10_0.index t) t.val ∧ At (win10_1.index t) t.val ∧ At (win10_2.index t) t.val :=
  (by decide +kernel : ∀ t : Fin grid10.N, _)

theorem reg10 (V : VT) (c : Dev nD) :
    (dat10 (F := Ideal) V c).arrAt 2 cfg10.N = KSpec.addrelu (V c (arrRef spec10 0)) (V c (arrRef spec10 1)) :=
  (dat10 (F := Ideal) V c).arrAt_eq_of_cover 2 _
    (fun t _ => by
      show (cfg10.win 2).cut (grid10.coords t) ((dat10 (F := Ideal) V c).after 2 t) = _
      rw [after10_2]
      show (cfg10.win 2).cut (grid10.coords t) (out9_2 (F := Ideal) (iblk10 V c 0 t) (iblk10 V c 1 t)) = _
      rw [out_ar]
      exact funext fun j => ar_blk _ _ (win10_0.rect_emb_val t) (win10_1.rect_emb_val t) (win10_2.rect_emb_val t)
        (fun _ => rfl) (fun _ => rfl) (idx10 t) j)
    fun (i : S500000x64.Idx) => by
      have ht : (i 0).val / 5000 < cfg10.N := by have := idx2_lt0 i; rw [show cfg10.N = 100 from N_10]; omega
      refine ⟨⟨_, ht⟩, flush10_2 _, ?_⟩
      show i ∈ ((View.whole main_v162).slice (win10_2.rect ⟨(i 0).val / 5000, ht⟩)).set
      rw [View.set_slice_whole, Rect.mem_set_unit]
      exact row_cover (by decide) i (idx10 ⟨_, ht⟩).2.2

theorem idx11 : ∀ t : Fin cfg11.N, At (win11_0.index t) t.val ∧ At (win11_1.index t) t.val ∧ At (win11_2.index t) t.val :=
  (by decide +kernel : ∀ t : Fin grid11.N, _)

theorem reg11 (V : VT) (c : Dev nD) :
    (dat11 (F := Ideal) V c).arrAt 2 cfg11.N = KSpec.addrelu (V c (arrRef spec11 0)) (V c (arrRef spec11 1)) :=
  (dat11 (F := Ideal) V c).arrAt_eq_of_cover 2 _
    (fun t _ => by
      show (cfg11.win 2).cut (grid11.coords t) ((dat11 (F := Ideal) V c).after 2 t) = _
      rw [after11_2]
      show (cfg11.win 2).cut (grid11.coords t) (out9_2 (F := Ideal) (iblk11 V c 0 t) (iblk11 V c 1 t)) = _
      rw [out_ar]
      exact funext fun j => ar_blk _ _ (win11_0.rect_emb_val t) (win11_1.rect_emb_val t) (win11_2.rect_emb_val t)
        (fun _ => rfl) (fun _ => rfl) (idx11 t) j)
    fun (i : S500000x64.Idx) => by
      have ht : (i 0).val / 5000 < cfg11.N := by have := idx2_lt0 i; rw [show cfg11.N = 100 from N_11]; omega
      refine ⟨⟨_, ht⟩, flush11_2 _, ?_⟩
      show i ∈ ((View.whole main_v177).slice (win11_2.rect ⟨(i 0).val / 5000, ht⟩)).set
      rw [View.set_slice_whole, Rect.mem_set_unit]
      exact row_cover (by decide) i (idx11 ⟨_, ht⟩).2.2

end Cert.Reg

end
-- ==== Proof.KRead2.lean ====
import proofs.«100184_j50010599195033_2_alg».proof.Proof.Gen.KernelIdeal.Frame
import proofs.«100184_j50010599195033_2_alg».proof.Proof.KSpec
import proofs.«100184_j50010599195033_2_alg».proof.Proof.KArgs
import proofs.«100184_j50010599195033_2_alg».proof.Proof.RegBN128
import proofs.«100184_j50010599195033_2_alg».proof.Proof.RegAR
import Idealize.ShloMosaic.Lib.StableHlo.Run

set_option maxRecDepth 16384
set_option maxHeartbeats 1000000

noncomputable section

namespace Cert.KRead

open Idealize.ShloMosaic Idealize.ShloMosaic.TcCoe Idealize.SL.Sem Cert.KernelIdeal Cert.KernelIdeal.Gen Cert.KSpec
open Idealize.ShloMosaic.StableHlo (after)

local notation:max "dv[" b "]" => Proc.devRef Proc.tc b

namespace K2

def window (lo n : Nat) : List (Ref sig .tc) :=
  (List.range n).filterMap fun i =>
    if h : lo + i < sig.nNear .tc .hbm then
      if hn : sig.names .tc .hbm ⟨lo + i, h⟩ = true then some ⟨.hbm, ⟨lo + i, h⟩, hn⟩ else none
    else none

local macro "host_wr" : tactic => `(tactic| (
  simp only [hostOps6_1, hostOps6_2, hostOps6_3, hostOps6_4, hostOps6_5, hostOps6_6, hostOps6_7, hostOps6_8, hostOps6_9,
    hostOps6_10, hostOps6_11, hostOps6_12, hostOps6_13, hostOps6_14, hostOps6_15, hostOps6_16, hostOps7, hostOps8, hostOps9,
    hostOps10, hostOps11, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩))

section Writes
variable {F : FTy → Type} [FloatOps F]

theorem wr_6_1 : (hostOps6_1 : List (HloOp τ sig (Elt F))).Forall fun op =>
    op.writes ⊆ ((window 124 3).map (Proc.devRef (τ := τ) .tc)).toFinset := by host_wr
theorem wr_6_2 : (hostOps6_2 : List (HloOp τ sig (Elt F))).Forall fun op =>
    op.writes ⊆ ((window 127 6).map (Proc.devRef (τ := τ) .tc)).toFinset := by host_wr
theorem wr_6_3 : (hostOps6_3 : List (HloOp τ sig (Elt F))).Forall fun op =>
    op.writes ⊆ ((window 133 3).map (Proc.devRef (τ := τ) .tc)).toFinset := by host_wr
theorem wr_6_4 : (hostOps6_4 : List (HloOp τ sig (Elt F))).Forall fun op =>
    op.writes ⊆ ((window 136 6).map (Proc.devRef (τ := τ) .tc)).toFinset := by host_wr
theorem wr_6_5 : (hostOps6_5 : List (HloOp τ sig (Elt F))).Forall fun op =>
    op.writes ⊆ ((window 142 3).map (Proc.devRef (τ := τ) .tc)).toFinset := by host_wr
theorem wr_6_6 : (hostOps6_6 : List (HloOp τ sig (Elt F))).Forall fun op =>
    op.writes ⊆ ((window 145 6).map (Proc.devRef (τ := τ) .tc)).toFinset := by host_wr
theorem wr_6_7 : (hostOps6_7 : List (HloOp τ sig (Elt F))).Forall fun op =>
    op.writes ⊆ ((window 151 3).map (Proc.devRef (τ := τ) .tc)).toFinset := by host_wr
theorem wr_6_8 : (hostOps6_8 : List (HloOp τ sig (Elt F))).Forall fun op =>
    op.writes ⊆ ((window 154 1).map (Proc.devRef (τ := τ) .tc)).toFinset := by host_wr
theorem wr_6_9 : (hostOps6_9 : List (HloOp τ sig (Elt F))).Forall fun op =>
    op.writes ⊆ ((window 155 23).map (Proc.devRef (τ := τ) .tc)).toFinset := by host_wr
theorem wr_6_10 : (hostOps6_10 : List (HloOp τ sig (Elt F))).Forall fun op =>
    op.writes ⊆ ((window 178 3).map (Proc.devRef (τ := τ) .tc)).toFinset := by host_wr
theorem wr_6_11 : (hostOps6_11 : List (HloOp τ sig (Elt F))).Forall fun op =>
    op.writes ⊆ ((window 181 1).map (Proc.devRef (τ := τ) .tc)).toFinset := by host_wr
theorem wr_6_12 : (hostOps6_12 : List (HloOp τ sig (Elt F))).Forall fun op =>
    op.writes ⊆ ((window 182 23).map (Proc.devRef (τ := τ) .tc)).toFinset := by host_wr
theorem wr_6_13 : (hostOps6_13 : List (HloOp τ sig (Elt F))).Forall fun op =>
    op.writes ⊆ ((window 205 3).map (Proc.devRef (τ := τ) .tc)).toFinset := by host_wr
theorem wr_6_14 : (hostOps6_14 : List (HloOp τ sig (Elt F))).Forall fun op =>
    op.writes ⊆ ((window 208 1).map (Proc.devRef (τ := τ) .tc)).toFinset := by host_wr
theorem wr_6_15 : (hostOps6_15 : List (HloOp τ sig (Elt F))).Forall fun op =>
    op.writes ⊆ ((window 209 23).map (Proc.devRef (τ := τ) .tc)).toFinset := by host_wr
theorem wr_6_16 : (hostOps6_16 : List (HloOp τ sig (Elt F))).Forall fun op =>
    op.writes ⊆ ((window 232 13).map (Proc.devRef (τ := τ) .tc)).toFinset := by host_wr
theorem wr_7 : (hostOps7 : List (HloOp τ sig (Elt F))).Forall fun op =>
    op.writes ⊆ ((window 246 3).map (Proc.devRef (τ := τ) .tc)).toFinset := by host_wr
theorem wr_8 : (hostOps8 : List (HloOp τ sig (Elt F))).Forall fun op =>
    op.writes ⊆ ((window 250 3).map (Proc.devRef (τ := τ) .tc)).toFinset := by host_wr
theorem wr_9 : (hostOps9 : List (HloOp τ sig (Elt F))).Forall fun op =>
    op.writes ⊆ ((window 254 20).map (Proc.devRef (τ := τ) .tc)).toFinset := by host_wr
theorem wr_10 : (hostOps10 : List (HloOp τ sig (Elt F))).Forall fun op =>
    op.writes ⊆ ((window 275 18).map (Proc.devRef (τ := τ) .tc)).toFinset := by host_wr
theorem wr_11 : (hostOps11 : List (HloOp τ sig (Elt F))).Forall fun op =>
    op.writes ⊆ ((window 294 18).map (Proc.devRef (τ := τ) .tc)).toFinset := by host_wr

end Writes

local macro "host_peel" : tactic => `(tactic| first
  | ((with_reducible refine (StableHlo.after_of_writes_sub _ _ wr_6_1 ?_).trans ?_); focus decide)
  | ((with_reducible refine (StableHlo.after_of_writes_sub _ _ wr_6_2 ?_).trans ?_); focus decide)
  | ((with_reducible refine (StableHlo.after_of_writes_sub _ _ wr_6_3 ?_).trans ?_); focus decide)
  | ((with_reducible refine (StableHlo.after_of_writes_sub _ _ wr_6_4 ?_).trans ?_); focus decide)
  | ((with_reducible refine (StableHlo.after_of_writes_sub _ _ wr_6_5 ?_).trans ?_); focus decide)
  | ((with_reducible refine (StableHlo.after_of_writes_sub _ _ wr_6_6 ?_).trans ?_); focus decide)
  | ((with_reducible refine (StableHlo.after_of_writes_sub _ _ wr_6_7 ?_).trans ?_); focus decide)
  | ((with_reducible refine (StableHlo.after_of_writes_sub _ _ wr_6_8 ?_).trans ?_); focus decide)
  | ((with_reducible refine (StableHlo.after_of_writes_sub _ _ wr_6_9 ?_).trans ?_); focus decide)
  | ((with_reducible refine (StableHlo.after_of_writes_sub _ _ wr_6_10 ?_).trans ?_); focus decide)
  | ((with_reducible refine (StableHlo.after_of_writes_sub _ _ wr_6_11 ?_).trans ?_); focus decide)
  | ((with_reducible refine (StableHlo.after_of_writes_sub _ _ wr_6_12 ?_).trans ?_); focus decide)
  | ((with_reducible refine (StableHlo.after_of_writes_sub _ _ wr_6_13 ?_).trans ?_); focus decide)
  | ((with_reducible refine (StableHlo.after_of_writes_sub _ _ wr_6_14 ?_).trans ?_); focus decide)
  | ((with_reducible refine (StableHlo.after_of_writes_sub _ _ wr_6_15 ?_).trans ?_); focus decide)
  | ((with_reducible refine (StableHlo.after_of_writes_sub _ _ wr_6_16 ?_).trans ?_); focus decide)
  | ((with_reducible refine (StableHlo.after_of_writes_sub _ _ wr_7 ?_).trans ?_); focus decide)
  | ((with_reducible refine (StableHlo.after_of_writes_sub _ _ wr_8 ?_).trans ?_); focus decide)
  | ((with_reducible refine (StableHlo.after_of_writes_sub _ _ wr_9 ?_).trans ?_); focus decide)
  | ((with_reducible refine (StableHlo.after_of_writes_sub _ _ wr_10 ?_).trans ?_); focus decide)
  | ((with_reducible refine (StableHlo.after_of_writes_sub _ _ wr_11 ?_).trans ?_); focus decide))

local macro "host_read" : tactic => `(tactic| (
  after_results
  try simp only [StableHlo.TRef.ofBuf, StableHlo.TRef.toBuf, cast_eq]
  rfl))

local macro "host_read_s" : tactic => `(tactic| (
  after_results_simp
  try simp only [StableHlo.TRef.ofBuf, StableHlo.TRef.toBuf, cast_eq]
  rfl))

section Host
variable {F : FTy → Type} [FloatOps F] (U : Valuation τ sig (Elt F))

theorem relu_6_1 : after hostOps6_1 U dv[main_v88] = relu1 (U dv[main_v86]) := by host_read_s
theorem relu_6_3 : after hostOps6_3 U dv[main_v93] = relu1 (U dv[main_v68]) := by host_read_s
theorem relu_6_5 : after hostOps6_5 U dv[main_v98] = relu1 (U dv[main_v87]) := by host_read_s
theorem relu_6_7 : after hostOps6_7 U dv[main_v103] = relu1 (U dv[main_v86]) := by host_read_s
theorem relu_6_10 : after hostOps6_10 U dv[main_v105] = relu1 (U dv[main_v68]) := by host_read_s
theorem relu_6_13 : after hostOps6_13 U dv[main_v107] = relu1 (U dv[main_v87]) := by host_read_s

theorem mean_6_2 : after hostOps6_2 U dv[main_v92] = mean1 (U dv[main_v88]) := by host_read_s
theorem mean_6_4 : after hostOps6_4 U dv[main_v97] = mean1 (U dv[main_v93]) := by host_read_s
theorem mean_6_6 : after hostOps6_6 U dv[main_v102] = mean1 (U dv[main_v98]) := by host_read_s

theorem var_6_9 : after hostOps6_9 (after hostOps6_8 U) dv[main_v104] = var1 (U dv[main_v103]) := by host_read_s
theorem var_6_12 : after hostOps6_12 (after hostOps6_11 U) dv[main_v106] = var1 (U dv[main_v105]) := by host_read_s
theorem var_6_15 : after hostOps6_15 (after hostOps6_14 U) dv[main_v108] = var1 (U dv[main_v107]) := by host_read_s

theorem w_6_16_121 : after hostOps6_16 U dv[main_v121] =
    cat (w64x64 (U dv[main_arg12]) ![0, 0, 0, 0] slices_S3x2x64x64_S1x1x64x64_0_0_0_0)
        (w64x64 (U dv[main_arg12]) ![2, 0, 0, 0] slices_S3x2x64x64_S1x1x64x64_2_0_0_0) := by host_read
theorem w_6_16_112 : after hostOps6_16 U dv[main_v112] =
    w64x64 (U dv[main_arg12]) ![0, 1, 0, 0] slices_S3x2x64x64_S1x1x64x64_0_1_0_0 := by host_read_s
theorem w_6_16_114 : after hostOps6_16 U dv[main_v114] =
    w64x64 (U dv[main_arg12]) ![1, 0, 0, 0] slices_S3x2x64x64_S1x1x64x64_1_0_0_0 := by host_read_s
theorem w_6_16_116 : after hostOps6_16 U dv[main_v116] =
    w64x64 (U dv[main_arg12]) ![1, 1, 0, 0] slices_S3x2x64x64_S1x1x64x64_1_1_0_0 := by host_read_s
theorem w_6_16_120 : after hostOps6_16 U dv[main_v120] =
    w64x64 (U dv[main_arg12]) ![2, 1, 0, 0] slices_S3x2x64x64_S1x1x64x64_2_1_0_0 := by host_read_s

theorem lo_7 : after hostOps7 U dv[main_v123] = lo (U dv[main_v122]) := by host_read_s
theorem hi_7 : after hostOps7 U dv[main_v124] = hi (U dv[main_v122]) := by host_read_s
theorem cat_7 : after hostOps7 U dv[main_v125] = cat (U dv[main_v112]) (U dv[main_v114]) := by host_read
theorem lo_8 : after hostOps8 U dv[main_v127] = lo (U dv[main_v126]) := by host_read_s
theorem hi_8 : after hostOps8 U dv[main_v128] = hi (U dv[main_v126]) := by host_read_s
theorem cat_8 : after hostOps8 U dv[main_v129] = cat (U dv[main_v116]) (U dv[main_v120]) := by host_read
theorem lo_9 : after hostOps9 U dv[main_v131] = lo (U dv[main_v130]) := by host_read_s
theorem hi_9 : after hostOps9 U dv[main_v132] = hi (U dv[main_v130]) := by host_read_s

theorem gath_9a : after hostOps9 U dv[main_v139] = gath (U dv[main_v123]) (U dv[main_arg3]) := by host_read_s
theorem gath_9b : after hostOps9 U dv[main_v146] = gath (U dv[main_v127]) (U dv[main_arg4]) := by host_read_s
theorem gath_10a : after hostOps10 U dv[main_v154] = gath (U dv[main_v128]) (U dv[main_arg5]) := by host_read_s
theorem gath_10b : after hostOps10 U dv[main_v161] = gath (U dv[main_v131]) (U dv[main_arg6]) := by host_read_s
theorem gath_11a : after hostOps11 U dv[main_v169] = gath (U dv[main_v124]) (U dv[main_arg7]) := by host_read_s
theorem gath_11b : after hostOps11 U dv[main_v176] = gath (U dv[main_v132]) (U dv[main_arg8]) := by host_read_s

end Host

section Walk
variable (m : (ℓ : Loc nD τ sig) → Buf (Elt Ideal) ℓ) (ρ : Dev nD → PrngReg)

local macro "reg_peel" : tactic => `(tactic| first
  | ((with_reducible refine (W30_of_ne _ _ _ _ ?_).trans ?_); focus decide)
  | ((with_reducible refine (W32_of_ne _ _ _ _ ?_).trans ?_); focus decide)
  | ((with_reducible refine (W34_of_ne _ _ _ _ ?_).trans ?_); focus decide)
  | ((with_reducible refine (W36_of_ne _ _ _ _ ?_).trans ?_); focus decide)
  | ((with_reducible refine (W38_of_ne _ _ _ _ ?_).trans ?_); focus decide)
  | ((with_reducible refine (W40_of_ne _ _ _ _ ?_).trans ?_); focus decide))

local macro "walk" : tactic => `(tactic| repeat (first | with_reducible rfl | host_peel | reg_peel))

def Yof (x : FVec Ideal S100000x64 .f32) (W1 W2 : FVec Ideal S64x64 .f32) : FVec Ideal S100000x128 .f32 :=
  bnmm128 x (mean1 (relu1 x)) (var1 (relu1 x)) (cat W1 W2)

theorem W28_arg12 (c : Dev nD) : W28 m ρ c dv[main_arg12] = W13 m ρ c dv[main_arg12] := by walk

theorem W29_v121 (c : Dev nD) : W29 m ρ c dv[main_v121] =
    cat (bw0_00 (Cert.KArgs.argsV (W13 m ρ c))) (bw0_20 (Cert.KArgs.argsV (W13 m ρ c))) := by
  refine (w_6_16_121 _).trans ?_
  rw [W28_arg12 m ρ c]; rfl
theorem W29_v112 (c : Dev nD) : W29 m ρ c dv[main_v112] = bw0_01 (Cert.KArgs.argsV (W13 m ρ c)) := by
  refine (w_6_16_112 _).trans ?_
  rw [W28_arg12 m ρ c]; rfl
theorem W29_v114 (c : Dev nD) : W29 m ρ c dv[main_v114] = bw0_10 (Cert.KArgs.argsV (W13 m ρ c)) := by
  refine (w_6_16_114 _).trans ?_
  rw [W28_arg12 m ρ c]; rfl
theorem W29_v116 (c : Dev nD) : W29 m ρ c dv[main_v116] = bw0_11 (Cert.KArgs.argsV (W13 m ρ c)) := by
  refine (w_6_16_116 _).trans ?_
  rw [W28_arg12 m ρ c]; rfl
theorem W29_v120 (c : Dev nD) : W29 m ρ c dv[main_v120] = bw0_21 (Cert.KArgs.argsV (W13 m ρ c)) := by
  refine (w_6_16_120 _).trans ?_
  rw [W28_arg12 m ρ c]; rfl

theorem W29_v86 (c : Dev nD) : W29 m ρ c dv[main_v86] = W13 m ρ c dv[main_v86] := by walk
theorem W29_v92 (c : Dev nD) : W29 m ρ c dv[main_v92] = mean1 (F := Ideal) (relu1 (W13 m ρ c dv[main_v86])) := by
  walk
  exact (mean_6_2 _).trans (congrArg (mean1 (F := Ideal)) (relu_6_1 _))
theorem W29_v104 (c : Dev nD) : W29 m ρ c dv[main_v104] = var1 (F := Ideal) (relu1 (W13 m ρ c dv[main_v86])) := by
  walk
  exact (var_6_9 _).trans (congrArg (var1 (F := Ideal)) ((relu_6_7 _).trans (congrArg (relu1 (F := Ideal)) (by walk))))

theorem W30_v122 (c : Dev nD) : W30 m ρ c dv[main_v122] =
    Yof (W13 m ρ c dv[main_v86]) (bw0_00 (Cert.KArgs.argsV (W13 m ρ c))) (bw0_20 (Cert.KArgs.argsV (W13 m ρ c))) := by
  refine (W30_arr m ρ c 4).trans ((Cert.Reg.reg6 (V29 m ρ) c).trans ?_)
  show bnmm128 (W29 m ρ c dv[main_v86]) (W29 m ρ c dv[main_v92]) (W29 m ρ c dv[main_v104]) (W29 m ρ c dv[main_v121]) = _
  rw [W29_v86 m ρ c, W29_v92 m ρ c, W29_v104 m ρ c, W29_v121 m ρ c]; rfl

theorem W31_v68 (c : Dev nD) : W31 m ρ c dv[main_v68] = W13 m ρ c dv[main_v68] := by walk
theorem W31_v97 (c : Dev nD) : W31 m ρ c dv[main_v97] = mean1 (F := Ideal) (relu1 (W13 m ρ c dv[main_v68])) := by
  walk
  exact (mean_6_4 _).trans (congrArg (mean1 (F := Ideal)) ((relu_6_3 _).trans (congrArg (relu1 (F := Ideal)) (by walk))))
theorem W31_v106 (c : Dev nD) : W31 m ρ c dv[main_v106] = var1 (F := Ideal) (relu1 (W13 m ρ c dv[main_v68])) := by
  walk
  exact (var_6_12 _).trans (congrArg (var1 (F := Ideal)) ((relu_6_10 _).trans (congrArg (relu1 (F := Ideal)) (by walk))))
theorem W31_v125 (c : Dev nD) : W31 m ρ c dv[main_v125] =
    cat (bw0_01 (Cert.KArgs.argsV (W13 m ρ c))) (bw0_10 (Cert.KArgs.argsV (W13 m ρ c))) := by
  have e1 : W30 m ρ c dv[main_v112] = W29 m ρ c dv[main_v112] := by walk
  have e2 : W30 m ρ c dv[main_v114] = W29 m ρ c dv[main_v114] := by walk
  refine (cat_7 _).trans ?_
  rw [e1, e2, W29_v112 m ρ c, W29_v114 m ρ c]

theorem W32_v126 (c : Dev nD) : W32 m ρ c dv[main_v126] =
    Yof (W13 m ρ c dv[main_v68]) (bw0_01 (Cert.KArgs.argsV (W13 m ρ c))) (bw0_10 (Cert.KArgs.argsV (W13 m ρ c))) := by
  refine (W32_arr m ρ c 4).trans ((Cert.Reg.reg7 (V31 m ρ) c).trans ?_)
  show bnmm128 (W31 m ρ c dv[main_v68]) (W31 m ρ c dv[main_v97]) (W31 m ρ c dv[main_v106]) (W31 m ρ c dv[main_v125]) = _
  rw [W31_v68 m ρ c, W31_v97 m ρ c, W31_v106 m ρ c, W31_v125 m ρ c]; rfl

theorem W33_v87 (c : Dev nD) : W33 m ρ c dv[main_v87] = W13 m ρ c dv[main_v87] := by walk
theorem W33_v102 (c : Dev nD) : W33 m ρ c dv[main_v102] = mean1 (F := Ideal) (relu1 (W13 m ρ c dv[main_v87])) := by
  walk
  exact (mean_6_6 _).trans (congrArg (mean1 (F := Ideal)) ((relu_6_5 _).trans (congrArg (relu1 (F := Ideal)) (by walk))))
theorem W33_v108 (c : Dev nD) : W33 m ρ c dv[main_v108] = var1 (F := Ideal) (relu1 (W13 m ρ c dv[main_v87])) := by
  walk
  exact (var_6_15 _).trans (congrArg (var1 (F := Ideal)) ((relu_6_13 _).trans (congrArg (relu1 (F := Ideal)) (by walk))))
theorem W33_v129 (c : Dev nD) : W33 m ρ c dv[main_v129] =
    cat (bw0_11 (Cert.KArgs.argsV (W13 m ρ c))) (bw0_21 (Cert.KArgs.argsV (W13 m ρ c))) := by
  have e1 : W32 m ρ c dv[main_v116] = W29 m ρ c dv[main_v116] := by walk
  have e2 : W32 m ρ c dv[main_v120] = W29 m ρ c dv[main_v120] := by walk
  refine (cat_8 _).trans ?_
  rw [e1, e2, W29_v116 m ρ c, W29_v120 m ρ c]

theorem W34_v130 (c : Dev nD) : W34 m ρ c dv[main_v130] =
    Yof (W13 m ρ c dv[main_v87]) (bw0_11 (Cert.KArgs.argsV (W13 m ρ c))) (bw0_21 (Cert.KArgs.argsV (W13 m ρ c))) := by
  refine (W34_arr m ρ c 4).trans ((Cert.Reg.reg8 (V33 m ρ) c).trans ?_)
  show bnmm128 (W33 m ρ c dv[main_v87]) (W33 m ρ c dv[main_v102]) (W33 m ρ c dv[main_v108]) (W33 m ρ c dv[main_v129]) = _
  rw [W33_v87 m ρ c, W33_v102 m ρ c, W33_v108 m ρ c, W33_v129 m ρ c]; rfl

theorem W35_v139 (c : Dev nD) : W35 m ρ c dv[main_v139] =
    gath (F := Ideal) (lo (W30 m ρ c dv[main_v122])) (W13 m ρ c dv[main_arg3]) :=
  (gath_9a _).trans (congrArg₂ (gath (F := Ideal)) (by walk; exact lo_7 _) (by walk))
theorem W35_v146 (c : Dev nD) : W35 m ρ c dv[main_v146] =
    gath (F := Ideal) (lo (W32 m ρ c dv[main_v126])) (W13 m ρ c dv[main_arg4]) :=
  (gath_9b _).trans (congrArg₂ (gath (F := Ideal)) (by walk; exact lo_8 _) (by walk))
theorem W36_v147 (c : Dev nD) : W36 m ρ c dv[main_v147] =
    addrelu (gath (lo (W30 m ρ c dv[main_v122])) (W13 m ρ c dv[main_arg3]))
            (gath (lo (W32 m ρ c dv[main_v126])) (W13 m ρ c dv[main_arg4])) := by
  refine (W36_arr m ρ c 2).trans ((Cert.Reg.reg9 (V35 m ρ) c).trans ?_)
  show addrelu (W35 m ρ c dv[main_v139]) (W35 m ρ c dv[main_v146]) = _
  rw [W35_v139 m ρ c, W35_v146 m ρ c]

theorem W37_v154 (c : Dev nD) : W37 m ρ c dv[main_v154] =
    gath (F := Ideal) (hi (W32 m ρ c dv[main_v126])) (W13 m ρ c dv[main_arg5]) :=
  (gath_10a _).trans (congrArg₂ (gath (F := Ideal)) (by walk; exact hi_8 _) (by walk))
theorem W37_v161 (c : Dev nD) : W37 m ρ c dv[main_v161] =
    gath (F := Ideal) (lo (W34 m ρ c dv[main_v130])) (W13 m ρ c dv[main_arg6]) :=
  (gath_10b _).trans (congrArg₂ (gath (F := Ideal)) (by walk; exact lo_9 _) (by walk))
theorem W38_v162 (c : Dev nD) : W38 m ρ c dv[main_v162] =
    addrelu (gath (hi (W32 m ρ c dv[main_v126])) (W13 m ρ c dv[main_arg5]))
            (gath (lo (W34 m ρ c dv[main_v130])) (W13 m ρ c dv[main_arg6])) := by
  refine (W38_arr m ρ c 2).trans ((Cert.Reg.reg10 (V37 m ρ) c).trans ?_)
  show addrelu (W37 m ρ c dv[main_v154]) (W37 m ρ c dv[main_v161]) = _
  rw [W37_v154 m ρ c, W37_v161 m ρ c]

theorem W39_v169 (c : Dev nD) : W39 m ρ c dv[main_v169] =
    gath (F := Ideal) (hi (W30 m ρ c dv[main_v122])) (W13 m ρ c dv[main_arg7]) :=
  (gath_11a _).trans (congrArg₂ (gath (F := Ideal)) (by walk; exact hi_7 _) (by walk))
theorem W39_v176 (c : Dev nD) : W39 m ρ c dv[main_v176] =
    gath (F := Ideal) (hi (W34 m ρ c dv[main_v130])) (W13 m ρ c dv[main_arg8]) :=
  (gath_11b _).trans (congrArg₂ (gath (F := Ideal)) (by walk; exact hi_9 _) (by walk))
theorem W40_v177 (c : Dev nD) : W40 m ρ c dv[main_v177] =
    addrelu (gath (hi (W30 m ρ c dv[main_v122])) (W13 m ρ c dv[main_arg7]))
            (gath (hi (W34 m ρ c dv[main_v130])) (W13 m ρ c dv[main_arg8])) := by
  refine (W40_arr m ρ c 2).trans ((Cert.Reg.reg11 (V39 m ρ) c).trans ?_)
  show addrelu (W39 m ρ c dv[main_v169]) (W39 m ρ c dv[main_v176]) = _
  rw [W39_v169 m ρ c, W39_v176 m ρ c]

theorem keep_v147 (c : Dev nD) : W40 m ρ c dv[main_v147] = W36 m ρ c dv[main_v147] := by walk
theorem keep_v162 (c : Dev nD) : W40 m ρ c dv[main_v162] = W38 m ρ c dv[main_v162] := by walk

theorem keep_arg0 (c : Dev nD) : W40 m ρ c dv[main_arg0] = W13 m ρ c dv[main_arg0] := by walk
theorem keep_arg1 (c : Dev nD) : W40 m ρ c dv[main_arg1] = W13 m ρ c dv[main_arg1] := by walk
theorem keep_arg2 (c : Dev nD) : W40 m ρ c dv[main_arg2] = W13 m ρ c dv[main_arg2] := by walk
theorem keep_arg3 (c : Dev nD) : W40 m ρ c dv[main_arg3] = W13 m ρ c dv[main_arg3] := by walk
theorem keep_arg4 (c : Dev nD) : W40 m ρ c dv[main_arg4] = W13 m ρ c dv[main_arg4] := by walk
theorem keep_arg5 (c : Dev nD) : W40 m ρ c dv[main_arg5] = W13 m ρ c dv[main_arg5] := by walk
theorem keep_arg6 (c : Dev nD) : W40 m ρ c dv[main_arg6] = W13 m ρ c dv[main_arg6] := by walk
theorem keep_arg7 (c : Dev nD) : W40 m ρ c dv[main_arg7] = W13 m ρ c dv[main_arg7] := by walk
theorem keep_arg8 (c : Dev nD) : W40 m ρ c dv[main_arg8] = W13 m ρ c dv[main_arg8] := by walk
theorem keep_arg9 (c : Dev nD) : W40 m ρ c dv[main_arg9] = W13 m ρ c dv[main_arg9] := by walk
theorem keep_arg10 (c : Dev nD) : W40 m ρ c dv[main_arg10] = W13 m ρ c dv[main_arg10] := by walk
theorem keep_arg11 (c : Dev nD) : W40 m ρ c dv[main_arg11] = W13 m ρ c dv[main_arg11] := by walk
theorem keep_arg12 (c : Dev nD) : W40 m ρ c dv[main_arg12] = W13 m ρ c dv[main_arg12] := by walk
theorem keep_arg13 (c : Dev nD) : W40 m ρ c dv[main_arg13] = W13 m ρ c dv[main_arg13] := by walk
theorem keep_v5 (c : Dev nD) : W40 m ρ c dv[main_v5] = W13 m ρ c dv[main_v5] := by walk
theorem keep_v10 (c : Dev nD) : W40 m ρ c dv[main_v10] = W13 m ρ c dv[main_v10] := by walk
theorem keep_v15 (c : Dev nD) : W40 m ρ c dv[main_v15] = W13 m ρ c dv[main_v15] := by walk
theorem keep_v20 (c : Dev nD) : W40 m ρ c dv[main_v20] = W13 m ρ c dv[main_v20] := by walk
theorem keep_v25 (c : Dev nD) : W40 m ρ c dv[main_v25] = W13 m ρ c dv[main_v25] := by walk
theorem keep_v30 (c : Dev nD) : W40 m ρ c dv[main_v30] = W13 m ρ c dv[main_v30] := by walk

end Walk

end K2

section Stage
variable (m : (ℓ : Loc nD τ sig) → Buf (Elt Ideal) ℓ) (ρ : Dev nD → PrngReg)

theorem K2_d1 (c : Dev nD) (ha : Cert.KArgs.argsV (W13 m ρ c) = Cert.KArgs.args m c)
    (h : W13 m ρ c dv[main_v86] = kacc0_0 (Cert.KArgs.args m c) ∧
         W13 m ρ c dv[main_v68] = kacc0_1 (Cert.KArgs.args m c) ∧
         W13 m ρ c dv[main_v87] = kacc0_2 (Cert.KArgs.args m c)) :
    W40 m ρ c dv[main_v147] = kd1_0 (Cert.KArgs.args m c) ∧
    W40 m ρ c dv[main_v162] = kd1_1 (Cert.KArgs.args m c) ∧
    W40 m ρ c dv[main_v177] = kd1_2 (Cert.KArgs.args m c) := by
  obtain ⟨h0, h1, h2⟩ := h
  have y0 := K2.W30_v122 m ρ c
  have y1 := K2.W32_v126 m ρ c
  have y2 := K2.W34_v130 m ρ c
  rw [h0, ha] at y0
  rw [h1, ha] at y1
  rw [h2, ha] at y2
  have r0 : W13 m ρ c dv[main_arg3] = (Cert.KArgs.args m c).row0 := congrArg KSpec.Args.row0 ha
  have c0 : W13 m ρ c dv[main_arg4] = (Cert.KArgs.args m c).col0 := congrArg KSpec.Args.col0 ha
  have r1 : W13 m ρ c dv[main_arg5] = (Cert.KArgs.args m c).row1 := congrArg KSpec.Args.row1 ha
  have c1 : W13 m ρ c dv[main_arg6] = (Cert.KArgs.args m c).col1 := congrArg KSpec.Args.col1 ha
  have r2 : W13 m ρ c dv[main_arg7] = (Cert.KArgs.args m c).row2 := congrArg KSpec.Args.row2 ha
  have c2 : W13 m ρ c dv[main_arg8] = (Cert.KArgs.args m c).col2 := congrArg KSpec.Args.col2 ha
  refine ⟨?_, ?_, ?_⟩
  · refine (K2.keep_v147 m ρ c).trans ?_
    rw [K2.W36_v147 m ρ c, y0, y1, r0, c0]; rfl
  · refine (K2.keep_v162 m ρ c).trans ?_
    rw [K2.W38_v162 m ρ c, y1, y2, r1, c1]; rfl
  · rw [K2.W40_v177 m ρ c, y0, y2, r2, c2]; rfl

theorem K2_cnt_kept (c : Dev nD) :
    W40 m ρ c dv[main_v5] = W13 m ρ c dv[main_v5] ∧ W40 m ρ c dv[main_v10] = W13 m ρ c dv[main_v10] ∧
    W40 m ρ c dv[main_v15] = W13 m ρ c dv[main_v15] ∧ W40 m ρ c dv[main_v20] = W13 m ρ c dv[main_v20] ∧
    W40 m ρ c dv[main_v25] = W13 m ρ c dv[main_v25] ∧ W40 m ρ c dv[main_v30] = W13 m ρ c dv[main_v30] :=
  ⟨K2.keep_v5 m ρ c, K2.keep_v10 m ρ c, K2.keep_v15 m ρ c, K2.keep_v20 m ρ c, K2.keep_v25 m ρ c, K2.keep_v30 m ρ c⟩

theorem K2_args (c : Dev nD) : Cert.KArgs.argsV (W40 m ρ c) = Cert.KArgs.argsV (W13 m ρ c) := by
  unfold Cert.KArgs.argsV
  rw [K2.keep_arg0 m ρ c, K2.keep_arg1 m ρ c, K2.keep_arg2 m ρ c, K2.keep_arg3 m ρ c, K2.keep_arg4 m ρ c,
    K2.keep_arg5 m ρ c, K2.keep_arg6 m ρ c, K2.keep_arg7 m ρ c, K2.keep_arg8 m ρ c, K2.keep_arg9 m ρ c,
    K2.keep_arg10 m ρ c, K2.keep_arg11 m ρ c, K2.keep_arg12 m ρ c, K2.keep_arg13 m ρ c]

end Stage

end Cert.KRead

end
-- ==== Proof.RegMM64.lean ====
import proofs.«100184_j50010599195033_2_alg».proof.Proof.RegMMPay

noncomputable section

namespace Cert.Reg

open Idealize.ShloMosaic Idealize.ShloMosaic.TcCoe Idealize.SL.Sem Idealize.ShloMosaic.Pipeline Idealize.ShloMosaic.ValueIdx
open Cert.KernelIdeal Cert.KernelIdeal.Gen

theorem idx12 : ∀ t : Fin cfg12.N, At (win12_0.index t) t.val ∧ At (win12_1.index t) 0 ∧ At (win12_2.index t) t.val :=
  (by decide +kernel : ∀ t : Fin grid12.N, _)

theorem reg12 (V : VT) (c : Dev nD) :
    (dat12 (F := Ideal) V c).arrAt 2 cfg12.N = KSpec.mm64 (V c (arrRef spec12 0)) (V c (arrRef spec12 1)) :=
  (dat12 (F := Ideal) V c).arrAt_eq_of_cover 2 _
    (fun t _ => by
      show (cfg12.win 2).cut (grid12.coords t) ((dat12 (F := Ideal) V c).after 2 t) = _
      rw [after12_2]
      show (cfg12.win 2).cut (grid12.coords t) (out12_2 (F := Ideal) (iblk12 V c 0 t) (iblk12 V c 1 t)) = _
      rw [out64]
      exact funext fun j => mm_blk prod64 _ _ (win12_0.rect_emb_val t) (win12_1.rect_emb_val t) (win12_2.rect_emb_val t)
        (fun _ => rfl) (fun _ => rfl) (idx12 t) j)
    fun (i : S100000x64.Idx) => by
      have ht : (i 0).val / 10000 < cfg12.N := by have := idx2_lt0 i; rw [show cfg12.N = 10 from N_12]; omega
      refine ⟨⟨_, ht⟩, flush12_2 _, ?_⟩
      show i ∈ ((View.whole main_v193).slice (win12_2.rect ⟨(i 0).val / 10000, ht⟩)).set
      rw [View.set_slice_whole, Rect.mem_set_unit]
      exact row_cover (by decide) i (idx12 ⟨_, ht⟩).2.2

theorem idx13 : ∀ t : Fin cfg13.N, At (win13_0.index t) t.val ∧ At (win13_1.index t) 0 ∧ At (win13_2.index t) t.val :=
  (by decide +kernel : ∀ t : Fin grid13.N, _)

theorem reg13 (V : VT) (c : Dev nD) :
    (dat13 (F := Ideal) V c).arrAt 2 cfg13.N = KSpec.mm64 (V c (arrRef spec13 0)) (V c (arrRef spec13 1)) :=
  (dat13 (F := Ideal) V c).arrAt_eq_of_cover 2 _
    (fun t _ => by
      show (cfg13.win 2).cut (grid13.coords t) ((dat13 (F := Ideal) V c).after 2 t) = _
      rw [after13_2]
      show (cfg13.win 2).cut (grid13.coords t) (out12_2 (F := Ideal) (iblk13 V c 0 t) (iblk13 V c 1 t)) = _
      rw [out64]
      exact funext fun j => mm_blk prod64 _ _ (win13_0.rect_emb_val t) (win13_1.rect_emb_val t) (win13_2.rect_emb_val t)
        (fun _ => rfl) (fun _ => rfl) (idx13 t) j)
    fun (i : S100000x64.Idx) => by
      have ht : (i 0).val / 10000 < cfg13.N := by have := idx2_lt0 i; rw [show cfg13.N = 10 from N_13]; omega
      refine ⟨⟨_, ht⟩, flush13_2 _, ?_⟩
      show i ∈ ((View.whole main_v196).slice (win13_2.rect ⟨(i 0).val / 10000, ht⟩)).set
      rw [View.set_slice_whole, Rect.mem_set_unit]
      exact row_cover (by decide) i (idx13 ⟨_, ht⟩).2.2

theorem idx14 : ∀ t : Fin cfg14.N, At (win14_0.index t) t.val ∧ At (win14_1.index t) 0 ∧ At (win14_2.index t) t.val :=
  (by decide +kernel : ∀ t : Fin grid14.N, _)

theorem reg14 (V : VT) (c : Dev nD) :
    (dat14 (F := Ideal) V c).arrAt 2 cfg14.N = KSpec.mm64 (V c (arrRef spec14 0)) (V c (arrRef spec14 1)) :=
  (dat14 (F := Ideal) V c).arrAt_eq_of_cover 2 _
    (fun t _ => by
      show (cfg14.win 2).cut (grid14.coords t) ((dat14 (F := Ideal) V c).after 2 t) = _
      rw [after14_2]
      show (cfg14.win 2).cut (grid14.coords t) (out12_2 (F := Ideal) (iblk14 V c 0 t) (iblk14 V c 1 t)) = _
      rw [out64]
      exact funext fun j => mm_blk prod64 _ _ (win14_0.rect_emb_val t) (win14_1.rect_emb_val t) (win14_2.rect_emb_val t)
        (fun _ => rfl) (fun _ => rfl) (idx14 t) j)
    fun (i : S100000x64.Idx) => by
      have ht : (i 0).val / 10000 < cfg14.N := by have := idx2_lt0 i; rw [show cfg14.N = 10 from N_14]; omega
      refine ⟨⟨_, ht⟩, flush14_2 _, ?_⟩
      show i ∈ ((View.whole main_v211).slice (win14_2.rect ⟨(i 0).val / 10000, ht⟩)).set
      rw [View.set_slice_whole, Rect.mem_set_unit]
      exact row_cover (by decide) i (idx14 ⟨_, ht⟩).2.2

theorem idx15 : ∀ t : Fin cfg15.N, At (win15_0.index t) t.val ∧ At (win15_1.index t) 0 ∧ At (win15_2.index t) t.val :=
  (by decide +kernel : ∀ t : Fin grid15.N, _)

theorem reg15 (V : VT) (c : Dev nD) :
    (dat15 (F := Ideal) V c).arrAt 2 cfg15.N = KSpec.mm64 (V c (arrRef spec15 0)) (V c (arrRef spec15 1)) :=
  (dat15 (F := Ideal) V c).arrAt_eq_of_cover 2 _
    (fun t _ => by
      show (cfg15.win 2).cut (grid15.coords t) ((dat15 (F := Ideal) V c).after 2 t) = _
      rw [after15_2]
      show (cfg15.win 2).cut (grid15.coords t) (out12_2 (F := Ideal) (iblk15 V c 0 t) (iblk15 V c 1 t)) = _
      rw [out64]
      exact funext fun j => mm_blk prod64 _ _ (win15_0.rect_emb_val t) (win15_1.rect_emb_val t) (win15_2.rect_emb_val t)
        (fun _ => rfl) (fun _ => rfl) (idx15 t) j)
    fun (i : S100000x64.Idx) => by
      have ht : (i 0).val / 10000 < cfg15.N := by have := idx2_lt0 i; rw [show cfg15.N = 10 from N_15]; omega
      refine ⟨⟨_, ht⟩, flush15_2 _, ?_⟩
      show i ∈ ((View.whole main_v214).slice (win15_2.rect ⟨(i 0).val / 10000, ht⟩)).set
      rw [View.set_slice_whole, Rect.mem_set_unit]
      exact row_cover (by decide) i (idx15 ⟨_, ht⟩).2.2

theorem idx16 : ∀ t : Fin cfg16.N, At (win16_0.index t) t.val ∧ At (win16_1.index t) 0 ∧ At (win16_2.index t) t.val :=
  (by decide +kernel : ∀ t : Fin grid16.N, _)

theorem reg16 (V : VT) (c : Dev nD) :
    (dat16 (F := Ideal) V c).arrAt 2 cfg16.N = KSpec.mm64 (V c (arrRef spec16 0)) (V c (arrRef spec16 1)) :=
  (dat16 (F := Ideal) V c).arrAt_eq_of_cover 2 _
    (fun t _ => by
      show (cfg16.win 2).cut (grid16.coords t) ((dat16 (F := Ideal) V c).after 2 t) = _
      rw [after16_2]
      show (cfg16.win 2).cut (grid16.coords t) (out12_2 (F := Ideal) (iblk16 V c 0 t) (iblk16 V c 1 t)) = _
      rw [out64]
      exact funext fun j => mm_blk prod64 _ _ (win16_0.rect_emb_val t) (win16_1.rect_emb_val t) (win16_2.rect_emb_val t)
        (fun _ => rfl) (fun _ => rfl) (idx16 t) j)
    fun (i : S100000x64.Idx) => by
      have ht : (i 0).val / 10000 < cfg16.N := by have := idx2_lt0 i; rw [show cfg16.N = 10 from N_16]; omega
      refine ⟨⟨_, ht⟩, flush16_2 _, ?_⟩
      show i ∈ ((View.whole main_v229).slice (win16_2.rect ⟨(i 0).val / 10000, ht⟩)).set
      rw [View.set_slice_whole, Rect.mem_set_unit]
      exact row_cover (by decide) i (idx16 ⟨_, ht⟩).2.2

theorem idx17 : ∀ t : Fin cfg17.N, At (win17_0.index t) t.val ∧ At (win17_1.index t) 0 ∧ At (win17_2.index t) t.val :=
  (by decide +kernel : ∀ t : Fin grid17.N, _)

theorem reg17 (V : VT) (c : Dev nD) :
    (dat17 (F := Ideal) V c).arrAt 2 cfg17.N = KSpec.mm64 (V c (arrRef spec17 0)) (V c (arrRef spec17 1)) :=
  (dat17 (F := Ideal) V c).arrAt_eq_of_cover 2 _
    (fun t _ => by
      show (cfg17.win 2).cut (grid17.coords t) ((dat17 (F := Ideal) V c).after 2 t) = _
      rw [after17_2]
      show (cfg17.win 2).cut (grid17.coords t) (out12_2 (F := Ideal) (iblk17 V c 0 t) (iblk17 V c 1 t)) = _
      rw [out64]
      exact funext fun j => mm_blk prod64 _ _ (win17_0.rect_emb_val t) (win17_1.rect_emb_val t) (win17_2.rect_emb_val t)
        (fun _ => rfl) (fun _ => rfl) (idx17 t) j)
    fun (i : S100000x64.Idx) => by
      have ht : (i 0).val / 10000 < cfg17.N := by have := idx2_lt0 i; rw [show cfg17.N = 10 from N_17]; omega
      refine ⟨⟨_, ht⟩, flush17_2 _, ?_⟩
      show i ∈ ((View.whole main_v232).slice (win17_2.rect ⟨(i 0).val / 10000, ht⟩)).set
      rw [View.set_slice_whole, Rect.mem_set_unit]
      exact row_cover (by decide) i (idx17 ⟨_, ht⟩).2.2

end Cert.Reg

end
-- ==== Proof.KRead3.lean ====
import proofs.«100184_j50010599195033_2_alg».proof.Proof.Gen.KernelIdeal.Frame
import proofs.«100184_j50010599195033_2_alg».proof.Proof.KSpec
import proofs.«100184_j50010599195033_2_alg».proof.Proof.KArgs
import proofs.«100184_j50010599195033_2_alg».proof.Proof.RegMM64

set_option maxRecDepth 16384

noncomputable section

namespace Cert.KRead

open Idealize.ShloMosaic Idealize.ShloMosaic.TcCoe Idealize.SL.Sem Cert.KernelIdeal Cert.KernelIdeal.Gen

section Host

variable {F : FTy → Type} [FloatOps F]

abbrev wr12 : List (Ref sig .tc) :=
  [main_cst_41, main_v178, main_cst_42, main_v179, main_cst_43, main_v180, main_cst_44, main_v181, main_v182, main_v183,
   main_cst_45, main_v184, main_v185, main_v186, main_v187, main_v188, main_v189, main_v190, main_v191, main_v192]
abbrev wr13 : List (Ref sig .tc) := [main_v194, main_v195]
abbrev wr14 : List (Ref sig .tc) :=
  [main_v197, main_v198, main_cst_46, main_v199, main_v200, main_v201, main_cst_47, main_v202, main_v203, main_v204,
   main_v205, main_v206, main_v207, main_v208, main_v209, main_v210]
abbrev wr15 : List (Ref sig .tc) := [main_v212, main_v213]
abbrev wr16 : List (Ref sig .tc) :=
  [main_v215, main_v216, main_cst_48, main_v217, main_v218, main_v219, main_cst_49, main_v220, main_v221, main_v222,
   main_v223, main_v224, main_v225, main_v226, main_v227, main_v228]
abbrev wr17 : List (Ref sig .tc) := [main_v230, main_v231]
abbrev wr18 : List (Ref sig .tc) := [main_v233, main_v234]

local macro "not_written " ops:ident " from " hb:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals first
        | (refine StableHlo.devRef_ne_of_ne ?_; rintro rfl; exact $hb (by decide))
        | (intro e; exact $hb (by rw [Proc.devRef_injective _ e]; decide)))))

theorem keep12 (U : Valuation τ sig (Elt F)) (b : Ref sig .tc) (hb : b ∉ wr12) :
    StableHlo.after hostOps12 U (Proc.devRef .tc b) = U (Proc.devRef .tc b) := by not_written hostOps12 from hb
theorem keep13 (U : Valuation τ sig (Elt F)) (b : Ref sig .tc) (hb : b ∉ wr13) :
    StableHlo.after hostOps13 U (Proc.devRef .tc b) = U (Proc.devRef .tc b) := by not_written hostOps13 from hb
theorem keep14 (U : Valuation τ sig (Elt F)) (b : Ref sig .tc) (hb : b ∉ wr14) :
    StableHlo.after hostOps14 U (Proc.devRef .tc b) = U (Proc.devRef .tc b) := by not_written hostOps14 from hb
theorem keep15 (U : Valuation τ sig (Elt F)) (b : Ref sig .tc) (hb : b ∉ wr15) :
    StableHlo.after hostOps15 U (Proc.devRef .tc b) = U (Proc.devRef .tc b) := by not_written hostOps15 from hb
theorem keep16 (U : Valuation τ sig (Elt F)) (b : Ref sig .tc) (hb : b ∉ wr16) :
    StableHlo.after hostOps16 U (Proc.devRef .tc b) = U (Proc.devRef .tc b) := by not_written hostOps16 from hb
theorem keep17 (U : Valuation τ sig (Elt F)) (b : Ref sig .tc) (hb : b ∉ wr17) :
    StableHlo.after hostOps17 U (Proc.devRef .tc b) = U (Proc.devRef .tc b) := by not_written hostOps17 from hb
theorem keep18 (U : Valuation τ sig (Elt F)) (b : Ref sig .tc) (hb : b ∉ wr18) :
    StableHlo.after hostOps18 U (Proc.devRef .tc b) = U (Proc.devRef .tc b) := by not_written hostOps18 from hb

def meanBy (X : FVec F S500000x64 .f32) (idx : IVec S500000 32) (n : FVec F S100000x1 .f32) : FVec F S100000x64 .f32 :=
  Host.divf (KSpec.segsum64 X idx) (broadcastInDim S100000x64 ![0, 1] bcast_S100000x1_S100000x64_0_1 n)

theorem meanBy_cnt (X : FVec F S500000x64 .f32) (idx : IVec S500000 32) :
    meanBy X idx (KSpec.cnt idx) = KSpec.segmean64 X idx := rfl

set_option maxHeartbeats 1000000

theorem h12_v178 (U : Valuation τ sig (Elt F)) :
    StableHlo.after hostOps12 U (Proc.devRef .tc main_v178) = KSpec.z64 (F := F) := by
  after_results <;> rfl
theorem h12_v179 (U : Valuation τ sig (Elt F)) :
    StableHlo.after hostOps12 U (Proc.devRef .tc main_v179) = KSpec.z64 (F := F) := by
  after_results <;> rfl
theorem h12_v180 (U : Valuation τ sig (Elt F)) :
    StableHlo.after hostOps12 U (Proc.devRef .tc main_v180) = KSpec.z64 (F := F) := by
  after_results <;> rfl
theorem h12_v188 (U : Valuation τ sig (Elt F)) :
    StableHlo.after hostOps12 U (Proc.devRef .tc main_v188)
      = meanBy (U (Proc.devRef .tc main_v147)) (U (Proc.devRef .tc main_arg3)) (U (Proc.devRef .tc main_v5)) := by
  after_results <;> rfl
theorem h12_v190 (U : Valuation τ sig (Elt F)) :
    StableHlo.after hostOps12 U (Proc.devRef .tc main_v190)
      = meanBy (U (Proc.devRef .tc main_v147)) (U (Proc.devRef .tc main_arg4)) (U (Proc.devRef .tc main_v20)) := by
  after_results <;> rfl
theorem h12_v192 (U : Valuation τ sig (Elt F)) :
    StableHlo.after hostOps12 U (Proc.devRef .tc main_v192)
      = KSpec.w64x64 (U (Proc.devRef .tc main_arg10)) ![0, 0, 0, 0] slices_S3x2x64x64_S1x1x64x64_0_0_0_0 := by
  after_results <;> rfl

theorem h13_v195 (U : Valuation τ sig (Elt F)) :
    StableHlo.after hostOps13 U (Proc.devRef .tc main_v195)
      = KSpec.w64x64 (U (Proc.devRef .tc main_arg10)) ![0, 1, 0, 0] slices_S3x2x64x64_S1x1x64x64_0_1_0_0 := by
  after_results <;> rfl

theorem h14_v197 (U : Valuation τ sig (Elt F)) :
    StableHlo.after hostOps14 U (Proc.devRef .tc main_v197)
      = addf (U (Proc.devRef .tc main_v178)) (U (Proc.devRef .tc main_v193)) := by
  after_results <;> rfl
theorem h14_v198 (U : Valuation τ sig (Elt F)) :
    StableHlo.after hostOps14 U (Proc.devRef .tc main_v198)
      = addf (U (Proc.devRef .tc main_v179)) (U (Proc.devRef .tc main_v196)) := by
  after_results <;> rfl
theorem h14_v206 (U : Valuation τ sig (Elt F)) :
    StableHlo.after hostOps14 U (Proc.devRef .tc main_v206)
      = meanBy (U (Proc.devRef .tc main_v162)) (U (Proc.devRef .tc main_arg5)) (U (Proc.devRef .tc main_v10)) := by
  after_results <;> rfl
theorem h14_v208 (U : Valuation τ sig (Elt F)) :
    StableHlo.after hostOps14 U (Proc.devRef .tc main_v208)
      = meanBy (U (Proc.devRef .tc main_v162)) (U (Proc.devRef .tc main_arg6)) (U (Proc.devRef .tc main_v25)) := by
  after_results <;> rfl
theorem h14_v210 (U : Valuation τ sig (Elt F)) :
    StableHlo.after hostOps14 U (Proc.devRef .tc main_v210)
      = KSpec.w64x64 (U (Proc.devRef .tc main_arg10)) ![1, 0, 0, 0] slices_S3x2x64x64_S1x1x64x64_1_0_0_0 := by
  after_results <;> rfl

theorem h15_v213 (U : Valuation τ sig (Elt F)) :
    StableHlo.after hostOps15 U (Proc.devRef .tc main_v213)
      = KSpec.w64x64 (U (Proc.devRef .tc main_arg10)) ![1, 1, 0, 0] slices_S3x2x64x64_S1x1x64x64_1_1_0_0 := by
  after_results <;> rfl

theorem h16_v215 (U : Valuation τ sig (Elt F)) :
    StableHlo.after hostOps16 U (Proc.devRef .tc main_v215)
      = addf (U (Proc.devRef .tc main_v198)) (U (Proc.devRef .tc main_v211)) := by
  after_results <;> rfl
theorem h16_v216 (U : Valuation τ sig (Elt F)) :
    StableHlo.after hostOps16 U (Proc.devRef .tc main_v216)
      = addf (U (Proc.devRef .tc main_v180)) (U (Proc.devRef .tc main_v214)) := by
  after_results <;> rfl
theorem h16_v224 (U : Valuation τ sig (Elt F)) :
    StableHlo.after hostOps16 U (Proc.devRef .tc main_v224)
      = meanBy (U (Proc.devRef .tc main_v177)) (U (Proc.devRef .tc main_arg7)) (U (Proc.devRef .tc main_v15)) := by
  after_results <;> rfl
theorem h16_v226 (U : Valuation τ sig (Elt F)) :
    StableHlo.after hostOps16 U (Proc.devRef .tc main_v226)
      = meanBy (U (Proc.devRef .tc main_v177)) (U (Proc.devRef .tc main_arg8)) (U (Proc.devRef .tc main_v30)) := by
  after_results <;> rfl
theorem h16_v228 (U : Valuation τ sig (Elt F)) :
    StableHlo.after hostOps16 U (Proc.devRef .tc main_v228)
      = KSpec.w64x64 (U (Proc.devRef .tc main_arg10)) ![2, 0, 0, 0] slices_S3x2x64x64_S1x1x64x64_2_0_0_0 := by
  after_results <;> rfl

theorem h17_v231 (U : Valuation τ sig (Elt F)) :
    StableHlo.after hostOps17 U (Proc.devRef .tc main_v231)
      = KSpec.w64x64 (U (Proc.devRef .tc main_arg10)) ![2, 1, 0, 0] slices_S3x2x64x64_S1x1x64x64_2_1_0_0 := by
  after_results <;> rfl

theorem h18_v233 (U : Valuation τ sig (Elt F)) :
    StableHlo.after hostOps18 U (Proc.devRef .tc main_v233)
      = addf (U (Proc.devRef .tc main_v197)) (U (Proc.devRef .tc main_v229)) := by
  after_results <;> rfl
theorem h18_v234 (U : Valuation τ sig (Elt F)) :
    StableHlo.after hostOps18 U (Proc.devRef .tc main_v234)
      = addf (U (Proc.devRef .tc main_v216)) (U (Proc.devRef .tc main_v232)) := by
  after_results <;> rfl

end Host

section Walk

variable (m : (ℓ : Loc nD τ sig) → Buf (Elt Ideal) ℓ) (ρ : Dev nD → PrngReg)

theorem k41 (c : Dev nD) (b : Ref sig .tc) (hb : b ∉ wr12 := by decide) :
    W41 m ρ c (Proc.devRef .tc b) = W40 m ρ c (Proc.devRef .tc b) := keep12 _ b hb
theorem k42 (c : Dev nD) (b : Ref sig .tc) (hb : ∀ w, Pipeline.arrRef spec12 w ≠ b := by decide) :
    W42 m ρ c (Proc.devRef .tc b) = W41 m ρ c (Proc.devRef .tc b) := W42_of_ne m ρ c b hb
theorem k43 (c : Dev nD) (b : Ref sig .tc) (hb : b ∉ wr13 := by decide) :
    W43 m ρ c (Proc.devRef .tc b) = W42 m ρ c (Proc.devRef .tc b) := keep13 _ b hb
theorem k44 (c : Dev nD) (b : Ref sig .tc) (hb : ∀ w, Pipeline.arrRef spec13 w ≠ b := by decide) :
    W44 m ρ c (Proc.devRef .tc b) = W43 m ρ c (Proc.devRef .tc b) := W44_of_ne m ρ c b hb
theorem k45 (c : Dev nD) (b : Ref sig .tc) (hb : b ∉ wr14 := by decide) :
    W45 m ρ c (Proc.devRef .tc b) = W44 m ρ c (Proc.devRef .tc b) := keep14 _ b hb
theorem k46 (c : Dev nD) (b : Ref sig .tc) (hb : ∀ w, Pipeline.arrRef spec14 w ≠ b := by decide) :
    W46 m ρ c (Proc.devRef .tc b) = W45 m ρ c (Proc.devRef .tc b) := W46_of_ne m ρ c b hb
theorem k47 (c : Dev nD) (b : Ref sig .tc) (hb : b ∉ wr15 := by decide) :
    W47 m ρ c (Proc.devRef .tc b) = W46 m ρ c (Proc.devRef .tc b) := keep15 _ b hb
theorem k48 (c : Dev nD) (b : Ref sig .tc) (hb : ∀ w, Pipeline.arrRef spec15 w ≠ b := by decide) :
    W48 m ρ c (Proc.devRef .tc b) = W47 m ρ c (Proc.devRef .tc b) := W48_of_ne m ρ c b hb
theorem k49 (c : Dev nD) (b : Ref sig .tc) (hb : b ∉ wr16 := by decide) :
    W49 m ρ c (Proc.devRef .tc b) = W48 m ρ c (Proc.devRef .tc b) := keep16 _ b hb
theorem k50 (c : Dev nD) (b : Ref sig .tc) (hb : ∀ w, Pipeline.arrRef spec16 w ≠ b := by decide) :
    W50 m ρ c (Proc.devRef .tc b) = W49 m ρ c (Proc.devRef .tc b) := W50_of_ne m ρ c b hb
theorem k51 (c : Dev nD) (b : Ref sig .tc) (hb : b ∉ wr17 := by decide) :
    W51 m ρ c (Proc.devRef .tc b) = W50 m ρ c (Proc.devRef .tc b) := keep17 _ b hb
theorem k52 (c : Dev nD) (b : Ref sig .tc) (hb : ∀ w, Pipeline.arrRef spec17 w ≠ b := by decide) :
    W52 m ρ c (Proc.devRef .tc b) = W51 m ρ c (Proc.devRef .tc b) := W52_of_ne m ρ c b hb
theorem k53 (c : Dev nD) (b : Ref sig .tc) (hb : b ∉ wr18 := by decide) :
    W53 m ρ c (Proc.devRef .tc b) = W52 m ρ c (Proc.devRef .tc b) := keep18 _ b hb

theorem back42 (c : Dev nD) (b : Ref sig .tc)
    (h1 : b ∉ wr12 := by decide) (h2 : ∀ w, Pipeline.arrRef spec12 w ≠ b := by decide) :
    W42 m ρ c (Proc.devRef .tc b) = W40 m ρ c (Proc.devRef .tc b) :=
  (k42 m ρ c b h2).trans (k41 m ρ c b h1)
theorem back44 (c : Dev nD) (b : Ref sig .tc)
    (h1 : b ∉ wr12 := by decide) (h2 : ∀ w, Pipeline.arrRef spec12 w ≠ b := by decide)
    (h3 : b ∉ wr13 := by decide) (h4 : ∀ w, Pipeline.arrRef spec13 w ≠ b := by decide) :
    W44 m ρ c (Proc.devRef .tc b) = W40 m ρ c (Proc.devRef .tc b) :=
  (k44 m ρ c b h4).trans ((k43 m ρ c b h3).trans (back42 m ρ c b h1 h2))
theorem back46 (c : Dev nD) (b : Ref sig .tc)
    (h1 : b ∉ wr12 := by decide) (h2 : ∀ w, Pipeline.arrRef spec12 w ≠ b := by decide)
    (h3 : b ∉ wr13 := by decide) (h4 : ∀ w, Pipeline.arrRef spec13 w ≠ b := by decide)
    (h5 : b ∉ wr14 := by decide) (h6 : ∀ w, Pipeline.arrRef spec14 w ≠ b := by decide) :
    W46 m ρ c (Proc.devRef .tc b) = W40 m ρ c (Proc.devRef .tc b) :=
  (k46 m ρ c b h6).trans ((k45 m ρ c b h5).trans (back44 m ρ c b h1 h2 h3 h4))
theorem back48 (c : Dev nD) (b : Ref sig .tc)
    (h1 : b ∉ wr12 := by decide) (h2 : ∀ w, Pipeline.arrRef spec12 w ≠ b := by decide)
    (h3 : b ∉ wr13 := by decide) (h4 : ∀ w, Pipeline.arrRef spec13 w ≠ b := by decide)
    (h5 : b ∉ wr14 := by decide) (h6 : ∀ w, Pipeline.arrRef spec14 w ≠ b := by decide)
    (h7 : b ∉ wr15 := by decide) (h8 : ∀ w, Pipeline.arrRef spec15 w ≠ b := by decide) :
    W48 m ρ c (Proc.devRef .tc b) = W40 m ρ c (Proc.devRef .tc b) :=
  (k48 m ρ c b h8).trans ((k47 m ρ c b h7).trans (back46 m ρ c b h1 h2 h3 h4 h5 h6))
theorem back50 (c : Dev nD) (b : Ref sig .tc)
    (h1 : b ∉ wr12 := by decide) (h2 : ∀ w, Pipeline.arrRef spec12 w ≠ b := by decide)
    (h3 : b ∉ wr13 := by decide) (h4 : ∀ w, Pipeline.arrRef spec13 w ≠ b := by decide)
    (h5 : b ∉ wr14 := by decide) (h6 : ∀ w, Pipeline.arrRef spec14 w ≠ b := by decide)
    (h7 : b ∉ wr15 := by decide) (h8 : ∀ w, Pipeline.arrRef spec15 w ≠ b := by decide)
    (h9 : b ∉ wr16 := by decide) (h10 : ∀ w, Pipeline.arrRef spec16 w ≠ b := by decide) :
    W50 m ρ c (Proc.devRef .tc b) = W40 m ρ c (Proc.devRef .tc b) :=
  (k50 m ρ c b h10).trans ((k49 m ρ c b h9).trans (back48 m ρ c b h1 h2 h3 h4 h5 h6 h7 h8))
theorem back53 (c : Dev nD) (b : Ref sig .tc)
    (h1 : b ∉ wr12 := by decide) (h2 : ∀ w, Pipeline.arrRef spec12 w ≠ b := by decide)
    (h3 : b ∉ wr13 := by decide) (h4 : ∀ w, Pipeline.arrRef spec13 w ≠ b := by decide)
    (h5 : b ∉ wr14 := by decide) (h6 : ∀ w, Pipeline.arrRef spec14 w ≠ b := by decide)
    (h7 : b ∉ wr15 := by decide) (h8 : ∀ w, Pipeline.arrRef spec15 w ≠ b := by decide)
    (h9 : b ∉ wr16 := by decide) (h10 : ∀ w, Pipeline.arrRef spec16 w ≠ b := by decide)
    (h11 : b ∉ wr17 := by decide) (h12 : ∀ w, Pipeline.arrRef spec17 w ≠ b := by decide)
    (h13 : b ∉ wr18 := by decide) :
    W53 m ρ c (Proc.devRef .tc b) = W40 m ρ c (Proc.devRef .tc b) :=
  (k53 m ρ c b h13).trans ((k52 m ρ c b h12).trans ((k51 m ρ c b h11).trans
    (back50 m ρ c b h1 h2 h3 h4 h5 h6 h7 h8 h9 h10)))

theorem r42 (c : Dev nD) : W42 m ρ c (Proc.devRef .tc main_v193)
    = KSpec.mm64 (W41 m ρ c (Proc.devRef .tc main_v188)) (W41 m ρ c (Proc.devRef .tc main_v192)) :=
  (W42_arr m ρ c 2).trans (Cert.Reg.reg12 (V41 m ρ) c)
theorem r44 (c : Dev nD) : W44 m ρ c (Proc.devRef .tc main_v196)
    = KSpec.mm64 (W43 m ρ c (Proc.devRef .tc main_v190)) (W43 m ρ c (Proc.devRef .tc main_v195)) :=
  (W44_arr m ρ c 2).trans (Cert.Reg.reg13 (V43 m ρ) c)
theorem r46 (c : Dev nD) : W46 m ρ c (Proc.devRef .tc main_v211)
    = KSpec.mm64 (W45 m ρ c (Proc.devRef .tc main_v206)) (W45 m ρ c (Proc.devRef .tc main_v210)) :=
  (W46_arr m ρ c 2).trans (Cert.Reg.reg14 (V45 m ρ) c)
theorem r48 (c : Dev nD) : W48 m ρ c (Proc.devRef .tc main_v214)
    = KSpec.mm64 (W47 m ρ c (Proc.devRef .tc main_v208)) (W47 m ρ c (Proc.devRef .tc main_v213)) :=
  (W48_arr m ρ c 2).trans (Cert.Reg.reg15 (V47 m ρ) c)
theorem r50 (c : Dev nD) : W50 m ρ c (Proc.devRef .tc main_v229)
    = KSpec.mm64 (W49 m ρ c (Proc.devRef .tc main_v224)) (W49 m ρ c (Proc.devRef .tc main_v228)) :=
  (W50_arr m ρ c 2).trans (Cert.Reg.reg16 (V49 m ρ) c)
theorem r52 (c : Dev nD) : W52 m ρ c (Proc.devRef .tc main_v232)
    = KSpec.mm64 (W51 m ρ c (Proc.devRef .tc main_v226)) (W51 m ρ c (Proc.devRef .tc main_v231)) :=
  (W52_arr m ρ c 2).trans (Cert.Reg.reg17 (V51 m ρ) c)

theorem acc1_of (c : Dev nD) (a : KSpec.Args Ideal) (ha : KArgs.argsV (W40 m ρ c) = a)
    (hd : W40 m ρ c (Proc.devRef .tc main_v147) = KSpec.kd1_0 a
        ∧ W40 m ρ c (Proc.devRef .tc main_v162) = KSpec.kd1_1 a
        ∧ W40 m ρ c (Proc.devRef .tc main_v177) = KSpec.kd1_2 a)
    (hc : W40 m ρ c (Proc.devRef .tc main_v5) = KSpec.cnt (F := Ideal) a.row0
        ∧ W40 m ρ c (Proc.devRef .tc main_v10) = KSpec.cnt (F := Ideal) a.row1
        ∧ W40 m ρ c (Proc.devRef .tc main_v15) = KSpec.cnt (F := Ideal) a.row2
        ∧ W40 m ρ c (Proc.devRef .tc main_v20) = KSpec.cnt (F := Ideal) a.col0
        ∧ W40 m ρ c (Proc.devRef .tc main_v25) = KSpec.cnt (F := Ideal) a.col1
        ∧ W40 m ρ c (Proc.devRef .tc main_v30) = KSpec.cnt (F := Ideal) a.col2) :
    W53 m ρ c (Proc.devRef .tc main_v233) = KSpec.kacc1_0 a
      ∧ W53 m ρ c (Proc.devRef .tc main_v215) = KSpec.kacc1_1 a
      ∧ W53 m ρ c (Proc.devRef .tc main_v234) = KSpec.kacc1_2 a := by
  obtain ⟨hd0, hd1, hd2⟩ := hd
  obtain ⟨hc5, hc10, hc15, hc20, hc25, hc30⟩ := hc
  have a3 : W40 m ρ c (Proc.devRef .tc main_arg3) = a.row0 := congrArg KSpec.Args.row0 ha
  have a4 : W40 m ρ c (Proc.devRef .tc main_arg4) = a.col0 := congrArg KSpec.Args.col0 ha
  have a5 : W40 m ρ c (Proc.devRef .tc main_arg5) = a.row1 := congrArg KSpec.Args.row1 ha
  have a6 : W40 m ρ c (Proc.devRef .tc main_arg6) = a.col1 := congrArg KSpec.Args.col1 ha
  have a7 : W40 m ρ c (Proc.devRef .tc main_arg7) = a.row2 := congrArg KSpec.Args.row2 ha
  have a8 : W40 m ρ c (Proc.devRef .tc main_arg8) = a.col2 := congrArg KSpec.Args.col2 ha
  have a10 : W40 m ρ c (Proc.devRef .tc main_arg10) = a.pw1 := congrArg KSpec.Args.pw1 ha
  have e178 : W41 m ρ c (Proc.devRef .tc main_v178) = KSpec.z64 (F := Ideal) := h12_v178 _
  have e179 : W41 m ρ c (Proc.devRef .tc main_v179) = KSpec.z64 (F := Ideal) := h12_v179 _
  have e180 : W41 m ρ c (Proc.devRef .tc main_v180) = KSpec.z64 (F := Ideal) := h12_v180 _
  have e188 : W41 m ρ c (Proc.devRef .tc main_v188) = KSpec.segmean64 (KSpec.kd1_0 a) a.row0 :=
    (h12_v188 (W40 m ρ c)).trans (by rw [hd0, a3, hc5, meanBy_cnt])
  have e190 : W41 m ρ c (Proc.devRef .tc main_v190) = KSpec.segmean64 (KSpec.kd1_0 a) a.col0 :=
    (h12_v190 (W40 m ρ c)).trans (by rw [hd0, a4, hc20, meanBy_cnt])
  have e192 : W41 m ρ c (Proc.devRef .tc main_v192) = KSpec.pw1_00 a :=
    (h12_v192 (W40 m ρ c)).trans (by rw [a10, KSpec.pw1_00])
  have e193 : W42 m ρ c (Proc.devRef .tc main_v193)
      = KSpec.mm64 (KSpec.segmean64 (KSpec.kd1_0 a) a.row0) (KSpec.pw1_00 a) :=
    (r42 m ρ c).trans (by rw [e188, e192])
  have e195 : W43 m ρ c (Proc.devRef .tc main_v195) = KSpec.pw1_01 a :=
    (h13_v195 (W42 m ρ c)).trans (by rw [back42 m ρ c main_arg10, a10, KSpec.pw1_01])
  have c190 : W43 m ρ c (Proc.devRef .tc main_v190) = KSpec.segmean64 (KSpec.kd1_0 a) a.col0 :=
    (k43 m ρ c main_v190).trans ((k42 m ρ c main_v190).trans e190)
  have e196 : W44 m ρ c (Proc.devRef .tc main_v196)
      = KSpec.mm64 (KSpec.segmean64 (KSpec.kd1_0 a) a.col0) (KSpec.pw1_01 a) :=
    (r44 m ρ c).trans (by rw [c190, e195])
  have c193 : W44 m ρ c (Proc.devRef .tc main_v193)
      = KSpec.mm64 (KSpec.segmean64 (KSpec.kd1_0 a) a.row0) (KSpec.pw1_00 a) :=
    (k44 m ρ c main_v193).trans ((k43 m ρ c main_v193).trans e193)
  have c178 : W44 m ρ c (Proc.devRef .tc main_v178) = KSpec.z64 (F := Ideal) :=
    (k44 m ρ c main_v178).trans ((k43 m ρ c main_v178).trans ((k42 m ρ c main_v178).trans e178))
  have c179 : W44 m ρ c (Proc.devRef .tc main_v179) = KSpec.z64 (F := Ideal) :=
    (k44 m ρ c main_v179).trans ((k43 m ρ c main_v179).trans ((k42 m ρ c main_v179).trans e179))
  have e197 : W45 m ρ c (Proc.devRef .tc main_v197)
      = addf (KSpec.z64 (F := Ideal)) (KSpec.mm64 (KSpec.segmean64 (KSpec.kd1_0 a) a.row0) (KSpec.pw1_00 a)) :=
    (h14_v197 (W44 m ρ c)).trans (by rw [c178, c193])
  have e198 : W45 m ρ c (Proc.devRef .tc main_v198)
      = addf (KSpec.z64 (F := Ideal)) (KSpec.mm64 (KSpec.segmean64 (KSpec.kd1_0 a) a.col0) (KSpec.pw1_01 a)) :=
    (h14_v198 (W44 m ρ c)).trans (by rw [c179, e196])
  have e206 : W45 m ρ c (Proc.devRef .tc main_v206) = KSpec.segmean64 (KSpec.kd1_1 a) a.row1 :=
    (h14_v206 (W44 m ρ c)).trans (by
      rw [back44 m ρ c main_v162, hd1, back44 m ρ c main_arg5, a5, back44 m ρ c main_v10, hc10, meanBy_cnt])
  have e208 : W45 m ρ c (Proc.devRef .tc main_v208) = KSpec.segmean64 (KSpec.kd1_1 a) a.col1 :=
    (h14_v208 (W44 m ρ c)).trans (by
      rw [back44 m ρ c main_v162, hd1, back44 m ρ c main_arg6, a6, back44 m ρ c main_v25, hc25, meanBy_cnt])
  have e210 : W45 m ρ c (Proc.devRef .tc main_v210) = KSpec.pw1_10 a :=
    (h14_v210 (W44 m ρ c)).trans (by rw [back44 m ρ c main_arg10, a10, KSpec.pw1_10])
  have e211 : W46 m ρ c (Proc.devRef .tc main_v211)
      = KSpec.mm64 (KSpec.segmean64 (KSpec.kd1_1 a) a.row1) (KSpec.pw1_10 a) :=
    (r46 m ρ c).trans (by rw [e206, e210])
  have e213 : W47 m ρ c (Proc.devRef .tc main_v213) = KSpec.pw1_11 a :=
    (h15_v213 (W46 m ρ c)).trans (by rw [back46 m ρ c main_arg10, a10, KSpec.pw1_11])
  have c208 : W47 m ρ c (Proc.devRef .tc main_v208) = KSpec.segmean64 (KSpec.kd1_1 a) a.col1 :=
    (k47 m ρ c main_v208).trans ((k46 m ρ c main_v208).trans e208)
  have e214 : W48 m ρ c (Proc.devRef .tc main_v214)
      = KSpec.mm64 (KSpec.segmean64 (KSpec.kd1_1 a) a.col1) (KSpec.pw1_11 a) :=
    (r48 m ρ c).trans (by rw [c208, e213])
  have c211 : W48 m ρ c (Proc.devRef .tc main_v211)
      = KSpec.mm64 (KSpec.segmean64 (KSpec.kd1_1 a) a.row1) (KSpec.pw1_10 a) :=
    (k48 m ρ c main_v211).trans ((k47 m ρ c main_v211).trans e211)
  have c198 : W48 m ρ c (Proc.devRef .tc main_v198)
      = addf (KSpec.z64 (F := Ideal)) (KSpec.mm64 (KSpec.segmean64 (KSpec.kd1_0 a) a.col0) (KSpec.pw1_01 a)) :=
    (k48 m ρ c main_v198).trans ((k47 m ρ c main_v198).trans ((k46 m ρ c main_v198).trans e198))
  have c180 : W48 m ρ c (Proc.devRef .tc main_v180) = KSpec.z64 (F := Ideal) :=
    (k48 m ρ c main_v180).trans ((k47 m ρ c main_v180).trans ((k46 m ρ c main_v180).trans
      ((k45 m ρ c main_v180).trans ((k44 m ρ c main_v180).trans ((k43 m ρ c main_v180).trans
        ((k42 m ρ c main_v180).trans e180))))))
  have e215 : W49 m ρ c (Proc.devRef .tc main_v215) = KSpec.kacc1_1 a :=
    (h16_v215 (W48 m ρ c)).trans (by rw [c198, c211, KSpec.kacc1_1])
  have e216 : W49 m ρ c (Proc.devRef .tc main_v216)
      = addf (KSpec.z64 (F := Ideal)) (KSpec.mm64 (KSpec.segmean64 (KSpec.kd1_1 a) a.col1) (KSpec.pw1_11 a)) :=
    (h16_v216 (W48 m ρ c)).trans (by rw [c180, e214])
  have e224 : W49 m ρ c (Proc.devRef .tc main_v224) = KSpec.segmean64 (KSpec.kd1_2 a) a.row2 :=
    (h16_v224 (W48 m ρ c)).trans (by
      rw [back48 m ρ c main_v177, hd2, back48 m ρ c main_arg7, a7, back48 m ρ c main_v15, hc15, meanBy_cnt])
  have e226 : W49 m ρ c (Proc.devRef .tc main_v226) = KSpec.segmean64 (KSpec.kd1_2 a) a.col2 :=
    (h16_v226 (W48 m ρ c)).trans (by
      rw [back48 m ρ c main_v177, hd2, back48 m ρ c main_arg8, a8, back48 m ρ c main_v30, hc30, meanBy_cnt])
  have e228 : W49 m ρ c (Proc.devRef .tc main_v228) = KSpec.pw1_20 a :=
    (h16_v228 (W48 m ρ c)).trans (by rw [back48 m ρ c main_arg10, a10, KSpec.pw1_20])
  have e229 : W50 m ρ c (Proc.devRef .tc main_v229)
      = KSpec.mm64 (KSpec.segmean64 (KSpec.kd1_2 a) a.row2) (KSpec.pw1_20 a) :=
    (r50 m ρ c).trans (by rw [e224, e228])
  have e231 : W51 m ρ c (Proc.devRef .tc main_v231) = KSpec.pw1_21 a :=
    (h17_v231 (W50 m ρ c)).trans (by rw [back50 m ρ c main_arg10, a10, KSpec.pw1_21])
  have c226 : W51 m ρ c (Proc.devRef .tc main_v226) = KSpec.segmean64 (KSpec.kd1_2 a) a.col2 :=
    (k51 m ρ c main_v226).trans ((k50 m ρ c main_v226).trans e226)
  have e232 : W52 m ρ c (Proc.devRef .tc main_v232)
      = KSpec.mm64 (KSpec.segmean64 (KSpec.kd1_2 a) a.col2) (KSpec.pw1_21 a) :=
    (r52 m ρ c).trans (by rw [c226, e231])
  have c229 : W52 m ρ c (Proc.devRef .tc main_v229)
      = KSpec.mm64 (KSpec.segmean64 (KSpec.kd1_2 a) a.row2) (KSpec.pw1_20 a) :=
    (k52 m ρ c main_v229).trans ((k51 m ρ c main_v229).trans e229)
  have c197 : W52 m ρ c (Proc.devRef .tc main_v197)
      = addf (KSpec.z64 (F := Ideal)) (KSpec.mm64 (KSpec.segmean64 (KSpec.kd1_0 a) a.row0) (KSpec.pw1_00 a)) :=
    (k52 m ρ c main_v197).trans ((k51 m ρ c main_v197).trans ((k50 m ρ c main_v197).trans
      ((k49 m ρ c main_v197).trans ((k48 m ρ c main_v197).trans ((k47 m ρ c main_v197).trans
        ((k46 m ρ c main_v197).trans e197))))))
  have c216 : W52 m ρ c (Proc.devRef .tc main_v216)
      = addf (KSpec.z64 (F := Ideal)) (KSpec.mm64 (KSpec.segmean64 (KSpec.kd1_1 a) a.col1) (KSpec.pw1_11 a)) :=
    (k52 m ρ c main_v216).trans ((k51 m ρ c main_v216).trans ((k50 m ρ c main_v216).trans e216))
  have e233 : W53 m ρ c (Proc.devRef .tc main_v233) = KSpec.kacc1_0 a :=
    (h18_v233 (W52 m ρ c)).trans (by rw [c197, c229, KSpec.kacc1_0])
  have e234 : W53 m ρ c (Proc.devRef .tc main_v234) = KSpec.kacc1_2 a :=
    (h18_v234 (W52 m ρ c)).trans (by rw [c216, e232, KSpec.kacc1_2])
  have f215 : W53 m ρ c (Proc.devRef .tc main_v215) = KSpec.kacc1_1 a :=
    (k53 m ρ c main_v215).trans ((k52 m ρ c main_v215).trans ((k51 m ρ c main_v215).trans
      ((k50 m ρ c main_v215).trans e215)))
  exact ⟨e233, f215, e234⟩

theorem K3_acc1 (c : Dev nD) (ha : KArgs.argsV (W40 m ρ c) = KArgs.args m c)
    (hd : W40 m ρ c (Proc.devRef .tc main_v147) = KSpec.kd1_0 (KArgs.args m c)
        ∧ W40 m ρ c (Proc.devRef .tc main_v162) = KSpec.kd1_1 (KArgs.args m c)
        ∧ W40 m ρ c (Proc.devRef .tc main_v177) = KSpec.kd1_2 (KArgs.args m c))
    (hc : W40 m ρ c (Proc.devRef .tc main_v5) = KSpec.cnt (F := Ideal) (KArgs.args m c).row0
        ∧ W40 m ρ c (Proc.devRef .tc main_v10) = KSpec.cnt (F := Ideal) (KArgs.args m c).row1
        ∧ W40 m ρ c (Proc.devRef .tc main_v15) = KSpec.cnt (F := Ideal) (KArgs.args m c).row2
        ∧ W40 m ρ c (Proc.devRef .tc main_v20) = KSpec.cnt (F := Ideal) (KArgs.args m c).col0
        ∧ W40 m ρ c (Proc.devRef .tc main_v25) = KSpec.cnt (F := Ideal) (KArgs.args m c).col1
        ∧ W40 m ρ c (Proc.devRef .tc main_v30) = KSpec.cnt (F := Ideal) (KArgs.args m c).col2) :
    W53 m ρ c (Proc.devRef .tc main_v233) = KSpec.kacc1_0 (KArgs.args m c)
      ∧ W53 m ρ c (Proc.devRef .tc main_v215) = KSpec.kacc1_1 (KArgs.args m c)
      ∧ W53 m ρ c (Proc.devRef .tc main_v234) = KSpec.kacc1_2 (KArgs.args m c) :=
  acc1_of m ρ c (KArgs.args m c) ha hd hc

theorem K3_args (c : Dev nD) : KArgs.argsV (W53 m ρ c) = KArgs.argsV (W40 m ρ c) := by
  unfold KArgs.argsV
  rw [back53 m ρ c main_arg0, back53 m ρ c main_arg1, back53 m ρ c main_arg2, back53 m ρ c main_arg3,
    back53 m ρ c main_arg4, back53 m ρ c main_arg5, back53 m ρ c main_arg6, back53 m ρ c main_arg7,
    back53 m ρ c main_arg8, back53 m ρ c main_arg9, back53 m ρ c main_arg10, back53 m ρ c main_arg11,
    back53 m ρ c main_arg12, back53 m ρ c main_arg13]

theorem K3_cnt (c : Dev nD) :
    W53 m ρ c (Proc.devRef .tc main_v5) = W40 m ρ c (Proc.devRef .tc main_v5)
      ∧ W53 m ρ c (Proc.devRef .tc main_v10) = W40 m ρ c (Proc.devRef .tc main_v10)
      ∧ W53 m ρ c (Proc.devRef .tc main_v15) = W40 m ρ c (Proc.devRef .tc main_v15)
      ∧ W53 m ρ c (Proc.devRef .tc main_v20) = W40 m ρ c (Proc.devRef .tc main_v20)
      ∧ W53 m ρ c (Proc.devRef .tc main_v25) = W40 m ρ c (Proc.devRef .tc main_v25)
      ∧ W53 m ρ c (Proc.devRef .tc main_v30) = W40 m ρ c (Proc.devRef .tc main_v30) :=
  ⟨back53 m ρ c main_v5, back53 m ρ c main_v10, back53 m ρ c main_v15, back53 m ρ c main_v20,
    back53 m ρ c main_v25, back53 m ρ c main_v30⟩

theorem K3_cnt_kept (c : Dev nD) :
    W53 m ρ c (Proc.devRef .tc main_v5) = W40 m ρ c (Proc.devRef .tc main_v5)
      ∧ W53 m ρ c (Proc.devRef .tc main_v15) = W40 m ρ c (Proc.devRef .tc main_v15) :=
  ⟨back53 m ρ c main_v5, back53 m ρ c main_v15⟩

end Walk

end Cert.KRead

end
-- ==== Proof.RegBN64.lean ====
import proofs.«100184_j50010599195033_2_alg».proof.Proof.RegBNCore

noncomputable section

namespace Cert.Reg

open Idealize.ShloMosaic Idealize.ShloMosaic.TcCoe Idealize.SL.Sem Idealize.ShloMosaic.Pipeline Idealize.ShloMosaic.ValueIdx
open Cert.KernelIdeal Cert.KernelIdeal.Gen

theorem idx19 : ∀ t : Fin cfg19.N, At (win19_0.index t) t.val ∧ At (win19_1.index t) 0 ∧ At (win19_2.index t) 0
    ∧ At (win19_3.index t) 0 ∧ At (win19_4.index t) t.val :=
  (by decide +kernel : ∀ t : Fin grid19.N, _)

theorem reg19 (V : VT) (c : Dev nD) :
    (dat19 (F := Ideal) V c).arrAt 4 cfg19.N
      = KSpec.bnmm64 (V c (arrRef spec19 0)) (V c (arrRef spec19 1)) (V c (arrRef spec19 2)) (V c (arrRef spec19 3)) :=
  (dat19 (F := Ideal) V c).arrAt_eq_of_cover 4 _
    (fun t _ => by
      show (cfg19.win 4).cut (grid19.coords t) ((dat19 (F := Ideal) V c).after 4 t) = _
      rw [after19_4]
      show (cfg19.win 4).cut (grid19.coords t) (out19_4 (F := Ideal) (iblk19 V c 0 t) (iblk19 V c 1 t) (iblk19 V c 2 t) (iblk19 V c 3 t)) = _
      rw [outbn64]
      exact funext fun j => bn_blk pay64_apply bnmm64_apply _ _ _ _ (win19_0.rect_emb_val t) (win19_1.rect_emb_val t) (win19_2.rect_emb_val t) (win19_3.rect_emb_val t) (win19_4.rect_emb_val t)
        (fun _ => rfl) (fun _ => rfl) (fun _ => rfl) (fun _ => rfl) (idx19 t) j)
    fun (i : S100000x64.Idx) => by
      have ht : (i 0).val / 10000 < cfg19.N := by have := idx2_lt0 i; rw [show cfg19.N = 10 from N_19]; omega
      refine ⟨⟨_, ht⟩, flush19_4 _, ?_⟩
      show i ∈ ((View.whole main_v268).slice (win19_4.rect ⟨(i 0).val / 10000, ht⟩)).set
      rw [View.set_slice_whole, Rect.mem_set_unit]
      exact row_cover (by decide) i (idx19 ⟨_, ht⟩).2.2.2.2

theorem idx20 : ∀ t : Fin cfg20.N, At (win20_0.index t) t.val ∧ At (win20_1.index t) 0 ∧ At (win20_2.index t) 0
    ∧ At (win20_3.index t) 0 ∧ At (win20_4.index t) t.val :=
  (by decide +kernel : ∀ t : Fin grid20.N, _)

theorem reg20 (V : VT) (c : Dev nD) :
    (dat20 (F := Ideal) V c).arrAt 4 cfg20.N
      = KSpec.bnmm64 (V c (arrRef spec20 0)) (V c (arrRef spec20 1)) (V c (arrRef spec20 2)) (V c (arrRef spec20 3)) :=
  (dat20 (F := Ideal) V c).arrAt_eq_of_cover 4 _
    (fun t _ => by
      show (cfg20.win 4).cut (grid20.coords t) ((dat20 (F := Ideal) V c).after 4 t) = _
      rw [after20_4]
      show (cfg20.win 4).cut (grid20.coords t) (out19_4 (F := Ideal) (iblk20 V c 0 t) (iblk20 V c 1 t) (iblk20 V c 2 t) (iblk20 V c 3 t)) = _
      rw [outbn64]
      exact funext fun j => bn_blk pay64_apply bnmm64_apply _ _ _ _ (win20_0.rect_emb_val t) (win20_1.rect_emb_val t) (win20_2.rect_emb_val t) (win20_3.rect_emb_val t) (win20_4.rect_emb_val t)
        (fun _ => rfl) (fun _ => rfl) (fun _ => rfl) (fun _ => rfl) (idx20 t) j)
    fun (i : S100000x64.Idx) => by
      have ht : (i 0).val / 10000 < cfg20.N := by have := idx2_lt0 i; rw [show cfg20.N = 10 from N_20]; omega
      refine ⟨⟨_, ht⟩, flush20_4 _, ?_⟩
      show i ∈ ((View.whole main_v269).slice (win20_4.rect ⟨(i 0).val / 10000, ht⟩)).set
      rw [View.set_slice_whole, Rect.mem_set_unit]
      exact row_cover (by decide) i (idx20 ⟨_, ht⟩).2.2.2.2

end Cert.Reg

end
-- ==== Proof.RegFU.lean ====
import proofs.«100184_j50010599195033_2_alg».proof.Proof.RegEdge

noncomputable section

namespace Cert.Reg

open Idealize.ShloMosaic Idealize.ShloMosaic.TcCoe Idealize.SL.Sem Idealize.ShloMosaic.Pipeline Idealize.ShloMosaic.ValueIdx
open Cert.KernelIdeal Cert.KernelIdeal.Gen

theorem idx21 : ∀ t : Fin cfg21.N, At (win21_0.index t) t.val ∧ At (win21_1.index t) t.val ∧ At (win21_2.index t) 0
    ∧ At (win21_3.index t) t.val :=
  (by decide +kernel : ∀ t : Fin grid21.N, _)

theorem reg21 (V : VT) (c : Dev nD) :
    (dat21 (F := Ideal) V c).arrAt 3 cfg21.N
      = KSpec.fused (V c (arrRef spec21 0)) (V c (arrRef spec21 1)) (V c (arrRef spec21 2)) :=
  (dat21 (F := Ideal) V c).arrAt_eq_of_cover 3 _
    (fun t _ => by
      show (cfg21.win 3).cut (grid21.coords t) ((dat21 (F := Ideal) V c).after 3 t) = _
      rw [after21_3]
      show (cfg21.win 3).cut (grid21.coords t) (out21_3 (F := Ideal) (iblk21 V c 0 t) (iblk21 V c 1 t) (iblk21 V c 2 t)) = _
      rw [out_fu]
      exact funext fun j => fu_blk _ _ _ (win21_0.rect_emb_val t) (win21_1.rect_emb_val t) (win21_2.rect_emb_val t) (win21_3.rect_emb_val t)
        (fun _ => rfl) (fun _ => rfl) (fun _ => rfl) (idx21 t) j)
    fun (i : S500000x16.Idx) => by
      have ht : (i 0).val / 5000 < cfg21.N := by have := idx2_lt0 i; rw [show cfg21.N = 100 from N_21]; omega
      refine ⟨⟨_, ht⟩, flush21_3 _, ?_⟩
      show i ∈ ((View.whole main_v287).slice (win21_3.rect ⟨(i 0).val / 5000, ht⟩)).set
      rw [View.set_slice_whole, Rect.mem_set_unit]
      exact row_cover (by decide) i (idx21 ⟨_, ht⟩).2.2.2

theorem idx22 : ∀ t : Fin cfg22.N, At (win22_0.index t) t.val ∧ At (win22_1.index t) t.val ∧ At (win22_2.index t) 0
    ∧ At (win22_3.index t) t.val :=
  (by decide +kernel : ∀ t : Fin grid22.N, _)

theorem reg22 (V : VT) (c : Dev nD) :
    (dat22 (F := Ideal) V c).arrAt 3 cfg22.N
      = KSpec.fused (V c (arrRef spec22 0)) (V c (arrRef spec22 1)) (V c (arrRef spec22 2)) :=
  (dat22 (F := Ideal) V c).arrAt_eq_of_cover 3 _
    (fun t _ => by
      show (cfg22.win 3).cut (grid22.coords t) ((dat22 (F := Ideal) V c).after 3 t) = _
      rw [after22_3]
      show (cfg22.win 3).cut (grid22.coords t) (out21_3 (F := Ideal) (iblk22 V c 0 t) (iblk22 V c 1 t) (iblk22 V c 2 t)) = _
      rw [out_fu]
      exact funext fun j => fu_blk _ _ _ (win22_0.rect_emb_val t) (win22_1.rect_emb_val t) (win22_2.rect_emb_val t) (win22_3.rect_emb_val t)
        (fun _ => rfl) (fun _ => rfl) (fun _ => rfl) (idx22 t) j)
    fun (i : S500000x16.Idx) => by
      have ht : (i 0).val / 5000 < cfg22.N := by have := idx2_lt0 i; rw [show cfg22.N = 100 from N_22]; omega
      refine ⟨⟨_, ht⟩, flush22_3 _, ?_⟩
      show i ∈ ((View.whole main_v310).slice (win22_3.rect ⟨(i 0).val / 5000, ht⟩)).set
      rw [View.set_slice_whole, Rect.mem_set_unit]
      exact row_cover (by decide) i (idx22 ⟨_, ht⟩).2.2.2

end Cert.Reg

end
-- ==== Proof.KRead4.lean ====
import proofs.«100184_j50010599195033_2_alg».proof.Proof.Gen.KernelIdeal.Frame
import proofs.«100184_j50010599195033_2_alg».proof.Proof.KSpec
import proofs.«100184_j50010599195033_2_alg».proof.Proof.KArgs
import proofs.«100184_j50010599195033_2_alg».proof.Proof.RegBN128
import proofs.«100184_j50010599195033_2_alg».proof.Proof.RegBN64
import proofs.«100184_j50010599195033_2_alg».proof.Proof.RegFU

set_option maxRecDepth 16384

noncomputable section

namespace Cert.KRead

open Idealize.ShloMosaic Idealize.ShloMosaic.TcCoe Idealize.SL.Sem Cert.KernelIdeal Cert.KernelIdeal.Gen Cert.KernelIdeal.Facts₀

def k4_wr18 : List (Ref sig .tc) := [
    main_call9_cst, main_call9_v0, main_v235, main_cst_50, main_v236, main_v237, main_cst_51, main_v238,
    main_v239, main_call10_cst, main_call10_v0, main_v240, main_cst_52, main_v241, main_v242, main_cst_53,
    main_v243, main_v244, main_call11_cst, main_call11_v0, main_v245, main_cst_54, main_v246, main_v247,
    main_cst_55, main_v248, main_v249, main_call12_cst, main_call12_v0, main_v250, main_c_56, main_call13_cst,
    main_call13_v0, main_call13_v1, main_call13_cst_0, main_call13_v2, main_call13_v3, main_call13_v4, main_call13_v5, main_call13_v6,
    main_call13_v7, main_call13_cst_1, main_call13_v8, main_call13_cst_2, main_call13_v9, main_call13_v10, main_call13_v11, main_call13_v12,
    main_call13_cst_3, main_call13_v13, main_call13_cst_4, main_call13_call0_v0, main_call13_call0_v1, main_v251, main_call14_cst, main_call14_v0,
    main_v252, main_c_57, main_call15_cst, main_call15_v0, main_call15_v1, main_call15_cst_0, main_call15_v2, main_call15_v3,
    main_call15_v4, main_call15_v5, main_call15_v6, main_call15_v7, main_call15_cst_1, main_call15_v8, main_call15_cst_2, main_call15_v9,
    main_call15_v10, main_call15_v11, main_call15_v12, main_call15_cst_3, main_call15_v13, main_call15_cst_4, main_call15_call0_v0, main_call15_call0_v1,
    main_v253, main_call16_cst, main_call16_v0, main_v254, main_c_58, main_call17_cst, main_call17_v0, main_call17_v1,
    main_call17_cst_0, main_call17_v2, main_call17_v3, main_call17_v4, main_call17_v5, main_call17_v6, main_call17_v7, main_call17_cst_1,
    main_call17_v8, main_call17_cst_2, main_call17_v9, main_call17_v10, main_call17_v11, main_call17_v12, main_call17_cst_3, main_call17_v13,
    main_call17_cst_4, main_call17_call0_v0, main_call17_call0_v1, main_v255, main_v256, main_v257, main_v258, main_v259,
    main_v260, main_v261, main_v262, main_v263, main_v264 ]
def k4_wr19 : List (Ref sig .tc) := [
    main_v266, main_v267 ]
def k4_wr21 : List (Ref sig .tc) := [
    main_cst_59, main_v270, main_c_60, main_v271, main_v272, main_c_61, main_v273, main_v274,
    main_v275, main_v276, main_v277, main_c_62, main_v278, main_v279, main_c_63, main_v280,
    main_v281, main_v282, main_v283, main_v284, main_v285, main_v286 ]
def k4_wr22 : List (Ref sig .tc) := [
    main_cst_64, main_v288, main_v289, main_v290, main_v291, main_v292, main_v293, main_c_65,
    main_v294, main_v295, main_c_66, main_v296, main_v297, main_v298, main_v299, main_v300,
    main_c_67, main_v301, main_v302, main_c_68, main_v303, main_v304, main_v305, main_v306,
    main_v307, main_v308, main_v309 ]
def k4_wr23 : List (Ref sig .tc) := [
    main_cst_69, main_v311, main_v312, main_v313, main_v314, main_v315, main_v316 ]

section Generic

variable {F : FTy → Type} [FloatOps F]

local macro "k4_wsub " h:ident : tactic => `(tactic| (
  simp only [$h:ident, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map.mpr ⟨_, by decide, rfl⟩)))

abbrev k4_H18 (U : Valuation τ sig (Elt F)) : Valuation τ sig (Elt F) :=
  StableHlo.after hostOps18_16 (StableHlo.after hostOps18_15 (StableHlo.after hostOps18_14 (StableHlo.after hostOps18_13 (StableHlo.after hostOps18_12 (StableHlo.after hostOps18_11 (StableHlo.after hostOps18_10 (StableHlo.after hostOps18_9 (StableHlo.after hostOps18_8 (StableHlo.after hostOps18_7 (StableHlo.after hostOps18_6 (StableHlo.after hostOps18_5 (StableHlo.after hostOps18_4 (StableHlo.after hostOps18_3 (StableHlo.after hostOps18_2 (StableHlo.after hostOps18_1 U)))))))))))))))

theorem k4_keep18 (U : Valuation τ sig (Elt F)) (b : Ref sig .tc) (hb : b ∉ k4_wr18) :
    k4_H18 U (Proc.devRef .tc b) = U (Proc.devRef .tc b) := by
  dsimp only [k4_H18]
  rw [StableHlo.after_of_writes_sub (hostOps18_16 (F := F)) _ (by k4_wsub hostOps18_16) hb,
    StableHlo.after_of_writes_sub (hostOps18_15 (F := F)) _ (by k4_wsub hostOps18_15) hb,
    StableHlo.after_of_writes_sub (hostOps18_14 (F := F)) _ (by k4_wsub hostOps18_14) hb,
    StableHlo.after_of_writes_sub (hostOps18_13 (F := F)) _ (by k4_wsub hostOps18_13) hb,
    StableHlo.after_of_writes_sub (hostOps18_12 (F := F)) _ (by k4_wsub hostOps18_12) hb,
    StableHlo.after_of_writes_sub (hostOps18_11 (F := F)) _ (by k4_wsub hostOps18_11) hb,
    StableHlo.after_of_writes_sub (hostOps18_10 (F := F)) _ (by k4_wsub hostOps18_10) hb,
    StableHlo.after_of_writes_sub (hostOps18_9 (F := F)) _ (by k4_wsub hostOps18_9) hb,
    StableHlo.after_of_writes_sub (hostOps18_8 (F := F)) _ (by k4_wsub hostOps18_8) hb,
    StableHlo.after_of_writes_sub (hostOps18_7 (F := F)) _ (by k4_wsub hostOps18_7) hb,
    StableHlo.after_of_writes_sub (hostOps18_6 (F := F)) _ (by k4_wsub hostOps18_6) hb,
    StableHlo.after_of_writes_sub (hostOps18_5 (F := F)) _ (by k4_wsub hostOps18_5) hb,
    StableHlo.after_of_writes_sub (hostOps18_4 (F := F)) _ (by k4_wsub hostOps18_4) hb,
    StableHlo.after_of_writes_sub (hostOps18_3 (F := F)) _ (by k4_wsub hostOps18_3) hb,
    StableHlo.after_of_writes_sub (hostOps18_2 (F := F)) _ (by k4_wsub hostOps18_2) hb,
    StableHlo.after_of_writes_sub (hostOps18_1 (F := F)) _ (by k4_wsub hostOps18_1) hb]

theorem k4_keep19 (U : Valuation τ sig (Elt F)) (b : Ref sig .tc) (hb : b ∉ k4_wr19) :
    StableHlo.after hostOps19 U (Proc.devRef .tc b) = U (Proc.devRef .tc b) :=
  StableHlo.after_of_writes_sub (hostOps19 (F := F)) U (by k4_wsub hostOps19) hb

theorem k4_keep21 (U : Valuation τ sig (Elt F)) (b : Ref sig .tc) (hb : b ∉ k4_wr21) :
    StableHlo.after hostOps21 U (Proc.devRef .tc b) = U (Proc.devRef .tc b) :=
  StableHlo.after_of_writes_sub (hostOps21 (F := F)) U (by k4_wsub hostOps21) hb

theorem k4_keep22 (U : Valuation τ sig (Elt F)) (b : Ref sig .tc) (hb : b ∉ k4_wr22) :
    StableHlo.after hostOps22 U (Proc.devRef .tc b) = U (Proc.devRef .tc b) :=
  StableHlo.after_of_writes_sub (hostOps22 (F := F)) U (by k4_wsub hostOps22) hb

theorem k4_keep23 (U : Valuation τ sig (Elt F)) (b : Ref sig .tc) (hb : b ∉ k4_wr23) :
    StableHlo.after hostOps23 U (Proc.devRef .tc b) = U (Proc.devRef .tc b) :=
  StableHlo.after_of_writes_sub (hostOps23 (F := F)) U (by k4_wsub hostOps23) hb

theorem k4_mean0 (U : Valuation τ sig (Elt F)) :
    k4_H18 U (Proc.devRef .tc main_v239) = KSpec.mean1 (KSpec.relu1 (U (Proc.devRef .tc main_v233))) := by
  dsimp only [k4_H18]; after_results_simp <;> rfl
theorem k4_mean1 (U : Valuation τ sig (Elt F)) :
    k4_H18 U (Proc.devRef .tc main_v244) = KSpec.mean1 (KSpec.relu1 (U (Proc.devRef .tc main_v215))) := by
  dsimp only [k4_H18]; after_results_simp <;> rfl
theorem k4_mean2 (U : Valuation τ sig (Elt F)) :
    k4_H18 U (Proc.devRef .tc main_v249) = KSpec.mean1 (KSpec.relu1 (U (Proc.devRef .tc main_v234))) := by
  dsimp only [k4_H18]; after_results_simp <;> rfl
theorem k4_var0 (U : Valuation τ sig (Elt F)) :
    k4_H18 U (Proc.devRef .tc main_v251) = KSpec.var1 (KSpec.relu1 (U (Proc.devRef .tc main_v233))) := by
  dsimp only [k4_H18]; after_results_simp <;> rfl
theorem k4_var1 (U : Valuation τ sig (Elt F)) :
    k4_H18 U (Proc.devRef .tc main_v253) = KSpec.var1 (KSpec.relu1 (U (Proc.devRef .tc main_v215))) := by
  dsimp only [k4_H18]; after_results_simp <;> rfl
theorem k4_var2 (U : Valuation τ sig (Elt F)) :
    k4_H18 U (Proc.devRef .tc main_v255) = KSpec.var1 (KSpec.relu1 (U (Proc.devRef .tc main_v234))) := by
  dsimp only [k4_H18]; after_results_simp <;> rfl
theorem k4_cat (U : Valuation τ sig (Elt F)) :
    k4_H18 U (Proc.devRef .tc main_v264) = KSpec.cat (KSpec.w64x64 (U (Proc.devRef .tc main_arg13)) ![0, 0, 0, 0] Facts₀.slices_S3x2x64x64_S1x1x64x64_0_0_0_0) (KSpec.w64x64 (U (Proc.devRef .tc main_arg13)) ![2, 0, 0, 0] Facts₀.slices_S3x2x64x64_S1x1x64x64_2_0_0_0) := by
  dsimp only [k4_H18]; after_results_simp <;> rfl
theorem k4_w01 (U : Valuation τ sig (Elt F)) :
    k4_H18 U (Proc.devRef .tc main_v259) = KSpec.w64x64 (U (Proc.devRef .tc main_arg13)) ![0, 1, 0, 0] Facts₀.slices_S3x2x64x64_S1x1x64x64_0_1_0_0 := by
  dsimp only [k4_H18]; after_results_simp <;> rfl
theorem k4_w21 (U : Valuation τ sig (Elt F)) :
    k4_H18 U (Proc.devRef .tc main_v263) = KSpec.w64x64 (U (Proc.devRef .tc main_arg13)) ![2, 1, 0, 0] Facts₀.slices_S3x2x64x64_S1x1x64x64_2_1_0_0 := by
  dsimp only [k4_H18]; after_results_simp <;> rfl

theorem k4_lo (U : Valuation τ sig (Elt F)) :
    StableHlo.after hostOps19 U (Proc.devRef .tc main_v266) = KSpec.lo (U (Proc.devRef .tc main_v265)) := by
  after_results_simp <;> rfl
theorem k4_hi (U : Valuation τ sig (Elt F)) :
    StableHlo.after hostOps19 U (Proc.devRef .tc main_v267) = KSpec.hi (U (Proc.devRef .tc main_v265)) := by
  after_results_simp <;> rfl

theorem k4_z21 (U : Valuation τ sig (Elt F)) :
    StableHlo.after hostOps21 U (Proc.devRef .tc main_v270) = (KSpec.z16 (F := F)) := by
  after_results_simp <;> rfl
theorem k4_g21a (U : Valuation τ sig (Elt F)) :
    StableHlo.after hostOps21 U (Proc.devRef .tc main_v277) = KSpec.gath (U (Proc.devRef .tc main_v266)) (U (Proc.devRef .tc main_arg3)) := by
  after_results_simp <;> rfl
theorem k4_g21b (U : Valuation τ sig (Elt F)) :
    StableHlo.after hostOps21 U (Proc.devRef .tc main_v284) = KSpec.gath (U (Proc.devRef .tc main_v268)) (U (Proc.devRef .tc main_arg4)) := by
  after_results_simp <;> rfl
theorem k4_w21w (U : Valuation τ sig (Elt F)) :
    StableHlo.after hostOps21 U (Proc.devRef .tc main_v286) = KSpec.w64x16 (U (Proc.devRef .tc main_arg11)) ![0, 0, 0, 0] Facts₀.slices_S3x2x64x16_S1x1x64x16_0_0_0_0 := by
  after_results_simp <;> rfl

theorem k4_acc22 (U : Valuation τ sig (Elt F))
    (hc : U (Proc.devRef .tc main_v5) = KSpec.cnt (U (Proc.devRef .tc main_arg3))) :
    StableHlo.after hostOps22 U (Proc.devRef .tc main_v293) = addf (U (Proc.devRef .tc main_v270)) (KSpec.segmean16 (U (Proc.devRef .tc main_v287)) (U (Proc.devRef .tc main_arg3))) := by
  after_results_simp; rw [hc] <;> rfl
theorem k4_g22a (U : Valuation τ sig (Elt F)) :
    StableHlo.after hostOps22 U (Proc.devRef .tc main_v300) = KSpec.gath (U (Proc.devRef .tc main_v267)) (U (Proc.devRef .tc main_arg7)) := by
  after_results_simp <;> rfl
theorem k4_g22b (U : Valuation τ sig (Elt F)) :
    StableHlo.after hostOps22 U (Proc.devRef .tc main_v307) = KSpec.gath (U (Proc.devRef .tc main_v269)) (U (Proc.devRef .tc main_arg8)) := by
  after_results_simp <;> rfl
theorem k4_w22w (U : Valuation τ sig (Elt F)) :
    StableHlo.after hostOps22 U (Proc.devRef .tc main_v309) = KSpec.w64x16 (U (Proc.devRef .tc main_arg11)) ![2, 0, 0, 0] Facts₀.slices_S3x2x64x16_S1x1x64x16_2_0_0_0 := by
  after_results_simp <;> rfl

theorem k4_out23 (U : Valuation τ sig (Elt F))
    (hc : U (Proc.devRef .tc main_v15) = KSpec.cnt (U (Proc.devRef .tc main_arg7))) :
    StableHlo.after hostOps23 U (Proc.devRef .tc main_v316) = addf (U (Proc.devRef .tc main_v293)) (KSpec.segmean16 (U (Proc.devRef .tc main_v310)) (U (Proc.devRef .tc main_arg7))) := by
  after_results_simp; rw [hc] <;> rfl

end Generic

section Run

variable (m : (ℓ : Loc nD τ sig) → Buf (Elt Ideal) ℓ) (ρ : Dev nD → PrngReg)

theorem k4_stable (c : Dev nD) (b : Ref sig .tc)
    (h18 : b ∉ k4_wr18) (h19 : b ∉ k4_wr19) (h21 : b ∉ k4_wr21) (h22 : b ∉ k4_wr22) (h23 : b ∉ k4_wr23)
    (r18 : ∀ w, Pipeline.arrRef spec18 w ≠ b) (r19 : ∀ w, Pipeline.arrRef spec19 w ≠ b)
    (r20 : ∀ w, Pipeline.arrRef spec20 w ≠ b) (r21 : ∀ w, Pipeline.arrRef spec21 w ≠ b)
    (r22 : ∀ w, Pipeline.arrRef spec22 w ≠ b) :
    W73 m ρ c (Proc.devRef .tc b) = W53 m ρ c (Proc.devRef .tc b)
    ∧ W75 m ρ c (Proc.devRef .tc b) = W53 m ρ c (Proc.devRef .tc b)
    ∧ W77 m ρ c (Proc.devRef .tc b) = W53 m ρ c (Proc.devRef .tc b)
    ∧ W78 m ρ c (Proc.devRef .tc b) = W53 m ρ c (Proc.devRef .tc b) := by
  have e69 : W69 m ρ c (Proc.devRef .tc b) = W53 m ρ c (Proc.devRef .tc b) := k4_keep18 (W53 m ρ c) b h18
  have e70 := (W70_of_ne m ρ c b r18).trans e69
  have e71 : W71 m ρ c (Proc.devRef .tc b) = W53 m ρ c (Proc.devRef .tc b) := (k4_keep19 (W70 m ρ c) b h19).trans e70
  have e72 := (W72_of_ne m ρ c b r19).trans e71
  have e73 := (W73_of_ne m ρ c b r20).trans e72
  have e74 : W74 m ρ c (Proc.devRef .tc b) = W53 m ρ c (Proc.devRef .tc b) := (k4_keep21 (W73 m ρ c) b h21).trans e73
  have e75 := (W75_of_ne m ρ c b r21).trans e74
  have e76 : W76 m ρ c (Proc.devRef .tc b) = W53 m ρ c (Proc.devRef .tc b) := (k4_keep22 (W75 m ρ c) b h22).trans e75
  have e77 := (W77_of_ne m ρ c b r22).trans e76
  have e78 : W78 m ρ c (Proc.devRef .tc b) = W53 m ρ c (Proc.devRef .tc b) := (k4_keep23 (W77 m ρ c) b h23).trans e77
  exact ⟨e73, e75, e77, e78⟩

theorem K4_out (c : Dev nD)
    (hacc : W53 m ρ c (Proc.devRef .tc main_v233) = KSpec.kacc1_0 (Cert.KArgs.args m c)
      ∧ W53 m ρ c (Proc.devRef .tc main_v215) = KSpec.kacc1_1 (Cert.KArgs.args m c)
      ∧ W53 m ρ c (Proc.devRef .tc main_v234) = KSpec.kacc1_2 (Cert.KArgs.args m c))
    (hc : W53 m ρ c (Proc.devRef .tc main_v5) = KSpec.cnt (F := Ideal) (Cert.KArgs.args m c).row0
      ∧ W53 m ρ c (Proc.devRef .tc main_v15) = KSpec.cnt (F := Ideal) (Cert.KArgs.args m c).row2) :
    W78 m ρ c (Proc.devRef .tc main_v316) = KSpec.kout (Cert.KArgs.args m c) := by
  obtain ⟨ha0, ha1, ha2⟩ := hacc
  obtain ⟨hc0, hc2⟩ := hc
  have s3 := k4_stable m ρ c main_arg3 (by decide) (by decide) (by decide) (by decide) (by decide) (by decide) (by decide) (by decide) (by decide) (by decide)
  have s4 := k4_stable m ρ c main_arg4 (by decide) (by decide) (by decide) (by decide) (by decide) (by decide) (by decide) (by decide) (by decide) (by decide)
  have s7 := k4_stable m ρ c main_arg7 (by decide) (by decide) (by decide) (by decide) (by decide) (by decide) (by decide) (by decide) (by decide) (by decide)
  have s8 := k4_stable m ρ c main_arg8 (by decide) (by decide) (by decide) (by decide) (by decide) (by decide) (by decide) (by decide) (by decide) (by decide)
  have s11 := k4_stable m ρ c main_arg11 (by decide) (by decide) (by decide) (by decide) (by decide) (by decide) (by decide) (by decide) (by decide) (by decide)
  have s13 := k4_stable m ρ c main_arg13 (by decide) (by decide) (by decide) (by decide) (by decide) (by decide) (by decide) (by decide) (by decide) (by decide)
  have t5 := k4_stable m ρ c main_v5 (by decide) (by decide) (by decide) (by decide) (by decide) (by decide) (by decide) (by decide) (by decide) (by decide)
  have t15 := k4_stable m ρ c main_v15 (by decide) (by decide) (by decide) (by decide) (by decide) (by decide) (by decide) (by decide) (by decide) (by decide)
  have A13 : W53 m ρ c (Proc.devRef .tc main_arg13) = (Cert.KArgs.args m c).bw1 := s13.2.2.2.symm.trans (W78_main_arg13 m ρ c)
  have A3_73 : W73 m ρ c (Proc.devRef .tc main_arg3) = (Cert.KArgs.args m c).row0 :=
    s3.1.trans (s3.2.2.2.symm.trans (W78_main_arg3 m ρ c))
  have A4_73 : W73 m ρ c (Proc.devRef .tc main_arg4) = (Cert.KArgs.args m c).col0 :=
    s4.1.trans (s4.2.2.2.symm.trans (W78_main_arg4 m ρ c))
  have A11_73 : W73 m ρ c (Proc.devRef .tc main_arg11) = (Cert.KArgs.args m c).pw2 :=
    s11.1.trans (s11.2.2.2.symm.trans (W78_main_arg11 m ρ c))
  have A3_75 : W75 m ρ c (Proc.devRef .tc main_arg3) = (Cert.KArgs.args m c).row0 :=
    s3.2.1.trans (s3.2.2.2.symm.trans (W78_main_arg3 m ρ c))
  have A7_75 : W75 m ρ c (Proc.devRef .tc main_arg7) = (Cert.KArgs.args m c).row2 :=
    s7.2.1.trans (s7.2.2.2.symm.trans (W78_main_arg7 m ρ c))
  have A8_75 : W75 m ρ c (Proc.devRef .tc main_arg8) = (Cert.KArgs.args m c).col2 :=
    s8.2.1.trans (s8.2.2.2.symm.trans (W78_main_arg8 m ρ c))
  have A11_75 : W75 m ρ c (Proc.devRef .tc main_arg11) = (Cert.KArgs.args m c).pw2 :=
    s11.2.1.trans (s11.2.2.2.symm.trans (W78_main_arg11 m ρ c))
  have A7_77 : W77 m ρ c (Proc.devRef .tc main_arg7) = (Cert.KArgs.args m c).row2 :=
    s7.2.2.1.trans (s7.2.2.2.symm.trans (W78_main_arg7 m ρ c))
  have C0 : W75 m ρ c (Proc.devRef .tc main_v5) = KSpec.cnt (F := Ideal) (Cert.KArgs.args m c).row0 := t5.2.1.trans hc0
  have C2 : W77 m ρ c (Proc.devRef .tc main_v15) = KSpec.cnt (F := Ideal) (Cert.KArgs.args m c).row2 := t15.2.2.1.trans hc2
  have e233 : W69 m ρ c (Proc.devRef .tc main_v233) = KSpec.kacc1_0 (Cert.KArgs.args m c) := (k4_keep18 (W53 m ρ c) main_v233 (by decide)).trans ha0
  have e215 : W69 m ρ c (Proc.devRef .tc main_v215) = KSpec.kacc1_1 (Cert.KArgs.args m c) := (k4_keep18 (W53 m ρ c) main_v215 (by decide)).trans ha1
  have e234 : W69 m ρ c (Proc.devRef .tc main_v234) = KSpec.kacc1_2 (Cert.KArgs.args m c) := (k4_keep18 (W53 m ρ c) main_v234 (by decide)).trans ha2
  have e239 : W69 m ρ c (Proc.devRef .tc main_v239) = KSpec.mean1 (KSpec.relu1 (KSpec.kacc1_0 (Cert.KArgs.args m c))) := (k4_mean0 (W53 m ρ c)).trans (by rw [ha0])
  have e244 : W69 m ρ c (Proc.devRef .tc main_v244) = KSpec.mean1 (KSpec.relu1 (KSpec.kacc1_1 (Cert.KArgs.args m c))) := (k4_mean1 (W53 m ρ c)).trans (by rw [ha1])
  have e249 : W69 m ρ c (Proc.devRef .tc main_v249) = KSpec.mean1 (KSpec.relu1 (KSpec.kacc1_2 (Cert.KArgs.args m c))) := (k4_mean2 (W53 m ρ c)).trans (by rw [ha2])
  have e251 : W69 m ρ c (Proc.devRef .tc main_v251) = KSpec.var1 (KSpec.relu1 (KSpec.kacc1_0 (Cert.KArgs.args m c))) := (k4_var0 (W53 m ρ c)).trans (by rw [ha0])
  have e253 : W69 m ρ c (Proc.devRef .tc main_v253) = KSpec.var1 (KSpec.relu1 (KSpec.kacc1_1 (Cert.KArgs.args m c))) := (k4_var1 (W53 m ρ c)).trans (by rw [ha1])
  have e255 : W69 m ρ c (Proc.devRef .tc main_v255) = KSpec.var1 (KSpec.relu1 (KSpec.kacc1_2 (Cert.KArgs.args m c))) := (k4_var2 (W53 m ρ c)).trans (by rw [ha2])
  have e264 : W69 m ρ c (Proc.devRef .tc main_v264) = KSpec.cat (KSpec.bw1_00 (Cert.KArgs.args m c)) (KSpec.bw1_20 (Cert.KArgs.args m c)) := (k4_cat (W53 m ρ c)).trans (by rw [A13] <;> rfl)
  have e259 : W69 m ρ c (Proc.devRef .tc main_v259) = KSpec.bw1_01 (Cert.KArgs.args m c) := (k4_w01 (W53 m ρ c)).trans (by rw [A13] <;> rfl)
  have e263 : W69 m ρ c (Proc.devRef .tc main_v263) = KSpec.bw1_21 (Cert.KArgs.args m c) := (k4_w21 (W53 m ρ c)).trans (by rw [A13] <;> rfl)
  have e265 : W70 m ρ c (Proc.devRef .tc main_v265) = KSpec.Y1_0 (Cert.KArgs.args m c) := by
    refine (W70_arr m ρ c 4).trans ?_
    rw [Cert.Reg.reg18]
    show KSpec.bnmm128 (W69 m ρ c (Proc.devRef .tc main_v233)) (W69 m ρ c (Proc.devRef .tc main_v239)) (W69 m ρ c (Proc.devRef .tc main_v251)) (W69 m ρ c (Proc.devRef .tc main_v264)) = _
    rw [e233, e239, e251, e264] <;> rfl
  have e266 : W71 m ρ c (Proc.devRef .tc main_v266) = KSpec.lo (KSpec.Y1_0 (Cert.KArgs.args m c)) := (k4_lo (W70 m ρ c)).trans (by rw [e265])
  have e267 : W71 m ρ c (Proc.devRef .tc main_v267) = KSpec.hi (KSpec.Y1_0 (Cert.KArgs.args m c)) := (k4_hi (W70 m ρ c)).trans (by rw [e265])
  have k71 : ∀ b : Ref sig .tc, (∀ w, Pipeline.arrRef spec18 w ≠ b) → b ∉ k4_wr19 → W71 m ρ c (Proc.devRef .tc b) = W69 m ρ c (Proc.devRef .tc b) :=
    fun b r h => (k4_keep19 (W70 m ρ c) b h).trans (W70_of_ne m ρ c b r)
  have e268 : W72 m ρ c (Proc.devRef .tc main_v268) = KSpec.Y1_1 (Cert.KArgs.args m c) := by
    refine (W72_arr m ρ c 4).trans ?_
    rw [Cert.Reg.reg19]
    show KSpec.bnmm64 (W71 m ρ c (Proc.devRef .tc main_v215)) (W71 m ρ c (Proc.devRef .tc main_v244)) (W71 m ρ c (Proc.devRef .tc main_v253)) (W71 m ρ c (Proc.devRef .tc main_v259)) = _
    rw [k71 main_v215 (by decide) (by decide), k71 main_v244 (by decide) (by decide), k71 main_v253 (by decide) (by decide), k71 main_v259 (by decide) (by decide), e215, e244, e253, e259] <;> rfl
  have k72 : ∀ b : Ref sig .tc, (∀ w, Pipeline.arrRef spec18 w ≠ b) → b ∉ k4_wr19 → (∀ w, Pipeline.arrRef spec19 w ≠ b) →
      W72 m ρ c (Proc.devRef .tc b) = W69 m ρ c (Proc.devRef .tc b) :=
    fun b r h r' => (W72_of_ne m ρ c b r').trans (k71 b r h)
  have e269 : W73 m ρ c (Proc.devRef .tc main_v269) = KSpec.Y1_2 (Cert.KArgs.args m c) := by
    refine (W73_arr m ρ c 4).trans ?_
    rw [Cert.Reg.reg20]
    show KSpec.bnmm64 (W72 m ρ c (Proc.devRef .tc main_v234)) (W72 m ρ c (Proc.devRef .tc main_v249)) (W72 m ρ c (Proc.devRef .tc main_v255)) (W72 m ρ c (Proc.devRef .tc main_v263)) = _
    rw [k72 main_v234 (by decide) (by decide) (by decide), k72 main_v249 (by decide) (by decide) (by decide), k72 main_v255 (by decide) (by decide) (by decide), k72 main_v263 (by decide) (by decide) (by decide), e234, e249, e255, e263] <;> rfl
  have f266 : W73 m ρ c (Proc.devRef .tc main_v266) = KSpec.lo (KSpec.Y1_0 (Cert.KArgs.args m c)) :=
    ((W73_of_ne m ρ c main_v266 (by decide)).trans (W72_of_ne m ρ c main_v266 (by decide))).trans e266
  have f267 : W73 m ρ c (Proc.devRef .tc main_v267) = KSpec.hi (KSpec.Y1_0 (Cert.KArgs.args m c)) :=
    ((W73_of_ne m ρ c main_v267 (by decide)).trans (W72_of_ne m ρ c main_v267 (by decide))).trans e267
  have f268 : W73 m ρ c (Proc.devRef .tc main_v268) = KSpec.Y1_1 (Cert.KArgs.args m c) := (W73_of_ne m ρ c main_v268 (by decide)).trans e268
  have e270 : W74 m ρ c (Proc.devRef .tc main_v270) = KSpec.z16 (F := Ideal) := k4_z21 (W73 m ρ c)
  have e277 : W74 m ρ c (Proc.devRef .tc main_v277) = KSpec.gath (KSpec.lo (KSpec.Y1_0 (Cert.KArgs.args m c))) (Cert.KArgs.args m c).row0 := (k4_g21a (W73 m ρ c)).trans (by rw [f266, A3_73])
  have e284 : W74 m ρ c (Proc.devRef .tc main_v284) = KSpec.gath (KSpec.Y1_1 (Cert.KArgs.args m c)) (Cert.KArgs.args m c).col0 := (k4_g21b (W73 m ρ c)).trans (by rw [f268, A4_73])
  have e286 : W74 m ρ c (Proc.devRef .tc main_v286) = KSpec.pw2_00 (Cert.KArgs.args m c) := (k4_w21w (W73 m ρ c)).trans (by rw [A11_73] <;> rfl)
  have g267 : W74 m ρ c (Proc.devRef .tc main_v267) = KSpec.hi (KSpec.Y1_0 (Cert.KArgs.args m c)) := (k4_keep21 (W73 m ρ c) main_v267 (by decide)).trans f267
  have g269 : W74 m ρ c (Proc.devRef .tc main_v269) = KSpec.Y1_2 (Cert.KArgs.args m c) := (k4_keep21 (W73 m ρ c) main_v269 (by decide)).trans e269
  have e287 : W75 m ρ c (Proc.devRef .tc main_v287) = KSpec.E0 (Cert.KArgs.args m c) := by
    refine (W75_arr m ρ c 3).trans ?_
    rw [Cert.Reg.reg21]
    show KSpec.fused (W74 m ρ c (Proc.devRef .tc main_v277)) (W74 m ρ c (Proc.devRef .tc main_v284)) (W74 m ρ c (Proc.devRef .tc main_v286)) = _
    rw [e277, e284, e286] <;> rfl
  have h270 : W75 m ρ c (Proc.devRef .tc main_v270) = KSpec.z16 (F := Ideal) := (W75_of_ne m ρ c main_v270 (by decide)).trans e270
  have h267 : W75 m ρ c (Proc.devRef .tc main_v267) = KSpec.hi (KSpec.Y1_0 (Cert.KArgs.args m c)) := (W75_of_ne m ρ c main_v267 (by decide)).trans g267
  have h269 : W75 m ρ c (Proc.devRef .tc main_v269) = KSpec.Y1_2 (Cert.KArgs.args m c) := (W75_of_ne m ρ c main_v269 (by decide)).trans g269
  have e293 : W76 m ρ c (Proc.devRef .tc main_v293) = addf (KSpec.z16 (F := Ideal)) (KSpec.segmean16 (KSpec.E0 (Cert.KArgs.args m c)) (Cert.KArgs.args m c).row0) :=
    (k4_acc22 (W75 m ρ c) (by rw [C0, A3_75])).trans (by rw [h270, e287, A3_75])
  have e300 : W76 m ρ c (Proc.devRef .tc main_v300) = KSpec.gath (KSpec.hi (KSpec.Y1_0 (Cert.KArgs.args m c))) (Cert.KArgs.args m c).row2 := (k4_g22a (W75 m ρ c)).trans (by rw [h267, A7_75])
  have e307 : W76 m ρ c (Proc.devRef .tc main_v307) = KSpec.gath (KSpec.Y1_2 (Cert.KArgs.args m c)) (Cert.KArgs.args m c).col2 := (k4_g22b (W75 m ρ c)).trans (by rw [h269, A8_75])
  have e309 : W76 m ρ c (Proc.devRef .tc main_v309) = KSpec.pw2_20 (Cert.KArgs.args m c) := (k4_w22w (W75 m ρ c)).trans (by rw [A11_75] <;> rfl)
  have e310 : W77 m ρ c (Proc.devRef .tc main_v310) = KSpec.E2 (Cert.KArgs.args m c) := by
    refine (W77_arr m ρ c 3).trans ?_
    rw [Cert.Reg.reg22]
    show KSpec.fused (W76 m ρ c (Proc.devRef .tc main_v300)) (W76 m ρ c (Proc.devRef .tc main_v307)) (W76 m ρ c (Proc.devRef .tc main_v309)) = _
    rw [e300, e307, e309] <;> rfl
  have i293 : W77 m ρ c (Proc.devRef .tc main_v293) = addf (KSpec.z16 (F := Ideal)) (KSpec.segmean16 (KSpec.E0 (Cert.KArgs.args m c)) (Cert.KArgs.args m c).row0) :=
    (W77_of_ne m ρ c main_v293 (by decide)).trans e293
  exact (k4_out23 (W77 m ρ c) (by rw [C2, A7_77])).trans (by rw [i293, e310, A7_77] <;> rfl)

end Run

end Cert.KRead

end
-- ==== Proof.RefOps.lean ====
import proofs.«100184_j50010599195033_2_alg».proof.Proof.Gen.ReferenceIdeal
import Idealize.ShloMosaic.Lib.StableHlo.Run

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev seg0 : List (HloOp τ sig (Elt F)) :=
  [ StableHlo.nullary main_cst (constant S_ .f32 0x00000000#32),
    StableHlo.unary main_cst main_v0 (broadcastInDim S100000x64 ![] bcast_S_S100000x64),
    StableHlo.nullary main_cst_0 (constant S_ .f32 0x00000000#32),
    StableHlo.unary main_cst_0 main_v1 (broadcastInDim S100000x64 ![] bcast_S_S100000x64),
    StableHlo.nullary main_cst_1 (constant S_ .f32 0x00000000#32),
    StableHlo.unary main_cst_1 main_v2 (broadcastInDim S100000x64 ![] bcast_S_S100000x64),
    StableHlo.nullary main_cst_2 (constant S_ .f32 0x00000000#32),
    StableHlo.unary main_cst_2 main_v3 (broadcastInDim S100000x16 ![] bcast_S_S100000x16),
    StableHlo.unary main_arg3 main_v4 (broadcastInDim S500000x1 ![0] bcast_S500000_S500000x1_0),
    StableHlo.ternary main_v3 main_v4 main_arg0 main_v5 (fun x i u => Host.scatterAdd scatter_S100000x16_S500000x1_S500000x16_1_0_0_1 x i u),
    StableHlo.nullary main_cst_3 (constant S_ .f32 0x3F800000#32),
    StableHlo.unary main_cst_3 main_v6 (broadcastInDim S500000x1 ![] bcast_S_S500000x1),
    StableHlo.nullary main_cst_4 (constant S_ .f32 0x00000000#32),
    StableHlo.unary main_cst_4 main_v7 (broadcastInDim S100000x1 ![] bcast_S_S100000x1),
    StableHlo.unary main_arg3 main_v8 (broadcastInDim S500000x1 ![0] bcast_S500000_S500000x1_0),
    StableHlo.ternary main_v7 main_v8 main_v6 main_v9 (fun x i u => Host.scatterAdd scatter_S100000x1_S500000x1_S500000x1_1_0_0_1 x i u),
    StableHlo.nullary main_cst_5 (constant S_ .f32 0x3F800000#32),
    StableHlo.unary main_cst_5 main_v10 (broadcastInDim S100000x1 ![] bcast_S_S100000x1),
    StableHlo.binary main_v9 main_v10 main_v11 maximumf,
    StableHlo.unary main_v11 main_v12 (broadcastInDim S100000x16 ![0, 1] bcast_S100000x1_S100000x16_0_1),
    StableHlo.binary main_v5 main_v12 main_v13 Host.divf,
    StableHlo.unary main_arg9 main_v14 (extractStridedSlice S1x1x16x64 ![0, 0, 0, 0] · slices_S3x2x16x64_S1x1x16x64_0_0_0_0),
    StableHlo.reshape main_v14 main_v15 rfl shapeCasts_S1x1x16x64_S16x64,
    StableHlo.binary main_v13 main_v15 main_v16 (fun l r => Host.dotGeneral dot_S100000x16_S16x64_S100000x64_1_0_0_1_n_n none l r),
    StableHlo.binary main_v0 main_v16 main_v17 addf,
    StableHlo.nullary main_cst_6 (constant S_ .f32 0x00000000#32),
    StableHlo.unary main_cst_6 main_v18 (broadcastInDim S100000x16 ![] bcast_S_S100000x16),
    StableHlo.unary main_arg4 main_v19 (broadcastInDim S500000x1 ![0] bcast_S500000_S500000x1_0),
    StableHlo.ternary main_v18 main_v19 main_arg0 main_v20 (fun x i u => Host.scatterAdd scatter_S100000x16_S500000x1_S500000x16_1_0_0_1 x i u),
    StableHlo.nullary main_cst_7 (constant S_ .f32 0x3F800000#32),
    StableHlo.unary main_cst_7 main_v21 (broadcastInDim S500000x1 ![] bcast_S_S500000x1),
    StableHlo.nullary main_cst_8 (constant S_ .f32 0x00000000#32),
    StableHlo.unary main_cst_8 main_v22 (broadcastInDim S100000x1 ![] bcast_S_S100000x1),
    StableHlo.unary main_arg4 main_v23 (broadcastInDim S500000x1 ![0] bcast_S500000_S500000x1_0),
    StableHlo.ternary main_v22 main_v23 main_v21 main_v24 (fun x i u => Host.scatterAdd scatter_S100000x1_S500000x1_S500000x1_1_0_0_1 x i u),
    StableHlo.nullary main_cst_9 (constant S_ .f32 0x3F800000#32),
    StableHlo.unary main_cst_9 main_v25 (broadcastInDim S100000x1 ![] bcast_S_S100000x1),
    StableHlo.binary main_v24 main_v25 main_v26 maximumf,
    StableHlo.unary main_v26 main_v27 (broadcastInDim S100000x16 ![0, 1] bcast_S100000x1_S100000x16_0_1),
    StableHlo.binary main_v20 main_v27 main_v28 Host.divf,
    StableHlo.unary main_arg9 main_v29 (extractStridedSlice S1x1x16x64 ![0, 1, 0, 0] · slices_S3x2x16x64_S1x1x16x64_0_1_0_0),
    StableHlo.reshape main_v29 main_v30 rfl shapeCasts_S1x1x16x64_S16x64,
    StableHlo.binary main_v28 main_v30 main_v31 (fun l r => Host.dotGeneral dot_S100000x16_S16x64_S100000x64_1_0_0_1_n_n none l r),
    StableHlo.binary main_v1 main_v31 main_v32 addf,
    StableHlo.nullary main_cst_10 (constant S_ .f32 0x00000000#32),
    StableHlo.unary main_cst_10 main_v33 (broadcastInDim S100000x16 ![] bcast_S_S100000x16),
    StableHlo.unary main_arg5 main_v34 (broadcastInDim S500000x1 ![0] bcast_S500000_S500000x1_0),
    StableHlo.ternary main_v33 main_v34 main_arg1 main_v35 (fun x i u => Host.scatterAdd scatter_S100000x16_S500000x1_S500000x16_1_0_0_1 x i u),
    StableHlo.nullary main_cst_11 (constant S_ .f32 0x3F800000#32),
    StableHlo.unary main_cst_11 main_v36 (broadcastInDim S500000x1 ![] bcast_S_S500000x1),
    StableHlo.nullary main_cst_12 (constant S_ .f32 0x00000000#32),
    StableHlo.unary main_cst_12 main_v37 (broadcastInDim S100000x1 ![] bcast_S_S100000x1),
    StableHlo.unary main_arg5 main_v38 (broadcastInDim S500000x1 ![0] bcast_S500000_S500000x1_0),
    StableHlo.ternary main_v37 main_v38 main_v36 main_v39 (fun x i u => Host.scatterAdd scatter_S100000x1_S500000x1_S500000x1_1_0_0_1 x i u),
    StableHlo.nullary main_cst_13 (constant S_ .f32 0x3F800000#32),
    StableHlo.unary main_cst_13 main_v40 (broadcastInDim S100000x1 ![] bcast_S_S100000x1),
    StableHlo.binary main_v39 main_v40 main_v41 maximumf,
    StableHlo.unary main_v41 main_v42 (broadcastInDim S100000x16 ![0, 1] bcast_S100000x1_S100000x16_0_1),
    StableHlo.binary main_v35 main_v42 main_v43 Host.divf,
    StableHlo.unary main_arg9 main_v44 (extractStridedSlice S1x1x16x64 ![1, 0, 0, 0] · slices_S3x2x16x64_S1x1x16x64_1_0_0_0) ]

abbrev seg1 : List (HloOp τ sig (Elt F)) :=
  [ StableHlo.reshape main_v44 main_v45 rfl shapeCasts_S1x1x16x64_S16x64,
    StableHlo.binary main_v43 main_v45 main_v46 (fun l r => Host.dotGeneral dot_S100000x16_S16x64_S100000x64_1_0_0_1_n_n none l r),
    StableHlo.binary main_v32 main_v46 main_v47 addf,
    StableHlo.nullary main_cst_14 (constant S_ .f32 0x00000000#32),
    StableHlo.unary main_cst_14 main_v48 (broadcastInDim S100000x16 ![] bcast_S_S100000x16),
    StableHlo.unary main_arg6 main_v49 (broadcastInDim S500000x1 ![0] bcast_S500000_S500000x1_0),
    StableHlo.ternary main_v48 main_v49 main_arg1 main_v50 (fun x i u => Host.scatterAdd scatter_S100000x16_S500000x1_S500000x16_1_0_0_1 x i u),
    StableHlo.nullary main_cst_15 (constant S_ .f32 0x3F800000#32),
    StableHlo.unary main_cst_15 main_v51 (broadcastInDim S500000x1 ![] bcast_S_S500000x1),
    StableHlo.nullary main_cst_16 (constant S_ .f32 0x00000000#32),
    StableHlo.unary main_cst_16 main_v52 (broadcastInDim S100000x1 ![] bcast_S_S100000x1),
    StableHlo.unary main_arg6 main_v53 (broadcastInDim S500000x1 ![0] bcast_S500000_S500000x1_0),
    StableHlo.ternary main_v52 main_v53 main_v51 main_v54 (fun x i u => Host.scatterAdd scatter_S100000x1_S500000x1_S500000x1_1_0_0_1 x i u),
    StableHlo.nullary main_cst_17 (constant S_ .f32 0x3F800000#32),
    StableHlo.unary main_cst_17 main_v55 (broadcastInDim S100000x1 ![] bcast_S_S100000x1),
    StableHlo.binary main_v54 main_v55 main_v56 maximumf,
    StableHlo.unary main_v56 main_v57 (broadcastInDim S100000x16 ![0, 1] bcast_S100000x1_S100000x16_0_1),
    StableHlo.binary main_v50 main_v57 main_v58 Host.divf,
    StableHlo.unary main_arg9 main_v59 (extractStridedSlice S1x1x16x64 ![1, 1, 0, 0] · slices_S3x2x16x64_S1x1x16x64_1_1_0_0),
    StableHlo.reshape main_v59 main_v60 rfl shapeCasts_S1x1x16x64_S16x64,
    StableHlo.binary main_v58 main_v60 main_v61 (fun l r => Host.dotGeneral dot_S100000x16_S16x64_S100000x64_1_0_0_1_n_n none l r),
    StableHlo.binary main_v2 main_v61 main_v62 addf,
    StableHlo.nullary main_cst_18 (constant S_ .f32 0x00000000#32),
    StableHlo.unary main_cst_18 main_v63 (broadcastInDim S100000x16 ![] bcast_S_S100000x16),
    StableHlo.unary main_arg7 main_v64 (broadcastInDim S500000x1 ![0] bcast_S500000_S500000x1_0),
    StableHlo.ternary main_v63 main_v64 main_arg2 main_v65 (fun x i u => Host.scatterAdd scatter_S100000x16_S500000x1_S500000x16_1_0_0_1 x i u),
    StableHlo.nullary main_cst_19 (constant S_ .f32 0x3F800000#32),
    StableHlo.unary main_cst_19 main_v66 (broadcastInDim S500000x1 ![] bcast_S_S500000x1),
    StableHlo.nullary main_cst_20 (constant S_ .f32 0x00000000#32),
    StableHlo.unary main_cst_20 main_v67 (broadcastInDim S100000x1 ![] bcast_S_S100000x1),
    StableHlo.unary main_arg7 main_v68 (broadcastInDim S500000x1 ![0] bcast_S500000_S500000x1_0),
    StableHlo.ternary main_v67 main_v68 main_v66 main_v69 (fun x i u => Host.scatterAdd scatter_S100000x1_S500000x1_S500000x1_1_0_0_1 x i u),
    StableHlo.nullary main_cst_21 (constant S_ .f32 0x3F800000#32),
    StableHlo.unary main_cst_21 main_v70 (broadcastInDim S100000x1 ![] bcast_S_S100000x1),
    StableHlo.binary main_v69 main_v70 main_v71 maximumf,
    StableHlo.unary main_v71 main_v72 (broadcastInDim S100000x16 ![0, 1] bcast_S100000x1_S100000x16_0_1),
    StableHlo.binary main_v65 main_v72 main_v73 Host.divf,
    StableHlo.unary main_arg9 main_v74 (extractStridedSlice S1x1x16x64 ![2, 0, 0, 0] · slices_S3x2x16x64_S1x1x16x64_2_0_0_0),
    StableHlo.reshape main_v74 main_v75 rfl shapeCasts_S1x1x16x64_S16x64,
    StableHlo.binary main_v73 main_v75 main_v76 (fun l r => Host.dotGeneral dot_S100000x16_S16x64_S100000x64_1_0_0_1_n_n none l r),
    StableHlo.binary main_v17 main_v76 main_v77 addf,
    StableHlo.nullary main_cst_22 (constant S_ .f32 0x00000000#32),
    StableHlo.unary main_cst_22 main_v78 (broadcastInDim S100000x16 ![] bcast_S_S100000x16),
    StableHlo.unary main_arg8 main_v79 (broadcastInDim S500000x1 ![0] bcast_S500000_S500000x1_0),
    StableHlo.ternary main_v78 main_v79 main_arg2 main_v80 (fun x i u => Host.scatterAdd scatter_S100000x16_S500000x1_S500000x16_1_0_0_1 x i u),
    StableHlo.nullary main_cst_23 (constant S_ .f32 0x3F800000#32),
    StableHlo.unary main_cst_23 main_v81 (broadcastInDim S500000x1 ![] bcast_S_S500000x1),
    StableHlo.nullary main_cst_24 (constant S_ .f32 0x00000000#32),
    StableHlo.unary main_cst_24 main_v82 (broadcastInDim S100000x1 ![] bcast_S_S100000x1),
    StableHlo.unary main_arg8 main_v83 (broadcastInDim S500000x1 ![0] bcast_S500000_S500000x1_0),
    StableHlo.ternary main_v82 main_v83 main_v81 main_v84 (fun x i u => Host.scatterAdd scatter_S100000x1_S500000x1_S500000x1_1_0_0_1 x i u),
    StableHlo.nullary main_cst_25 (constant S_ .f32 0x3F800000#32),
    StableHlo.unary main_cst_25 main_v85 (broadcastInDim S100000x1 ![] bcast_S_S100000x1),
    StableHlo.binary main_v84 main_v85 main_v86 maximumf,
    StableHlo.unary main_v86 main_v87 (broadcastInDim S100000x16 ![0, 1] bcast_S100000x1_S100000x16_0_1),
    StableHlo.binary main_v80 main_v87 main_v88 Host.divf,
    StableHlo.unary main_arg9 main_v89 (extractStridedSlice S1x1x16x64 ![2, 1, 0, 0] · slices_S3x2x16x64_S1x1x16x64_2_1_0_0),
    StableHlo.reshape main_v89 main_v90 rfl shapeCasts_S1x1x16x64_S16x64,
    StableHlo.binary main_v88 main_v90 main_v91 (fun l r => Host.dotGeneral dot_S100000x16_S16x64_S100000x64_1_0_0_1_n_n none l r),
    StableHlo.binary main_v62 main_v91 main_v92 addf ]

abbrev seg2 : List (HloOp τ sig (Elt F)) :=
  [ StableHlo.TRef.nullary main_call0.cst (constant S_ .f32 0x00000000#32),
    StableHlo.TRef.unary main_call0.cst main_call0.v0 (broadcastInDim S100000x64 ![] bcast_S_S100000x64),
    StableHlo.TRef.binary (.of main_v77) main_call0.v0 main_call0.v1 maximumf,
    StableHlo.nullary main_cst_26 (constant S_ .f32 0x00000000#32),
    StableHlo.binary main_v93 main_cst_26 main_v94 (fun x v => Host.reduceAdd x v reducesTo_S100000x64_S64_d0 h_S_),
    StableHlo.unary main_v94 main_v95 (broadcastInDim S1x64 ![1] bcast_S64_S1x64_1),
    StableHlo.nullary main_cst_27 (constant S_ .f32 0x47C35000#32),
    StableHlo.unary main_cst_27 main_v96 (broadcastInDim S1x64 ![] bcast_S_S1x64),
    StableHlo.binary main_v95 main_v96 main_v97 Host.divf,
    StableHlo.nullary main_c (constantI S_ 32 0#32),
    StableHlo.TRef.nullary main_call1.cst (constant S_ .f32 0x00000000#32),
    StableHlo.TRef.binary (.of main_v93) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v93) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v9 main_call1.v10 (broadcastInDim S1x64 ![1] bcast_S64_S1x64_1),
    StableHlo.TRef.unary main_call1.v8 main_call1.v11 (broadcastInDim S1x64 ![] bcast_S_S1x64),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x64 ![] bcast_S_S1x64),
    StableHlo.TRef.ternary main_call1.v13 main_call1.v12 main_call1.call0.v1 main_call1.call0.v2 (fun p a b => select (broadcastInDim S1x64 ![] bcast_S_S1x64 p) a b),
    StableHlo.unary main_v97 main_v99 (broadcastInDim S100000x64 ![0, 1] bcast_S1x64_S100000x64_0_1),
    StableHlo.binary main_v93 main_v99 main_v100 subf,
    StableHlo.nullary main_cst_28 (constant S_ .f32 0x3727C5AC#32),
    StableHlo.unary main_cst_28 main_v101 (broadcastInDim S1x64 ![] bcast_S_S1x64),
    StableHlo.binary main_v98 main_v101 main_v102 addf,
    StableHlo.unary main_v102 main_v103 Host.sqrt,
    StableHlo.unary main_v103 main_v104 (broadcastInDim S100000x64 ![0, 1] bcast_S1x64_S100000x64_0_1),
    StableHlo.binary main_v100 main_v104 main_v105 Host.divf,
    StableHlo.TRef.nullary main_call2.cst (constant S_ .f32 0x00000000#32),
    StableHlo.TRef.unary main_call2.cst main_call2.v0 (broadcastInDim S100000x64 ![] bcast_S_S100000x64),
    StableHlo.TRef.binary (.of main_v47) main_call2.v0 main_call2.v1 maximumf,
    StableHlo.nullary main_cst_29 (constant S_ .f32 0x00000000#32),
    StableHlo.binary main_v106 main_cst_29 main_v107 (fun x v => Host.reduceAdd x v reducesTo_S100000x64_S64_d0 h_S_),
    StableHlo.unary main_v107 main_v108 (broadcastInDim S1x64 ![1] bcast_S64_S1x64_1),
    StableHlo.nullary main_cst_30 (constant S_ .f32 0x47C35000#32),
    StableHlo.unary main_cst_30 main_v109 (broadcastInDim S1x64 ![] bcast_S_S1x64),
    StableHlo.binary main_v108 main_v109 main_v110 Host.divf,
    StableHlo.nullary main_c_31 (constantI S_ 32 0#32),
    StableHlo.TRef.nullary main_call3.cst (constant S_ .f32 0x00000000#32),
    StableHlo.TRef.binary (.of main_v106) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v106) main_call3.v4 main_call3.v5 subf,
    StableHlo.TRef.binary main_call3.v5 main_call3.v5 main_call3.v6 mulf,
    StableHlo.TRef.unary (.of main_c_31) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v9 main_call3.v10 (broadcastInDim S1x64 ![1] bcast_S64_S1x64_1),
    StableHlo.TRef.unary main_call3.v8 main_call3.v11 (broadcastInDim S1x64 ![] bcast_S_S1x64),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x64 ![] bcast_S_S1x64),
    StableHlo.TRef.ternary main_call3.v13 main_call3.v12 main_call3.call0.v1 main_call3.call0.v2 (fun p a b => select (broadcastInDim S1x64 ![] bcast_S_S1x64 p) a b),
    StableHlo.unary main_v110 main_v112 (broadcastInDim S100000x64 ![0, 1] bcast_S1x64_S100000x64_0_1),
    StableHlo.binary main_v106 main_v112 main_v113 subf,
    StableHlo.nullary main_cst_32 (constant S_ .f32 0x3727C5AC#32),
    StableHlo.unary main_cst_32 main_v114 (broadcastInDim S1x64 ![] bcast_S_S1x64),
    StableHlo.binary main_v111 main_v114 main_v115 addf,
    StableHlo.unary main_v115 main_v116 Host.sqrt,
    StableHlo.unary main_v116 main_v117 (broadcastInDim S100000x64 ![0, 1] bcast_S1x64_S100000x64_0_1),
    StableHlo.binary main_v113 main_v117 main_v118 Host.divf,
    StableHlo.TRef.nullary main_call4.cst (constant S_ .f32 0x00000000#32),
    StableHlo.TRef.unary main_call4.cst main_call4.v0 (broadcastInDim S100000x64 ![] bcast_S_S100000x64),
    StableHlo.TRef.binary (.of main_v92) main_call4.v0 main_call4.v1 maximumf,
    StableHlo.nullary main_cst_33 (constant S_ .f32 0x00000000#32),
    StableHlo.binary main_v119 main_cst_33 main_v120 (fun x v => Host.reduceAdd x v reducesTo_S100000x64_S64_d0 h_S_),
    StableHlo.unary main_v120 main_v121 (broadcastInDim S1x64 ![1] bcast_S64_S1x64_1),
    StableHlo.nullary main_cst_34 (constant S_ .f32 0x47C35000#32),
    StableHlo.unary main_cst_34 main_v122 (broadcastInDim S1x64 ![] bcast_S_S1x64),
    StableHlo.binary main_v121 main_v122 main_v123 Host.divf,
    StableHlo.nullary main_c_35 (constantI S_ 32 0#32),
    StableHlo.TRef.nullary main_call5.cst (constant S_ .f32 0x00000000#32),
    StableHlo.TRef.binary (.of main_v119) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v119) main_call5.v4 main_call5.v5 subf,
    StableHlo.TRef.binary main_call5.v5 main_call5.v5 main_call5.v6 mulf,
    StableHlo.TRef.unary (.of main_c_35) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v9 main_call5.v10 (broadcastInDim S1x64 ![1] bcast_S64_S1x64_1),
    StableHlo.TRef.unary main_call5.v8 main_call5.v11 (broadcastInDim S1x64 ![] bcast_S_S1x64),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S1x64 ![] bcast_S_S1x64),
    StableHlo.TRef.ternary main_call5.v13 main_call5.v12 main_call5.call0.v1 main_call5.call0.v2 (fun p a b => select (broadcastInDim S1x64 ![] bcast_S_S1x64 p) a b),
    StableHlo.unary main_v123 main_v125 (broadcastInDim S100000x64 ![0, 1] bcast_S1x64_S100000x64_0_1),
    StableHlo.binary main_v119 main_v125 main_v126 subf,
    StableHlo.nullary main_cst_36 (constant S_ .f32 0x3727C5AC#32),
    StableHlo.unary main_cst_36 main_v127 (broadcastInDim S1x64 ![] bcast_S_S1x64),
    StableHlo.binary main_v124 main_v127 main_v128 addf,
    StableHlo.unary main_v128 main_v129 Host.sqrt,
    StableHlo.unary main_v129 main_v130 (broadcastInDim S100000x64 ![0, 1] bcast_S1x64_S100000x64_0_1),
    StableHlo.binary main_v126 main_v130 main_v131 Host.divf ]

abbrev seg3 : List (HloOp τ sig (Elt F)) :=
  [ StableHlo.nullary main_c_37 (constantI S_ 32 0#32),
    StableHlo.unary main_c_37 main_v132 (broadcastInDim S500000 ![] bcast_S_S500000),
    StableHlo.binary main_arg3 main_v132 main_v133 (cmpi .slt),
    StableHlo.nullary main_c_38 (constantI S_ 32 100000#32),
    StableHlo.unary main_c_38 main_v134 (broadcastInDim S500000 ![] bcast_S_S500000),
    StableHlo.binary main_arg3 main_v134 main_v135 (addi),
    StableHlo.ternary main_v133 main_v135 main_arg3 main_v136 (select),
    StableHlo.unary main_v136 main_v137 (broadcastInDim S500000x1 ![0] bcast_S500000_S500000x1_0),
    StableHlo.binary main_v105 main_v137 main_v138 (fun x i => Host.gather gather_S100000x64_S500000x1_S500000x64_1_0_n_n_0_1_164 x i) ]

abbrev seg4 : List (HloOp τ sig (Elt F)) :=
  [ StableHlo.unary main_arg12 main_v139 (extractStridedSlice S1x1x64x64 ![0, 0, 0, 0] · slices_S3x2x64x64_S1x1x64x64_0_0_0_0),
    StableHlo.reshape main_v139 main_v140 rfl shapeCasts_S1x1x64x64_S64x64,
    StableHlo.binary main_v138 main_v140 main_v141 (fun l r => Host.dotGeneral dot_S500000x64_S64x64_S500000x64_1_0_0_1_n_n none l r),
    StableHlo.nullary main_c_39 (constantI S_ 32 0#32),
    StableHlo.unary main_c_39 main_v142 (broadcastInDim S500000 ![] bcast_S_S500000),
    StableHlo.binary main_arg4 main_v142 main_v143 (cmpi .slt),
    StableHlo.nullary main_c_40 (constantI S_ 32 100000#32),
    StableHlo.unary main_c_40 main_v144 (broadcastInDim S500000 ![] bcast_S_S500000),
    StableHlo.binary main_arg4 main_v144 main_v145 (addi),
    StableHlo.ternary main_v143 main_v145 main_arg4 main_v146 (select),
    StableHlo.unary main_v146 main_v147 (broadcastInDim S500000x1 ![0] bcast_S500000_S500000x1_0),
    StableHlo.binary main_v118 main_v147 main_v148 (fun x i => Host.gather gather_S100000x64_S500000x1_S500000x64_1_0_n_n_0_1_164 x i),
    StableHlo.unary main_arg12 main_v149 (extractStridedSlice S1x1x64x64 ![0, 1, 0, 0] · slices_S3x2x64x64_S1x1x64x64_0_1_0_0),
    StableHlo.reshape main_v149 main_v150 rfl shapeCasts_S1x1x64x64_S64x64,
    StableHlo.binary main_v148 main_v150 main_v151 (fun l r => Host.dotGeneral dot_S500000x64_S64x64_S500000x64_1_0_0_1_n_n none l r),
    StableHlo.binary main_v141 main_v151 main_v152 addf,
    StableHlo.nullary main_c_41 (constantI S_ 32 0#32),
    StableHlo.unary main_c_41 main_v153 (broadcastInDim S500000 ![] bcast_S_S500000),
    StableHlo.binary main_arg5 main_v153 main_v154 (cmpi .slt),
    StableHlo.nullary main_c_42 (constantI S_ 32 100000#32),
    StableHlo.unary main_c_42 main_v155 (broadcastInDim S500000 ![] bcast_S_S500000),
    StableHlo.binary main_arg5 main_v155 main_v156 (addi),
    StableHlo.ternary main_v154 main_v156 main_arg5 main_v157 (select),
    StableHlo.unary main_v157 main_v158 (broadcastInDim S500000x1 ![0] bcast_S500000_S500000x1_0),
    StableHlo.binary main_v118 main_v158 main_v159 (fun x i => Host.gather gather_S100000x64_S500000x1_S500000x64_1_0_n_n_0_1_164 x i),
    StableHlo.unary main_arg12 main_v160 (extractStridedSlice S1x1x64x64 ![1, 0, 0, 0] · slices_S3x2x64x64_S1x1x64x64_1_0_0_0),
    StableHlo.reshape main_v160 main_v161 rfl shapeCasts_S1x1x64x64_S64x64,
    StableHlo.binary main_v159 main_v161 main_v162 (fun l r => Host.dotGeneral dot_S500000x64_S64x64_S500000x64_1_0_0_1_n_n none l r),
    StableHlo.nullary main_c_43 (constantI S_ 32 0#32),
    StableHlo.unary main_c_43 main_v163 (broadcastInDim S500000 ![] bcast_S_S500000),
    StableHlo.binary main_arg6 main_v163 main_v164 (cmpi .slt),
    StableHlo.nullary main_c_44 (constantI S_ 32 100000#32),
    StableHlo.unary main_c_44 main_v165 (broadcastInDim S500000 ![] bcast_S_S500000),
    StableHlo.binary main_arg6 main_v165 main_v166 (addi),
    StableHlo.ternary main_v164 main_v166 main_arg6 main_v167 (select),
    StableHlo.unary main_v167 main_v168 (broadcastInDim S500000x1 ![0] bcast_S500000_S500000x1_0),
    StableHlo.binary main_v131 main_v168 main_v169 (fun x i => Host.gather gather_S100000x64_S500000x1_S500000x64_1_0_n_n_0_1_164 x i),
    StableHlo.unary main_arg12 main_v170 (extractStridedSlice S1x1x64x64 ![1, 1, 0, 0] · slices_S3x2x64x64_S1x1x64x64_1_1_0_0),
    StableHlo.reshape main_v170 main_v171 rfl shapeCasts_S1x1x64x64_S64x64,
    StableHlo.binary main_v169 main_v171 main_v172 (fun l r => Host.dotGeneral dot_S500000x64_S64x64_S500000x64_1_0_0_1_n_n none l r),
    StableHlo.binary main_v162 main_v172 main_v173 addf,
    StableHlo.nullary main_c_45 (constantI S_ 32 0#32),
    StableHlo.unary main_c_45 main_v174 (broadcastInDim S500000 ![] bcast_S_S500000),
    StableHlo.binary main_arg7 main_v174 main_v175 (cmpi .slt),
    StableHlo.nullary main_c_46 (constantI S_ 32 100000#32),
    StableHlo.unary main_c_46 main_v176 (broadcastInDim S500000 ![] bcast_S_S500000),
    StableHlo.binary main_arg7 main_v176 main_v177 (addi),
    StableHlo.ternary main_v175 main_v177 main_arg7 main_v178 (select),
    StableHlo.unary main_v178 main_v179 (broadcastInDim S500000x1 ![0] bcast_S500000_S500000x1_0),
    StableHlo.binary main_v105 main_v179 main_v180 (fun x i => Host.gather gather_S100000x64_S500000x1_S500000x64_1_0_n_n_0_1_164 x i),
    StableHlo.unary main_arg12 main_v181 (extractStridedSlice S1x1x64x64 ![2, 0, 0, 0] · slices_S3x2x64x64_S1x1x64x64_2_0_0_0),
    StableHlo.reshape main_v181 main_v182 rfl shapeCasts_S1x1x64x64_S64x64,
    StableHlo.binary main_v180 main_v182 main_v183 (fun l r => Host.dotGeneral dot_S500000x64_S64x64_S500000x64_1_0_0_1_n_n none l r),
    StableHlo.nullary main_c_47 (constantI S_ 32 0#32),
    StableHlo.unary main_c_47 main_v184 (broadcastInDim S500000 ![] bcast_S_S500000),
    StableHlo.binary main_arg8 main_v184 main_v185 (cmpi .slt),
    StableHlo.nullary main_c_48 (constantI S_ 32 100000#32),
    StableHlo.unary main_c_48 main_v186 (broadcastInDim S500000 ![] bcast_S_S500000),
    StableHlo.binary main_arg8 main_v186 main_v187 (addi),
    StableHlo.ternary main_v185 main_v187 main_arg8 main_v188 (select) ]

abbrev seg5 : List (HloOp τ sig (Elt F)) :=
  [ StableHlo.unary main_v188 main_v189 (broadcastInDim S500000x1 ![0] bcast_S500000_S500000x1_0),
    StableHlo.binary main_v131 main_v189 main_v190 (fun x i => Host.gather gather_S100000x64_S500000x1_S500000x64_1_0_n_n_0_1_164 x i),
    StableHlo.unary main_arg12 main_v191 (extractStridedSlice S1x1x64x64 ![2, 1, 0, 0] · slices_S3x2x64x64_S1x1x64x64_2_1_0_0),
    StableHlo.reshape main_v191 main_v192 rfl shapeCasts_S1x1x64x64_S64x64,
    StableHlo.binary main_v190 main_v192 main_v193 (fun l r => Host.dotGeneral dot_S500000x64_S64x64_S500000x64_1_0_0_1_n_n none l r),
    StableHlo.binary main_v183 main_v193 main_v194 addf,
    StableHlo.TRef.nullary main_call6.cst (constant S_ .f32 0x00000000#32),
    StableHlo.TRef.unary main_call6.cst main_call6.v0 (broadcastInDim S500000x64 ![] bcast_S_S500000x64),
    StableHlo.TRef.binary (.of main_v152) main_call6.v0 main_call6.v1 maximumf,
    StableHlo.TRef.nullary main_call7.cst (constant S_ .f32 0x00000000#32),
    StableHlo.TRef.unary main_call7.cst main_call7.v0 (broadcastInDim S500000x64 ![] bcast_S_S500000x64),
    StableHlo.TRef.binary (.of main_v173) main_call7.v0 main_call7.v1 maximumf,
    StableHlo.TRef.nullary main_call8.cst (constant S_ .f32 0x00000000#32),
    StableHlo.TRef.unary main_call8.cst main_call8.v0 (broadcastInDim S500000x64 ![] bcast_S_S500000x64),
    StableHlo.TRef.binary (.of main_v194) main_call8.v0 main_call8.v1 maximumf ]

abbrev seg6 : List (HloOp τ sig (Elt F)) :=
  [ StableHlo.nullary main_cst_49 (constant S_ .f32 0x00000000#32),
    StableHlo.unary main_cst_49 main_v198 (broadcastInDim S100000x64 ![] bcast_S_S100000x64),
    StableHlo.nullary main_cst_50 (constant S_ .f32 0x00000000#32),
    StableHlo.unary main_cst_50 main_v199 (broadcastInDim S100000x64 ![] bcast_S_S100000x64),
    StableHlo.nullary main_cst_51 (constant S_ .f32 0x00000000#32),
    StableHlo.unary main_cst_51 main_v200 (broadcastInDim S100000x64 ![] bcast_S_S100000x64),
    StableHlo.nullary main_cst_52 (constant S_ .f32 0x00000000#32),
    StableHlo.unary main_cst_52 main_v201 (broadcastInDim S100000x64 ![] bcast_S_S100000x64),
    StableHlo.unary main_arg3 main_v202 (broadcastInDim S500000x1 ![0] bcast_S500000_S500000x1_0),
    StableHlo.ternary main_v201 main_v202 main_v195 main_v203 (fun x i u => Host.scatterAdd scatter_S100000x64_S500000x1_S500000x64_1_0_0_1 x i u),
    StableHlo.nullary main_cst_53 (constant S_ .f32 0x3F800000#32),
    StableHlo.unary main_cst_53 main_v204 (broadcastInDim S500000x1 ![] bcast_S_S500000x1),
    StableHlo.nullary main_cst_54 (constant S_ .f32 0x00000000#32),
    StableHlo.unary main_cst_54 main_v205 (broadcastInDim S100000x1 ![] bcast_S_S100000x1),
    StableHlo.unary main_arg3 main_v206 (broadcastInDim S500000x1 ![0] bcast_S500000_S500000x1_0),
    StableHlo.ternary main_v205 main_v206 main_v204 main_v207 (fun x i u => Host.scatterAdd scatter_S100000x1_S500000x1_S500000x1_1_0_0_1 x i u),
    StableHlo.nullary main_cst_55 (constant S_ .f32 0x3F800000#32),
    StableHlo.unary main_cst_55 main_v208 (broadcastInDim S100000x1 ![] bcast_S_S100000x1),
    StableHlo.binary main_v207 main_v208 main_v209 maximumf,
    StableHlo.unary main_v209 main_v210 (broadcastInDim S100000x64 ![0, 1] bcast_S100000x1_S100000x64_0_1),
    StableHlo.binary main_v203 main_v210 main_v211 Host.divf,
    StableHlo.unary main_arg10 main_v212 (extractStridedSlice S1x1x64x64 ![0, 0, 0, 0] · slices_S3x2x64x64_S1x1x64x64_0_0_0_0),
    StableHlo.reshape main_v212 main_v213 rfl shapeCasts_S1x1x64x64_S64x64,
    StableHlo.binary main_v211 main_v213 main_v214 (fun l r => Host.dotGeneral dot_S100000x64_S64x64_S100000x64_1_0_0_1_n_n none l r),
    StableHlo.binary main_v198 main_v214 main_v215 addf,
    StableHlo.nullary main_cst_56 (constant S_ .f32 0x00000000#32),
    StableHlo.unary main_cst_56 main_v216 (broadcastInDim S100000x64 ![] bcast_S_S100000x64),
    StableHlo.unary main_arg4 main_v217 (broadcastInDim S500000x1 ![0] bcast_S500000_S500000x1_0),
    StableHlo.ternary main_v216 main_v217 main_v195 main_v218 (fun x i u => Host.scatterAdd scatter_S100000x64_S500000x1_S500000x64_1_0_0_1 x i u),
    StableHlo.nullary main_cst_57 (constant S_ .f32 0x3F800000#32),
    StableHlo.unary main_cst_57 main_v219 (broadcastInDim S500000x1 ![] bcast_S_S500000x1),
    StableHlo.nullary main_cst_58 (constant S_ .f32 0x00000000#32),
    StableHlo.unary main_cst_58 main_v220 (broadcastInDim S100000x1 ![] bcast_S_S100000x1),
    StableHlo.unary main_arg4 main_v221 (broadcastInDim S500000x1 ![0] bcast_S500000_S500000x1_0),
    StableHlo.ternary main_v220 main_v221 main_v219 main_v222 (fun x i u => Host.scatterAdd scatter_S100000x1_S500000x1_S500000x1_1_0_0_1 x i u),
    StableHlo.nullary main_cst_59 (constant S_ .f32 0x3F800000#32),
    StableHlo.unary main_cst_59 main_v223 (broadcastInDim S100000x1 ![] bcast_S_S100000x1),
    StableHlo.binary main_v222 main_v223 main_v224 maximumf,
    StableHlo.unary main_v224 main_v225 (broadcastInDim S100000x64 ![0, 1] bcast_S100000x1_S100000x64_0_1),
    StableHlo.binary main_v218 main_v225 main_v226 Host.divf,
    StableHlo.unary main_arg10 main_v227 (extractStridedSlice S1x1x64x64 ![0, 1, 0, 0] · slices_S3x2x64x64_S1x1x64x64_0_1_0_0),
    StableHlo.reshape main_v227 main_v228 rfl shapeCasts_S1x1x64x64_S64x64,
    StableHlo.binary main_v226 main_v228 main_v229 (fun l r => Host.dotGeneral dot_S100000x64_S64x64_S100000x64_1_0_0_1_n_n none l r),
    StableHlo.binary main_v199 main_v229 main_v230 addf,
    StableHlo.nullary main_cst_60 (constant S_ .f32 0x00000000#32),
    StableHlo.unary main_cst_60 main_v231 (broadcastInDim S100000x64 ![] bcast_S_S100000x64),
    StableHlo.unary main_arg5 main_v232 (broadcastInDim S500000x1 ![0] bcast_S500000_S500000x1_0),
    StableHlo.ternary main_v231 main_v232 main_v196 main_v233 (fun x i u => Host.scatterAdd scatter_S100000x64_S500000x1_S500000x64_1_0_0_1 x i u),
    StableHlo.nullary main_cst_61 (constant S_ .f32 0x3F800000#32),
    StableHlo.unary main_cst_61 main_v234 (broadcastInDim S500000x1 ![] bcast_S_S500000x1),
    StableHlo.nullary main_cst_62 (constant S_ .f32 0x00000000#32) ]

abbrev seg7 : List (HloOp τ sig (Elt F)) :=
  [ StableHlo.unary main_cst_62 main_v235 (broadcastInDim S100000x1 ![] bcast_S_S100000x1),
    StableHlo.unary main_arg5 main_v236 (broadcastInDim S500000x1 ![0] bcast_S500000_S500000x1_0),
    StableHlo.ternary main_v235 main_v236 main_v234 main_v237 (fun x i u => Host.scatterAdd scatter_S100000x1_S500000x1_S500000x1_1_0_0_1 x i u),
    StableHlo.nullary main_cst_63 (constant S_ .f32 0x3F800000#32),
    StableHlo.unary main_cst_63 main_v238 (broadcastInDim S100000x1 ![] bcast_S_S100000x1),
    StableHlo.binary main_v237 main_v238 main_v239 maximumf,
    StableHlo.unary main_v239 main_v240 (broadcastInDim S100000x64 ![0, 1] bcast_S100000x1_S100000x64_0_1),
    StableHlo.binary main_v233 main_v240 main_v241 Host.divf,
    StableHlo.unary main_arg10 main_v242 (extractStridedSlice S1x1x64x64 ![1, 0, 0, 0] · slices_S3x2x64x64_S1x1x64x64_1_0_0_0),
    StableHlo.reshape main_v242 main_v243 rfl shapeCasts_S1x1x64x64_S64x64,
    StableHlo.binary main_v241 main_v243 main_v244 (fun l r => Host.dotGeneral dot_S100000x64_S64x64_S100000x64_1_0_0_1_n_n none l r),
    StableHlo.binary main_v230 main_v244 main_v245 addf,
    StableHlo.nullary main_cst_64 (constant S_ .f32 0x00000000#32),
    StableHlo.unary main_cst_64 main_v246 (broadcastInDim S100000x64 ![] bcast_S_S100000x64),
    StableHlo.unary main_arg6 main_v247 (broadcastInDim S500000x1 ![0] bcast_S500000_S500000x1_0),
    StableHlo.ternary main_v246 main_v247 main_v196 main_v248 (fun x i u => Host.scatterAdd scatter_S100000x64_S500000x1_S500000x64_1_0_0_1 x i u),
    StableHlo.nullary main_cst_65 (constant S_ .f32 0x3F800000#32),
    StableHlo.unary main_cst_65 main_v249 (broadcastInDim S500000x1 ![] bcast_S_S500000x1),
    StableHlo.nullary main_cst_66 (constant S_ .f32 0x00000000#32),
    StableHlo.unary main_cst_66 main_v250 (broadcastInDim S100000x1 ![] bcast_S_S100000x1),
    StableHlo.unary main_arg6 main_v251 (broadcastInDim S500000x1 ![0] bcast_S500000_S500000x1_0),
    StableHlo.ternary main_v250 main_v251 main_v249 main_v252 (fun x i u => Host.scatterAdd scatter_S100000x1_S500000x1_S500000x1_1_0_0_1 x i u),
    StableHlo.nullary main_cst_67 (constant S_ .f32 0x3F800000#32),
    StableHlo.unary main_cst_67 main_v253 (broadcastInDim S100000x1 ![] bcast_S_S100000x1),
    StableHlo.binary main_v252 main_v253 main_v254 maximumf,
    StableHlo.unary main_v254 main_v255 (broadcastInDim S100000x64 ![0, 1] bcast_S100000x1_S100000x64_0_1),
    StableHlo.binary main_v248 main_v255 main_v256 Host.divf,
    StableHlo.unary main_arg10 main_v257 (extractStridedSlice S1x1x64x64 ![1, 1, 0, 0] · slices_S3x2x64x64_S1x1x64x64_1_1_0_0),
    StableHlo.reshape main_v257 main_v258 rfl shapeCasts_S1x1x64x64_S64x64,
    StableHlo.binary main_v256 main_v258 main_v259 (fun l r => Host.dotGeneral dot_S100000x64_S64x64_S100000x64_1_0_0_1_n_n none l r),
    StableHlo.binary main_v200 main_v259 main_v260 addf,
    StableHlo.nullary main_cst_68 (constant S_ .f32 0x00000000#32),
    StableHlo.unary main_cst_68 main_v261 (broadcastInDim S100000x64 ![] bcast_S_S100000x64),
    StableHlo.unary main_arg7 main_v262 (broadcastInDim S500000x1 ![0] bcast_S500000_S500000x1_0),
    StableHlo.ternary main_v261 main_v262 main_v197 main_v263 (fun x i u => Host.scatterAdd scatter_S100000x64_S500000x1_S500000x64_1_0_0_1 x i u),
    StableHlo.nullary main_cst_69 (constant S_ .f32 0x3F800000#32),
    StableHlo.unary main_cst_69 main_v264 (broadcastInDim S500000x1 ![] bcast_S_S500000x1),
    StableHlo.nullary main_cst_70 (constant S_ .f32 0x00000000#32),
    StableHlo.unary main_cst_70 main_v265 (broadcastInDim S100000x1 ![] bcast_S_S100000x1),
    StableHlo.unary main_arg7 main_v266 (broadcastInDim S500000x1 ![0] bcast_S500000_S500000x1_0),
    StableHlo.ternary main_v265 main_v266 main_v264 main_v267 (fun x i u => Host.scatterAdd scatter_S100000x1_S500000x1_S500000x1_1_0_0_1 x i u),
    StableHlo.nullary main_cst_71 (constant S_ .f32 0x3F800000#32),
    StableHlo.unary main_cst_71 main_v268 (broadcastInDim S100000x1 ![] bcast_S_S100000x1),
    StableHlo.binary main_v267 main_v268 main_v269 maximumf,
    StableHlo.unary main_v269 main_v270 (broadcastInDim S100000x64 ![0, 1] bcast_S100000x1_S100000x64_0_1),
    StableHlo.binary main_v263 main_v270 main_v271 Host.divf,
    StableHlo.unary main_arg10 main_v272 (extractStridedSlice S1x1x64x64 ![2, 0, 0, 0] · slices_S3x2x64x64_S1x1x64x64_2_0_0_0),
    StableHlo.reshape main_v272 main_v273 rfl shapeCasts_S1x1x64x64_S64x64,
    StableHlo.binary main_v271 main_v273 main_v274 (fun l r => Host.dotGeneral dot_S100000x64_S64x64_S100000x64_1_0_0_1_n_n none l r),
    StableHlo.binary main_v215 main_v274 main_v275 addf,
    StableHlo.nullary main_cst_72 (constant S_ .f32 0x00000000#32),
    StableHlo.unary main_cst_72 main_v276 (broadcastInDim S100000x64 ![] bcast_S_S100000x64),
    StableHlo.unary main_arg8 main_v277 (broadcastInDim S500000x1 ![0] bcast_S500000_S500000x1_0),
    StableHlo.ternary main_v276 main_v277 main_v197 main_v278 (fun x i u => Host.scatterAdd scatter_S100000x64_S500000x1_S500000x64_1_0_0_1 x i u),
    StableHlo.nullary main_cst_73 (constant S_ .f32 0x3F800000#32),
    StableHlo.unary main_cst_73 main_v279 (broadcastInDim S500000x1 ![] bcast_S_S500000x1),
    StableHlo.nullary main_cst_74 (constant S_ .f32 0x00000000#32),
    StableHlo.unary main_cst_74 main_v280 (broadcastInDim S100000x1 ![] bcast_S_S100000x1),
    StableHlo.unary main_arg8 main_v281 (broadcastInDim S500000x1 ![0] bcast_S500000_S500000x1_0),
    StableHlo.ternary main_v280 main_v281 main_v279 main_v282 (fun x i u => Host.scatterAdd scatter_S100000x1_S500000x1_S500000x1_1_0_0_1 x i u) ]

abbrev seg8 : List (HloOp τ sig (Elt F)) :=
  [ StableHlo.nullary main_cst_75 (constant S_ .f32 0x3F800000#32),
    StableHlo.unary main_cst_75 main_v283 (broadcastInDim S100000x1 ![] bcast_S_S100000x1),
    StableHlo.binary main_v282 main_v283 main_v284 maximumf,
    StableHlo.unary main_v284 main_v285 (broadcastInDim S100000x64 ![0, 1] bcast_S100000x1_S100000x64_0_1),
    StableHlo.binary main_v278 main_v285 main_v286 Host.divf,
    StableHlo.unary main_arg10 main_v287 (extractStridedSlice S1x1x64x64 ![2, 1, 0, 0] · slices_S3x2x64x64_S1x1x64x64_2_1_0_0),
    StableHlo.reshape main_v287 main_v288 rfl shapeCasts_S1x1x64x64_S64x64,
    StableHlo.binary main_v286 main_v288 main_v289 (fun l r => Host.dotGeneral dot_S100000x64_S64x64_S100000x64_1_0_0_1_n_n none l r),
    StableHlo.binary main_v260 main_v289 main_v290 addf ]

abbrev seg9 : List (HloOp τ sig (Elt F)) :=
  [ StableHlo.TRef.nullary main_call9.cst (constant S_ .f32 0x00000000#32),
    StableHlo.TRef.unary main_call9.cst main_call9.v0 (broadcastInDim S100000x64 ![] bcast_S_S100000x64),
    StableHlo.TRef.binary (.of main_v275) main_call9.v0 main_call9.v1 maximumf,
    StableHlo.nullary main_cst_76 (constant S_ .f32 0x00000000#32),
    StableHlo.binary main_v291 main_cst_76 main_v292 (fun x v => Host.reduceAdd x v reducesTo_S100000x64_S64_d0 h_S_),
    StableHlo.unary main_v292 main_v293 (broadcastInDim S1x64 ![1] bcast_S64_S1x64_1),
    StableHlo.nullary main_cst_77 (constant S_ .f32 0x47C35000#32),
    StableHlo.unary main_cst_77 main_v294 (broadcastInDim S1x64 ![] bcast_S_S1x64),
    StableHlo.binary main_v293 main_v294 main_v295 Host.divf,
    StableHlo.nullary main_c_78 (constantI S_ 32 0#32),
    StableHlo.TRef.nullary main_call10.cst (constant S_ .f32 0x00000000#32),
    StableHlo.TRef.binary (.of main_v291) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v291) main_call10.v4 main_call10.v5 subf,
    StableHlo.TRef.binary main_call10.v5 main_call10.v5 main_call10.v6 mulf,
    StableHlo.TRef.unary (.of main_c_78) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v9 main_call10.v10 (broadcastInDim S1x64 ![1] bcast_S64_S1x64_1),
    StableHlo.TRef.unary main_call10.v8 main_call10.v11 (broadcastInDim S1x64 ![] bcast_S_S1x64),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S1x64 ![] bcast_S_S1x64),
    StableHlo.TRef.ternary main_call10.v13 main_call10.v12 main_call10.call0.v1 main_call10.call0.v2 (fun p a b => select (broadcastInDim S1x64 ![] bcast_S_S1x64 p) a b),
    StableHlo.unary main_v295 main_v297 (broadcastInDim S100000x64 ![0, 1] bcast_S1x64_S100000x64_0_1),
    StableHlo.binary main_v291 main_v297 main_v298 subf,
    StableHlo.nullary main_cst_79 (constant S_ .f32 0x3727C5AC#32),
    StableHlo.unary main_cst_79 main_v299 (broadcastInDim S1x64 ![] bcast_S_S1x64),
    StableHlo.binary main_v296 main_v299 main_v300 addf,
    StableHlo.unary main_v300 main_v301 Host.sqrt,
    StableHlo.unary main_v301 main_v302 (broadcastInDim S100000x64 ![0, 1] bcast_S1x64_S100000x64_0_1),
    StableHlo.binary main_v298 main_v302 main_v303 Host.divf,
    StableHlo.TRef.nullary main_call11.cst (constant S_ .f32 0x00000000#32),
    StableHlo.TRef.unary main_call11.cst main_call11.v0 (broadcastInDim S100000x64 ![] bcast_S_S100000x64),
    StableHlo.TRef.binary (.of main_v245) main_call11.v0 main_call11.v1 maximumf,
    StableHlo.nullary main_cst_80 (constant S_ .f32 0x00000000#32),
    StableHlo.binary main_v304 main_cst_80 main_v305 (fun x v => Host.reduceAdd x v reducesTo_S100000x64_S64_d0 h_S_),
    StableHlo.unary main_v305 main_v306 (broadcastInDim S1x64 ![1] bcast_S64_S1x64_1),
    StableHlo.nullary main_cst_81 (constant S_ .f32 0x47C35000#32),
    StableHlo.unary main_cst_81 main_v307 (broadcastInDim S1x64 ![] bcast_S_S1x64),
    StableHlo.binary main_v306 main_v307 main_v308 Host.divf,
    StableHlo.nullary main_c_82 (constantI S_ 32 0#32),
    StableHlo.TRef.nullary main_call12.cst (constant S_ .f32 0x00000000#32),
    StableHlo.TRef.binary (.of main_v304) main_call12.cst main_call12.v0 (fun x v => Host.reduceAdd x v reducesTo_S100000x64_S64_d0 h_S_),
    StableHlo.TRef.unary main_call12.v0 main_call12.v1 (broadcastInDim S1x64 ![1] bcast_S64_S1x64_1),
    StableHlo.TRef.nullary main_call12.cst_0 (constant S_ .f32 0x47C35000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S100000x64 ![0, 1] bcast_S1x64_S100000x64_0_1),
    StableHlo.TRef.binary (.of main_v304) main_call12.v4 main_call12.v5 subf,
    StableHlo.TRef.binary main_call12.v5 main_call12.v5 main_call12.v6 mulf,
    StableHlo.TRef.unary (.of main_c_82) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x64_S64_d0 h_S_),
    StableHlo.TRef.unary main_call12.v9 main_call12.v10 (broadcastInDim S1x64 ![1] bcast_S64_S1x64_1),
    StableHlo.TRef.unary main_call12.v8 main_call12.v11 (broadcastInDim S1x64 ![] bcast_S_S1x64),
    StableHlo.TRef.binary main_call12.v10 main_call12.v11 main_call12.v12 Host.divf,
    StableHlo.TRef.nullary main_call12.cst_3 (constant S_ .f32 0x00000000#32),
    StableHlo.TRef.binary main_call12.v8 main_call12.cst_3 main_call12.v13 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S1x64 ![] bcast_S_S1x64),
    StableHlo.TRef.ternary main_call12.v13 main_call12.v12 main_call12.call0.v1 main_call12.call0.v2 (fun p a b => select (broadcastInDim S1x64 ![] bcast_S_S1x64 p) a b),
    StableHlo.unary main_v308 main_v310 (broadcastInDim S100000x64 ![0, 1] bcast_S1x64_S100000x64_0_1),
    StableHlo.binary main_v304 main_v310 main_v311 subf,
    StableHlo.nullary main_cst_83 (constant S_ .f32 0x3727C5AC#32),
    StableHlo.unary main_cst_83 main_v312 (broadcastInDim S1x64 ![] bcast_S_S1x64),
    StableHlo.binary main_v309 main_v312 main_v313 addf,
    StableHlo.unary main_v313 main_v314 Host.sqrt,
    StableHlo.unary main_v314 main_v315 (broadcastInDim S100000x64 ![0, 1] bcast_S1x64_S100000x64_0_1),
    StableHlo.binary main_v311 main_v315 main_v316 Host.divf,
    StableHlo.TRef.nullary main_call13.cst (constant S_ .f32 0x00000000#32),
    StableHlo.TRef.unary main_call13.cst main_call13.v0 (broadcastInDim S100000x64 ![] bcast_S_S100000x64),
    StableHlo.TRef.binary (.of main_v290) main_call13.v0 main_call13.v1 maximumf,
    StableHlo.nullary main_cst_84 (constant S_ .f32 0x00000000#32),
    StableHlo.binary main_v317 main_cst_84 main_v318 (fun x v => Host.reduceAdd x v reducesTo_S100000x64_S64_d0 h_S_),
    StableHlo.unary main_v318 main_v319 (broadcastInDim S1x64 ![1] bcast_S64_S1x64_1),
    StableHlo.nullary main_cst_85 (constant S_ .f32 0x47C35000#32),
    StableHlo.unary main_cst_85 main_v320 (broadcastInDim S1x64 ![] bcast_S_S1x64),
    StableHlo.binary main_v319 main_v320 main_v321 Host.divf,
    StableHlo.nullary main_c_86 (constantI S_ 32 0#32),
    StableHlo.TRef.nullary main_call14.cst (constant S_ .f32 0x00000000#32),
    StableHlo.TRef.binary (.of main_v317) main_call14.cst main_call14.v0 (fun x v => Host.reduceAdd x v reducesTo_S100000x64_S64_d0 h_S_),
    StableHlo.TRef.unary main_call14.v0 main_call14.v1 (broadcastInDim S1x64 ![1] bcast_S64_S1x64_1),
    StableHlo.TRef.nullary main_call14.cst_0 (constant S_ .f32 0x47C35000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S100000x64 ![0, 1] bcast_S1x64_S100000x64_0_1),
    StableHlo.TRef.binary (.of main_v317) main_call14.v4 main_call14.v5 subf,
    StableHlo.TRef.binary main_call14.v5 main_call14.v5 main_call14.v6 mulf,
    StableHlo.TRef.unary (.of main_c_86) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x64_S64_d0 h_S_),
    StableHlo.TRef.unary main_call14.v9 main_call14.v10 (broadcastInDim S1x64 ![1] bcast_S64_S1x64_1),
    StableHlo.TRef.unary main_call14.v8 main_call14.v11 (broadcastInDim S1x64 ![] bcast_S_S1x64),
    StableHlo.TRef.binary main_call14.v10 main_call14.v11 main_call14.v12 Host.divf,
    StableHlo.TRef.nullary main_call14.cst_3 (constant S_ .f32 0x00000000#32),
    StableHlo.TRef.binary main_call14.v8 main_call14.cst_3 main_call14.v13 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S1x64 ![] bcast_S_S1x64),
    StableHlo.TRef.ternary main_call14.v13 main_call14.v12 main_call14.call0.v1 main_call14.call0.v2 (fun p a b => select (broadcastInDim S1x64 ![] bcast_S_S1x64 p) a b),
    StableHlo.unary main_v321 main_v323 (broadcastInDim S100000x64 ![0, 1] bcast_S1x64_S100000x64_0_1),
    StableHlo.binary main_v317 main_v323 main_v324 subf,
    StableHlo.nullary main_cst_87 (constant S_ .f32 0x3727C5AC#32),
    StableHlo.unary main_cst_87 main_v325 (broadcastInDim S1x64 ![] bcast_S_S1x64),
    StableHlo.binary main_v322 main_v325 main_v326 addf,
    StableHlo.unary main_v326 main_v327 Host.sqrt,
    StableHlo.unary main_v327 main_v328 (broadcastInDim S100000x64 ![0, 1] bcast_S1x64_S100000x64_0_1),
    StableHlo.binary main_v324 main_v328 main_v329 Host.divf ]

abbrev seg10 : List (HloOp τ sig (Elt F)) :=
  [ StableHlo.nullary main_c_88 (constantI S_ 32 0#32),
    StableHlo.unary main_c_88 main_v330 (broadcastInDim S500000 ![] bcast_S_S500000),
    StableHlo.binary main_arg3 main_v330 main_v331 (cmpi .slt),
    StableHlo.nullary main_c_89 (constantI S_ 32 100000#32),
    StableHlo.unary main_c_89 main_v332 (broadcastInDim S500000 ![] bcast_S_S500000),
    StableHlo.binary main_arg3 main_v332 main_v333 (addi),
    StableHlo.ternary main_v331 main_v333 main_arg3 main_v334 (select),
    StableHlo.unary main_v334 main_v335 (broadcastInDim S500000x1 ![0] bcast_S500000_S500000x1_0),
    StableHlo.binary main_v303 main_v335 main_v336 (fun x i => Host.gather gather_S100000x64_S500000x1_S500000x64_1_0_n_n_0_1_164 x i),
    StableHlo.unary main_arg13 main_v337 (extractStridedSlice S1x1x64x64 ![0, 0, 0, 0] · slices_S3x2x64x64_S1x1x64x64_0_0_0_0),
    StableHlo.reshape main_v337 main_v338 rfl shapeCasts_S1x1x64x64_S64x64,
    StableHlo.binary main_v336 main_v338 main_v339 (fun l r => Host.dotGeneral dot_S500000x64_S64x64_S500000x64_1_0_0_1_n_n none l r),
    StableHlo.nullary main_c_90 (constantI S_ 32 0#32),
    StableHlo.unary main_c_90 main_v340 (broadcastInDim S500000 ![] bcast_S_S500000),
    StableHlo.binary main_arg4 main_v340 main_v341 (cmpi .slt),
    StableHlo.nullary main_c_91 (constantI S_ 32 100000#32),
    StableHlo.unary main_c_91 main_v342 (broadcastInDim S500000 ![] bcast_S_S500000),
    StableHlo.binary main_arg4 main_v342 main_v343 (addi),
    StableHlo.ternary main_v341 main_v343 main_arg4 main_v344 (select),
    StableHlo.unary main_v344 main_v345 (broadcastInDim S500000x1 ![0] bcast_S500000_S500000x1_0),
    StableHlo.binary main_v316 main_v345 main_v346 (fun x i => Host.gather gather_S100000x64_S500000x1_S500000x64_1_0_n_n_0_1_164 x i),
    StableHlo.unary main_arg13 main_v347 (extractStridedSlice S1x1x64x64 ![0, 1, 0, 0] · slices_S3x2x64x64_S1x1x64x64_0_1_0_0),
    StableHlo.reshape main_v347 main_v348 rfl shapeCasts_S1x1x64x64_S64x64,
    StableHlo.binary main_v346 main_v348 main_v349 (fun l r => Host.dotGeneral dot_S500000x64_S64x64_S500000x64_1_0_0_1_n_n none l r),
    StableHlo.binary main_v339 main_v349 main_v350 addf,
    StableHlo.nullary main_c_92 (constantI S_ 32 0#32),
    StableHlo.unary main_c_92 main_v351 (broadcastInDim S500000 ![] bcast_S_S500000),
    StableHlo.binary main_arg5 main_v351 main_v352 (cmpi .slt),
    StableHlo.nullary main_c_93 (constantI S_ 32 100000#32),
    StableHlo.unary main_c_93 main_v353 (broadcastInDim S500000 ![] bcast_S_S500000),
    StableHlo.binary main_arg5 main_v353 main_v354 (addi),
    StableHlo.ternary main_v352 main_v354 main_arg5 main_v355 (select),
    StableHlo.unary main_v355 main_v356 (broadcastInDim S500000x1 ![0] bcast_S500000_S500000x1_0),
    StableHlo.binary main_v316 main_v356 main_v357 (fun x i => Host.gather gather_S100000x64_S500000x1_S500000x64_1_0_n_n_0_1_164 x i),
    StableHlo.unary main_arg13 main_v358 (extractStridedSlice S1x1x64x64 ![1, 0, 0, 0] · slices_S3x2x64x64_S1x1x64x64_1_0_0_0),
    StableHlo.reshape main_v358 main_v359 rfl shapeCasts_S1x1x64x64_S64x64,
    StableHlo.binary main_v357 main_v359 main_v360 (fun l r => Host.dotGeneral dot_S500000x64_S64x64_S500000x64_1_0_0_1_n_n none l r),
    StableHlo.nullary main_c_94 (constantI S_ 32 0#32),
    StableHlo.unary main_c_94 main_v361 (broadcastInDim S500000 ![] bcast_S_S500000),
    StableHlo.binary main_arg6 main_v361 main_v362 (cmpi .slt),
    StableHlo.nullary main_c_95 (constantI S_ 32 100000#32),
    StableHlo.unary main_c_95 main_v363 (broadcastInDim S500000 ![] bcast_S_S500000),
    StableHlo.binary main_arg6 main_v363 main_v364 (addi),
    StableHlo.ternary main_v362 main_v364 main_arg6 main_v365 (select),
    StableHlo.unary main_v365 main_v366 (broadcastInDim S500000x1 ![0] bcast_S500000_S500000x1_0),
    StableHlo.binary main_v329 main_v366 main_v367 (fun x i => Host.gather gather_S100000x64_S500000x1_S500000x64_1_0_n_n_0_1_164 x i),
    StableHlo.unary main_arg13 main_v368 (extractStridedSlice S1x1x64x64 ![1, 1, 0, 0] · slices_S3x2x64x64_S1x1x64x64_1_1_0_0),
    StableHlo.reshape main_v368 main_v369 rfl shapeCasts_S1x1x64x64_S64x64,
    StableHlo.binary main_v367 main_v369 main_v370 (fun l r => Host.dotGeneral dot_S500000x64_S64x64_S500000x64_1_0_0_1_n_n none l r),
    StableHlo.binary main_v360 main_v370 main_v371 addf,
    StableHlo.nullary main_c_96 (constantI S_ 32 0#32),
    StableHlo.unary main_c_96 main_v372 (broadcastInDim S500000 ![] bcast_S_S500000),
    StableHlo.binary main_arg7 main_v372 main_v373 (cmpi .slt),
    StableHlo.nullary main_c_97 (constantI S_ 32 100000#32),
    StableHlo.unary main_c_97 main_v374 (broadcastInDim S500000 ![] bcast_S_S500000),
    StableHlo.binary main_arg7 main_v374 main_v375 (addi),
    StableHlo.ternary main_v373 main_v375 main_arg7 main_v376 (select),
    StableHlo.unary main_v376 main_v377 (broadcastInDim S500000x1 ![0] bcast_S500000_S500000x1_0),
    StableHlo.binary main_v303 main_v377 main_v378 (fun x i => Host.gather gather_S100000x64_S500000x1_S500000x64_1_0_n_n_0_1_164 x i),
    StableHlo.unary main_arg13 main_v379 (extractStridedSlice S1x1x64x64 ![2, 0, 0, 0] · slices_S3x2x64x64_S1x1x64x64_2_0_0_0) ]

abbrev seg11 : List (HloOp τ sig (Elt F)) :=
  [ StableHlo.reshape main_v379 main_v380 rfl shapeCasts_S1x1x64x64_S64x64,
    StableHlo.binary main_v378 main_v380 main_v381 (fun l r => Host.dotGeneral dot_S500000x64_S64x64_S500000x64_1_0_0_1_n_n none l r),
    StableHlo.nullary main_c_98 (constantI S_ 32 0#32),
    StableHlo.unary main_c_98 main_v382 (broadcastInDim S500000 ![] bcast_S_S500000),
    StableHlo.binary main_arg8 main_v382 main_v383 (cmpi .slt),
    StableHlo.nullary main_c_99 (constantI S_ 32 100000#32),
    StableHlo.unary main_c_99 main_v384 (broadcastInDim S500000 ![] bcast_S_S500000),
    StableHlo.binary main_arg8 main_v384 main_v385 (addi),
    StableHlo.ternary main_v383 main_v385 main_arg8 main_v386 (select),
    StableHlo.unary main_v386 main_v387 (broadcastInDim S500000x1 ![0] bcast_S500000_S500000x1_0),
    StableHlo.binary main_v329 main_v387 main_v388 (fun x i => Host.gather gather_S100000x64_S500000x1_S500000x64_1_0_n_n_0_1_164 x i),
    StableHlo.unary main_arg13 main_v389 (extractStridedSlice S1x1x64x64 ![2, 1, 0, 0] · slices_S3x2x64x64_S1x1x64x64_2_1_0_0),
    StableHlo.reshape main_v389 main_v390 rfl shapeCasts_S1x1x64x64_S64x64,
    StableHlo.binary main_v388 main_v390 main_v391 (fun l r => Host.dotGeneral dot_S500000x64_S64x64_S500000x64_1_0_0_1_n_n none l r),
    StableHlo.binary main_v381 main_v391 main_v392 addf,
    StableHlo.TRef.nullary main_call15.cst (constant S_ .f32 0x00000000#32),
    StableHlo.TRef.unary main_call15.cst main_call15.v0 (broadcastInDim S500000x64 ![] bcast_S_S500000x64),
    StableHlo.TRef.binary (.of main_v350) main_call15.v0 main_call15.v1 maximumf,
    StableHlo.TRef.nullary main_call16.cst (constant S_ .f32 0x00000000#32),
    StableHlo.TRef.unary main_call16.cst main_call16.v0 (broadcastInDim S500000x64 ![] bcast_S_S500000x64),
    StableHlo.TRef.binary (.of main_v371) main_call16.v0 main_call16.v1 maximumf,
    StableHlo.TRef.nullary main_call17.cst (constant S_ .f32 0x00000000#32),
    StableHlo.TRef.unary main_call17.cst main_call17.v0 (broadcastInDim S500000x64 ![] bcast_S_S500000x64),
    StableHlo.TRef.binary (.of main_v392) main_call17.v0 main_call17.v1 maximumf ]

abbrev seg12 : List (HloOp τ sig (Elt F)) :=
  [ StableHlo.nullary main_cst_100 (constant S_ .f32 0x00000000#32),
    StableHlo.unary main_cst_100 main_v396 (broadcastInDim S100000x16 ![] bcast_S_S100000x16),
    StableHlo.nullary main_cst_101 (constant S_ .f32 0x00000000#32),
    StableHlo.unary main_cst_101 main_v397 (broadcastInDim S100000x16 ![] bcast_S_S100000x16),
    StableHlo.nullary main_cst_102 (constant S_ .f32 0x00000000#32),
    StableHlo.unary main_cst_102 main_v398 (broadcastInDim S100000x16 ![] bcast_S_S100000x16),
    StableHlo.nullary main_cst_103 (constant S_ .f32 0x00000000#32),
    StableHlo.unary main_cst_103 main_v399 (broadcastInDim S100000x64 ![] bcast_S_S100000x64),
    StableHlo.unary main_arg3 main_v400 (broadcastInDim S500000x1 ![0] bcast_S500000_S500000x1_0),
    StableHlo.ternary main_v399 main_v400 main_v393 main_v401 (fun x i u => Host.scatterAdd scatter_S100000x64_S500000x1_S500000x64_1_0_0_1 x i u),
    StableHlo.nullary main_cst_104 (constant S_ .f32 0x3F800000#32),
    StableHlo.unary main_cst_104 main_v402 (broadcastInDim S500000x1 ![] bcast_S_S500000x1),
    StableHlo.nullary main_cst_105 (constant S_ .f32 0x00000000#32),
    StableHlo.unary main_cst_105 main_v403 (broadcastInDim S100000x1 ![] bcast_S_S100000x1),
    StableHlo.unary main_arg3 main_v404 (broadcastInDim S500000x1 ![0] bcast_S500000_S500000x1_0),
    StableHlo.ternary main_v403 main_v404 main_v402 main_v405 (fun x i u => Host.scatterAdd scatter_S100000x1_S500000x1_S500000x1_1_0_0_1 x i u),
    StableHlo.nullary main_cst_106 (constant S_ .f32 0x3F800000#32),
    StableHlo.unary main_cst_106 main_v406 (broadcastInDim S100000x1 ![] bcast_S_S100000x1),
    StableHlo.binary main_v405 main_v406 main_v407 maximumf,
    StableHlo.unary main_v407 main_v408 (broadcastInDim S100000x64 ![0, 1] bcast_S100000x1_S100000x64_0_1),
    StableHlo.binary main_v401 main_v408 main_v409 Host.divf,
    StableHlo.unary main_arg11 main_v410 (extractStridedSlice S1x1x64x16 ![0, 0, 0, 0] · slices_S3x2x64x16_S1x1x64x16_0_0_0_0),
    StableHlo.reshape main_v410 main_v411 rfl shapeCasts_S1x1x64x16_S64x16,
    StableHlo.binary main_v409 main_v411 main_v412 (fun l r => Host.dotGeneral dot_S100000x64_S64x16_S100000x16_1_0_0_1_n_n none l r),
    StableHlo.binary main_v396 main_v412 main_v413 addf,
    StableHlo.nullary main_cst_107 (constant S_ .f32 0x00000000#32),
    StableHlo.unary main_cst_107 main_v414 (broadcastInDim S100000x64 ![] bcast_S_S100000x64),
    StableHlo.unary main_arg4 main_v415 (broadcastInDim S500000x1 ![0] bcast_S500000_S500000x1_0),
    StableHlo.ternary main_v414 main_v415 main_v393 main_v416 (fun x i u => Host.scatterAdd scatter_S100000x64_S500000x1_S500000x64_1_0_0_1 x i u),
    StableHlo.nullary main_cst_108 (constant S_ .f32 0x3F800000#32),
    StableHlo.unary main_cst_108 main_v417 (broadcastInDim S500000x1 ![] bcast_S_S500000x1),
    StableHlo.nullary main_cst_109 (constant S_ .f32 0x00000000#32),
    StableHlo.unary main_cst_109 main_v418 (broadcastInDim S100000x1 ![] bcast_S_S100000x1),
    StableHlo.unary main_arg4 main_v419 (broadcastInDim S500000x1 ![0] bcast_S500000_S500000x1_0),
    StableHlo.ternary main_v418 main_v419 main_v417 main_v420 (fun x i u => Host.scatterAdd scatter_S100000x1_S500000x1_S500000x1_1_0_0_1 x i u),
    StableHlo.nullary main_cst_110 (constant S_ .f32 0x3F800000#32),
    StableHlo.unary main_cst_110 main_v421 (broadcastInDim S100000x1 ![] bcast_S_S100000x1),
    StableHlo.binary main_v420 main_v421 main_v422 maximumf,
    StableHlo.unary main_v422 main_v423 (broadcastInDim S100000x64 ![0, 1] bcast_S100000x1_S100000x64_0_1),
    StableHlo.binary main_v416 main_v423 main_v424 Host.divf,
    StableHlo.unary main_arg11 main_v425 (extractStridedSlice S1x1x64x16 ![0, 1, 0, 0] · slices_S3x2x64x16_S1x1x64x16_0_1_0_0),
    StableHlo.reshape main_v425 main_v426 rfl shapeCasts_S1x1x64x16_S64x16 ]

abbrev seg13 : List (HloOp τ sig (Elt F)) :=
  [ StableHlo.binary main_v424 main_v426 main_v427 (fun l r => Host.dotGeneral dot_S100000x64_S64x16_S100000x16_1_0_0_1_n_n none l r),
    StableHlo.binary main_v397 main_v427 main_v428 addf,
    StableHlo.nullary main_cst_111 (constant S_ .f32 0x00000000#32),
    StableHlo.unary main_cst_111 main_v429 (broadcastInDim S100000x64 ![] bcast_S_S100000x64),
    StableHlo.unary main_arg5 main_v430 (broadcastInDim S500000x1 ![0] bcast_S500000_S500000x1_0),
    StableHlo.ternary main_v429 main_v430 main_v394 main_v431 (fun x i u => Host.scatterAdd scatter_S100000x64_S500000x1_S500000x64_1_0_0_1 x i u),
    StableHlo.nullary main_cst_112 (constant S_ .f32 0x3F800000#32),
    StableHlo.unary main_cst_112 main_v432 (broadcastInDim S500000x1 ![] bcast_S_S500000x1),
    StableHlo.nullary main_cst_113 (constant S_ .f32 0x00000000#32),
    StableHlo.unary main_cst_113 main_v433 (broadcastInDim S100000x1 ![] bcast_S_S100000x1),
    StableHlo.unary main_arg5 main_v434 (broadcastInDim S500000x1 ![0] bcast_S500000_S500000x1_0),
    StableHlo.ternary main_v433 main_v434 main_v432 main_v435 (fun x i u => Host.scatterAdd scatter_S100000x1_S500000x1_S500000x1_1_0_0_1 x i u),
    StableHlo.nullary main_cst_114 (constant S_ .f32 0x3F800000#32),
    StableHlo.unary main_cst_114 main_v436 (broadcastInDim S100000x1 ![] bcast_S_S100000x1),
    StableHlo.binary main_v435 main_v436 main_v437 maximumf,
    StableHlo.unary main_v437 main_v438 (broadcastInDim S100000x64 ![0, 1] bcast_S100000x1_S100000x64_0_1),
    StableHlo.binary main_v431 main_v438 main_v439 Host.divf,
    StableHlo.unary main_arg11 main_v440 (extractStridedSlice S1x1x64x16 ![1, 0, 0, 0] · slices_S3x2x64x16_S1x1x64x16_1_0_0_0),
    StableHlo.reshape main_v440 main_v441 rfl shapeCasts_S1x1x64x16_S64x16,
    StableHlo.binary main_v439 main_v441 main_v442 (fun l r => Host.dotGeneral dot_S100000x64_S64x16_S100000x16_1_0_0_1_n_n none l r),
    StableHlo.binary main_v428 main_v442 main_v443 addf,
    StableHlo.nullary main_cst_115 (constant S_ .f32 0x00000000#32),
    StableHlo.unary main_cst_115 main_v444 (broadcastInDim S100000x64 ![] bcast_S_S100000x64),
    StableHlo.unary main_arg6 main_v445 (broadcastInDim S500000x1 ![0] bcast_S500000_S500000x1_0),
    StableHlo.ternary main_v444 main_v445 main_v394 main_v446 (fun x i u => Host.scatterAdd scatter_S100000x64_S500000x1_S500000x64_1_0_0_1 x i u),
    StableHlo.nullary main_cst_116 (constant S_ .f32 0x3F800000#32),
    StableHlo.unary main_cst_116 main_v447 (broadcastInDim S500000x1 ![] bcast_S_S500000x1),
    StableHlo.nullary main_cst_117 (constant S_ .f32 0x00000000#32),
    StableHlo.unary main_cst_117 main_v448 (broadcastInDim S100000x1 ![] bcast_S_S100000x1),
    StableHlo.unary main_arg6 main_v449 (broadcastInDim S500000x1 ![0] bcast_S500000_S500000x1_0),
    StableHlo.ternary main_v448 main_v449 main_v447 main_v450 (fun x i u => Host.scatterAdd scatter_S100000x1_S500000x1_S500000x1_1_0_0_1 x i u),
    StableHlo.nullary main_cst_118 (constant S_ .f32 0x3F800000#32),
    StableHlo.unary main_cst_118 main_v451 (broadcastInDim S100000x1 ![] bcast_S_S100000x1),
    StableHlo.binary main_v450 main_v451 main_v452 maximumf,
    StableHlo.unary main_v452 main_v453 (broadcastInDim S100000x64 ![0, 1] bcast_S100000x1_S100000x64_0_1),
    StableHlo.binary main_v446 main_v453 main_v454 Host.divf,
    StableHlo.unary main_arg11 main_v455 (extractStridedSlice S1x1x64x16 ![1, 1, 0, 0] · slices_S3x2x64x16_S1x1x64x16_1_1_0_0),
    StableHlo.reshape main_v455 main_v456 rfl shapeCasts_S1x1x64x16_S64x16,
    StableHlo.binary main_v454 main_v456 main_v457 (fun l r => Host.dotGeneral dot_S100000x64_S64x16_S100000x16_1_0_0_1_n_n none l r),
    StableHlo.binary main_v398 main_v457 main_v458 addf,
    StableHlo.nullary main_cst_119 (constant S_ .f32 0x00000000#32),
    StableHlo.unary main_cst_119 main_v459 (broadcastInDim S100000x64 ![] bcast_S_S100000x64),
    StableHlo.unary main_arg7 main_v460 (broadcastInDim S500000x1 ![0] bcast_S500000_S500000x1_0),
    StableHlo.ternary main_v459 main_v460 main_v395 main_v461 (fun x i u => Host.scatterAdd scatter_S100000x64_S500000x1_S500000x64_1_0_0_1 x i u),
    StableHlo.nullary main_cst_120 (constant S_ .f32 0x3F800000#32),
    StableHlo.unary main_cst_120 main_v462 (broadcastInDim S500000x1 ![] bcast_S_S500000x1),
    StableHlo.nullary main_cst_121 (constant S_ .f32 0x00000000#32),
    StableHlo.unary main_cst_121 main_v463 (broadcastInDim S100000x1 ![] bcast_S_S100000x1),
    StableHlo.unary main_arg7 main_v464 (broadcastInDim S500000x1 ![0] bcast_S500000_S500000x1_0),
    StableHlo.ternary main_v463 main_v464 main_v462 main_v465 (fun x i u => Host.scatterAdd scatter_S100000x1_S500000x1_S500000x1_1_0_0_1 x i u),
    StableHlo.nullary main_cst_122 (constant S_ .f32 0x3F800000#32),
    StableHlo.unary main_cst_122 main_v466 (broadcastInDim S100000x1 ![] bcast_S_S100000x1),
    StableHlo.binary main_v465 main_v466 main_v467 maximumf,
    StableHlo.unary main_v467 main_v468 (broadcastInDim S100000x64 ![0, 1] bcast_S100000x1_S100000x64_0_1),
    StableHlo.binary main_v461 main_v468 main_v469 Host.divf,
    StableHlo.unary main_arg11 main_v470 (extractStridedSlice S1x1x64x16 ![2, 0, 0, 0] · slices_S3x2x64x16_S1x1x64x16_2_0_0_0),
    StableHlo.reshape main_v470 main_v471 rfl shapeCasts_S1x1x64x16_S64x16,
    StableHlo.binary main_v469 main_v471 main_v472 (fun l r => Host.dotGeneral dot_S100000x64_S64x16_S100000x16_1_0_0_1_n_n none l r),
    StableHlo.binary main_v413 main_v472 main_v473 addf,
    StableHlo.nullary main_cst_123 (constant S_ .f32 0x00000000#32) ]

abbrev seg14 : List (HloOp τ sig (Elt F)) :=
  [ StableHlo.unary main_cst_123 main_v474 (broadcastInDim S100000x64 ![] bcast_S_S100000x64),
    StableHlo.unary main_arg8 main_v475 (broadcastInDim S500000x1 ![0] bcast_S500000_S500000x1_0),
    StableHlo.ternary main_v474 main_v475 main_v395 main_v476 (fun x i u => Host.scatterAdd scatter_S100000x64_S500000x1_S500000x64_1_0_0_1 x i u),
    StableHlo.nullary main_cst_124 (constant S_ .f32 0x3F800000#32),
    StableHlo.unary main_cst_124 main_v477 (broadcastInDim S500000x1 ![] bcast_S_S500000x1),
    StableHlo.nullary main_cst_125 (constant S_ .f32 0x00000000#32),
    StableHlo.unary main_cst_125 main_v478 (broadcastInDim S100000x1 ![] bcast_S_S100000x1),
    StableHlo.unary main_arg8 main_v479 (broadcastInDim S500000x1 ![0] bcast_S500000_S500000x1_0),
    StableHlo.ternary main_v478 main_v479 main_v477 main_v480 (fun x i u => Host.scatterAdd scatter_S100000x1_S500000x1_S500000x1_1_0_0_1 x i u),
    StableHlo.nullary main_cst_126 (constant S_ .f32 0x3F800000#32),
    StableHlo.unary main_cst_126 main_v481 (broadcastInDim S100000x1 ![] bcast_S_S100000x1),
    StableHlo.binary main_v480 main_v481 main_v482 maximumf,
    StableHlo.unary main_v482 main_v483 (broadcastInDim S100000x64 ![0, 1] bcast_S100000x1_S100000x64_0_1),
    StableHlo.binary main_v476 main_v483 main_v484 Host.divf,
    StableHlo.unary main_arg11 main_v485 (extractStridedSlice S1x1x64x16 ![2, 1, 0, 0] · slices_S3x2x64x16_S1x1x64x16_2_1_0_0),
    StableHlo.reshape main_v485 main_v486 rfl shapeCasts_S1x1x64x16_S64x16,
    StableHlo.binary main_v484 main_v486 main_v487 (fun l r => Host.dotGeneral dot_S100000x64_S64x16_S100000x16_1_0_0_1_n_n none l r),
    StableHlo.binary main_v458 main_v487 main_v488 addf ]

abbrev part0 : List (HloOp τ sig (Elt F)) := seg0
abbrev part1 : List (HloOp τ sig (Elt F)) := seg1
abbrev part2 : List (HloOp τ sig (Elt F)) := seg2 ++ seg3
abbrev part3 : List (HloOp τ sig (Elt F)) := seg4
abbrev part4 : List (HloOp τ sig (Elt F)) := seg5 ++ seg6
abbrev part5 : List (HloOp τ sig (Elt F)) := seg7
abbrev part6 : List (HloOp τ sig (Elt F)) := seg8 ++ seg9
abbrev part7 : List (HloOp τ sig (Elt F)) := seg10
abbrev part8 : List (HloOp τ sig (Elt F)) := seg11 ++ seg12
abbrev part9 : List (HloOp τ sig (Elt F)) := seg13
abbrev part10 : List (HloOp τ sig (Elt F)) := seg14

abbrev stageA : List (HloOp τ sig (Elt F)) := seg0 ++ seg1
abbrev stageB : List (HloOp τ sig (Elt F)) := seg2
abbrev stageC : List (HloOp τ sig (Elt F)) := seg3 ++ seg4 ++ seg5
abbrev stageD : List (HloOp τ sig (Elt F)) := seg6 ++ seg7 ++ seg8
abbrev stageE : List (HloOp τ sig (Elt F)) := seg9
abbrev stageF : List (HloOp τ sig (Elt F)) := seg10 ++ seg11
abbrev stageG : List (HloOp τ sig (Elt F)) := seg12 ++ seg13 ++ seg14

abbrev ops : List (HloOp τ sig (Elt F)) := seg0 ++ seg1 ++ seg2 ++ seg3 ++ seg4 ++ seg5 ++ seg6 ++ seg7 ++ seg8 ++ seg9 ++ seg10 ++ seg11 ++ seg12 ++ seg13 ++ seg14

abbrev written : List (Ref sig .tc) :=
  [ main_cst, main_v0, main_cst_0, main_v1, main_cst_1, main_v2, main_cst_2, main_v3, main_v4, main_v5, main_cst_3, main_v6, main_cst_4, main_v7, main_v8, main_v9, main_cst_5, main_v10, main_v11, main_v12, main_v13, main_v14, main_v15, main_v16, main_v17, main_cst_6, main_v18, main_v19, main_v20, main_cst_7, main_v21, main_cst_8, main_v22, main_v23, main_v24, main_cst_9, main_v25, main_v26, main_v27, main_v28, main_v29, main_v30, main_v31, main_v32, main_cst_10, main_v33, main_v34, main_v35, main_cst_11, main_v36, main_cst_12, main_v37, main_v38, main_v39, main_cst_13, main_v40, main_v41, main_v42, main_v43, main_v44, main_v45, main_v46, main_v47, main_cst_14, main_v48, main_v49, main_v50, main_cst_15, main_v51, main_cst_16, main_v52, main_v53, main_v54, main_cst_17, main_v55, main_v56, main_v57, main_v58, main_v59, main_v60, main_v61, main_v62, main_cst_18, main_v63, main_v64, main_v65, main_cst_19, main_v66, main_cst_20, main_v67, main_v68, main_v69, main_cst_21, main_v70, main_v71, main_v72, main_v73, main_v74, main_v75, main_v76, main_v77, main_cst_22, main_v78, main_v79, main_v80, main_cst_23, main_v81, main_cst_24, main_v82, main_v83, main_v84, main_cst_25, main_v85, main_v86, main_v87, main_v88, main_v89, main_v90, main_v91, main_v92, (main_call0.cst).ref, (main_call0.v0).ref, (main_call0.v1).ref, main_cst_26, main_v94, main_v95, main_cst_27, main_v96, main_v97, main_c, (main_call1.cst).ref, (main_call1.v0).ref, (main_call1.v1).ref, (main_call1.cst_0).ref, (main_call1.v2).ref, (main_call1.v3).ref, (main_call1.v4).ref, (main_call1.v5).ref, (main_call1.v6).ref, (main_call1.v7).ref, (main_call1.cst_1).ref, (main_call1.v8).ref, (main_call1.cst_2).ref, (main_call1.v9).ref, (main_call1.v10).ref, (main_call1.v11).ref, (main_call1.v12).ref, (main_call1.cst_3).ref, (main_call1.v13).ref, (main_call1.cst_4).ref, (main_call1.call0.v0).ref, (main_call1.call0.v1).ref, (main_call1.call0.v2).ref, main_v99, main_v100, main_cst_28, main_v101, main_v102, main_v103, main_v104, main_v105, (main_call2.cst).ref, (main_call2.v0).ref, (main_call2.v1).ref, main_cst_29, main_v107, main_v108, main_cst_30, main_v109, main_v110, main_c_31, (main_call3.cst).ref, (main_call3.v0).ref, (main_call3.v1).ref, (main_call3.cst_0).ref, (main_call3.v2).ref, (main_call3.v3).ref, (main_call3.v4).ref, (main_call3.v5).ref, (main_call3.v6).ref, (main_call3.v7).ref, (main_call3.cst_1).ref, (main_call3.v8).ref, (main_call3.cst_2).ref, (main_call3.v9).ref, (main_call3.v10).ref, (main_call3.v11).ref, (main_call3.v12).ref, (main_call3.cst_3).ref, (main_call3.v13).ref, (main_call3.cst_4).ref, (main_call3.call0.v0).ref, (main_call3.call0.v1).ref, (main_call3.call0.v2).ref, main_v112, main_v113, main_cst_32, main_v114, main_v115, main_v116, main_v117, main_v118, (main_call4.cst).ref, (main_call4.v0).ref, (main_call4.v1).ref, main_cst_33, main_v120, main_v121, main_cst_34, main_v122, main_v123, main_c_35, (main_call5.cst).ref, (main_call5.v0).ref, (main_call5.v1).ref, (main_call5.cst_0).ref, (main_call5.v2).ref, (main_call5.v3).ref, (main_call5.v4).ref, (main_call5.v5).ref, (main_call5.v6).ref, (main_call5.v7).ref, (main_call5.cst_1).ref, (main_call5.v8).ref, (main_call5.cst_2).ref, (main_call5.v9).ref, (main_call5.v10).ref, (main_call5.v11).ref, (main_call5.v12).ref, (main_call5.cst_3).ref, (main_call5.v13).ref, (main_call5.cst_4).ref, (main_call5.call0.v0).ref, (main_call5.call0.v1).ref, (main_call5.call0.v2).ref, main_v125, main_v126, main_cst_36, main_v127, main_v128, main_v129, main_v130, main_v131, main_c_37, main_v132, main_v133, main_c_38, main_v134, main_v135, main_v136, main_v137, main_v138, main_v139, main_v140, main_v141, main_c_39, main_v142, main_v143, main_c_40, main_v144, main_v145, main_v146, main_v147, main_v148, main_v149, main_v150, main_v151, main_v152, main_c_41, main_v153, main_v154, main_c_42, main_v155, main_v156, main_v157, main_v158, main_v159, main_v160, main_v161, main_v162, main_c_43, main_v163, main_v164, main_c_44, main_v165, main_v166, main_v167, main_v168, main_v169, main_v170, main_v171, main_v172, main_v173, main_c_45, main_v174, main_v175, main_c_46, main_v176, main_v177, main_v178, main_v179, main_v180, main_v181, main_v182, main_v183, main_c_47, main_v184, main_v185, main_c_48, main_v186, main_v187, main_v188, main_v189, main_v190, main_v191, main_v192, main_v193, main_v194, (main_call6.cst).ref, (main_call6.v0).ref, (main_call6.v1).ref, (main_call7.cst).ref, (main_call7.v0).ref, (main_call7.v1).ref, (main_call8.cst).ref, (main_call8.v0).ref, (main_call8.v1).ref, main_cst_49, main_v198, main_cst_50, main_v199, main_cst_51, main_v200, main_cst_52, main_v201, main_v202, main_v203, main_cst_53, main_v204, main_cst_54, main_v205, main_v206, main_v207, main_cst_55, main_v208, main_v209, main_v210, main_v211, main_v212, main_v213, main_v214, main_v215, main_cst_56, main_v216, main_v217, main_v218, main_cst_57, main_v219, main_cst_58, main_v220, main_v221, main_v222, main_cst_59, main_v223, main_v224, main_v225, main_v226, main_v227, main_v228, main_v229, main_v230, main_cst_60, main_v231, main_v232, main_v233, main_cst_61, main_v234, main_cst_62, main_v235, main_v236, main_v237, main_cst_63, main_v238, main_v239, main_v240, main_v241, main_v242, main_v243, main_v244, main_v245, main_cst_64, main_v246, main_v247, main_v248, main_cst_65, main_v249, main_cst_66, main_v250, main_v251, main_v252, main_cst_67, main_v253, main_v254, main_v255, main_v256, main_v257, main_v258, main_v259, main_v260, main_cst_68, main_v261, main_v262, main_v263, main_cst_69, main_v264, main_cst_70, main_v265, main_v266, main_v267, main_cst_71, main_v268, main_v269, main_v270, main_v271, main_v272, main_v273, main_v274, main_v275, main_cst_72, main_v276, main_v277, main_v278, main_cst_73, main_v279, main_cst_74, main_v280, main_v281, main_v282, main_cst_75, main_v283, main_v284, main_v285, main_v286, main_v287, main_v288, main_v289, main_v290, (main_call9.cst).ref, (main_call9.v0).ref, (main_call9.v1).ref, main_cst_76, main_v292, main_v293, main_cst_77, main_v294, main_v295, main_c_78, (main_call10.cst).ref, (main_call10.v0).ref, (main_call10.v1).ref, (main_call10.cst_0).ref, (main_call10.v2).ref, (main_call10.v3).ref, (main_call10.v4).ref, (main_call10.v5).ref, (main_call10.v6).ref, (main_call10.v7).ref, (main_call10.cst_1).ref, (main_call10.v8).ref, (main_call10.cst_2).ref, (main_call10.v9).ref, (main_call10.v10).ref, (main_call10.v11).ref, (main_call10.v12).ref, (main_call10.cst_3).ref, (main_call10.v13).ref, (main_call10.cst_4).ref, (main_call10.call0.v0).ref, (main_call10.call0.v1).ref, (main_call10.call0.v2).ref, main_v297, main_v298, main_cst_79, main_v299, main_v300, main_v301, main_v302, main_v303, (main_call11.cst).ref, (main_call11.v0).ref, (main_call11.v1).ref, main_cst_80, main_v305, main_v306, main_cst_81, main_v307, main_v308, main_c_82, (main_call12.cst).ref, (main_call12.v0).ref, (main_call12.v1).ref, (main_call12.cst_0).ref, (main_call12.v2).ref, (main_call12.v3).ref, (main_call12.v4).ref, (main_call12.v5).ref, (main_call12.v6).ref, (main_call12.v7).ref, (main_call12.cst_1).ref, (main_call12.v8).ref, (main_call12.cst_2).ref, (main_call12.v9).ref, (main_call12.v10).ref, (main_call12.v11).ref, (main_call12.v12).ref, (main_call12.cst_3).ref, (main_call12.v13).ref, (main_call12.cst_4).ref, (main_call12.call0.v0).ref, (main_call12.call0.v1).ref, (main_call12.call0.v2).ref, main_v310, main_v311, main_cst_83, main_v312, main_v313, main_v314, main_v315, main_v316, (main_call13.cst).ref, (main_call13.v0).ref, (main_call13.v1).ref, main_cst_84, main_v318, main_v319, main_cst_85, main_v320, main_v321, main_c_86, (main_call14.cst).ref, (main_call14.v0).ref, (main_call14.v1).ref, (main_call14.cst_0).ref, (main_call14.v2).ref, (main_call14.v3).ref, (main_call14.v4).ref, (main_call14.v5).ref, (main_call14.v6).ref, (main_call14.v7).ref, (main_call14.cst_1).ref, (main_call14.v8).ref, (main_call14.cst_2).ref, (main_call14.v9).ref, (main_call14.v10).ref, (main_call14.v11).ref, (main_call14.v12).ref, (main_call14.cst_3).ref, (main_call14.v13).ref, (main_call14.cst_4).ref, (main_call14.call0.v0).ref, (main_call14.call0.v1).ref, (main_call14.call0.v2).ref, main_v323, main_v324, main_cst_87, main_v325, main_v326, main_v327, main_v328, main_v329, main_c_88, main_v330, main_v331, main_c_89, main_v332, main_v333, main_v334, main_v335, main_v336, main_v337, main_v338, main_v339, main_c_90, main_v340, main_v341, main_c_91, main_v342, main_v343, main_v344, main_v345, main_v346, main_v347, main_v348, main_v349, main_v350, main_c_92, main_v351, main_v352, main_c_93, main_v353, main_v354, main_v355, main_v356, main_v357, main_v358, main_v359, main_v360, main_c_94, main_v361, main_v362, main_c_95, main_v363, main_v364, main_v365, main_v366, main_v367, main_v368, main_v369, main_v370, main_v371, main_c_96, main_v372, main_v373, main_c_97, main_v374, main_v375, main_v376, main_v377, main_v378, main_v379, main_v380, main_v381, main_c_98, main_v382, main_v383, main_c_99, main_v384, main_v385, main_v386, main_v387, main_v388, main_v389, main_v390, main_v391, main_v392, (main_call15.cst).ref, (main_call15.v0).ref, (main_call15.v1).ref, (main_call16.cst).ref, (main_call16.v0).ref, (main_call16.v1).ref, (main_call17.cst).ref, (main_call17.v0).ref, (main_call17.v1).ref, main_cst_100, main_v396, main_cst_101, main_v397, main_cst_102, main_v398, main_cst_103, main_v399, main_v400, main_v401, main_cst_104, main_v402, main_cst_105, main_v403, main_v404, main_v405, main_cst_106, main_v406, main_v407, main_v408, main_v409, main_v410, main_v411, main_v412, main_v413, main_cst_107, main_v414, main_v415, main_v416, main_cst_108, main_v417, main_cst_109, main_v418, main_v419, main_v420, main_cst_110, main_v421, main_v422, main_v423, main_v424, main_v425, main_v426, main_v427, main_v428, main_cst_111, main_v429, main_v430, main_v431, main_cst_112, main_v432, main_cst_113, main_v433, main_v434, main_v435, main_cst_114, main_v436, main_v437, main_v438, main_v439, main_v440, main_v441, main_v442, main_v443, main_cst_115, main_v444, main_v445, main_v446, main_cst_116, main_v447, main_cst_117, main_v448, main_v449, main_v450, main_cst_118, main_v451, main_v452, main_v453, main_v454, main_v455, main_v456, main_v457, main_v458, main_cst_119, main_v459, main_v460, main_v461, main_cst_120, main_v462, main_cst_121, main_v463, main_v464, main_v465, main_cst_122, main_v466, main_v467, main_v468, main_v469, main_v470, main_v471, main_v472, main_v473, main_cst_123, main_v474, main_v475, main_v476, main_cst_124, main_v477, main_cst_125, main_v478, main_v479, main_v480, main_cst_126, main_v481, main_v482, main_v483, main_v484, main_v485, main_v486, main_v487, main_v488 ]

end Cert.ReferenceIdeal.Run

end
-- ==== Proof.RSpec.lean ====
import proofs.«100184_j50010599195033_2_alg».proof.Proof.Gen.ReferenceIdeal

noncomputable section

namespace Cert.RSpec

open Idealize.ShloMosaic Idealize.ShloMosaic.TcCoe Cert.ReferenceIdeal Cert.ReferenceIdeal.Facts₀

variable {F : FTy → Type} [FloatOps F]

def cnt (idx : IVec S500000 32) : FVec F S100000x1 .f32 :=
  maximumf (Host.scatterAdd scatter_S100000x1_S500000x1_S500000x1_1_0_0_1
      (broadcastInDim S100000x1 ![] bcast_S_S100000x1 (constant S_ .f32 0x00000000#32))
      (broadcastInDim S500000x1 ![0] bcast_S500000_S500000x1_0 idx)
      (broadcastInDim S500000x1 ![] bcast_S_S500000x1 (constant S_ .f32 0x3F800000#32)))
    (broadcastInDim S100000x1 ![] bcast_S_S100000x1 (constant S_ .f32 0x3F800000#32))

def segsum16 (X : FVec F S500000x16 .f32) (idx : IVec S500000 32) : FVec F S100000x16 .f32 :=
  Host.scatterAdd scatter_S100000x16_S500000x1_S500000x16_1_0_0_1
    (broadcastInDim S100000x16 ![] bcast_S_S100000x16 (constant S_ .f32 0x00000000#32))
    (broadcastInDim S500000x1 ![0] bcast_S500000_S500000x1_0 idx) X

def segmean16 (X : FVec F S500000x16 .f32) (idx : IVec S500000 32) : FVec F S100000x16 .f32 :=
  Host.divf (segsum16 X idx) (broadcastInDim S100000x16 ![0, 1] bcast_S100000x1_S100000x16_0_1 (cnt idx))

def segsum64 (X : FVec F S500000x64 .f32) (idx : IVec S500000 32) : FVec F S100000x64 .f32 :=
  Host.scatterAdd scatter_S100000x64_S500000x1_S500000x64_1_0_0_1
    (broadcastInDim S100000x64 ![] bcast_S_S100000x64 (constant S_ .f32 0x00000000#32))
    (broadcastInDim S500000x1 ![0] bcast_S500000_S500000x1_0 idx) X

def segmean64 (X : FVec F S500000x64 .f32) (idx : IVec S500000 32) : FVec F S100000x64 .f32 :=
  Host.divf (segsum64 X idx) (broadcastInDim S100000x64 ![0, 1] bcast_S100000x1_S100000x64_0_1 (cnt idx))

def w16x64 (W : FVec F S3x2x16x64 .f32) (o : Fin 4 → Nat) (h : S3x2x16x64.Slices o S1x1x16x64) : FVec F S16x64 .f32 :=
  fun i => shapeCast S16x64 (extractStridedSlice S1x1x16x64 o W h) shapeCasts_S1x1x16x64_S16x64 i

def w64x64 (W : FVec F S3x2x64x64 .f32) (o : Fin 4 → Nat) (h : S3x2x64x64.Slices o S1x1x64x64) : FVec F S64x64 .f32 :=
  fun i => shapeCast S64x64 (extractStridedSlice S1x1x64x64 o W h) shapeCasts_S1x1x64x64_S64x64 i

def w64x16 (W : FVec F S3x2x64x16 .f32) (o : Fin 4 → Nat) (h : S3x2x64x16.Slices o S1x1x64x16) : FVec F S64x16 .f32 :=
  fun i => shapeCast S64x16 (extractStridedSlice S1x1x64x16 o W h) shapeCasts_S1x1x64x16_S64x16 i

def mm16 (X : FVec F S100000x16 .f32) (W : FVec F S16x64 .f32) : FVec F S100000x64 .f32 :=
  Host.dotGeneral dot_S100000x16_S16x64_S100000x64_1_0_0_1_n_n none X W

def mm64 (X : FVec F S100000x64 .f32) (W : FVec F S64x64 .f32) : FVec F S100000x64 .f32 :=
  Host.dotGeneral dot_S100000x64_S64x64_S100000x64_1_0_0_1_n_n none X W

def mm64o (X : FVec F S100000x64 .f32) (W : FVec F S64x16 .f32) : FVec F S100000x16 .f32 :=
  Host.dotGeneral dot_S100000x64_S64x16_S100000x16_1_0_0_1_n_n none X W

def mmE (X : FVec F S500000x64 .f32) (W : FVec F S64x64 .f32) : FVec F S500000x64 .f32 :=
  Host.dotGeneral dot_S500000x64_S64x64_S500000x64_1_0_0_1_n_n none X W

def z64 : FVec F S100000x64 .f32 := broadcastInDim S100000x64 ![] bcast_S_S100000x64 (constant S_ .f32 0x00000000#32)
def z16 : FVec F S100000x16 .f32 := broadcastInDim S100000x16 ![] bcast_S_S100000x16 (constant S_ .f32 0x00000000#32)

def relu1 (x : FVec F S100000x64 .f32) : FVec F S100000x64 .f32 :=
  maximumf x (broadcastInDim S100000x64 ![] bcast_S_S100000x64 (constant S_ .f32 0x00000000#32))

def relu5 (x : FVec F S500000x64 .f32) : FVec F S500000x64 .f32 :=
  maximumf x (broadcastInDim S500000x64 ![] bcast_S_S500000x64 (constant S_ .f32 0x00000000#32))

def colsum (x : FVec F S100000x64 .f32) : FVec F S1x64 .f32 :=
  broadcastInDim S1x64 ![1] bcast_S64_S1x64_1 (Host.reduceAdd x (constant S_ .f32 0x00000000#32) reducesTo_S100000x64_S64_d0 h_S_)

def mean1 (x : FVec F S100000x64 .f32) : FVec F S1x64 .f32 :=
  Host.divf (colsum x) (broadcastInDim S1x64 ![] bcast_S_S1x64 (constant S_ .f32 0x47C35000#32))

def censq (x : FVec F S100000x64 .f32) : FVec F S100000x64 .f32 :=
  mulf (subf x (broadcastInDim S100000x64 ![0, 1] bcast_S1x64_S100000x64_0_1 (mean1 x)))
       (subf x (broadcastInDim S100000x64 ![0, 1] bcast_S1x64_S100000x64_0_1 (mean1 x)))

def varden : FVec F S_ .f32 :=
  subf (constant S_ .f32 0x47C35000#32) (sitofp .f32 (constantI S_ 32 0#32))

def var1 (x : FVec F S100000x64 .f32) : FVec F S1x64 .f32 :=
  select (broadcastInDim S1x64 ![] bcast_S_S1x64 (cmpf .ogt (varden (F := F)) (constant (F := F) S_ .f32 0x00000000#32)))
    (Host.divf (colsum (censq x)) (broadcastInDim S1x64 ![] bcast_S_S1x64 (varden (F := F))))
    (broadcastInDim S1x64 ![] bcast_S_S1x64 (id (constant (F := F) S_ .f32 0x7FC00000#32)))

def bn (x : FVec F S100000x64 .f32) (mu var : FVec F S1x64 .f32) : FVec F S100000x64 .f32 :=
  Host.divf (subf x (broadcastInDim S100000x64 ![0, 1] bcast_S1x64_S100000x64_0_1 mu))
    (broadcastInDim S100000x64 ![0, 1] bcast_S1x64_S100000x64_0_1
      (Host.sqrt (addf var (broadcastInDim S1x64 ![] bcast_S_S1x64 (constant S_ .f32 0x3727C5AC#32)))))

def emb (x : FVec F S100000x64 .f32) : FVec F S100000x64 .f32 :=
  bn (relu1 x) (mean1 (relu1 x)) (var1 (relu1 x))

def gidx (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

def gath (T : FVec F S100000x64 .f32) (idx : IVec S500000 32) : FVec F S500000x64 .f32 :=
  Host.gather gather_S100000x64_S500000x1_S500000x64_1_0_n_n_0_1_164 T (gidx idx)

def bcast (ei ej : FVec F S100000x64 .f32) (ri ci : IVec S500000 32) (Wi Wj : FVec F S64x64 .f32) : FVec F S500000x64 .f32 :=
  relu5 (addf (mmE (gath ei ri) Wi) (mmE (gath ej ci) Wj))

structure Args (F : FTy → Type) where
  vals0 : FVec F S500000x16 .f32
  vals1 : FVec F S500000x16 .f32
  vals2 : FVec F S500000x16 .f32
  row0 : IVec S500000 32
  col0 : IVec S500000 32
  row1 : IVec S500000 32
  col1 : IVec S500000 32
  row2 : IVec S500000 32
  col2 : IVec S500000 32
  pw0 : FVec F S3x2x16x64 .f32
  pw1 : FVec F S3x2x64x64 .f32
  pw2 : FVec F S3x2x64x16 .f32
  bw0 : FVec F S3x2x64x64 .f32
  bw1 : FVec F S3x2x64x64 .f32

def pw0_00 (a : Args F) : FVec F S16x64 .f32 := w16x64 a.pw0 ![0, 0, 0, 0] slices_S3x2x16x64_S1x1x16x64_0_0_0_0
def pw0_01 (a : Args F) : FVec F S16x64 .f32 := w16x64 a.pw0 ![0, 1, 0, 0] slices_S3x2x16x64_S1x1x16x64_0_1_0_0
def pw0_10 (a : Args F) : FVec F S16x64 .f32 := w16x64 a.pw0 ![1, 0, 0, 0] slices_S3x2x16x64_S1x1x16x64_1_0_0_0
def pw0_11 (a : Args F) : FVec F S16x64 .f32 := w16x64 a.pw0 ![1, 1, 0, 0] slices_S3x2x16x64_S1x1x16x64_1_1_0_0
def pw0_20 (a : Args F) : FVec F S16x64 .f32 := w16x64 a.pw0 ![2, 0, 0, 0] slices_S3x2x16x64_S1x1x16x64_2_0_0_0
def pw0_21 (a : Args F) : FVec F S16x64 .f32 := w16x64 a.pw0 ![2, 1, 0, 0] slices_S3x2x16x64_S1x1x16x64_2_1_0_0
def pw1_00 (a : Args F) : FVec F S64x64 .f32 := w64x64 a.pw1 ![0, 0, 0, 0] slices_S3x2x64x64_S1x1x64x64_0_0_0_0
def pw1_01 (a : Args F) : FVec F S64x64 .f32 := w64x64 a.pw1 ![0, 1, 0, 0] slices_S3x2x64x64_S1x1x64x64_0_1_0_0
def pw1_10 (a : Args F) : FVec F S64x64 .f32 := w64x64 a.pw1 ![1, 0, 0, 0] slices_S3x2x64x64_S1x1x64x64_1_0_0_0
def pw1_11 (a : Args F) : FVec F S64x64 .f32 := w64x64 a.pw1 ![1, 1, 0, 0] slices_S3x2x64x64_S1x1x64x64_1_1_0_0
def pw1_20 (a : Args F) : FVec F S64x64 .f32 := w64x64 a.pw1 ![2, 0, 0, 0] slices_S3x2x64x64_S1x1x64x64_2_0_0_0
def pw1_21 (a : Args F) : FVec F S64x64 .f32 := w64x64 a.pw1 ![2, 1, 0, 0] slices_S3x2x64x64_S1x1x64x64_2_1_0_0
def bw0_00 (a : Args F) : FVec F S64x64 .f32 := w64x64 a.bw0 ![0, 0, 0, 0] slices_S3x2x64x64_S1x1x64x64_0_0_0_0
def bw0_01 (a : Args F) : FVec F S64x64 .f32 := w64x64 a.bw0 ![0, 1, 0, 0] slices_S3x2x64x64_S1x1x64x64_0_1_0_0
def bw0_10 (a : Args F) : FVec F S64x64 .f32 := w64x64 a.bw0 ![1, 0, 0, 0] slices_S3x2x64x64_S1x1x64x64_1_0_0_0
def bw0_11 (a : Args F) : FVec F S64x64 .f32 := w64x64 a.bw0 ![1, 1, 0, 0] slices_S3x2x64x64_S1x1x64x64_1_1_0_0
def bw0_20 (a : Args F) : FVec F S64x64 .f32 := w64x64 a.bw0 ![2, 0, 0, 0] slices_S3x2x64x64_S1x1x64x64_2_0_0_0
def bw0_21 (a : Args F) : FVec F S64x64 .f32 := w64x64 a.bw0 ![2, 1, 0, 0] slices_S3x2x64x64_S1x1x64x64_2_1_0_0
def bw1_00 (a : Args F) : FVec F S64x64 .f32 := w64x64 a.bw1 ![0, 0, 0, 0] slices_S3x2x64x64_S1x1x64x64_0_0_0_0
def bw1_01 (a : Args F) : FVec F S64x64 .f32 := w64x64 a.bw1 ![0, 1, 0, 0] slices_S3x2x64x64_S1x1x64x64_0_1_0_0
def bw1_10 (a : Args F) : FVec F S64x64 .f32 := w64x64 a.bw1 ![1, 0, 0, 0] slices_S3x2x64x64_S1x1x64x64_1_0_0_0
def bw1_11 (a : Args F) : FVec F S64x64 .f32 := w64x64 a.bw1 ![1, 1, 0, 0] slices_S3x2x64x64_S1x1x64x64_1_1_0_0
def bw1_20 (a : Args F) : FVec F S64x64 .f32 := w64x64 a.bw1 ![2, 0, 0, 0] slices_S3x2x64x64_S1x1x64x64_2_0_0_0
def bw1_21 (a : Args F) : FVec F S64x64 .f32 := w64x64 a.bw1 ![2, 1, 0, 0] slices_S3x2x64x64_S1x1x64x64_2_1_0_0
def pw2_00 (a : Args F) : FVec F S64x16 .f32 := w64x16 a.pw2 ![0, 0, 0, 0] slices_S3x2x64x16_S1x1x64x16_0_0_0_0
def pw2_01 (a : Args F) : FVec F S64x16 .f32 := w64x16 a.pw2 ![0, 1, 0, 0] slices_S3x2x64x16_S1x1x64x16_0_1_0_0
def pw2_10 (a : Args F) : FVec F S64x16 .f32 := w64x16 a.pw2 ![1, 0, 0, 0] slices_S3x2x64x16_S1x1x64x16_1_0_0_0
def pw2_11 (a : Args F) : FVec F S64x16 .f32 := w64x16 a.pw2 ![1, 1, 0, 0] slices_S3x2x64x16_S1x1x64x16_1_1_0_0
def pw2_20 (a : Args F) : FVec F S64x16 .f32 := w64x16 a.pw2 ![2, 0, 0, 0] slices_S3x2x64x16_S1x1x64x16_2_0_0_0
def pw2_21 (a : Args F) : FVec F S64x16 .f32 := w64x16 a.pw2 ![2, 1, 0, 0] slices_S3x2x64x16_S1x1x64x16_2_1_0_0

def acc0_0 (a : Args F) : FVec F S100000x64 .f32 := addf (addf z64 (mm16 (segmean16 (a.vals0) a.row0) (pw0_00 a))) (mm16 (segmean16 (a.vals2) a.row2) (pw0_20 a))
def acc0_1 (a : Args F) : FVec F S100000x64 .f32 := addf (addf z64 (mm16 (segmean16 (a.vals0) a.col0) (pw0_01 a))) (mm16 (segmean16 (a.vals1) a.row1) (pw0_10 a))
def acc0_2 (a : Args F) : FVec F S100000x64 .f32 := addf (addf z64 (mm16 (segmean16 (a.vals1) a.col1) (pw0_11 a))) (mm16 (segmean16 (a.vals2) a.col2) (pw0_21 a))

def d1_0 (a : Args F) : FVec F S500000x64 .f32 := bcast (emb (acc0_0 a)) (emb (acc0_1 a)) a.row0 a.col0 (bw0_00 a) (bw0_01 a)
def d1_1 (a : Args F) : FVec F S500000x64 .f32 := bcast (emb (acc0_1 a)) (emb (acc0_2 a)) a.row1 a.col1 (bw0_10 a) (bw0_11 a)
def d1_2 (a : Args F) : FVec F S500000x64 .f32 := bcast (emb (acc0_0 a)) (emb (acc0_2 a)) a.row2 a.col2 (bw0_20 a) (bw0_21 a)

def acc1_0 (a : Args F) : FVec F S100000x64 .f32 := addf (addf z64 (mm64 (segmean64 (d1_0 a) a.row0) (pw1_00 a))) (mm64 (segmean64 (d1_2 a) a.row2) (pw1_20 a))
def acc1_1 (a : Args F) : FVec F S100000x64 .f32 := addf (addf z64 (mm64 (segmean64 (d1_0 a) a.col0) (pw1_01 a))) (mm64 (segmean64 (d1_1 a) a.row1) (pw1_10 a))
def acc1_2 (a : Args F) : FVec F S100000x64 .f32 := addf (addf z64 (mm64 (segmean64 (d1_1 a) a.col1) (pw1_11 a))) (mm64 (segmean64 (d1_2 a) a.col2) (pw1_21 a))

def d2_0 (a : Args F) : FVec F S500000x64 .f32 := bcast (emb (acc1_0 a)) (emb (acc1_1 a)) a.row0 a.col0 (bw1_00 a) (bw1_01 a)
def d2_1 (a : Args F) : FVec F S500000x64 .f32 := bcast (emb (acc1_1 a)) (emb (acc1_2 a)) a.row1 a.col1 (bw1_10 a) (bw1_11 a)
def d2_2 (a : Args F) : FVec F S500000x64 .f32 := bcast (emb (acc1_0 a)) (emb (acc1_2 a)) a.row2 a.col2 (bw1_20 a) (bw1_21 a)

def out (a : Args F) : FVec F S100000x16 .f32 :=
  addf (addf z16 (mm64o (segmean64 (d2_0 a) a.row0) (pw2_00 a))) (mm64o (segmean64 (d2_2 a) a.row2) (pw2_20 a))

end Cert.RSpec

end
-- ==== Proof.RArgs.lean ====
import proofs.«100184_j50010599195033_2_alg».proof.Proof.RSpec

noncomputable section

namespace Cert.RArgs

open Idealize.ShloMosaic Idealize.SL.Sem Cert.ReferenceIdeal

def args {F : FTy → Type} [FloatOps F] (m : (ℓ : Loc nD τ sig) → Buf (Elt F) ℓ) (c : Dev nD) : Cert.RSpec.Args F where
  vals0 := m ((c.tc : Thread nD τ).loc main_arg0)
  vals1 := m ((c.tc : Thread nD τ).loc main_arg1)
  vals2 := m ((c.tc : Thread nD τ).loc main_arg2)
  row0 := m ((c.tc : Thread nD τ).loc main_arg3)
  col0 := m ((c.tc : Thread nD τ).loc main_arg4)
  row1 := m ((c.tc : Thread nD τ).loc main_arg5)
  col1 := m ((c.tc : Thread nD τ).loc main_arg6)
  row2 := m ((c.tc : Thread nD τ).loc main_arg7)
  col2 := m ((c.tc : Thread nD τ).loc main_arg8)
  pw0 := m ((c.tc : Thread nD τ).loc main_arg9)
  pw1 := m ((c.tc : Thread nD τ).loc main_arg10)
  pw2 := m ((c.tc : Thread nD τ).loc main_arg11)
  bw0 := m ((c.tc : Thread nD τ).loc main_arg12)
  bw1 := m ((c.tc : Thread nD τ).loc main_arg13)

def argsV {F : FTy → Type} [FloatOps F] (V : Valuation τ sig (Elt F)) : Cert.RSpec.Args F where
  vals0 := V (Proc.devRef .tc main_arg0)
  vals1 := V (Proc.devRef .tc main_arg1)
  vals2 := V (Proc.devRef .tc main_arg2)
  row0 := V (Proc.devRef .tc main_arg3)
  col0 := V (Proc.devRef .tc main_arg4)
  row1 := V (Proc.devRef .tc main_arg5)
  col1 := V (Proc.devRef .tc main_arg6)
  row2 := V (Proc.devRef .tc main_arg7)
  col2 := V (Proc.devRef .tc main_arg8)
  pw0 := V (Proc.devRef .tc main_arg9)
  pw1 := V (Proc.devRef .tc main_arg10)
  pw2 := V (Proc.devRef .tc main_arg11)
  bw0 := V (Proc.devRef .tc main_arg12)
  bw1 := V (Proc.devRef .tc main_arg13)

end Cert.RArgs

end
-- ==== Proof.RefRun.lean ====
import proofs.«100184_j50010599195033_2_alg».proof.Proof.RefOps
import proofs.«100184_j50010599195033_2_alg».proof.Proof.RArgs

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem part0_eq (c : Dev nD) : main_part0 (F := F) c = seq part0 := rfl

set_option maxHeartbeats 4000000 in
theorem part1_eq (c : Dev nD) : main_part1 (F := F) c = seq part1 := rfl

set_option maxHeartbeats 4000000 in
theorem part2_eq (c : Dev nD) : main_part2 (F := F) c = seq part2 := by
  simp only [main_part2, fn_relu.body, fn_var.body, fn_where.body, seq, bind_assoc, pure_bind]
  rfl

set_option maxHeartbeats 4000000 in
theorem part3_eq (c : Dev nD) : main_part3 (F := F) c = seq part3 := rfl

set_option maxHeartbeats 4000000 in
theorem part4_eq (c : Dev nD) : main_part4 (F := F) c = seq part4 := by
  simp only [main_part4, fn_relu_0.body, seq, bind_assoc, pure_bind]
  rfl

set_option maxHeartbeats 4000000 in
theorem part5_eq (c : Dev nD) : main_part5 (F := F) c = seq part5 := rfl

set_option maxHeartbeats 4000000 in
theorem part6_eq (c : Dev nD) : main_part6 (F := F) c = seq part6 := by
  simp only [main_part6, fn_relu.body, fn_var.body, fn_where.body, seq, bind_assoc, pure_bind]
  rfl

set_option maxHeartbeats 4000000 in
theorem part7_eq (c : Dev nD) : main_part7 (F := F) c = seq part7 := rfl

set_option maxHeartbeats 4000000 in
theorem part8_eq (c : Dev nD) : main_part8 (F := F) c = seq part8 := by
  simp only [main_part8, fn_relu_0.body, seq, bind_assoc, pure_bind]
  rfl

set_option maxHeartbeats 4000000 in
theorem part9_eq (c : Dev nD) : main_part9 (F := F) c = seq part9 := rfl

set_option maxHeartbeats 4000000 in
theorem part10_eq (c : Dev nD) : main_part10 (F := F) c = seq part10 := rfl

theorem main_eq (c : Dev nD) : main (F := F) c = seq ops := by
  simp only [main, part0_eq, part1_eq, part2_eq, part3_eq, part4_eq, part5_eq, part6_eq, part7_eq, part8_eq, part9_eq,
    part10_eq]
  simp only [ops, part0, part1, part2, part3, part4, part5, part6, part7, part8, part9, part10, seq_append, bind_assoc]

abbrev argRefs : List (Ref sig .tc) :=
  [main_arg0, main_arg1, main_arg2, main_arg3, main_arg4, main_arg5, main_arg6, main_arg7, main_arg8, main_arg9,
   main_arg10, main_arg11, main_arg12, main_arg13]

def Good (op : HloOp τ sig (Elt F)) : Prop :=
  op.bufs ⊆ tcRefs τ sig ∧ op.fresh = ∅ ∧ ∀ r ∈ argRefs, Proc.devRef (τ := τ) .tc r ∉ op.writes

theorem noArg_of_writes {op : HloOp τ sig (Elt F)} {y : Ref sig .tc} (hw : op.writes = {Proc.devRef .tc y})
    (hy : y ∉ argRefs) : ∀ r ∈ argRefs, Proc.devRef (τ := τ) .tc r ∉ op.writes := fun r hr hmem => by
  rw [hw, Finset.mem_singleton] at hmem
  exact hy (Proc.devRef_injective _ hmem ▸ hr)

macro "bufs_sub_step" : tactic => `(tactic| with_reducible first
  | exact nullary_bufs_sub .. | exact unary_bufs_sub .. | exact binary_bufs_sub .. | exact ternary_bufs_sub ..
  | exact reshape_bufs_sub ..)

macro "one_op_good" : tactic => `(tactic| exact ⟨by bufs_sub_step, rfl, noArg_of_writes rfl (by decide)⟩)

macro "each_op_good" : tactic => `(tactic| ((repeat (refine (List.forall_cons _ _ _).mpr ⟨?_, ?_⟩; one_op_good)); exact trivial))

theorem seg0_good : (seg0 : List (HloOp τ sig (Elt F))).Forall Good := by each_op_good
theorem seg1_good : (seg1 : List (HloOp τ sig (Elt F))).Forall Good := by each_op_good
theorem seg2_good : (seg2 : List (HloOp τ sig (Elt F))).Forall Good := by each_op_good
theorem seg3_good : (seg3 : List (HloOp τ sig (Elt F))).Forall Good := by each_op_good
theorem seg4_good : (seg4 : List (HloOp τ sig (Elt F))).Forall Good := by each_op_good
theorem seg5_good : (seg5 : List (HloOp τ sig (Elt F))).Forall Good := by each_op_good
theorem seg6_good : (seg6 : List (HloOp τ sig (Elt F))).Forall Good := by each_op_good
theorem seg7_good : (seg7 : List (HloOp τ sig (Elt F))).Forall Good := by each_op_good
theorem seg8_good : (seg8 : List (HloOp τ sig (Elt F))).Forall Good := by each_op_good
theorem seg9_good : (seg9 : List (HloOp τ sig (Elt F))).Forall Good := by each_op_good
theorem seg10_good : (seg10 : List (HloOp τ sig (Elt F))).Forall Good := by each_op_good
theorem seg11_good : (seg11 : List (HloOp τ sig (Elt F))).Forall Good := by each_op_good
theorem seg12_good : (seg12 : List (HloOp τ sig (Elt F))).Forall Good := by each_op_good
theorem seg13_good : (seg13 : List (HloOp τ sig (Elt F))).Forall Good := by each_op_good
theorem seg14_good : (seg14 : List (HloOp τ sig (Elt F))).Forall Good := by each_op_good

theorem ops_good : (ops : List (HloOp τ sig (Elt F))).Forall Good := by
  simp only [ops, List.forall_append]
  exact ⟨⟨⟨⟨⟨⟨⟨⟨⟨⟨⟨⟨⟨⟨seg0_good, seg1_good⟩, seg2_good⟩, seg3_good⟩, seg4_good⟩, seg5_good⟩, seg6_good⟩, seg7_good⟩, seg8_good⟩,
    seg9_good⟩, seg10_good⟩, seg11_good⟩, seg12_good⟩, seg13_good⟩, seg14_good⟩

theorem ops_sub : (ops : List (HloOp τ sig (Elt F))).Forall fun op => op.bufs ⊆ tcRefs τ sig :=
  ops_good.imp fun _ h => h.1

theorem ops_fresh : ∀ op ∈ (ops : List (HloOp τ sig (Elt F))), op.fresh = ∅ :=
  fun op h => (List.forall_iff_forall_mem.mp ops_good op h).2.1

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (b : DevRef τ sig) :=
  run_seq scopedRefs_eq scopedSems_eq defs main (fun _ => ops) main_eq (fun _ => ops_sub) m ρ (fun _ => ops_fresh)

theorem arg_kept (V : Valuation τ sig (Elt F)) (r : Ref sig .tc) (hr : r ∈ argRefs) :
    after ops V (Proc.devRef .tc r) = V (Proc.devRef .tc r) :=
  after_of_forall_not_mem ops V fun op h => (List.forall_iff_forall_mem.mp ops_good op h).2.2 r hr

theorem argsV_congr {V W : Valuation τ sig (Elt F)}
    (h : ∀ r ∈ argRefs, W (Proc.devRef .tc r) = V (Proc.devRef .tc r)) : Cert.RArgs.argsV W = Cert.RArgs.argsV V := by
  unfold Cert.RArgs.argsV
  rw [h main_arg0 (by decide), h main_arg1 (by decide), h main_arg2 (by decide), h main_arg3 (by decide),
    h main_arg4 (by decide), h main_arg5 (by decide), h main_arg6 (by decide), h main_arg7 (by decide),
    h main_arg8 (by decide), h main_arg9 (by decide), h main_arg10 (by decide), h main_arg11 (by decide),
    h main_arg12 (by decide), h main_arg13 (by decide)]

theorem args_kept (V : Valuation τ sig (Elt F)) : Cert.RArgs.argsV (after ops V) = Cert.RArgs.argsV V :=
  argsV_congr (arg_kept V)

end Cert.ReferenceIdeal.Run

end
-- ==== Proof.RefReadP.lean ====
import proofs.«100184_j50010599195033_2_alg».proof.Proof.RefOps
import proofs.«100184_j50010599195033_2_alg».proof.Proof.RArgs

set_option maxRecDepth 16384

noncomputable section

namespace Cert.RefRead

open Cert.ReferenceIdeal Cert.ReferenceIdeal.Gen Idealize.ShloMosaic Idealize.ShloMosaic.TcCoe Idealize.SL.Sem
  Idealize.ShloMosaic.StableHlo Cert.ReferenceIdeal.Run Cert.RArgs

variable {F : FTy → Type} [FloatOps F]

set_option maxHeartbeats 4000000 in
theorem stageA_spec (U : Valuation τ sig (Elt F)) :
    after stageA U (main_v77 : DevRef τ sig) = RSpec.acc0_0 (argsV U)
      ∧ after stageA U (main_v47 : DevRef τ sig) = RSpec.acc0_1 (argsV U)
      ∧ after stageA U (main_v92 : DevRef τ sig) = RSpec.acc0_2 (argsV U) := by
  simp only [stageA, seg0, seg1, List.cons_append, List.nil_append]
  after_results_simp
  exact ⟨rfl, rfl, rfl⟩

set_option maxHeartbeats 4000000 in
theorem stageD_spec (U : Valuation τ sig (Elt F)) (a : RSpec.Args F) (ha : argsV U = a)
    (h0 : U (main_v195 : DevRef τ sig) = RSpec.d1_0 a) (h1 : U (main_v196 : DevRef τ sig) = RSpec.d1_1 a)
    (h2 : U (main_v197 : DevRef τ sig) = RSpec.d1_2 a) :
    after stageD U (main_v275 : DevRef τ sig) = RSpec.acc1_0 a
      ∧ after stageD U (main_v245 : DevRef τ sig) = RSpec.acc1_1 a
      ∧ after stageD U (main_v290 : DevRef τ sig) = RSpec.acc1_2 a := by
  subst ha
  simp only [stageD, seg6, seg7, seg8, List.cons_append, List.nil_append]
  after_results_simp
  rw [h0, h1, h2]
  exact ⟨rfl, rfl, rfl⟩

set_option maxHeartbeats 4000000 in
theorem stageG_spec (U : Valuation τ sig (Elt F)) (a : RSpec.Args F) (ha : argsV U = a)
    (h0 : U (main_v393 : DevRef τ sig) = RSpec.d2_0 a) (h2 : U (main_v395 : DevRef τ sig) = RSpec.d2_2 a) :
    after stageG U (main_v473 : DevRef τ sig) = RSpec.out a := by
  subst ha
  simp only [stageG, seg12, seg13, seg14, List.cons_append, List.nil_append]
  after_results_simp
  rw [h0, h2]
  rfl

end Cert.RefRead

end
-- ==== Proof.RefReadN.lean ====
import proofs.«100184_j50010599195033_2_alg».proof.Proof.RefOps
import proofs.«100184_j50010599195033_2_alg».proof.Proof.RArgs
import Idealize.ShloMosaic.Lib.Pipeline.Frame

set_option maxRecDepth 8192

noncomputable section

namespace Cert.RefRead

open Cert Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

theorem stageB_spec (U : Valuation τ sig (Elt F)) (x0 x1 x2 : FVec F S100000x64 .f32)
    (h0 : U (main_v77 : DevRef τ sig) = x0) (h1 : U (main_v47 : DevRef τ sig) = x1) (h2 : U (main_v92 : DevRef τ sig) = x2) :
    after stageB U (main_v105 : DevRef τ sig) = RSpec.emb x0 ∧ after stageB U (main_v118 : DevRef τ sig) = RSpec.emb x1 ∧
      after stageB U (main_v131 : DevRef τ sig) = RSpec.emb x2 := by
  subst h0 h1 h2
  refine ⟨?_, ?_, ?_⟩
  · after_results_simp; rfl
  · after_results_simp; rfl
  · after_results_simp; rfl

theorem stageE_spec (U : Valuation τ sig (Elt F)) (x0 x1 x2 : FVec F S100000x64 .f32)
    (h0 : U (main_v275 : DevRef τ sig) = x0) (h1 : U (main_v245 : DevRef τ sig) = x1) (h2 : U (main_v290 : DevRef τ sig) = x2) :
    after stageE U (main_v303 : DevRef τ sig) = RSpec.emb x0 ∧ after stageE U (main_v316 : DevRef τ sig) = RSpec.emb x1 ∧
      after stageE U (main_v329 : DevRef τ sig) = RSpec.emb x2 := by
  subst h0 h1 h2
  refine ⟨?_, ?_, ?_⟩
  · after_results_simp; rfl
  · after_results_simp; rfl
  · after_results_simp; rfl

theorem stageC_eq (U : Valuation τ sig (Elt F)) : after stageC U = after seg5 (after seg4 (after seg3 U)) := by
  show after (seg3 ++ seg4 ++ seg5) U = _
  rw [StableHlo.after_append, StableHlo.after_append]

theorem stageF_eq (U : Valuation τ sig (Elt F)) : after stageF U = after seg11 (after seg10 U) := by
  show after (seg10 ++ seg11) U = _
  rw [StableHlo.after_append]

set_option maxHeartbeats 1000000 in
theorem stageC_spec (U : Valuation τ sig (Elt F)) (a : RSpec.Args F) (ha : Cert.RArgs.argsV U = a)
    (e0 e1 e2 : FVec F S100000x64 .f32)
    (h0 : U (main_v105 : DevRef τ sig) = e0) (h1 : U (main_v118 : DevRef τ sig) = e1) (h2 : U (main_v131 : DevRef τ sig) = e2) :
    after stageC U (main_v195 : DevRef τ sig) = RSpec.bcast e0 e1 a.row0 a.col0 (RSpec.bw0_00 a) (RSpec.bw0_01 a) ∧
      after stageC U (main_v196 : DevRef τ sig) = RSpec.bcast e1 e2 a.row1 a.col1 (RSpec.bw0_10 a) (RSpec.bw0_11 a) ∧
      after stageC U (main_v197 : DevRef τ sig) = RSpec.bcast e0 e2 a.row2 a.col2 (RSpec.bw0_20 a) (RSpec.bw0_21 a) := by
  subst ha h0 h1 h2
  rw [stageC_eq]
  refine ⟨?_, ?_, ?_⟩
  · after_results_simp; rfl
  · after_results_simp; rfl
  · after_results_simp; rfl

set_option maxHeartbeats 1000000 in
theorem stageF_spec (U : Valuation τ sig (Elt F)) (a : RSpec.Args F) (ha : Cert.RArgs.argsV U = a)
    (e0 e1 e2 : FVec F S100000x64 .f32)
    (h0 : U (main_v303 : DevRef τ sig) = e0) (h1 : U (main_v316 : DevRef τ sig) = e1) (h2 : U (main_v329 : DevRef τ sig) = e2) :
    after stageF U (main_v393 : DevRef τ sig) = RSpec.bcast e0 e1 a.row0 a.col0 (RSpec.bw1_00 a) (RSpec.bw1_01 a) ∧
      after stageF U (main_v394 : DevRef τ sig) = RSpec.bcast e1 e2 a.row1 a.col1 (RSpec.bw1_10 a) (RSpec.bw1_11 a) ∧
      after stageF U (main_v395 : DevRef τ sig) = RSpec.bcast e0 e2 a.row2 a.col2 (RSpec.bw1_20 a) (RSpec.bw1_21 a) := by
  subst ha h0 h1 h2
  rw [stageF_eq]
  refine ⟨?_, ?_, ?_⟩
  · after_results_simp; rfl
  · after_results_simp; rfl
  · after_results_simp; rfl

end Cert.RefRead

end
-- ==== Proof.RefKeep.lean ====
import proofs.«100184_j50010599195033_2_alg».proof.Proof.RefOps
import proofs.«100184_j50010599195033_2_alg».proof.Proof.RArgs
import Idealize.ShloMosaic.Lib.Pipeline.Frame

set_option maxRecDepth 8192

noncomputable section

namespace Cert.RefRead

open Cert Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

abbrev W0 : List (Ref sig .tc) := (written.drop 0).take 60
abbrev W1 : List (Ref sig .tc) := (written.drop 60).take 60
abbrev W2 : List (Ref sig .tc) := (written.drop 120).take 123
abbrev W3 : List (Ref sig .tc) := (written.drop 243).take 9
abbrev W4 : List (Ref sig .tc) := (written.drop 252).take 60
abbrev W5 : List (Ref sig .tc) := (written.drop 312).take 15
abbrev W6 : List (Ref sig .tc) := (written.drop 327).take 51
abbrev W7 : List (Ref sig .tc) := (written.drop 378).take 60
abbrev W8 : List (Ref sig .tc) := (written.drop 438).take 9
abbrev W9 : List (Ref sig .tc) := (written.drop 447).take 123
abbrev W10 : List (Ref sig .tc) := (written.drop 570).take 60
abbrev W11 : List (Ref sig .tc) := (written.drop 630).take 24
abbrev W12 : List (Ref sig .tc) := (written.drop 654).take 42
abbrev W13 : List (Ref sig .tc) := (written.drop 696).take 60
abbrev W14 : List (Ref sig .tc) := (written.drop 756).take 18

local macro "writes_step" : tactic =>
  `(tactic| (simp only [nullary_writes, unary_writes, binary_writes, ternary_writes, reshape_writes,
      Finset.singleton_subset_iff, List.mem_toFinset]; exact List.mem_map_of_mem (by decide)))

local macro "writes_all" : tactic =>
  `(tactic| (simp only [List.Forall]; (repeat' apply And.intro) <;> writes_step))

theorem seg0_writes : (seg0 : List (HloOp τ sig (Elt F))).Forall fun op => op.writes ⊆ (W0.map (Proc.devRef (τ := τ) .tc)).toFinset := by
  writes_all
theorem seg1_writes : (seg1 : List (HloOp τ sig (Elt F))).Forall fun op => op.writes ⊆ (W1.map (Proc.devRef (τ := τ) .tc)).toFinset := by
  writes_all
theorem seg2_writes : (seg2 : List (HloOp τ sig (Elt F))).Forall fun op => op.writes ⊆ (W2.map (Proc.devRef (τ := τ) .tc)).toFinset := by
  writes_all
theorem seg3_writes : (seg3 : List (HloOp τ sig (Elt F))).Forall fun op => op.writes ⊆ (W3.map (Proc.devRef (τ := τ) .tc)).toFinset := by
  writes_all
theorem seg4_writes : (seg4 : List (HloOp τ sig (Elt F))).Forall fun op => op.writes ⊆ (W4.map (Proc.devRef (τ := τ) .tc)).toFinset := by
  writes_all
theorem seg5_writes : (seg5 : List (HloOp τ sig (Elt F))).Forall fun op => op.writes ⊆ (W5.map (Proc.devRef (τ := τ) .tc)).toFinset := by
  writes_all
theorem seg6_writes : (seg6 : List (HloOp τ sig (Elt F))).Forall fun op => op.writes ⊆ (W6.map (Proc.devRef (τ := τ) .tc)).toFinset := by
  writes_all
theorem seg7_writes : (seg7 : List (HloOp τ sig (Elt F))).Forall fun op => op.writes ⊆ (W7.map (Proc.devRef (τ := τ) .tc)).toFinset := by
  writes_all
theorem seg8_writes : (seg8 : List (HloOp τ sig (Elt F))).Forall fun op => op.writes ⊆ (W8.map (Proc.devRef (τ := τ) .tc)).toFinset := by
  writes_all
theorem seg9_writes : (seg9 : List (HloOp τ sig (Elt F))).Forall fun op => op.writes ⊆ (W9.map (Proc.devRef (τ := τ) .tc)).toFinset := by
  writes_all
theorem seg10_writes : (seg10 : List (HloOp τ sig (Elt F))).Forall fun op => op.writes ⊆ (W10.map (Proc.devRef (τ := τ) .tc)).toFinset := by
  writes_all
theorem seg11_writes : (seg11 : List (HloOp τ sig (Elt F))).Forall fun op => op.writes ⊆ (W11.map (Proc.devRef (τ := τ) .tc)).toFinset := by
  writes_all
theorem seg12_writes : (seg12 : List (HloOp τ sig (Elt F))).Forall fun op => op.writes ⊆ (W12.map (Proc.devRef (τ := τ) .tc)).toFinset := by
  writes_all
theorem seg13_writes : (seg13 : List (HloOp τ sig (Elt F))).Forall fun op => op.writes ⊆ (W13.map (Proc.devRef (τ := τ) .tc)).toFinset := by
  writes_all
theorem seg14_writes : (seg14 : List (HloOp τ sig (Elt F))).Forall fun op => op.writes ⊆ (W14.map (Proc.devRef (τ := τ) .tc)).toFinset := by
  writes_all

theorem keep_seg0 (U : Valuation τ sig (Elt F)) (b : Ref sig .tc) (hb : b ∉ W0) :
    after seg0 U (b : DevRef τ sig) = U (b : DevRef τ sig) := after_of_writes_sub seg0 U seg0_writes hb
theorem keep_seg1 (U : Valuation τ sig (Elt F)) (b : Ref sig .tc) (hb : b ∉ W1) :
    after seg1 U (b : DevRef τ sig) = U (b : DevRef τ sig) := after_of_writes_sub seg1 U seg1_writes hb
theorem keep_seg2 (U : Valuation τ sig (Elt F)) (b : Ref sig .tc) (hb : b ∉ W2) :
    after seg2 U (b : DevRef τ sig) = U (b : DevRef τ sig) := after_of_writes_sub seg2 U seg2_writes hb
theorem keep_seg3 (U : Valuation τ sig (Elt F)) (b : Ref sig .tc) (hb : b ∉ W3) :
    after seg3 U (b : DevRef τ sig) = U (b : DevRef τ sig) := after_of_writes_sub seg3 U seg3_writes hb
theorem keep_seg4 (U : Valuation τ sig (Elt F)) (b : Ref sig .tc) (hb : b ∉ W4) :
    after seg4 U (b : DevRef τ sig) = U (b : DevRef τ sig) := after_of_writes_sub seg4 U seg4_writes hb
theorem keep_seg5 (U : Valuation τ sig (Elt F)) (b : Ref sig .tc) (hb : b ∉ W5) :
    after seg5 U (b : DevRef τ sig) = U (b : DevRef τ sig) := after_of_writes_sub seg5 U seg5_writes hb
theorem keep_seg6 (U : Valuation τ sig (Elt F)) (b : Ref sig .tc) (hb : b ∉ W6) :
    after seg6 U (b : DevRef τ sig) = U (b : DevRef τ sig) := after_of_writes_sub seg6 U seg6_writes hb
theorem keep_seg7 (U : Valuation τ sig (Elt F)) (b : Ref sig .tc) (hb : b ∉ W7) :
    after seg7 U (b : DevRef τ sig) = U (b : DevRef τ sig) := after_of_writes_sub seg7 U seg7_writes hb
theorem keep_seg8 (U : Valuation τ sig (Elt F)) (b : Ref sig .tc) (hb : b ∉ W8) :
    after seg8 U (b : DevRef τ sig) = U (b : DevRef τ sig) := after_of_writes_sub seg8 U seg8_writes hb
theorem keep_seg9 (U : Valuation τ sig (Elt F)) (b : Ref sig .tc) (hb : b ∉ W9) :
    after seg9 U (b : DevRef τ sig) = U (b : DevRef τ sig) := after_of_writes_sub seg9 U seg9_writes hb
theorem keep_seg10 (U : Valuation τ sig (Elt F)) (b : Ref sig .tc) (hb : b ∉ W10) :
    after seg10 U (b : DevRef τ sig) = U (b : DevRef τ sig) := after_of_writes_sub seg10 U seg10_writes hb
theorem keep_seg11 (U : Valuation τ sig (Elt F)) (b : Ref sig .tc) (hb : b ∉ W11) :
    after seg11 U (b : DevRef τ sig) = U (b : DevRef τ sig) := after_of_writes_sub seg11 U seg11_writes hb
theorem keep_seg12 (U : Valuation τ sig (Elt F)) (b : Ref sig .tc) (hb : b ∉ W12) :
    after seg12 U (b : DevRef τ sig) = U (b : DevRef τ sig) := after_of_writes_sub seg12 U seg12_writes hb
theorem keep_seg13 (U : Valuation τ sig (Elt F)) (b : Ref sig .tc) (hb : b ∉ W13) :
    after seg13 U (b : DevRef τ sig) = U (b : DevRef τ sig) := after_of_writes_sub seg13 U seg13_writes hb
theorem keep_seg14 (U : Valuation τ sig (Elt F)) (b : Ref sig .tc) (hb : b ∉ W14) :
    after seg14 U (b : DevRef τ sig) = U (b : DevRef τ sig) := after_of_writes_sub seg14 U seg14_writes hb

abbrev writtenA : List (Ref sig .tc) := W0 ++ W1
abbrev writtenB : List (Ref sig .tc) := W2
abbrev writtenC : List (Ref sig .tc) := W3 ++ W4 ++ W5
abbrev writtenD : List (Ref sig .tc) := W6 ++ W7 ++ W8
abbrev writtenE : List (Ref sig .tc) := W9
abbrev writtenF : List (Ref sig .tc) := W10 ++ W11
abbrev writtenG : List (Ref sig .tc) := W12 ++ W13 ++ W14

theorem not_mem_append2 {b : Ref sig .tc} {X Y : List (Ref sig .tc)} (hb : b ∉ X ++ Y) : b ∉ X ∧ b ∉ Y :=
  ⟨fun h => hb (List.mem_append.mpr (Or.inl h)), fun h => hb (List.mem_append.mpr (Or.inr h))⟩

theorem not_mem_append3 {b : Ref sig .tc} {X Y Z : List (Ref sig .tc)} (hb : b ∉ X ++ Y ++ Z) : b ∉ X ∧ b ∉ Y ∧ b ∉ Z :=
  ⟨(not_mem_append2 (not_mem_append2 hb).1).1, (not_mem_append2 (not_mem_append2 hb).1).2, (not_mem_append2 hb).2⟩

theorem keep_stageA (U : Valuation τ sig (Elt F)) (b : Ref sig .tc) (hb : b ∉ writtenA) :
    after stageA U (b : DevRef τ sig) = U (b : DevRef τ sig) := by
  have h := not_mem_append2 hb
  show after (seg0 ++ seg1) U (b : DevRef τ sig) = U (b : DevRef τ sig)
  rw [StableHlo.after_append, keep_seg1 _ b h.2, keep_seg0 _ b h.1]

theorem keep_stageB (U : Valuation τ sig (Elt F)) (b : Ref sig .tc) (hb : b ∉ writtenB) :
    after stageB U (b : DevRef τ sig) = U (b : DevRef τ sig) := keep_seg2 U b hb

theorem keep_stageC (U : Valuation τ sig (Elt F)) (b : Ref sig .tc) (hb : b ∉ writtenC) :
    after stageC U (b : DevRef τ sig) = U (b : DevRef τ sig) := by
  have h := not_mem_append3 hb
  show after (seg3 ++ seg4 ++ seg5) U (b : DevRef τ sig) = U (b : DevRef τ sig)
  rw [StableHlo.after_append, StableHlo.after_append, keep_seg5 _ b h.2.2, keep_seg4 _ b h.2.1, keep_seg3 _ b h.1]

theorem keep_stageD (U : Valuation τ sig (Elt F)) (b : Ref sig .tc) (hb : b ∉ writtenD) :
    after stageD U (b : DevRef τ sig) = U (b : DevRef τ sig) := by
  have h := not_mem_append3 hb
  show after (seg6 ++ seg7 ++ seg8) U (b : DevRef τ sig) = U (b : DevRef τ sig)
  rw [StableHlo.after_append, StableHlo.after_append, keep_seg8 _ b h.2.2, keep_seg7 _ b h.2.1, keep_seg6 _ b h.1]

theorem keep_stageE (U : Valuation τ sig (Elt F)) (b : Ref sig .tc) (hb : b ∉ writtenE) :
    after stageE U (b : DevRef τ sig) = U (b : DevRef τ sig) := keep_seg9 U b hb

theorem keep_stageF (U : Valuation τ sig (Elt F)) (b : Ref sig .tc) (hb : b ∉ writtenF) :
    after stageF U (b : DevRef τ sig) = U (b : DevRef τ sig) := by
  have h := not_mem_append2 hb
  show after (seg10 ++ seg11) U (b : DevRef τ sig) = U (b : DevRef τ sig)
  rw [StableHlo.after_append, keep_seg11 _ b h.2, keep_seg10 _ b h.1]

theorem keep_stageG (U : Valuation τ sig (Elt F)) (b : Ref sig .tc) (hb : b ∉ writtenG) :
    after stageG U (b : DevRef τ sig) = U (b : DevRef τ sig) := by
  have h := not_mem_append3 hb
  show after (seg12 ++ seg13 ++ seg14) U (b : DevRef τ sig) = U (b : DevRef τ sig)
  rw [StableHlo.after_append, StableHlo.after_append, keep_seg14 _ b h.2.2, keep_seg13 _ b h.2.1, keep_seg12 _ b h.1]

theorem args_stageA (U : Valuation τ sig (Elt F)) : Cert.RArgs.argsV (after stageA U) = Cert.RArgs.argsV U := by
  simp only [Cert.RArgs.argsV]
  congr 1 <;> exact keep_stageA U _ (by decide)

theorem args_stageB (U : Valuation τ sig (Elt F)) : Cert.RArgs.argsV (after stageB U) = Cert.RArgs.argsV U := by
  simp only [Cert.RArgs.argsV]
  congr 1 <;> exact keep_stageB U _ (by decide)

theorem args_stageC (U : Valuation τ sig (Elt F)) : Cert.RArgs.argsV (after stageC U) = Cert.RArgs.argsV U := by
  simp only [Cert.RArgs.argsV]
  congr 1 <;> exact keep_stageC U _ (by decide)

theorem args_stageD (U : Valuation τ sig (Elt F)) : Cert.RArgs.argsV (after stageD U) = Cert.RArgs.argsV U := by
  simp only [Cert.RArgs.argsV]
  congr 1 <;> exact keep_stageD U _ (by decide)

theorem args_stageE (U : Valuation τ sig (Elt F)) : Cert.RArgs.argsV (after stageE U) = Cert.RArgs.argsV U := by
  simp only [Cert.RArgs.argsV]
  congr 1 <;> exact keep_stageE U _ (by decide)

theorem args_stageF (U : Valuation τ sig (Elt F)) : Cert.RArgs.argsV (after stageF U) = Cert.RArgs.argsV U := by
  simp only [Cert.RArgs.argsV]
  congr 1 <;> exact keep_stageF U _ (by decide)

theorem args_stageG (U : Valuation τ sig (Elt F)) : Cert.RArgs.argsV (after stageG U) = Cert.RArgs.argsV U := by
  simp only [Cert.RArgs.argsV]
  congr 1 <;> exact keep_stageG U _ (by decide)

end Cert.RefRead

end
-- ==== Proof.RefOut.lean ====
import proofs.«100184_j50010599195033_2_alg».proof.Proof.RefRun
import proofs.«100184_j50010599195033_2_alg».proof.Proof.RefReadP
import proofs.«100184_j50010599195033_2_alg».proof.Proof.RefReadN
import proofs.«100184_j50010599195033_2_alg».proof.Proof.RefKeep

noncomputable section

namespace Cert.RefRead

open Idealize.ShloMosaic Idealize.ShloMosaic.TcCoe Idealize.SL.Sem Idealize.ShloMosaic.StableHlo
open Cert.ReferenceIdeal Cert.ReferenceIdeal.Run Cert.RArgs

variable {F : FTy → Type} [FloatOps F]

theorem ops_stages : (ops : List (HloOp τ sig (Elt F))) = stageA ++ (stageB ++ (stageC ++ (stageD ++ (stageE ++ (stageF ++ stageG))))) := by
  simp only [ops, stageA, stageB, stageC, stageD, stageE, stageF, stageG, List.append_assoc]

theorem out_eq (V : Valuation τ sig (Elt F)) : after ops V (main_v473 : DevRef τ sig) = RSpec.out (argsV V) := by
  rw [ops_stages]
  simp only [after_append]
  obtain ⟨a0, a1, a2⟩ := stageA_spec V
  have kA := args_stageA V
  obtain ⟨b0, b1, b2⟩ := stageB_spec (after stageA V) _ _ _ a0 a1 a2
  have kB := (args_stageB (after stageA V)).trans kA
  obtain ⟨c0, c1, c2⟩ := stageC_spec (after stageB (after stageA V)) (argsV V) kB _ _ _ b0 b1 b2
  have kC := (args_stageC (after stageB (after stageA V))).trans kB
  obtain ⟨d0, d1, d2⟩ := stageD_spec (after stageC (after stageB (after stageA V))) (argsV V) kC c0 c1 c2
  have kD := (args_stageD (after stageC (after stageB (after stageA V)))).trans kC
  obtain ⟨e0, e1, e2⟩ := stageE_spec (after stageD (after stageC (after stageB (after stageA V)))) _ _ _ d0 d1 d2
  have kE := (args_stageE (after stageD (after stageC (after stageB (after stageA V))))).trans kD
  obtain ⟨f0, f1, f2⟩ := stageF_spec (after stageE (after stageD (after stageC (after stageB (after stageA V))))) (argsV V) kE _ _ _ e0 e1 e2
  have kF := (args_stageF (after stageE (after stageD (after stageC (after stageB (after stageA V)))))).trans kE
  exact stageG_spec _ (argsV V) kF f0 f2

end Cert.RefRead

end
-- ==== Proof.Bridge.lean ====
import proofs.«100184_j50010599195033_2_alg».proof.Proof.KSpec
import proofs.«100184_j50010599195033_2_alg».proof.Proof.RSpec

noncomputable section

namespace Cert.Bridge

open Idealize.ShloMosaic

def IsReal {S : Shape} (x : FVec Ideal S .f32) : Prop := ∀ i, ∃ r : ℝ, x i = (r : EReal)

structure FiniteArgs (a : Cert.KSpec.Args Ideal) : Prop where
  vals0 : IsReal a.vals0
  vals1 : IsReal a.vals1
  vals2 : IsReal a.vals2
  pw0 : IsReal a.pw0
  pw1 : IsReal a.pw1
  pw2 : IsReal a.pw2
  bw0 : IsReal a.bw0
  bw1 : IsReal a.bw1

def toR {F : FTy → Type} (a : Cert.KSpec.Args F) : Cert.RSpec.Args F where
  vals0 := a.vals0
  vals1 := a.vals1
  vals2 := a.vals2
  row0 := a.row0
  col0 := a.col0
  row1 := a.row1
  col1 := a.col1
  row2 := a.row2
  col2 := a.col2
  pw0 := a.pw0
  pw1 := a.pw1
  pw2 := a.pw2
  bw0 := a.bw0
  bw1 := a.bw1

end Cert.Bridge

end
-- ==== Proof.EqLayer.lean ====
import proofs.«100184_j50010599195033_2_alg».proof.Proof.Bridge
import Idealize.ShloMosaic.Lib.StackMember
import Idealize.ShloMosaic.Lib.ValueIdx

noncomputable section

namespace Cert.Equiv

open Idealize.ShloMosaic Idealize.ShloMosaic.ValueIdx Idealize.ShloMosaic.StackMember
open Cert.Bridge Cert.KernelIdeal Cert.KernelIdeal.Facts₀

section Glue
variable {F : FTy → Type} [FloatOps F]

theorem cnt_eq (idx : IVec S500000 32) : (KSpec.cnt idx : FVec F S100000x1 .f32) = RSpec.cnt idx := rfl
theorem segmean16_eq (X : FVec F S500000x16 .f32) (idx : IVec S500000 32) : KSpec.segmean16 X idx = RSpec.segmean16 X idx := rfl
theorem segmean64_eq (X : FVec F S500000x64 .f32) (idx : IVec S500000 32) : KSpec.segmean64 X idx = RSpec.segmean64 X idx := rfl
theorem z64_eq : (KSpec.z64 : FVec F S100000x64 .f32) = RSpec.z64 := rfl
theorem relu1_eq (x : FVec F S100000x64 .f32) : KSpec.relu1 x = RSpec.relu1 x := rfl
theorem relu5_eq (x : FVec F S500000x64 .f32) : KSpec.relu5 x = RSpec.relu5 x := rfl
theorem mean1_eq (x : FVec F S100000x64 .f32) : KSpec.mean1 x = RSpec.mean1 x := rfl
theorem var1_eq (x : FVec F S100000x64 .f32) : KSpec.var1 x = RSpec.var1 x := rfl
theorem bn_eq (x : FVec F S100000x64 .f32) (mu var : FVec F S1x64 .f32) : KSpec.bn x mu var = RSpec.bn x mu var := rfl
theorem gath_eq (T : FVec F S100000x64 .f32) (idx : IVec S500000 32) : KSpec.gath T idx = RSpec.gath T idx := rfl
theorem gidx_eq (idx : IVec S500000 32) : KSpec.gidx idx = RSpec.gidx idx := rfl

theorem pw0_00_eq (a : KSpec.Args F) : KSpec.pw0_00 a = RSpec.pw0_00 (toR a) := rfl
theorem pw0_01_eq (a : KSpec.Args F) : KSpec.pw0_01 a = RSpec.pw0_01 (toR a) := rfl
theorem pw0_10_eq (a : KSpec.Args F) : KSpec.pw0_10 a = RSpec.pw0_10 (toR a) := rfl
theorem pw0_11_eq (a : KSpec.Args F) : KSpec.pw0_11 a = RSpec.pw0_11 (toR a) := rfl
theorem pw0_20_eq (a : KSpec.Args F) : KSpec.pw0_20 a = RSpec.pw0_20 (toR a) := rfl
theorem pw0_21_eq (a : KSpec.Args F) : KSpec.pw0_21 a = RSpec.pw0_21 (toR a) := rfl
theorem pw1_00_eq (a : KSpec.Args F) : KSpec.pw1_00 a = RSpec.pw1_00 (toR a) := rfl
theorem pw1_01_eq (a : KSpec.Args F) : KSpec.pw1_01 a = RSpec.pw1_01 (toR a) := rfl
theorem pw1_10_eq (a : KSpec.Args F) : KSpec.pw1_10 a = RSpec.pw1_10 (toR a) := rfl
theorem pw1_11_eq (a : KSpec.Args F) : KSpec.pw1_11 a = RSpec.pw1_11 (toR a) := rfl
theorem pw1_20_eq (a : KSpec.Args F) : KSpec.pw1_20 a = RSpec.pw1_20 (toR a) := rfl
theorem pw1_21_eq (a : KSpec.Args F) : KSpec.pw1_21 a = RSpec.pw1_21 (toR a) := rfl
theorem bw0_00_eq (a : KSpec.Args F) : KSpec.bw0_00 a = RSpec.bw0_00 (toR a) := rfl
theorem bw0_01_eq (a : KSpec.Args F) : KSpec.bw0_01 a = RSpec.bw0_01 (toR a) := rfl
theorem bw0_10_eq (a : KSpec.Args F) : KSpec.bw0_10 a = RSpec.bw0_10 (toR a) := rfl
theorem bw0_11_eq (a : KSpec.Args F) : KSpec.bw0_11 a = RSpec.bw0_11 (toR a) := rfl
theorem bw0_20_eq (a : KSpec.Args F) : KSpec.bw0_20 a = RSpec.bw0_20 (toR a) := rfl
theorem bw0_21_eq (a : KSpec.Args F) : KSpec.bw0_21 a = RSpec.bw0_21 (toR a) := rfl
theorem bw1_00_eq (a : KSpec.Args F) : KSpec.bw1_00 a = RSpec.bw1_00 (toR a) := rfl
theorem bw1_01_eq (a : KSpec.Args F) : KSpec.bw1_01 a = RSpec.bw1_01 (toR a) := rfl
theorem bw1_10_eq (a : KSpec.Args F) : KSpec.bw1_10 a = RSpec.bw1_10 (toR a) := rfl
theorem bw1_11_eq (a : KSpec.Args F) : KSpec.bw1_11 a = RSpec.bw1_11 (toR a) := rfl
theorem bw1_20_eq (a : KSpec.Args F) : KSpec.bw1_20 a = RSpec.bw1_20 (toR a) := rfl
theorem bw1_21_eq (a : KSpec.Args F) : KSpec.bw1_21 a = RSpec.bw1_21 (toR a) := rfl

end Glue

theorem mm16_eq (X : FVec Ideal S100000x16 .f32) (W : FVec Ideal S16x64 .f32) : KSpec.mm16 X W = RSpec.mm16 X W := by
  funext i
  obtain ⟨r, c, rfl⟩ : ∃ (r : Fin 100000) (c : Fin 64), i = ix2 r c := ⟨i 0, i 1, eq_ix2 i⟩
  exact (dotGeneral_plain_apply (m := 100000) (n := 64) (k := 16) none X W r c).symm

theorem mm64_eq (X : FVec Ideal S100000x64 .f32) (W : FVec Ideal S64x64 .f32) : KSpec.mm64 X W = RSpec.mm64 X W := by
  funext i
  obtain ⟨r, c, rfl⟩ : ∃ (r : Fin 100000) (c : Fin 64), i = ix2 r c := ⟨i 0, i 1, eq_ix2 i⟩
  exact (dotGeneral_plain_apply (m := 100000) (n := 64) (k := 64) none X W r c).symm

theorem mmE_apply (X : FVec Ideal S500000x64 .f32) (W : FVec Ideal S64x64 .f32) (e : Fin 500000) (c : Fin 64) :
    RSpec.mmE X W (ix2 e c) = ∑ k : Fin 64, X (ix2 e k) * W (ix2 k c) :=
  dotGeneral_plain_apply (m := 500000) (n := 64) (k := 64) none X W e c

theorem acc0_eq_0 (a : KSpec.Args Ideal) : KSpec.kacc0_0 a = RSpec.acc0_0 (toR a) := by
  unfold KSpec.kacc0_0
  rw [mm16_eq, mm16_eq]
  rfl

theorem acc0_eq_1 (a : KSpec.Args Ideal) : KSpec.kacc0_1 a = RSpec.acc0_1 (toR a) := by
  unfold KSpec.kacc0_1
  rw [mm16_eq, mm16_eq]
  rfl

theorem acc0_eq_2 (a : KSpec.Args Ideal) : KSpec.kacc0_2 a = RSpec.acc0_2 (toR a) := by
  unfold KSpec.kacc0_2
  rw [mm16_eq, mm16_eq]
  rfl

theorem acc0_eq (a : KSpec.Args Ideal) :
    KSpec.kacc0_0 a = RSpec.acc0_0 (toR a) ∧ KSpec.kacc0_1 a = RSpec.acc0_1 (toR a) ∧ KSpec.kacc0_2 a = RSpec.acc0_2 (toR a) :=
  ⟨acc0_eq_0 a, acc0_eq_1 a, acc0_eq_2 a⟩

section Rows
variable {α : Type}

def grow (I : IVec S500000x1 32) (e : Fin 500000) : Fin 100000 :=
  ⟨min (I (ix2 e (0 : Fin 1))).toInt.toNat (100000 - 1), by omega⟩

theorem operandIdx_row (I : IVec S500000x1 32) (e : Fin 500000) (j : Fin 64) :
    (gather_S100000x64_S500000x1_S500000x64_1_0_n_n_0_1_164.operandIdx (ix2 e j) I (0 : Fin 2)).val = (grow I e).val := by
  show gather_S100000x64_S500000x1_S500000x64_1_0_n_n_0_1_164.start (ix2 e j) I (0 : Fin 2)
      + gather_S100000x64_S500000x1_S500000x64_1_0_n_n_0_1_164.batchCoord (ix2 e j) (0 : Fin 2)
      + gather_S100000x64_S500000x1_S500000x64_1_0_n_n_0_1_164.offCoord (ix2 e j) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ gather_S100000x64_S500000x1_S500000x64_1_0_n_n_0_1_164.startIndexMap from List.mem_singleton.mpr rfl)]
  have hsi : gather_S100000x64_S500000x1_S500000x64_1_0_n_n_0_1_164.siIdx (ix2 e j)
      ⟨List.idxOf (0 : Fin 2) gather_S100000x64_S500000x1_S500000x64_1_0_n_n_0_1_164.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem operandIdx_col (I : IVec S500000x1 32) (e : Fin 500000) (j : Fin 64) :
    (gather_S100000x64_S500000x1_S500000x64_1_0_n_n_0_1_164.operandIdx (ix2 e j) I (1 : Fin 2)).val = j.val := by
  show gather_S100000x64_S500000x1_S500000x64_1_0_n_n_0_1_164.start (ix2 e j) I (1 : Fin 2)
      + gather_S100000x64_S500000x1_S500000x64_1_0_n_n_0_1_164.batchCoord (ix2 e j) (1 : Fin 2)
      + gather_S100000x64_S500000x1_S500000x64_1_0_n_n_0_1_164.offCoord (ix2 e j) (1 : Fin 2) = _
  rw [GatherDims.batchCoord_eq_zero _ _ _ List.not_mem_nil, Nat.add_zero]
  unfold GatherDims.start
  rw [dif_neg (show (1 : Fin 2) ∉ gather_S100000x64_S500000x1_S500000x64_1_0_n_n_0_1_164.startIndexMap by decide), Nat.zero_add]
  unfold GatherDims.offCoord
  rw [dif_pos (show (1 : Fin 2) ∈ gather_S100000x64_S500000x1_S500000x64_1_0_n_n_0_1_164.sKept by decide)]
  rfl

theorem gather_rows_apply (T : S100000x64.Idx → α) (I : IVec S500000x1 32) (e : Fin 500000) (j : Fin 64) :
    Host.gather gather_S100000x64_S500000x1_S500000x64_1_0_n_n_0_1_164 T I (ix2 e j) = T (ix2 (grow I e) j) := by
  unfold Host.gather
  congr 1
  funext a
  refine Fin.ext ?_
  match a with
  | ⟨0, _⟩ => exact operandIdx_row I e j
  | ⟨1, _⟩ => exact operandIdx_col I e j

theorem slice_lo_apply (Y : S100000x128.Idx → α) (r : Fin 100000) (c : Fin 64) :
    extractStridedSlice S100000x64 ![0, 0] Y slices_S100000x128_S100000x64_0_0 (ix2 r c)
      = Y (ix2 r (⟨c.val, by omega⟩ : Fin 128)) :=
  extractStridedSlice_apply _ _ _ _ _ (fun a => by
    match a with
    | ⟨0, _⟩ => simp
    | ⟨1, _⟩ => simp)

theorem slice_hi_apply (Y : S100000x128.Idx → α) (r : Fin 100000) (c : Fin 64) :
    extractStridedSlice S100000x64 ![0, 64] Y slices_S100000x128_S100000x64_0_64 (ix2 r c)
      = Y (ix2 r (⟨64 + c.val, by omega⟩ : Fin 128)) :=
  extractStridedSlice_apply _ _ _ _ _ (fun a => by
    match a with
    | ⟨0, _⟩ => simp
    | ⟨1, _⟩ => simp)

theorem cat_left_apply (A B : S64x64.Idx → α) (k c : Fin 64) :
    concatenate S64x128 1 [⟨S64x64, A⟩, ⟨S64x64, B⟩] concatenates_S64x64_S64x64_S64x128_d1 (ix2 k (⟨c.val, by omega⟩ : Fin 128))
      = A (ix2 k c) :=
  concatenate_pair_apply_left (t := S64x128) (s₁ := S64x64) (s₂ := S64x64) 1 A B concatenates_S64x64_S64x64_S64x128_d1
    (ix2 k (⟨c.val, by omega⟩ : Fin 128)) rfl (ix2 k c) (fun b => by
      match b with
      | ⟨0, _⟩ => rfl
      | ⟨1, _⟩ => rfl)

theorem cat_right_apply (A B : S64x64.Idx → α) (k c : Fin 64) :
    concatenate S64x128 1 [⟨S64x64, A⟩, ⟨S64x64, B⟩] concatenates_S64x64_S64x64_S64x128_d1 (ix2 k (⟨64 + c.val, by omega⟩ : Fin 128))
      = B (ix2 k c) :=
  concatenate_pair_apply_right (t := S64x128) (s₁ := S64x64) (s₂ := S64x64) 1 A B concatenates_S64x64_S64x64_S64x128_d1
    (ix2 k (⟨64 + c.val, by omega⟩ : Fin 128)) rfl rfl (ix2 k c) (fun b hb => by
      match b with
      | ⟨0, _⟩ => rfl
      | ⟨1, _⟩ => exact absurd rfl hb) (by show c.val + 64 = 64 + c.val; omega)

end Rows

theorem lo_bnmm128 (x : FVec Ideal S100000x64 .f32) (mu var : FVec Ideal S1x64 .f32) (W1 W2 : FVec Ideal S64x64 .f32) :
    KSpec.lo (KSpec.bnmm128 x mu var (KSpec.cat W1 W2)) = KSpec.bnmm64 x mu var W1 := by
  funext i
  obtain ⟨r, c, rfl⟩ : ∃ (r : Fin 100000) (c : Fin 64), i = ix2 r c := ⟨i 0, i 1, eq_ix2 i⟩
  refine (slice_lo_apply _ r c).trans ?_
  show ∑ k : Fin 64, KSpec.bn (KSpec.relu1 x) mu var (ix2 r k) * KSpec.cat W1 W2 (ix2 k (⟨c.val, by omega⟩ : Fin 128))
    = ∑ k : Fin 64, KSpec.bn (KSpec.relu1 x) mu var (ix2 r k) * W1 (ix2 k c)
  exact Finset.sum_congr rfl fun k _ => by rw [show KSpec.cat W1 W2 (ix2 k (⟨c.val, by omega⟩ : Fin 128)) = W1 (ix2 k c) from cat_left_apply W1 W2 k c]

theorem hi_bnmm128 (x : FVec Ideal S100000x64 .f32) (mu var : FVec Ideal S1x64 .f32) (W1 W2 : FVec Ideal S64x64 .f32) :
    KSpec.hi (KSpec.bnmm128 x mu var (KSpec.cat W1 W2)) = KSpec.bnmm64 x mu var W2 := by
  funext i
  obtain ⟨r, c, rfl⟩ : ∃ (r : Fin 100000) (c : Fin 64), i = ix2 r c := ⟨i 0, i 1, eq_ix2 i⟩
  refine (slice_hi_apply _ r c).trans ?_
  show ∑ k : Fin 64, KSpec.bn (KSpec.relu1 x) mu var (ix2 r k) * KSpec.cat W1 W2 (ix2 k (⟨64 + c.val, by omega⟩ : Fin 128))
    = ∑ k : Fin 64, KSpec.bn (KSpec.relu1 x) mu var (ix2 r k) * W2 (ix2 k c)
  exact Finset.sum_congr rfl fun k _ => by rw [show KSpec.cat W1 W2 (ix2 k (⟨64 + c.val, by omega⟩ : Fin 128)) = W2 (ix2 k c) from cat_right_apply W1 W2 k c]

theorem gath_bnmm64 (x : FVec Ideal S100000x64 .f32) (mu var : FVec Ideal S1x64 .f32) (W : FVec Ideal S64x64 .f32)
    (idx : IVec S500000 32) :
    KSpec.gath (KSpec.bnmm64 x mu var W) idx = RSpec.mmE (RSpec.gath (RSpec.bn (RSpec.relu1 x) mu var) idx) W := by
  funext i
  obtain ⟨e, c, rfl⟩ : ∃ (e : Fin 500000) (c : Fin 64), i = ix2 e c := ⟨i 0, i 1, eq_ix2 i⟩
  rw [mmE_apply]
  refine (gather_rows_apply (KSpec.bnmm64 x mu var W) (KSpec.gidx idx) e c).trans ?_
  show ∑ k : Fin 64, KSpec.bn (KSpec.relu1 x) mu var (ix2 (grow (KSpec.gidx idx) e) k) * W (ix2 k c) = _
  refine Finset.sum_congr rfl fun k _ => ?_
  rw [show RSpec.gath (RSpec.bn (RSpec.relu1 x) mu var) idx (ix2 e k)
      = RSpec.bn (RSpec.relu1 x) mu var (ix2 (grow (KSpec.gidx idx) e) k) from
    gather_rows_apply (RSpec.bn (RSpec.relu1 x) mu var) (KSpec.gidx idx) e k]
  rfl

theorem side_lo (x : FVec Ideal S100000x64 .f32) (W1 W2 : FVec Ideal S64x64 .f32) (idx : IVec S500000 32) :
    KSpec.gath (KSpec.lo (KSpec.bnmm128 x (KSpec.mean1 (KSpec.relu1 x)) (KSpec.var1 (KSpec.relu1 x)) (KSpec.cat W1 W2))) idx
      = RSpec.mmE (RSpec.gath (RSpec.emb x) idx) W1 := by
  rw [lo_bnmm128, gath_bnmm64]; rfl

theorem side_hi (x : FVec Ideal S100000x64 .f32) (W1 W2 : FVec Ideal S64x64 .f32) (idx : IVec S500000 32) :
    KSpec.gath (KSpec.hi (KSpec.bnmm128 x (KSpec.mean1 (KSpec.relu1 x)) (KSpec.var1 (KSpec.relu1 x)) (KSpec.cat W1 W2))) idx
      = RSpec.mmE (RSpec.gath (RSpec.emb x) idx) W2 := by
  rw [hi_bnmm128, gath_bnmm64]; rfl

theorem side_64 (x : FVec Ideal S100000x64 .f32) (W : FVec Ideal S64x64 .f32) (idx : IVec S500000 32) :
    KSpec.gath (KSpec.bnmm64 x (KSpec.mean1 (KSpec.relu1 x)) (KSpec.var1 (KSpec.relu1 x)) W) idx
      = RSpec.mmE (RSpec.gath (RSpec.emb x) idx) W := by
  rw [gath_bnmm64]; rfl

theorem addrelu_sides (ei ej : FVec Ideal S100000x64 .f32) (ri ci : IVec S500000 32) (Wi Wj : FVec Ideal S64x64 .f32) :
    KSpec.addrelu (RSpec.mmE (RSpec.gath ei ri) Wi) (RSpec.mmE (RSpec.gath ej ci) Wj) = RSpec.bcast ei ej ri ci Wi Wj := rfl

theorem d1_eq_0 (a : KSpec.Args Ideal) : KSpec.kd1_0 a = RSpec.d1_0 (toR a) := by
  unfold KSpec.kd1_0 KSpec.Y0_0 KSpec.Y0_1
  rw [side_lo, side_lo, addrelu_sides, acc0_eq_0, acc0_eq_1]
  rfl

theorem d1_eq_1 (a : KSpec.Args Ideal) : KSpec.kd1_1 a = RSpec.d1_1 (toR a) := by
  unfold KSpec.kd1_1 KSpec.Y0_1 KSpec.Y0_2
  rw [side_hi, side_lo, addrelu_sides, acc0_eq_1, acc0_eq_2]
  rfl

theorem d1_eq_2 (a : KSpec.Args Ideal) : KSpec.kd1_2 a = RSpec.d1_2 (toR a) := by
  unfold KSpec.kd1_2 KSpec.Y0_0 KSpec.Y0_2
  rw [side_hi, side_hi, addrelu_sides, acc0_eq_0, acc0_eq_2]
  rfl

theorem d1_eq (a : KSpec.Args Ideal) :
    KSpec.kd1_0 a = RSpec.d1_0 (toR a) ∧ KSpec.kd1_1 a = RSpec.d1_1 (toR a) ∧ KSpec.kd1_2 a = RSpec.d1_2 (toR a) :=
  ⟨d1_eq_0 a, d1_eq_1 a, d1_eq_2 a⟩

theorem acc1_eq_0 (a : KSpec.Args Ideal) : KSpec.kacc1_0 a = RSpec.acc1_0 (toR a) := by
  unfold KSpec.kacc1_0
  rw [mm64_eq, mm64_eq, d1_eq_0, d1_eq_2]
  rfl

theorem acc1_eq_1 (a : KSpec.Args Ideal) : KSpec.kacc1_1 a = RSpec.acc1_1 (toR a) := by
  unfold KSpec.kacc1_1
  rw [mm64_eq, mm64_eq, d1_eq_0, d1_eq_1]
  rfl

theorem acc1_eq_2 (a : KSpec.Args Ideal) : KSpec.kacc1_2 a = RSpec.acc1_2 (toR a) := by
  unfold KSpec.kacc1_2
  rw [mm64_eq, mm64_eq, d1_eq_1, d1_eq_2]
  rfl

theorem acc1_eq (a : KSpec.Args Ideal) :
    KSpec.kacc1_0 a = RSpec.acc1_0 (toR a) ∧ KSpec.kacc1_1 a = RSpec.acc1_1 (toR a) ∧ KSpec.kacc1_2 a = RSpec.acc1_2 (toR a) :=
  ⟨acc1_eq_0 a, acc1_eq_1 a, acc1_eq_2 a⟩

theorem d2_eq_0 (a : KSpec.Args Ideal) :
    KSpec.addrelu (KSpec.gath (KSpec.lo (KSpec.Y1_0 a)) a.row0) (KSpec.gath (KSpec.Y1_1 a) a.col0) = RSpec.d2_0 (toR a) := by
  unfold KSpec.Y1_0 KSpec.Y1_1
  rw [side_lo, side_64, addrelu_sides, acc1_eq_0, acc1_eq_1]
  rfl

theorem d2_eq_2 (a : KSpec.Args Ideal) :
    KSpec.addrelu (KSpec.gath (KSpec.hi (KSpec.Y1_0 a)) a.row2) (KSpec.gath (KSpec.Y1_2 a) a.col2) = RSpec.d2_2 (toR a) := by
  unfold KSpec.Y1_0 KSpec.Y1_2
  rw [side_hi, side_64, addrelu_sides, acc1_eq_0, acc1_eq_2]
  rfl

theorem d2_eq (a : KSpec.Args Ideal) :
    KSpec.addrelu (KSpec.gath (KSpec.lo (KSpec.Y1_0 a)) a.row0) (KSpec.gath (KSpec.Y1_1 a) a.col0) = RSpec.d2_0 (toR a)
    ∧ KSpec.addrelu (KSpec.gath (KSpec.hi (KSpec.Y1_0 a)) a.row2) (KSpec.gath (KSpec.Y1_2 a) a.col2) = RSpec.d2_2 (toR a) :=
  ⟨d2_eq_0 a, d2_eq_2 a⟩

end Cert.Equiv

end
-- ==== Proof.EqFinal.lean ====
import proofs.«100184_j50010599195033_2_alg».proof.Proof.EqLayer
import Idealize.ShloMosaic.Lib.IdealHost
import Idealize.ShloMosaic.Lib.StackMember

open scoped BigOperators

noncomputable section

namespace Cert.Equiv

open Idealize.ShloMosaic Idealize.ShloMosaic.ValueIdx Cert.Bridge

abbrev segDims (R E n : Nat) (wf : ScatterDims.WF ⟨2, ![R, n]⟩ ⟨2, ![E, 1]⟩ ⟨2, ![E, n]⟩ [1] [0] [0] 1) :
    ScatterDims ⟨2, ![R, n]⟩ ⟨2, ![E, 1]⟩ ⟨2, ![E, n]⟩ where
  updateWindowDims := [1]
  insertedWindowDims := [0]
  scatterDimsToOperandDims := [0]
  indexVectorDim := 1
  wf := wf

section Seg
variable {R E n w : Nat} (wf : ScatterDims.WF ⟨2, ![R, n]⟩ ⟨2, ![E, 1]⟩ ⟨2, ![E, n]⟩ [1] [0] [0] 1)

theorem segDims_start0 (e : Fin E) (c : Fin n) (idx : IVec ⟨2, ![E, 1]⟩ w) :
    (segDims R E n wf).start (ix2 e c) idx 0 = (idx (ix2 e (0 : Fin 1))).toInt := by
  unfold ScatterDims.start
  rw [dif_pos (show (0 : Fin 2) ∈ (segDims R E n wf).scatterDimsToOperandDims from List.mem_singleton.mpr rfl)]
  have hsi : (segDims R E n wf).siIdx (ix2 e c) ⟨List.idxOf (0 : Fin 2) (segDims R E n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem segDims_start1 (e : Fin E) (c : Fin n) (idx : IVec ⟨2, ![E, 1]⟩ w) :
    (segDims R E n wf).start (ix2 e c) idx 1 = 0 := by
  unfold ScatterDims.start
  have h : ¬ (1 : Fin 2) ∈ (segDims R E n wf).scatterDimsToOperandDims := by
    show ¬ (1 : Fin 2) ∈ [(0 : Fin 2)]
    decide
  rw [dif_neg h]

theorem segDims_window0 (e : Fin E) (c : Fin n) : (segDims R E n wf).window (ix2 e c) 0 = 0 := by
  unfold ScatterDims.window
  have h : ¬ (0 : Fin 2) ∈ (segDims R E n wf).sKept := by
    show ¬ (0 : Fin 2) ∈ (List.finRange 2).filter (fun a : Fin 2 => decide (a ∉ [(0 : Fin 2)]))
    decide
  rw [dif_neg h]

theorem segDims_window1 (e : Fin E) (c : Fin n) : (segDims R E n wf).window (ix2 e c) 1 = c.val := by
  unfold ScatterDims.window
  have h : (1 : Fin 2) ∈ (segDims R E n wf).sKept := by
    show (1 : Fin 2) ∈ (List.finRange 2).filter (fun a : Fin 2 => decide (a ∉ [(0 : Fin 2)]))
    decide
  rw [dif_pos h]
  rfl

theorem segDims_resultIdx_iff (e : Fin E) (c : Fin n) (idx : IVec ⟨2, ![E, 1]⟩ w) (r : Fin R) (c' : Fin n) :
    (segDims R E n wf).resultIdx? (ix2 e c) idx = some (ix2 r c') ↔
      (idx (ix2 e (0 : Fin 1))).toInt = (r.val : Int) ∧ c = c' := by
  have hs0 := segDims_start0 wf e c idx
  have hs1 := segDims_start1 wf e c idx
  have hw0 := segDims_window0 wf e c
  have hw1 := segDims_window1 wf e c
  unfold ScatterDims.resultIdx?
  constructor
  · intro h
    split at h
    · rename_i hb
      have hf := Option.some.inj h
      have h0 : ((segDims R E n wf).start (ix2 e c) idx 0 + ((segDims R E n wf).window (ix2 e c) 0 : Nat)).toNat = r.val :=
        congrArg (fun f : (⟨2, ![R, n]⟩ : Shape).Idx => (f 0).val) hf
      have h1 : ((segDims R E n wf).start (ix2 e c) idx 1 + ((segDims R E n wf).window (ix2 e c) 1 : Nat)).toNat = c'.val :=
        congrArg (fun f : (⟨2, ![R, n]⟩ : Shape).Idx => (f 1).val) hf
      have hb0 := (hb 0).1
      rw [hs0, hw0] at h0 hb0
      rw [hs1, hw1] at h1
      refine ⟨by omega, Fin.ext (by omega)⟩
    · exact absurd h (by simp)
  · rintro ⟨hr, rfl⟩
    have hb : ∀ a, 0 ≤ (segDims R E n wf).start (ix2 e c) idx a + ((segDims R E n wf).window (ix2 e c) a : Nat) ∧
        (segDims R E n wf).start (ix2 e c) idx a + ((segDims R E n wf).window (ix2 e c) a : Nat) < ((⟨2, ![R, n]⟩ : Shape).size a : Nat) := by
      intro a
      match a with
      | ⟨0, _⟩ =>
        show 0 ≤ (segDims R E n wf).start (ix2 e c) idx 0 + ((segDims R E n wf).window (ix2 e c) 0 : Nat) ∧
          (segDims R E n wf).start (ix2 e c) idx 0 + ((segDims R E n wf).window (ix2 e c) 0 : Nat) < (R : Nat)
        rw [hs0, hw0, hr]; have := r.isLt; omega
      | ⟨1, _⟩ =>
        show 0 ≤ (segDims R E n wf).start (ix2 e c) idx 1 + ((segDims R E n wf).window (ix2 e c) 1 : Nat) ∧
          (segDims R E n wf).start (ix2 e c) idx 1 + ((segDims R E n wf).window (ix2 e c) 1 : Nat) < (n : Nat)
        rw [hs1, hw1]; have := c.isLt; omega
    rw [dif_pos hb]
    refine congrArg some (funext fun a => Fin.ext ?_)
    match a with
    | ⟨0, _⟩ =>
      show ((segDims R E n wf).start (ix2 e c) idx 0 + ((segDims R E n wf).window (ix2 e c) 0 : Nat)).toNat = r.val
      rw [hs0, hw0, hr]; omega
    | ⟨1, _⟩ =>
      show ((segDims R E n wf).start (ix2 e c) idx 1 + ((segDims R E n wf).window (ix2 e c) 1 : Nat)).toNat = c.val
      rw [hs1, hw1]; omega

theorem segDims_sum {M : Type} [AddCommMonoid M] (idx : IVec ⟨2, ![E, 1]⟩ w) (r : Fin R) (c : Fin n)
    (X : (⟨2, ![E, n]⟩ : Shape).Idx → M)
    {inst : DecidablePred fun j : (⟨2, ![E, n]⟩ : Shape).Idx => (segDims R E n wf).resultIdx? j idx = some (ix2 r c)} :
    ∑ j ∈ @Finset.filter _ (fun j : (⟨2, ![E, n]⟩ : Shape).Idx => (segDims R E n wf).resultIdx? j idx = some (ix2 r c)) inst Finset.univ, X j
      = ∑ e ∈ Finset.univ.filter (fun e : Fin E => (idx (ix2 e (0 : Fin 1))).toInt = (r.val : Int)), X (ix2 e c) := by
  refine Finset.sum_nbij' (fun j => (j 0 : Fin E)) (fun e => ix2 e c) ?_ ?_ ?_ ?_ ?_
  · intro j hj
    obtain ⟨e, c0, rfl⟩ : ∃ (e : Fin E) (c0 : Fin n), j = ix2 e c0 := ⟨j 0, j 1, eq_ix2 j⟩
    exact Finset.mem_filter.mpr ⟨Finset.mem_univ _,
      ((segDims_resultIdx_iff wf e c0 idx r c).mp (Finset.mem_filter.mp hj).2).1⟩
  · intro e he
    exact Finset.mem_filter.mpr ⟨Finset.mem_univ _,
      (segDims_resultIdx_iff wf e c idx r c).mpr ⟨(Finset.mem_filter.mp he).2, rfl⟩⟩
  · intro j hj
    obtain ⟨e, c0, rfl⟩ : ∃ (e : Fin E) (c0 : Fin n), j = ix2 e c0 := ⟨j 0, j 1, eq_ix2 j⟩
    obtain ⟨_, rfl⟩ := (segDims_resultIdx_iff wf e c0 idx r c).mp (Finset.mem_filter.mp hj).2
    rfl
  · intro e _
    rfl
  · intro j hj
    obtain ⟨e, c0, rfl⟩ : ∃ (e : Fin E) (c0 : Fin n), j = ix2 e c0 := ⟨j 0, j 1, eq_ix2 j⟩
    obtain ⟨_, rfl⟩ := (segDims_resultIdx_iff wf e c0 idx r c).mp (Finset.mem_filter.mp hj).2
    rfl

end Seg

section Algebra

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem mean_exchange {ι κ : Type} [Fintype κ] (s : Finset ι) (d : ι → κ → ℝ) (wv : κ → ℝ) (y : ℝ) (hy : y ≠ 0) :
    Ideal.div (0 + ∑ e ∈ s, ∑ k, ((d e k : ℝ) : EReal) * ((wv k : ℝ) : EReal)) (y : EReal)
      = ∑ k, Ideal.div (0 + ∑ e ∈ s, ((d e k : ℝ) : EReal)) (y : EReal) * ((wv k : ℝ) : EReal) := by
  simp only [Ideal.div_coe hy, zero_add, ← EReal.coe_mul, ← coe_sum]
  refine congrArg Real.toEReal ?_
  rw [Finset.sum_comm, Finset.sum_mul]
  refine Finset.sum_congr rfl fun k _ => ?_
  rw [← Finset.sum_mul]
  ring

end Algebra

section Final
open Cert.KernelIdeal Cert.KernelIdeal.Facts₀

abbrev col (idx : IVec S500000 32) : IVec S500000x1 32 :=
  broadcastInDim S500000x1 ![0] bcast_S500000_S500000x1_0 idx

def rows (idx : IVec S500000 32) (r : Fin 100000) : Finset (Fin 500000) :=
  Finset.univ.filter fun e : Fin 500000 => (col idx (ix2 e (0 : Fin 1))).toInt = (r.val : Int)

theorem segsum16_apply (X : FVec Ideal S500000x16 .f32) (idx : IVec S500000 32) (r : Fin 100000) (c : Fin 16) :
    KSpec.segsum16 X idx (ix2 r c) = 0 + ∑ e ∈ rows idx r, X (ix2 e c) := by
  unfold KSpec.segsum16 Host.scatterAdd
  rw [Ideal.hostScatterAdd_def]
  unfold Ideal.hostScatterAdd
  rw [broadcastInDim_scalar_apply, constant_apply, Ideal.ofBits_zero_f32]
  exact congrArg (0 + ·)
    (segDims_sum (R := 100000) (E := 500000) (n := 16) scatter_S100000x16_S500000x1_S500000x16_1_0_0_1_wf (col idx) r c X)

theorem segsum64_apply (D : FVec Ideal S500000x64 .f32) (idx : IVec S500000 32) (r : Fin 100000) (k : Fin 64) :
    RSpec.segsum64 D idx (ix2 r k) = 0 + ∑ e ∈ rows idx r, D (ix2 e k) := by
  unfold RSpec.segsum64 Host.scatterAdd
  rw [Ideal.hostScatterAdd_def]
  unfold Ideal.hostScatterAdd
  rw [broadcastInDim_scalar_apply, constant_apply, Ideal.ofBits_zero_f32]
  exact congrArg (0 + ·)
    (segDims_sum (R := 100000) (E := 500000) (n := 64)
      Cert.ReferenceIdeal.Facts₀.scatter_S100000x64_S500000x1_S500000x64_1_0_0_1_wf (col idx) r k D)

theorem cnt_real (idx : IVec S500000 32) (r : Fin 100000) :
    ∃ y : ℝ, y ≠ 0 ∧ KSpec.cnt (F := Ideal) idx (ix2 r (0 : Fin 1)) = (y : EReal) := by
  refine ⟨max ((rows idx r).card : ℝ) 1, (lt_of_lt_of_le one_pos (le_max_right _ _)).ne', ?_⟩
  unfold KSpec.cnt
  rw [maximumf_apply]
  unfold Host.scatterAdd
  rw [Ideal.hostScatterAdd_def]
  unfold Ideal.hostScatterAdd
  rw [broadcastInDim_scalar_apply, broadcastInDim_scalar_apply, constant_apply, constant_apply, Ideal.ofBits_zero_f32,
    Ideal.ofBits_one_f32]
  have hone : ∀ e : Fin 500000, broadcastInDim S500000x1 ![] bcast_S_S500000x1 (constant (F := Ideal) S_ .f32 0x3F800000#32)
      (ix2 e (0 : Fin 1)) = (1 : EReal) := fun e => by
    rw [broadcastInDim_scalar_apply, constant_apply, Ideal.ofBits_one_f32]
  have hsum : (∑ e ∈ rows idx r, (1 : EReal)) = (((rows idx r).card : ℝ) : EReal) :=
    (coe_sum (rows idx r) (fun _ => (1 : ℝ))).symm.trans (congrArg Real.toEReal ((Finset.sum_const (1 : ℝ)).trans ((nsmul_eq_mul _ _).trans (mul_one _))))
  refine Eq.trans (congrArg (fun t => max (0 + t) (1 : EReal))
    (segDims_sum (R := 100000) (E := 500000) (n := 1) scatter_S100000x1_S500000x1_S500000x1_1_0_0_1_wf (col idx) r 0 _)) ?_
  show max (0 + ∑ e ∈ rows idx r, broadcastInDim S500000x1 ![] bcast_S_S500000x1 (constant (F := Ideal) S_ .f32 0x3F800000#32)
      (ix2 e (0 : Fin 1))) ((1 : ℝ) : EReal) = _
  rw [Finset.sum_congr rfl fun e _ => hone e, hsum, zero_add]
  exact (EReal.coe_strictMono.monotone.map_max).symm

theorem bcast16_apply (x : FVec Ideal S100000x1 .f32) (r : Fin 100000) (c : Fin 16) :
    broadcastInDim S100000x16 ![0, 1] bcast_S100000x1_S100000x16_0_1 x (ix2 r c) = x (ix2 r (0 : Fin 1)) := by
  unfold broadcastInDim
  refine congrArg x (funext fun a => Fin.ext ?_)
  match a with
  | ⟨0, _⟩ => rfl
  | ⟨1, _⟩ => rfl

theorem bcast64_apply (x : FVec Ideal S100000x1 .f32) (r : Fin 100000) (k : Fin 64) :
    broadcastInDim Cert.ReferenceIdeal.S100000x64 ![0, 1] Cert.ReferenceIdeal.Facts₀.bcast_S100000x1_S100000x64_0_1 x (ix2 r k)
      = x (ix2 r (0 : Fin 1)) := by
  unfold broadcastInDim
  refine congrArg x (funext fun a => Fin.ext ?_)
  match a with
  | ⟨0, _⟩ => rfl
  | ⟨1, _⟩ => rfl

theorem segmean16_apply (X : FVec Ideal S500000x16 .f32) (idx : IVec S500000 32) (r : Fin 100000) (c : Fin 16) :
    KSpec.segmean16 X idx (ix2 r c)
      = Ideal.div (0 + ∑ e ∈ rows idx r, X (ix2 e c)) (KSpec.cnt (F := Ideal) idx (ix2 r (0 : Fin 1))) := by
  unfold KSpec.segmean16
  rw [hostDivf_apply, bcast16_apply, segsum16_apply]

theorem segmean64_apply (D : FVec Ideal S500000x64 .f32) (idx : IVec S500000 32) (r : Fin 100000) (k : Fin 64) :
    RSpec.segmean64 D idx (ix2 r k)
      = Ideal.div (0 + ∑ e ∈ rows idx r, D (ix2 e k)) (KSpec.cnt (F := Ideal) idx (ix2 r (0 : Fin 1))) := by
  unfold RSpec.segmean64
  rw [hostDivf_apply, bcast64_apply, segsum64_apply, ← cnt_eq]

theorem mm64o_apply (A : FVec Ideal S100000x64 .f32) (W : FVec Ideal S64x16 .f32) (r : Fin 100000) (c : Fin 16) :
    RSpec.mm64o A W (ix2 r c) = ∑ k : Fin 64, A (ix2 r k) * W (ix2 k c) :=
  StackMember.dotGeneral_plain_apply (m := 100000) (n := 16) (k := 64) none A W r c

theorem final_exchange (D : FVec Ideal S500000x64 .f32) (W : FVec Ideal S64x16 .f32) (idx : IVec S500000 32)
    (hD : IsReal D) (hW : IsReal W) :
    KSpec.segmean16 (fun i => ∑ k : Fin 64, D (ix2 (n0 := 500000) (n1 := 64) (i 0) k) * W (ix2 (n0 := 64) (n1 := 16) k (i 1))) idx
      = RSpec.mm64o (RSpec.segmean64 D idx) W := by
  funext i
  obtain ⟨r, c, rfl⟩ : ∃ (r : Fin 100000) (c : Fin 16), i = ix2 r c := ⟨i 0, i 1, eq_ix2 i⟩
  choose dd hdd using hD
  choose ww hww using hW
  obtain rfl : D = fun j => ((dd j : ℝ) : EReal) := funext hdd
  obtain rfl : W = fun j => ((ww j : ℝ) : EReal) := funext hww
  obtain ⟨y, hy, hc⟩ := cnt_real idx r
  rw [segmean16_apply, mm64o_apply]
  simp only [segmean64_apply, hc]
  exact mean_exchange (rows idx r) (fun e k => dd (ix2 e k)) (fun k => ww (ix2 k c)) y hy

theorem isReal_w64x16 (W : FVec Ideal S3x2x64x16 .f32) (o : Fin 4 → Nat) (h : S3x2x64x16.Slices o S1x1x64x16)
    (hW : IsReal W) : IsReal (KSpec.w64x16 W o h) := fun i => by
  unfold KSpec.w64x16 shapeCast extractStridedSlice
  exact hW _

theorem kout_eq (a : KSpec.Args Ideal)
    (hd0 : IsReal (RSpec.d2_0 (toR a))) (hd2 : IsReal (RSpec.d2_2 (toR a))) (hw : IsReal a.pw2) :
    KSpec.kout a = RSpec.out (toR a) := by
  have h0 := d2_eq_0 a
  have h2 := d2_eq_2 a
  have e0 : KSpec.E0 a = fun i => ∑ k : Fin 64, RSpec.d2_0 (toR a) (ix2 (n0 := 500000) (n1 := 64) (i 0) k)
      * KSpec.pw2_00 a (ix2 (n0 := 64) (n1 := 16) k (i 1)) := by
    unfold KSpec.E0 KSpec.fused
    rw [h0]
  have e2 : KSpec.E2 a = fun i => ∑ k : Fin 64, RSpec.d2_2 (toR a) (ix2 (n0 := 500000) (n1 := 64) (i 0) k)
      * KSpec.pw2_20 a (ix2 (n0 := 64) (n1 := 16) k (i 1)) := by
    unfold KSpec.E2 KSpec.fused
    rw [h2]
  have s0 : KSpec.segmean16 (KSpec.E0 a) a.row0
      = RSpec.mm64o (RSpec.segmean64 (RSpec.d2_0 (toR a)) a.row0) (KSpec.pw2_00 a) := by
    rw [e0]
    exact final_exchange (RSpec.d2_0 (toR a)) (KSpec.pw2_00 a) a.row0 hd0 (isReal_w64x16 _ _ _ hw)
  have s2 : KSpec.segmean16 (KSpec.E2 a) a.row2
      = RSpec.mm64o (RSpec.segmean64 (RSpec.d2_2 (toR a)) a.row2) (KSpec.pw2_20 a) := by
    rw [e2]
    exact final_exchange (RSpec.d2_2 (toR a)) (KSpec.pw2_20 a) a.row2 hd2 (isReal_w64x16 _ _ _ hw)
  show addf (addf KSpec.z16 (KSpec.segmean16 (KSpec.E0 a) a.row0)) (KSpec.segmean16 (KSpec.E2 a) a.row2) = _
  rw [s0, s2]
  rfl

end Final

end Cert.Equiv

end
-- ==== Proof.Finite.lean ====
import proofs.«100184_j50010599195033_2_alg».proof.Proof.Bridge
import Idealize.ShloMosaic.PureOps.Ideal

noncomputable section

namespace Cert.Equiv

open Idealize.ShloMosaic Cert.Bridge

def R (x : EReal) : Prop := ∃ r : ℝ, x = (r : EReal)

def Rnn (x : EReal) : Prop := ∃ r : ℝ, 0 ≤ r ∧ x = (r : EReal)

def Rpos (x : EReal) : Prop := ∃ r : ℝ, 0 < r ∧ x = (r : EReal)

theorem Rnn.real {x : EReal} (h : Rnn x) : R x := let ⟨r, _, e⟩ := h; ⟨r, e⟩
theorem Rpos.real {x : EReal} (h : Rpos x) : R x := let ⟨r, _, e⟩ := h; ⟨r, e⟩
theorem Rpos.nn {x : EReal} (h : Rpos x) : Rnn x := let ⟨r, p, e⟩ := h; ⟨r, p.le, e⟩

theorem Rpos.ne_zero {x : EReal} (h : Rpos x) : x ≠ 0 := by
  obtain ⟨r, hr, rfl⟩ := h
  intro h0
  have : r = 0 := by exact_mod_cast h0
  exact hr.ne' this

theorem R.zero : R 0 := ⟨0, EReal.coe_zero.symm⟩
theorem Rnn.zero : Rnn 0 := ⟨0, le_refl _, EReal.coe_zero.symm⟩
theorem Rpos.one : Rpos 1 := ⟨1, one_pos, EReal.coe_one.symm⟩

theorem R.add {x y : EReal} (hx : R x) (hy : R y) : R (x + y) := by
  obtain ⟨r, rfl⟩ := hx; obtain ⟨s, rfl⟩ := hy; exact ⟨r + s, (EReal.coe_add r s).symm⟩

theorem R.sub {x y : EReal} (hx : R x) (hy : R y) : R (x - y) := by
  obtain ⟨r, rfl⟩ := hx; obtain ⟨s, rfl⟩ := hy; exact ⟨r - s, (EReal.coe_sub r s).symm⟩

theorem R.mul {x y : EReal} (hx : R x) (hy : R y) : R (x * y) := by
  obtain ⟨r, rfl⟩ := hx; obtain ⟨s, rfl⟩ := hy; exact ⟨r * s, (EReal.coe_mul r s).symm⟩

theorem R.max {x y : EReal} (hx : R x) (hy : R y) : R (max x y) := by
  rcases le_total x y with h | h
  · rw [max_eq_right h]; exact hy
  · rw [max_eq_left h]; exact hx

theorem R.sum {ι : Type*} (s : Finset ι) (f : ι → EReal) (h : ∀ i ∈ s, R (f i)) : R (∑ i ∈ s, f i) :=
  Finset.sum_induction f R (fun _ _ => R.add) R.zero h

theorem Rnn.add {x y : EReal} (hx : Rnn x) (hy : Rnn y) : Rnn (x + y) := by
  obtain ⟨r, hr, rfl⟩ := hx; obtain ⟨s, hs, rfl⟩ := hy
  exact ⟨r + s, add_nonneg hr hs, (EReal.coe_add r s).symm⟩

theorem Rnn.sum {ι : Type*} (s : Finset ι) (f : ι → EReal) (h : ∀ i ∈ s, Rnn (f i)) : Rnn (∑ i ∈ s, f i) :=
  Finset.sum_induction f Rnn (fun _ _ => Rnn.add) Rnn.zero h

theorem R.mul_self {x : EReal} (hx : R x) : Rnn (x * x) := by
  obtain ⟨r, rfl⟩ := hx; exact ⟨r * r, mul_self_nonneg r, (EReal.coe_mul r r).symm⟩

theorem Rnn.add_pos {x y : EReal} (hx : Rnn x) (hy : Rpos y) : Rpos (x + y) := by
  obtain ⟨r, hr, rfl⟩ := hx; obtain ⟨s, hs, rfl⟩ := hy
  exact ⟨r + s, add_pos_of_nonneg_of_pos hr hs, (EReal.coe_add r s).symm⟩

theorem R.div {x y : EReal} (hx : R x) (hy : R y) (h0 : y ≠ 0) : R (Ideal.div x y) := by
  obtain ⟨r, rfl⟩ := hx; obtain ⟨s, rfl⟩ := hy
  have hs : s ≠ 0 := by rintro rfl; exact h0 EReal.coe_zero
  rw [Ideal.div_coe hs]; exact ⟨r * (1 / s), (EReal.coe_mul _ _).symm⟩

theorem Rnn.div {x y : EReal} (hx : Rnn x) (hy : Rpos y) : Rnn (Ideal.div x y) := by
  obtain ⟨r, hr, rfl⟩ := hx; obtain ⟨s, hs, rfl⟩ := hy
  rw [Ideal.div_coe hs.ne']
  exact ⟨r * (1 / s), mul_nonneg hr (one_div_pos.2 hs).le, (EReal.coe_mul _ _).symm⟩

theorem Rpos.sqrt {x : EReal} (hx : Rpos x) : Rpos (Ideal.sqrt x) := by
  obtain ⟨r, hr, rfl⟩ := hx
  rw [Ideal.sqrt_coe, if_neg (not_lt.2 hr.le)]
  exact ⟨Real.sqrt r, Real.sqrt_pos.2 hr, rfl⟩

section Arrays
variable {s t : Shape}

theorem isReal_constant (s : Shape) {b : BitVec 32} (h : R (Ideal.ofBits .f32 b)) :
    IsReal (constant (F := Ideal) s .f32 b) := fun _ => h

theorem isReal_addf {x y : FVec Ideal s .f32} (hx : IsReal x) (hy : IsReal y) : IsReal (addf x y) :=
  fun i => R.add (hx i) (hy i)

theorem isReal_subf {x y : FVec Ideal s .f32} (hx : IsReal x) (hy : IsReal y) : IsReal (subf x y) :=
  fun i => R.sub (hx i) (hy i)

theorem isReal_mulf {x y : FVec Ideal s .f32} (hx : IsReal x) (hy : IsReal y) : IsReal (mulf x y) :=
  fun i => R.mul (hx i) (hy i)

theorem isReal_maximumf {x y : FVec Ideal s .f32} (hx : IsReal x) (hy : IsReal y) : IsReal (maximumf x y) :=
  fun i => R.max (hx i) (hy i)

theorem isReal_broadcastInDim {dims : Fin s.rank → Fin t.rank} {h : s.BroadcastsInDim t dims}
    {x : FVec Ideal s .f32} (hx : IsReal x) : IsReal (broadcastInDim t dims h x) := fun _ => hx _

theorem isReal_shapeCast {h : s.ShapeCasts t} {x : FVec Ideal s .f32} (hx : IsReal x) :
    IsReal (shapeCast t x h) := fun _ => hx _

theorem isReal_extractStridedSlice {off : Fin s.rank → Nat} {h : s.Slices off t} {x : FVec Ideal s .f32}
    (hx : IsReal x) : IsReal (extractStridedSlice t off x h) := fun _ => hx _

theorem isReal_gather {si : Shape} {w : Nat} (d : GatherDims s si t) {x : FVec Ideal s .f32} (idx : IVec si w)
    (hx : IsReal x) : IsReal (Host.gather d x idx) := fun _ => hx _

theorem isReal_scatterAdd {si u : Shape} {w : Nat} (d : ScatterDims s si u) {x : FVec Ideal s .f32} (idx : IVec si w)
    {upd : FVec Ideal u .f32} (hx : IsReal x) (hu : IsReal upd) : IsReal (Host.scatterAdd d x idx upd) :=
  fun i => R.add (hx i) (R.sum _ _ fun j _ => hu j)

theorem isReal_dotGeneral {sl sr so : Shape} (d : DotDims sl sr so) (p : Option ContractPrecision)
    {x : FVec Ideal sl .f32} {y : FVec Ideal sr .f32} (hx : IsReal x) (hy : IsReal y) :
    IsReal (Host.dotGeneral d p x y) :=
  fun _ => R.add R.zero (R.sum _ _ fun _ _ => R.mul (hx _) (hy _))

theorem isReal_reduceAdd {axes : List (Fin s.rank)} {u : Shape} {x : FVec Ideal s .f32} {init : FVec Ideal u .f32}
    (h : s.ReducesTo axes t) (hu : 0 < u.numel) (hx : IsReal x) (hi : IsReal init) :
    IsReal (Host.reduceAdd x init h hu) :=
  fun _ => R.add (hi _) (R.sum _ _ fun i _ => hx i)

theorem isReal_hostDivf {x y : FVec Ideal s .f32} (hx : IsReal x) (hy : IsReal y) (h0 : ∀ i, y i ≠ 0) :
    IsReal (Host.divf x y) := fun i => R.div (hx i) (hy i) (h0 i)

theorem rnn_reduceAdd {axes : List (Fin s.rank)} {u : Shape} {x : FVec Ideal s .f32} {init : FVec Ideal u .f32}
    (h : s.ReducesTo axes t) (hu : 0 < u.numel) (hx : ∀ i, Rnn (x i)) (hi : ∀ i, Rnn (init i)) (j : t.Idx) :
    Rnn (Host.reduceAdd x init h hu j) :=
  Rnn.add (hi _) (Rnn.sum _ _ fun i _ => hx i)

theorem constant_apply (b : BitVec 32) (i : s.Idx) : constant (F := Ideal) s .f32 b i = Ideal.ofBits .f32 b := rfl

theorem rnn_constant {b : BitVec 32} (hb : Rnn (Ideal.ofBits .f32 b)) (i : s.Idx) :
    Rnn (constant (F := Ideal) s .f32 b i) := hb

theorem rpos_splat {dims : Fin s.rank → Fin t.rank} {h : s.BroadcastsInDim t dims} {b : BitVec 32}
    (hb : Rpos (Ideal.ofBits .f32 b)) (j : t.Idx) :
    Rpos (broadcastInDim t dims h (constant (F := Ideal) s .f32 b) j) := hb

theorem subf_apply (x y : FVec Ideal s .f32) (i : s.Idx) : subf x y i = x i - y i := rfl

theorem cmpf_apply (p : CmpFPredicate) (x y : FVec Ideal s .f32) (i : s.Idx) :
    cmpf p x y i = Ideal.cmp p (x i) (y i) := rfl

theorem sitofp_apply {w : Nat} (x : IVec s w) (i : s.Idx) :
    sitofp (F := Ideal) .f32 x i = (((x i).toInt : ℝ) : EReal) := rfl

theorem rpos_max {x y : EReal} (hx : R x) (hy : Rpos y) : Rpos (Max.max x y) := by
  rcases le_total x y with h | h
  · rw [max_eq_right h]; exact hy
  · rw [max_eq_left h]
    obtain ⟨r, rfl⟩ := hx; obtain ⟨s, hs, rfl⟩ := hy
    exact ⟨r, lt_of_lt_of_le hs (EReal.coe_le_coe_iff.1 h), rfl⟩

end Arrays

theorem ofBits_zero : Ideal.ofBits .f32 0x00000000#32 = 0 := by simp [Ideal.ofBits, Ideal.ieee]

theorem ofBits_one : Ideal.ofBits .f32 0x3F800000#32 = 1 := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

theorem ofBits_eps : Rpos (Ideal.ofBits .f32 0x3727C5AC#32) := by
  simp [Ideal.ofBits, Ideal.ieee, -EReal.coe_mul]
  exact ⟨_, by positivity, rfl⟩

theorem R_lit0 : R (Ideal.ofBits .f32 0x00000000#32) := by rw [ofBits_zero]; exact R.zero
theorem Rnn_lit0 : Rnn (Ideal.ofBits .f32 0x00000000#32) := by rw [ofBits_zero]; exact Rnn.zero
theorem Rpos_lit1 : Rpos (Ideal.ofBits .f32 0x3F800000#32) := by rw [ofBits_one]; exact Rpos.one
theorem Rpos_1e5 : Rpos (Ideal.ofBits .f32 0x47C35000#32) := ⟨100000, by norm_num, ofBits_1e5⟩

section Stages

open Cert.ReferenceIdeal Cert.ReferenceIdeal.Facts₀

theorem cnt_pos (idx : IVec S500000 32) (i : S100000x1.Idx) : Rpos (RSpec.cnt (F := Ideal) idx i) := by
  unfold RSpec.cnt
  exact rpos_max
    (isReal_scatterAdd _ _ (isReal_broadcastInDim (isReal_constant _ R_lit0))
      (isReal_broadcastInDim (isReal_constant _ Rpos_lit1.real)) i)
    (rpos_splat Rpos_lit1 i)

theorem cnt_is_real (idx : IVec S500000 32) : IsReal (RSpec.cnt (F := Ideal) idx) := fun i => (cnt_pos idx i).real

theorem segmean16_real {X : FVec Ideal S500000x16 .f32} (idx : IVec S500000 32) (hX : IsReal X) :
    IsReal (RSpec.segmean16 X idx) := by
  unfold RSpec.segmean16 RSpec.segsum16
  exact isReal_hostDivf (isReal_scatterAdd _ _ (isReal_broadcastInDim (isReal_constant _ R_lit0)) hX)
    (isReal_broadcastInDim (cnt_is_real idx)) (fun _ => (cnt_pos idx _).ne_zero)

theorem segmean64_real {X : FVec Ideal S500000x64 .f32} (idx : IVec S500000 32) (hX : IsReal X) :
    IsReal (RSpec.segmean64 X idx) := by
  unfold RSpec.segmean64 RSpec.segsum64
  exact isReal_hostDivf (isReal_scatterAdd _ _ (isReal_broadcastInDim (isReal_constant _ R_lit0)) hX)
    (isReal_broadcastInDim (cnt_is_real idx)) (fun _ => (cnt_pos idx _).ne_zero)

theorem w16x64_real {W : FVec Ideal S3x2x16x64 .f32} (hW : IsReal W) (o : Fin 4 → Nat)
    (h : S3x2x16x64.Slices o S1x1x16x64) : IsReal (RSpec.w16x64 W o h) := fun _ => hW _

theorem w64x64_real {W : FVec Ideal S3x2x64x64 .f32} (hW : IsReal W) (o : Fin 4 → Nat)
    (h : S3x2x64x64.Slices o S1x1x64x64) : IsReal (RSpec.w64x64 W o h) := fun _ => hW _

theorem mm16_real {X : FVec Ideal S100000x16 .f32} {W : FVec Ideal S16x64 .f32} (hX : IsReal X) (hW : IsReal W) :
    IsReal (RSpec.mm16 X W) := isReal_dotGeneral _ _ hX hW

theorem mm64_real {X : FVec Ideal S100000x64 .f32} {W : FVec Ideal S64x64 .f32} (hX : IsReal X) (hW : IsReal W) :
    IsReal (RSpec.mm64 X W) := isReal_dotGeneral _ _ hX hW

theorem mmE_real {X : FVec Ideal S500000x64 .f32} {W : FVec Ideal S64x64 .f32} (hX : IsReal X) (hW : IsReal W) :
    IsReal (RSpec.mmE X W) := isReal_dotGeneral _ _ hX hW

theorem z64_real : IsReal (RSpec.z64 (F := Ideal)) := isReal_broadcastInDim (isReal_constant _ R_lit0)

theorem relu1_real {x : FVec Ideal S100000x64 .f32} (hx : IsReal x) : IsReal (RSpec.relu1 x) :=
  isReal_maximumf hx (isReal_broadcastInDim (isReal_constant _ R_lit0))

theorem relu5_real {x : FVec Ideal S500000x64 .f32} (hx : IsReal x) : IsReal (RSpec.relu5 x) :=
  isReal_maximumf hx (isReal_broadcastInDim (isReal_constant _ R_lit0))

theorem colsum_real {x : FVec Ideal S100000x64 .f32} (hx : IsReal x) : IsReal (RSpec.colsum x) :=
  isReal_broadcastInDim (isReal_reduceAdd _ _ hx (isReal_constant _ R_lit0))

theorem colsum_nn {x : FVec Ideal S100000x64 .f32} (hx : ∀ i, Rnn (x i)) (j : S1x64.Idx) : Rnn (RSpec.colsum x j) :=
  rnn_reduceAdd _ _ hx (rnn_constant Rnn_lit0) _

theorem mean1_real {x : FVec Ideal S100000x64 .f32} (hx : IsReal x) : IsReal (RSpec.mean1 x) :=
  isReal_hostDivf (colsum_real hx) (isReal_broadcastInDim (isReal_constant _ Rpos_1e5.real)) (fun _ => (rpos_splat Rpos_1e5 _).ne_zero)

theorem censq_nn {x : FVec Ideal S100000x64 .f32} (hx : IsReal x) (i : S100000x64.Idx) : Rnn (RSpec.censq x i) :=
  R.mul_self (R.sub (hx i) (mean1_real hx _))

theorem varden_eq (j : S_.Idx) : RSpec.varden (F := Ideal) j = ((100000 : ℝ) : EReal) := by
  unfold RSpec.varden
  rw [subf_apply, constant_apply, sitofp_apply, ofBits_1e5]
  simp [constantI]

theorem varden_pos (j : S_.Idx) : Rpos (RSpec.varden (F := Ideal) j) := ⟨100000, by norm_num, varden_eq j⟩

theorem select_of_one {α : Type} {s : Shape} {c : IVec s 1} {a b : s.Idx → α} (i : s.Idx) (h : c i = 1#1) :
    select c a b i = a i := by
  show Scalar.select (c i) (a i) (b i) = a i
  rw [h]; rfl

theorem var_guard (j : S1x64.Idx) :
    broadcastInDim S1x64 ![] bcast_S_S1x64
      (cmpf .ogt (RSpec.varden (F := Ideal)) (constant (F := Ideal) S_ .f32 0x00000000#32)) j = 1#1 := by
  show cmpf .ogt (RSpec.varden (F := Ideal)) (constant (F := Ideal) S_ .f32 0x00000000#32) _ = 1#1
  rw [cmpf_apply, varden_eq, constant_apply, ofBits_zero]
  have : (0 : EReal) < ((100000 : ℝ) : EReal) := by exact_mod_cast (by norm_num : (0 : ℝ) < 100000)
  simp [Ideal.cmp, this]

theorem var1_nn {x : FVec Ideal S100000x64 .f32} (hx : IsReal x) (j : S1x64.Idx) : Rnn (RSpec.var1 x j) := by
  unfold RSpec.var1
  rw [select_of_one j (var_guard j)]
  exact Rnn.div (colsum_nn (fun k => censq_nn hx k) j) (varden_pos _)

theorem bn_real {x : FVec Ideal S100000x64 .f32} {mu var : FVec Ideal S1x64 .f32} (hx : IsReal x) (hmu : IsReal mu)
    (hvar : ∀ j, Rnn (var j)) : IsReal (RSpec.bn x mu var) := by
  unfold RSpec.bn
  have hd : ∀ j, Rpos (Host.sqrt (addf var (broadcastInDim S1x64 ![] bcast_S_S1x64
      (constant S_ .f32 0x3727C5AC#32))) j) := fun j => ((hvar j).add_pos (rpos_splat ofBits_eps j)).sqrt
  exact isReal_hostDivf (isReal_subf hx (isReal_broadcastInDim hmu)) (isReal_broadcastInDim fun j => (hd j).real)
    (fun _ => (hd _).ne_zero)

theorem emb_real {x : FVec Ideal S100000x64 .f32} (hx : IsReal x) : IsReal (RSpec.emb x) :=
  bn_real (relu1_real hx) (mean1_real (relu1_real hx)) (fun j => var1_nn (relu1_real hx) j)

theorem gath_real {T : FVec Ideal S100000x64 .f32} (idx : IVec S500000 32) (hT : IsReal T) :
    IsReal (RSpec.gath T idx) := isReal_gather _ _ hT

theorem bcast_real {ei ej : FVec Ideal S100000x64 .f32} (ri ci : IVec S500000 32) {Wi Wj : FVec Ideal S64x64 .f32}
    (hi : IsReal ei) (hj : IsReal ej) (hWi : IsReal Wi) (hWj : IsReal Wj) :
    IsReal (RSpec.bcast ei ej ri ci Wi Wj) :=
  relu5_real (isReal_addf (mmE_real (gath_real ri hi) hWi) (mmE_real (gath_real ci hj) hWj))

theorem pool16_real {X1 X2 : FVec Ideal S500000x16 .f32} (i1 i2 : IVec S500000 32) {W1 W2 : FVec Ideal S16x64 .f32}
    (h1 : IsReal X1) (h2 : IsReal X2) (hW1 : IsReal W1) (hW2 : IsReal W2) :
    IsReal (addf (addf RSpec.z64 (RSpec.mm16 (RSpec.segmean16 X1 i1) W1)) (RSpec.mm16 (RSpec.segmean16 X2 i2) W2)) :=
  isReal_addf (isReal_addf z64_real (mm16_real (segmean16_real i1 h1) hW1)) (mm16_real (segmean16_real i2 h2) hW2)

theorem pool64_real {X1 X2 : FVec Ideal S500000x64 .f32} (i1 i2 : IVec S500000 32) {W1 W2 : FVec Ideal S64x64 .f32}
    (h1 : IsReal X1) (h2 : IsReal X2) (hW1 : IsReal W1) (hW2 : IsReal W2) :
    IsReal (addf (addf RSpec.z64 (RSpec.mm64 (RSpec.segmean64 X1 i1) W1)) (RSpec.mm64 (RSpec.segmean64 X2 i2) W2)) :=
  isReal_addf (isReal_addf z64_real (mm64_real (segmean64_real i1 h1) hW1)) (mm64_real (segmean64_real i2 h2) hW2)

end Stages

section Layers
variable (a : KSpec.Args Ideal) (h : FiniteArgs a)
include h

theorem acc0_real : IsReal (RSpec.acc0_0 (toR a)) ∧ IsReal (RSpec.acc0_1 (toR a)) ∧ IsReal (RSpec.acc0_2 (toR a)) :=
  ⟨pool16_real _ _ h.vals0 h.vals2 (w16x64_real h.pw0 _ _) (w16x64_real h.pw0 _ _),
   pool16_real _ _ h.vals0 h.vals1 (w16x64_real h.pw0 _ _) (w16x64_real h.pw0 _ _),
   pool16_real _ _ h.vals1 h.vals2 (w16x64_real h.pw0 _ _) (w16x64_real h.pw0 _ _)⟩

theorem d1_real : IsReal (RSpec.d1_0 (toR a)) ∧ IsReal (RSpec.d1_1 (toR a)) ∧ IsReal (RSpec.d1_2 (toR a)) := by
  obtain ⟨h0, h1, h2⟩ := acc0_real a h
  exact ⟨bcast_real _ _ (emb_real h0) (emb_real h1) (w64x64_real h.bw0 _ _) (w64x64_real h.bw0 _ _),
    bcast_real _ _ (emb_real h1) (emb_real h2) (w64x64_real h.bw0 _ _) (w64x64_real h.bw0 _ _),
    bcast_real _ _ (emb_real h0) (emb_real h2) (w64x64_real h.bw0 _ _) (w64x64_real h.bw0 _ _)⟩

theorem acc1_real : IsReal (RSpec.acc1_0 (toR a)) ∧ IsReal (RSpec.acc1_1 (toR a)) ∧ IsReal (RSpec.acc1_2 (toR a)) := by
  obtain ⟨h0, h1, h2⟩ := d1_real a h
  exact ⟨pool64_real _ _ h0 h2 (w64x64_real h.pw1 _ _) (w64x64_real h.pw1 _ _),
    pool64_real _ _ h0 h1 (w64x64_real h.pw1 _ _) (w64x64_real h.pw1 _ _),
    pool64_real _ _ h1 h2 (w64x64_real h.pw1 _ _) (w64x64_real h.pw1 _ _)⟩

theorem d2_real : IsReal (RSpec.d2_0 (toR a)) ∧ IsReal (RSpec.d2_2 (toR a)) := by
  obtain ⟨h0, h1, h2⟩ := acc1_real a h
  exact ⟨bcast_real _ _ (emb_real h0) (emb_real h1) (w64x64_real h.bw1 _ _) (w64x64_real h.bw1 _ _),
    bcast_real _ _ (emb_real h0) (emb_real h2) (w64x64_real h.bw1 _ _) (w64x64_real h.bw1 _ _)⟩

end Layers

end Cert.Equiv

end
-- ==== Proof.PreReal.lean ====
import proofs.«100184_j50010599195033_2_alg».proof.Defs
import proofs.«100184_j50010599195033_2_alg».proof.Proof.Bridge
import proofs.«100184_j50010599195033_2_alg».proof.Proof.KArgs
import proofs.«100184_j50010599195033_2_alg».proof.Proof.Gen.Pre_finite_inputs
import Idealize.ShloMosaic.Lib.ReduceAll
import Idealize.ShloMosaic.Lib.IdealHost

noncomputable section

namespace Cert.Equiv

open Idealize.ShloMosaic Idealize.SL.Sem Cert.Bridge

theorem ofBits_inf_f32 : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

instance subsingleton_scalar_idx : Subsingleton (Cert.Pre_finite_inputs.S_).Idx :=
  ⟨fun a b => funext fun d => d.elim0⟩

theorem isReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hS : 0 < Cert.Pre_finite_inputs.S_.numel)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hS ValueIdx.ix0 = 1#1) : IsReal x := by
  intro i
  have hi := Host.reduce_andi_all _ _ hr hS ValueIdx.ix0 e i
  have hbc : broadcastInDim S ![] hb (constant (F := Ideal) Cert.Pre_finite_inputs.S_ .f32 0x7F800000#32) i
      = Ideal.ofBits .f32 0x7F800000#32 := ValueIdx.broadcastInDim_scalar_apply hb _ i
  have hc : Ideal.cmp .olt (max (x i) (-(x i))) (Ideal.ofBits .f32 0x7F800000#32) = 1#1 := by
    rw [← hbc]; exact hi
  rw [ofBits_inf_f32] at hc
  refine real_of_abs_lt_top (x i) ?_
  by_contra hlt
  simp [Ideal.cmp, hlt] at hc

theorem andi_ix0 (a b : IVec Cert.Pre_finite_inputs.S_ 1) (h : andi a b ValueIdx.ix0 = 1#1) :
    a ValueIdx.ix0 = 1#1 ∧ b ValueIdx.ix0 = 1#1 := IntOp.andi_eq_one.1 h

theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) : Bridge.FiniteArgs (Cert.KArgs.args m c) := by
  have h0 := congrFun (h c) ValueIdx.ix0
  dsimp only [Cert.Pre_finite_inputs.fn, Cert.Pre_finite_inputs.fn_part1, Cert.Pre_finite_inputs.fn_part2] at h0
  obtain ⟨h0, e13⟩ := andi_ix0 _ _ h0
  obtain ⟨h0, e12⟩ := andi_ix0 _ _ h0
  obtain ⟨h0, e11⟩ := andi_ix0 _ _ h0
  obtain ⟨h0, e10⟩ := andi_ix0 _ _ h0
  obtain ⟨h0, e9⟩ := andi_ix0 _ _ h0
  obtain ⟨h0, e2⟩ := andi_ix0 _ _ h0
  obtain ⟨e0, e1⟩ := andi_ix0 _ _ h0
  exact ⟨isReal_of_all _ _ _ _ e0, isReal_of_all _ _ _ _ e1, isReal_of_all _ _ _ _ e2, isReal_of_all _ _ _ _ e9,
    isReal_of_all _ _ _ _ e10, isReal_of_all _ _ _ _ e11, isReal_of_all _ _ _ _ e12, isReal_of_all _ _ _ _ e13⟩

end Cert.Equiv

end
-- ==== Proof.lean ====
import proofs.«100184_j50010599195033_2_alg».proof.Defs
import proofs.«100184_j50010599195033_2_alg».proof.Proof.Gen.Kernel.Frame
import proofs.«100184_j50010599195033_2_alg».proof.Proof.Gen.Pre_finite_inputs
import proofs.«100184_j50010599195033_2_alg».proof.Proof.KRun
import proofs.«100184_j50010599195033_2_alg».proof.Proof.KRead1
import proofs.«100184_j50010599195033_2_alg».proof.Proof.KRead2
import proofs.«100184_j50010599195033_2_alg».proof.Proof.KRead3
import proofs.«100184_j50010599195033_2_alg».proof.Proof.KRead4
import proofs.«100184_j50010599195033_2_alg».proof.Proof.RefOut
import proofs.«100184_j50010599195033_2_alg».proof.Proof.EqLayer
import proofs.«100184_j50010599195033_2_alg».proof.Proof.EqFinal
import proofs.«100184_j50010599195033_2_alg».proof.Proof.Finite
import proofs.«100184_j50010599195033_2_alg».proof.Proof.PreReal

noncomputable section

namespace Cert.Proof

open Idealize.ShloMosaic Idealize.SL.Sem

theorem kout_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W78 m ρ c (Proc.devRef .tc Cert.KernelIdeal.main_v316) = Cert.KSpec.kout (Cert.KArgs.args m c) := by
  have a1 := Cert.KRead.K1_acc0 m ρ c
  obtain ⟨c5, c10, c15, c20, c25, c30⟩ := Cert.KRead.K1_cnt m ρ c
  have g1 := Cert.KRead.K1_args m ρ c
  have d2 := Cert.KRead.K2_d1 m ρ c g1 a1
  obtain ⟨k5, k10, k15, k20, k25, k30⟩ := Cert.KRead.K2_cnt_kept m ρ c
  have g2 := (Cert.KRead.K2_args m ρ c).trans g1
  have a3 := Cert.KRead.K3_acc1 m ρ c g2 d2
    ⟨k5.trans c5, k10.trans c10, k15.trans c15, k20.trans c20, k25.trans c25, k30.trans c30⟩
  obtain ⟨e5, e15⟩ := Cert.KRead.K3_cnt_kept m ρ c
  exact Cert.KRead.K4_out m ρ c a3 ⟨e5.trans (k5.trans c5), e15.trans (k15.trans c15)⟩

/-- No operation of the reference writes an argument, so an argument ends as launched. -/
theorem kept (m mem : (ℓ : Loc Cert.ReferenceIdeal.nD Cert.ReferenceIdeal.τ Cert.ReferenceIdeal.sig) → Buf (Elt Ideal) ℓ)
    (c : Dev Cert.ReferenceIdeal.nD)
    (h : ∀ b : Ref Cert.ReferenceIdeal.sig .tc, mem ((c.tc : Thread Cert.ReferenceIdeal.nD Cert.ReferenceIdeal.τ).loc b)
      = StableHlo.after Cert.ReferenceIdeal.Run.ops (StableHlo.launchContents m c) (Proc.devRef .tc b))
    (b : Ref Cert.ReferenceIdeal.sig .tc) (hb : b ∈ Cert.ReferenceIdeal.Run.argRefs) :
    mem ((c.tc : Thread Cert.ReferenceIdeal.nD Cert.ReferenceIdeal.τ).loc b)
      = m ((c.tc : Thread Cert.ReferenceIdeal.nD Cert.ReferenceIdeal.τ).loc b) :=
  (h b).trans (Cert.ReferenceIdeal.Run.arg_kept (F := Ideal) _ b hb)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c =>
    ⟨kept m _ c (h c) Cert.ReferenceIdeal.main_arg0 (by decide),
      kept m _ c (h c) Cert.ReferenceIdeal.main_arg1 (by decide),
      kept m _ c (h c) Cert.ReferenceIdeal.main_arg2 (by decide),
      kept m _ c (h c) Cert.ReferenceIdeal.main_arg3 (by decide),
      kept m _ c (h c) Cert.ReferenceIdeal.main_arg4 (by decide),
      kept m _ c (h c) Cert.ReferenceIdeal.main_arg5 (by decide),
      kept m _ c (h c) Cert.ReferenceIdeal.main_arg6 (by decide),
      kept m _ c (h c) Cert.ReferenceIdeal.main_arg7 (by decide),
      kept m _ c (h c) Cert.ReferenceIdeal.main_arg8 (by decide),
      kept m _ c (h c) Cert.ReferenceIdeal.main_arg9 (by decide),
      kept m _ c (h c) Cert.ReferenceIdeal.main_arg10 (by decide),
      kept m _ c (h c) Cert.ReferenceIdeal.main_arg11 (by decide),
      kept m _ c (h c) Cert.ReferenceIdeal.main_arg12 (by decide),
      kept m _ c (h c) Cert.ReferenceIdeal.main_arg13 (by decide)⟩)
    (Cert.ReferenceIdeal.Run.run_main (F := Ideal) m ρ)

theorem preserves : Cert.preserves_Kernel_KernelIdeal := trivial

theorem algebraic : Cert.algebraic_KernelIdeal_ReferenceIdeal := by
  intro m ρ m' ρ' hpre hagree
  refine ⟨fun c => Cert.KSpec.kout (Cert.KArgs.args m c), ?_, ?_⟩
  · exact (θ_run Cert.KernelIdeal.defs _ _).mono (fun r h c => ⟨(h c).1.trans (kout_eq m ρ c), (h c).2⟩)
      (Cert.KernelIdeal.GenV.run_main (F := Ideal) m ρ)
  · refine (θ_run Cert.ReferenceIdeal.defs _ _).mono (fun r h c => ?_) (Cert.ReferenceIdeal.Run.run_main (F := Ideal) m' ρ')
    have hargs : Cert.RArgs.argsV (StableHlo.launchContents m' c) = Cert.Bridge.toR (Cert.KArgs.args m c) := by
      obtain ⟨e0, e1, e2, e3, e4, e5, e6, e7, e8, e9, e10, e11, e12, e13⟩ := hagree c
      simp only [Cert.RArgs.argsV, Cert.Bridge.toR, Cert.KArgs.args, StableHlo.launchContents]
      congr 1
    have hfin := Cert.Equiv.finite_of_pre m hpre c
    obtain ⟨hd0, hd2⟩ := Cert.Equiv.d2_real (Cert.KArgs.args m c) hfin
    refine ⟨?_, kept m' _ c (h c) Cert.ReferenceIdeal.main_arg0 (by decide),
      kept m' _ c (h c) Cert.ReferenceIdeal.main_arg1 (by decide),
      kept m' _ c (h c) Cert.ReferenceIdeal.main_arg2 (by decide),
      kept m' _ c (h c) Cert.ReferenceIdeal.main_arg3 (by decide),
      kept m' _ c (h c) Cert.ReferenceIdeal.main_arg4 (by decide),
      kept m' _ c (h c) Cert.ReferenceIdeal.main_arg5 (by decide),
      kept m' _ c (h c) Cert.ReferenceIdeal.main_arg6 (by decide),
      kept m' _ c (h c) Cert.ReferenceIdeal.main_arg7 (by decide),
      kept m' _ c (h c) Cert.ReferenceIdeal.main_arg8 (by decide),
      kept m' _ c (h c) Cert.ReferenceIdeal.main_arg9 (by decide),
      kept m' _ c (h c) Cert.ReferenceIdeal.main_arg10 (by decide),
      kept m' _ c (h c) Cert.ReferenceIdeal.main_arg11 (by decide),
      kept m' _ c (h c) Cert.ReferenceIdeal.main_arg12 (by decide),
      kept m' _ c (h c) Cert.ReferenceIdeal.main_arg13 (by decide)⟩
    rw [h c Cert.ReferenceIdeal.main_v473, Cert.RefRead.out_eq, hargs]
    exact (Cert.Equiv.kout_eq (Cert.KArgs.args m c) hd0 hd2 hfin.pw2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
